-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S32x64 .f32 .bf16
  ∧ IdealRules.truncf_extf.Statement Cert.KernelIdeal.S32x64 .f32 .bf16
  ∧ IdealRules.truncf_extf.Statement Cert.KernelIdeal.S32x64 .f32 .bf16
  ∧ IdealRules.truncf_extf.Statement Cert.KernelIdeal.S32x64 .f32 .bf16
  ∧ IdealRules.truncf_extf.Statement Cert.KernelIdeal.S32x64 .f32 .bf16
  ∧ IdealRules.truncf_extf.Statement Cert.KernelIdeal.S32x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x248 : Shape := ⟨2, ![524288, 248]⟩
abbrev S524288 : Shape := ⟨1, ![524288]⟩
abbrev S64x248 : Shape := ⟨2, ![64, 248]⟩
abbrev S64 : Shape := ⟨1, ![64]⟩
abbrev S64x64 : Shape := ⟨2, ![64, 64]⟩
abbrev S3x64 : Shape := ⟨2, ![3, 64]⟩
abbrev S3 : Shape := ⟨1, ![3]⟩
abbrev S_ : Shape := ⟨0, ![]⟩

class Facts : Prop where
  bcast_S_S524288x248 : S_.BroadcastsInDim S524288x248 (![] : Fin 0 → Fin S524288x248.rank)
  reducesTo_S524288x248_S_d0_1 : S524288x248.ReducesTo [0, 1] S_
  h_S_ : 0 < S_.numel
  bcast_S_S64x248 : S_.BroadcastsInDim S64x248 (![] : Fin 0 → Fin S64x248.rank)
  reducesTo_S64x248_S_d0_1 : S64x248.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_
  bcast_S_S524288 : S_.BroadcastsInDim S524288 (![] : Fin 0 → Fin S524288.rank)
  reducesTo_S524288_S_d0 : S524288.ReducesTo [0] S_

variable [Facts]

def fn_part3 {F : FTy → Type} [FloatOps F] (main_v47 : IVec S_ 1) (main_v49 : IVec S524288 1) (main_c_19 : IVec S_ 1) : IVec S_ 1 :=
  let main_v50 : IVec S_ 1 := (fun x v => Host.reduce IntOp.andi x v reducesTo_S524288_S_d0 h_S_) main_v49 main_c_19
  let main_v51 : IVec S_ 1 := andi main_v47 main_v50
  main_v51

def fn_part2 {F : FTy → Type} [FloatOps F] (main_arg1 : IVec S524288 32) (main_arg8 : FVec F S3x64 .f32) (main_arg9 : FVec F S3 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_c_16 : IVec S_ 32 := constantI S_ 32 0#32
  let main_v44 : IVec S524288 32 := broadcastInDim S524288 ![] bcast_S_S524288 main_c_16
  let main_v45 : IVec S524288 1 := cmpi .sge main_arg1 main_v44
  let main_c_17 : IVec S_ 1 := constantI S_ 1 1#1
  let main_v46 : IVec S_ 1 := (fun x v => Host.reduce IntOp.andi x v reducesTo_S524288_S_d0 h_S_) main_v45 main_c_17
  let main_v47 : IVec S_ 1 := andi main_v43 main_v46
  let main_c_18 : IVec S_ 32 := constantI S_ 32 32#32
  let main_v48 : IVec S524288 32 := broadcastInDim S524288 ![] bcast_S_S524288 main_c_18
  let main_v49 : IVec S524288 1 := cmpi .slt main_arg1 main_v48
  let main_c_19 : IVec S_ 1 := constantI S_ 1 1#1
  fn_part3 (F := F) main_v47 main_v49 main_c_19

def fn_part1 {F : FTy → Type} [FloatOps F] (main_arg1 : IVec S524288 32) (main_arg5 : FVec F S64 .f32) (main_arg6 : FVec F S64x64 .f32) (main_arg7 : FVec F S64 .f32) (main_arg8 : FVec F S3x64 .f32) (main_arg9 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S524288x248 .f32) (main_arg1 : IVec S524288 32) (main_arg2 : FVec F S64x248 .f32) (main_arg3 : FVec F S64 .f32) (main_arg4 : FVec F S64x64 .f32) (main_arg5 : FVec F S64 .f32) (main_arg6 : FVec F S64x64 .f32) (main_arg7 : FVec F S64 .f32) (main_arg8 : FVec F S3x64 .f32) (main_arg9 : FVec F S3 .f32) : IVec S_ 1 :=
  let main_v0 : FVec F S524288x248 .f32 := Host.absf main_arg0
  let main_cst : FVec F S_ .f32 := constant S_ .f32 0x7F800000#32
  let main_v1 : FVec F S524288x248 .f32 := broadcastInDim S524288x248 ![] bcast_S_S524288x248 main_cst
  let main_v2 : IVec S524288x248 1 := cmpf .olt main_v0 main_v1
  let main_c : IVec S_ 1 := constantI S_ 1 1#1
  let main_v3 : IVec S_ 1 := (fun x v => Host.reduce IntOp.andi x v reducesTo_S524288x248_S_d0_1 h_S_) main_v2 main_c
  let main_v4 : FVec F S64x248 .f32 := Host.absf main_arg2
  let main_cst_0 : FVec F S_ .f32 := constant S_ .f32 0x7F800000#32
  let main_v5 : FVec F S64x248 .f32 := broadcastInDim S64x248 ![] bcast_S_S64x248 main_cst_0
  let main_v6 : IVec S64x248 1 := cmpf .olt main_v4 main_v5
  let main_c_1 : IVec S_ 1 := constantI S_ 1 1#1
  let main_v7 : IVec S_ 1 := (fun x v => Host.reduce IntOp.andi x v reducesTo_S64x248_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S524288x248 : Shape := ⟨2, ![524288, 248]⟩
abbrev S524288 : Shape := ⟨1, ![524288]⟩
abbrev S64x248 : Shape := ⟨2, ![64, 248]⟩
abbrev S64 : Shape := ⟨1, ![64]⟩
abbrev S64x64 : Shape := ⟨2, ![64, 64]⟩
abbrev S3x64 : Shape := ⟨2, ![3, 64]⟩
abbrev S3 : Shape := ⟨1, ![3]⟩
abbrev S524288x1 : Shape := ⟨2, ![524288, 1]⟩
abbrev S1x64 : Shape := ⟨2, ![1, 64]⟩
abbrev S524288x64 : Shape := ⟨2, ![524288, 64]⟩
abbrev S2x32x64 : Shape := ⟨3, ![2, 32, 64]⟩
abbrev S8192x248 : Shape := ⟨2, ![8192, 248]⟩
abbrev S8192x1 : Shape := ⟨2, ![8192, 1]⟩
abbrev S8192x64 : Shape := ⟨2, ![8192, 64]⟩
abbrev S1x32x64 : Shape := ⟨3, ![1, 32, 64]⟩
abbrev S32x64 : Shape := ⟨2, ![32, 64]⟩
abbrev S8192x32 : Shape := ⟨2, ![8192, 32]⟩
abbrev S_ : Shape := ⟨0, ![]⟩
abbrev S1x3 : Shape := ⟨2, ![1, 3]⟩
abbrev S524288x3 : Shape := ⟨2, ![524288, 3]⟩
abbrev S8192x3 : Shape := ⟨2, ![8192, 3]⟩

abbrev nBuf : Space → Nat
  | .hbm => 100
  | .vmem => 65
  | .smem => 0
  | _ => 0

abbrev bufTy : (tb : Table) → Fin (tcTables nBuf tb) → BufTy
  | .hbm, ⟨0, _⟩ => ⟨S524288x248, .f32⟩
  | .hbm, ⟨1, _⟩ => ⟨S524288, .i32⟩
  | .hbm, ⟨2, _⟩ => ⟨S64x248, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x64, .f32⟩
  | .hbm, ⟨9, _⟩ => ⟨S3, .f32⟩
  | .hbm, ⟨10, _⟩ => ⟨S524288x1, .i32⟩
  | .hbm, ⟨11, _⟩ => ⟨S1x64, .f32⟩
  | .hbm, ⟨12, _⟩ => ⟨S524288x64, .bf16⟩
  | .hbm, ⟨13, _⟩ => ⟨S2x32x64, .f32⟩
  | .hbm, ⟨14, _⟩ => ⟨S2x32x64, .f32⟩
  | .hbm, ⟨15, _⟩ => ⟨S2x32x64, .f32⟩
  | .hbm, ⟨16, _⟩ => ⟨S_, .f32⟩
  | .hbm, ⟨17, _⟩ => ⟨S32x64, .f32⟩
  | .hbm, ⟨18, _⟩ => ⟨S_, .f32⟩
  | .hbm, ⟨19, _⟩ => ⟨S32x64, .f32⟩
  | .hbm, ⟨20, _⟩ => ⟨S_, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S_, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S_, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S1x64, .f32⟩
  | .hbm, ⟨41, _⟩ => ⟨S524288x64, .bf16⟩
  | .hbm, ⟨42, _⟩ => ⟨S2x32x64, .f32⟩
  | .hbm, ⟨43, _⟩ => ⟨S2x32x64, .f32⟩
  | .hbm, ⟨44, _⟩ => ⟨S2x32x64, .f32⟩
  | .hbm, ⟨45, _⟩ => ⟨S_, .f32⟩
  | .hbm, ⟨46, _⟩ => ⟨S32x64, .f32⟩
  | .hbm, ⟨47, _⟩ => ⟨S_, .f32⟩
  | .hbm, ⟨48, _⟩ => ⟨S32x64, .f32⟩
  | .hbm, ⟨49, _⟩ => ⟨S_, .f32⟩
  | .hbm, ⟨50, _⟩ => ⟨S32x64, .f32⟩
  | .hbm, ⟨51, _⟩ => ⟨S_, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S_, .f32⟩
  | .hbm, ⟨59, _⟩ => ⟨S32x64, .f32⟩
  | .hbm, ⟨60, _⟩ => ⟨S32x64, .f32⟩
  | .hbm, ⟨61, _⟩ => ⟨S_, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S_, .f32⟩
  | .hbm, ⟨66, _⟩ => ⟨S32x64, .f32⟩
  | .hbm, ⟨67, _⟩ => ⟨S32x64, .f32⟩
  | .hbm, ⟨68, _⟩ => ⟨S32x64, .f32⟩
  | .hbm, ⟨69, _⟩ => ⟨S1x64, .f32⟩
  | .hbm, ⟨70, _⟩ => ⟨S524288x64, .bf16⟩
  | .hbm, ⟨71, _⟩ => ⟨S2x32x64, .f32⟩
  | .hbm, ⟨72, _⟩ => ⟨S2x32x64, .f32⟩
  | .hbm, ⟨73, _⟩ => ⟨S2x32x64, .f32⟩
  | .hbm, ⟨74, _⟩ => ⟨S_, .f32⟩
  | .hbm, ⟨75, _⟩ => ⟨S32x64, .f32⟩
  | .hbm, ⟨76, _⟩ => ⟨S_, .f32⟩
  | .hbm, ⟨77, _⟩ => ⟨S32x64, .f32⟩
  | .hbm, ⟨78, _⟩ => ⟨S_, .f32⟩
  | .hbm, ⟨79, _⟩ => ⟨S32x64, .f32⟩
  | .hbm, ⟨80, _⟩ => ⟨S_, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S_, .f32⟩
  | .hbm, ⟨88, _⟩ => ⟨S32x64, .f32⟩
  | .hbm, ⟨89, _⟩ => ⟨S32x64, .f32⟩
  | .hbm, ⟨90, _⟩ => ⟨S_, .f32⟩
  | .hbm, ⟨91, _⟩ => ⟨S32x64, .f32⟩
  | .hbm, ⟨92, _⟩ => ⟨S32x64, .f32⟩
  | .hbm, ⟨93, _⟩ => ⟨S32x64, .f32⟩
  | .hbm, ⟨94, _⟩ => ⟨S_, .f32⟩
  | .hbm, ⟨95, _⟩ => ⟨S32x64, .f32⟩
  | .hbm, ⟨96, _⟩ => ⟨S32x64, .f32⟩
  | .hbm, ⟨97, _⟩ => ⟨S32x64, .f32⟩
  | .hbm, ⟨98, _⟩ => ⟨S1x3, .f32⟩
  | .hbm, ⟨99, _⟩ => ⟨S524288x3, .f32⟩
  | .local _ .vmem, ⟨0, _⟩ => ⟨S8192x248, .f32⟩
  | .local _ .vmem, ⟨1, _⟩ => ⟨S8192x248, .f32⟩
  | .local _ .vmem, ⟨2, _⟩ => ⟨S64x248, .f32⟩
  | .local _ .vmem, ⟨3, _⟩ => ⟨S1x64, .f32⟩
  | .local _ .vmem, ⟨4, _⟩ => ⟨S8192x1, .i32⟩
  | .local _ .vmem, ⟨5, _⟩ => ⟨S8192x1, .i32⟩
  | .local _ .vmem, ⟨6, _⟩ => ⟨S8192x64, .bf16⟩
  | .local _ .vmem, ⟨7, _⟩ => ⟨S8192x64, .bf16⟩
  | .local _ .vmem, ⟨8, _⟩ => ⟨S1x32x64, .f32⟩
  | .local _ .vmem, ⟨9, _⟩ => ⟨S1x32x64, .f32⟩
  | .local _ .vmem, ⟨10, _⟩ => ⟨S1x32x64, .f32⟩
  | .local _ .vmem, ⟨11, _⟩ => ⟨S1x32x64, .f32⟩
  | .local _ .vmem, ⟨12, _⟩ => ⟨S1x32x64, .f32⟩
  | .local _ .vmem, ⟨13, _⟩ => ⟨S1x32x64, .f32⟩
  | .local _ .vmem, ⟨14, _⟩ => ⟨S32x64, .f32⟩
  | .local _ .vmem, ⟨15, _⟩ => ⟨S32x64, .f32⟩
  | .local _ .vmem, ⟨16, _⟩ => ⟨S32x64, .f32⟩
  | .local _ .vmem, ⟨17, _⟩ => ⟨S8192x64, .bf16⟩
  | .local _ .vmem, ⟨18, _⟩ => ⟨S8192x64, .bf16⟩
  | .local _ .vmem, ⟨19, _⟩ => ⟨S32x64, .f32⟩
  | .local _ .vmem, ⟨20, _⟩ => ⟨S32x64, .f32⟩
  | .local _ .vmem, ⟨21, _⟩ => ⟨S64x64, .f32⟩
  | .local _ .vmem, ⟨22, _⟩ => ⟨S1x64, .f32⟩
  | .local _ .vmem, ⟨23, _⟩ => ⟨S8192x1, .i32⟩
  | .local _ .vmem, ⟨24, _⟩ => ⟨S8192x1, .i32⟩
  | .local _ .vmem, ⟨25, _⟩ => ⟨S8192x64, .bf16⟩
  | .local _ .vmem, ⟨26, _⟩ => ⟨S8192x64, .bf16⟩
  | .local _ .vmem, ⟨27, _⟩ => ⟨S1x32x64, .f32⟩
  | .local _ .vmem, ⟨28, _⟩ => ⟨S1x32x64, .f32⟩
  | .local _ .vmem, ⟨29, _⟩ => ⟨S1x32x64, .f32⟩
  | .local _ .vmem, ⟨30, _⟩ => ⟨S1x32x64, .f32⟩
  | .local _ .vmem, ⟨31, _⟩ => ⟨S1x32x64, .f32⟩
  | .local _ .vmem, ⟨32, _⟩ => ⟨S1x32x64, .f32⟩
  | .local _ .vmem, ⟨33, _⟩ => ⟨S32x64, .f32⟩
  | .local _ .vmem, ⟨34, _⟩ => ⟨S32x64, .f32⟩
  | .local _ .vmem, ⟨35, _⟩ => ⟨S32x64, .f32⟩
  | .local _ .vmem, ⟨36, _⟩ => ⟨S8192x64, .bf16⟩
  | .local _ .vmem, ⟨37, _⟩ => ⟨S8192x64, .bf16⟩
  | .local _ .vmem, ⟨38, _⟩ => ⟨S32x64, .f32⟩
  | .local _ .vmem, ⟨39, _⟩ => ⟨S32x64, .f32⟩
  | .local _ .vmem, ⟨40, _⟩ => ⟨S64x64, .f32⟩
  | .local _ .vmem, ⟨41, _⟩ => ⟨S1x64, .f32⟩
  | .local _ .vmem, ⟨42, _⟩ => ⟨S8192x1, .i32⟩
  | .local _ .vmem, ⟨43, _⟩ => ⟨S8192x1, .i32⟩
  | .local _ .vmem, ⟨44, _⟩ => ⟨S8192x64, .bf16⟩
  | .local _ .vmem, ⟨45, _⟩ => ⟨S8192x64, .bf16⟩
  | .local _ .vmem, ⟨46, _⟩ => ⟨S1x32x64, .f32⟩
  | .local _ .vmem, ⟨47, _⟩ => ⟨S1x32x64, .f32⟩
  | .local _ .vmem, ⟨48, _⟩ => ⟨S1x32x64, .f32⟩
  | .local _ .vmem, ⟨49, _⟩ => ⟨S1x32x64, .f32⟩
  | .local _ .vmem, ⟨50, _⟩ => ⟨S1x32x64, .f32⟩
  | .local _ .vmem, ⟨51, _⟩ => ⟨S1x32x64, .f32⟩
  | .local _ .vmem, ⟨52, _⟩ => ⟨S32x64, .f32⟩
  | .local _ .vmem, ⟨53, _⟩ => ⟨S32x64, .f32⟩
  | .local _ .vmem, ⟨54, _⟩ => ⟨S32x64, .f32⟩
  | .local _ .vmem, ⟨55, _⟩ => ⟨S8192x64, .bf16⟩
  | .local _ .vmem, ⟨56, _⟩ => ⟨S8192x64, .bf16⟩
  | .local _ .vmem, ⟨57, _⟩ => ⟨S32x64, .f32⟩
  | .local _ .vmem, ⟨58, _⟩ => ⟨S32x64, .f32⟩
  | .local _ .vmem, ⟨59, _⟩ => ⟨S3x64, .f32⟩
  | .local _ .vmem, ⟨60, _⟩ => ⟨S1x3, .f32⟩
  | .local _ .vmem, ⟨61, _⟩ => ⟨S8192x1, .i32⟩
  | .local _ .vmem, ⟨62, _⟩ => ⟨S8192x1, .i32⟩
  | .local _ .vmem, ⟨63, _⟩ => ⟨S8192x3, .f32⟩
  | .local _ .vmem, ⟨64, _⟩ => ⟨S8192x3, .f32⟩
  | _, _ => ⟨S524288x248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev main_cst_6 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_cst_9 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_12 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40_0 : Ref sig .tc := ⟨.hbm, 70, rfl⟩
abbrev main_v40_1 : Ref sig .tc := ⟨.hbm, 71, rfl⟩
abbrev main_v40_2 : Ref sig .tc := ⟨.hbm, 72, rfl⟩
abbrev main_v40_3 : Ref sig .tc := ⟨.hbm, 73, rfl⟩
abbrev main_cst_13 : Ref sig .tc := ⟨.hbm, 74, rfl⟩
abbrev main_v41 : Ref sig .tc := ⟨.hbm, 75, rfl⟩
abbrev main_cst_14 : Ref sig .tc := ⟨.hbm, 76, rfl⟩
abbrev main_v42 : Ref sig .tc := ⟨.hbm, 77, rfl⟩
abbrev main_cst_15 : Ref sig .tc := ⟨.hbm, 78, rfl⟩
abbrev main_v43 : Ref sig .tc := ⟨.hbm, 79, rfl⟩
abbrev main_cst_16 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_17 : Ref sig .tc := ⟨.hbm, 87, rfl⟩
abbrev main_v50 : Ref sig .tc := ⟨.hbm, 88, rfl⟩
abbrev main_v51 : Ref sig .tc := ⟨.hbm, 89, rfl⟩
abbrev main_cst_18 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_19 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc2_stg8_0 : Ref sig .tc := ⟨.vmem, 48, rfl⟩
abbrev cc2_stg8_1 : Ref sig .tc := ⟨.vmem, 49, rfl⟩
abbrev cc2_stg9_0 : Ref sig .tc := ⟨.vmem, 50, rfl⟩
abbrev cc2_stg9_1 : Ref sig .tc := ⟨.vmem, 51, rfl⟩
abbrev cc2_scratch0 : Ref sig .tc := ⟨.vmem, 52, rfl⟩
abbrev cc2_scratch1 : Ref sig .tc := ⟨.vmem, 53, rfl⟩
abbrev cc2_scratch2 : Ref sig .tc := ⟨.vmem, 54, rfl⟩
abbrev cc3_stg0_0 : Ref sig .tc := ⟨.vmem, 55, rfl⟩
abbrev cc3_stg0_1 : Ref sig .tc := ⟨.vmem, 56, rfl⟩
abbrev cc3_stg1_0 : Ref sig .tc := ⟨.vmem, 57, rfl⟩
abbrev cc3_stg2_0 : Ref sig .tc := ⟨.vmem, 58, rfl⟩
abbrev cc3_stg3_0 : Ref sig .tc := ⟨.vmem, 59, rfl⟩
abbrev cc3_stg4_0 : Ref sig .tc := ⟨.vmem, 60, rfl⟩
abbrev cc3_stg5_0 : Ref sig .tc := ⟨.vmem, 61, rfl⟩
abbrev cc3_stg5_1 : Ref sig .tc := ⟨.vmem, 62, rfl⟩
abbrev cc3_stg6_0 : Ref sig .tc := ⟨.vmem, 63, rfl⟩
abbrev cc3_stg6_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem5_1 : DmaSem sig := 37
abbrev cc2_sem6_0 : DmaSem sig := 38
abbrev cc2_sem6_1 : DmaSem sig := 39
abbrev cc2_sem7_0 : DmaSem sig := 40
abbrev cc2_sem7_1 : DmaSem sig := 41
abbrev cc2_sem8_0 : DmaSem sig := 42
abbrev cc2_sem8_1 : DmaSem sig := 43
abbrev cc2_sem9_0 : DmaSem sig := 44
abbrev cc2_sem9_1 : DmaSem sig := 45
abbrev cc3_sem0_0 : DmaSem sig := 46
abbrev cc3_sem0_1 : DmaSem sig := 47
abbrev cc3_sem1_0 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x248 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x248 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8192x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 32], ![false, false]⟩

def k1_cond3 (i : grid1.Coords) : BitVec 1 :=
  let arg1 : BitVec 32 := BitVec.ofNat 32 (i 1).val
  let c31_i32 : BitVec 32 := 31#32
  let v59 : BitVec 1 := Scalar.cmpi .eq arg1 c31_i32
  let v60 : BitVec 32 := Scalar.extui v59
  let c0_i32_27 : BitVec 32 := 0#32
  let v61 : BitVec 1 := Scalar.cmpi .ne v60 c0_i32_27
  v61

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8192x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8192x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x32x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x32x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![2, 32], ![false, false]⟩

def k2_cond3 (i : grid2.Coords) : BitVec 1 :=
  let arg1 : BitVec 32 := BitVec.ofNat 32 (i 1).val
  let c31_i32 : BitVec 32 := 31#32
  let v59 : BitVec 1 := Scalar.cmpi .eq arg1 c31_i32
  let v60 : BitVec 32 := Scalar.extui v59
  let c0_i32_27 : BitVec 32 := 0#32
  let v61 : BitVec 1 := Scalar.cmpi .ne v60 c0_i32_27
  v61

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8192x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S8192x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S8192x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x32x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x32x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S1x32x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x3 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8192x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8192x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S524288_S524288x1 : S524288.ShapeCasts S524288x1
  shapeCasts_S64_S1x64 : S64.ShapeCasts S1x64
  inb_S8192x248_S8192x248_0_0 : ∀ a, (![0, 0] : Fin 2 → Nat) a + S8192x248.size a ≤ S8192x248.size a
  h_S8192x248 : 0 < S8192x248.numel
  inb_S64x248_S64x248_0_0 : ∀ a, (![0, 0] : Fin 2 → Nat) a + S64x248.size a ≤ S64x248.size a
  h_S64x248 : 0 < S64x248.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x32_d1_w32 : S8192x32.Iotas .tc 32 [1]
  broadcasts_S8192x1_S8192x32 : S8192x1.Broadcasts S8192x32
  natLt_1_32 : 1 < 32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  shapeCasts_S32x64_S1x32x64 : S32x64.ShapeCasts S1x32x64
  reducesTo_S2x32x64_S32x64_d0 : S2x32x64.ReducesTo [0] S32x64
  h_S_ : 0 < S_.numel
  bcast_S_S32x64 : S_.BroadcastsInDim S32x64 (![] : Fin 0 → Fin S32x64.rank)
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S3_S1x3 : S3.ShapeCasts S1x3
  inb_S3x64_S3x64_0_0 : ∀ a, (![0, 0] : Fin 2 → Nat) a + S3x64.size a ≤ S3x64.size a
  h_S3x64 : 0 < S3x64.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  dot_S8192x248_S64x248_S8192x64_1_1_0_0_n_n_wf : DotDims.WF S8192x248 S64x248 S8192x64 [1] [1] [0] [0] [] []
  dot_S8192x32_S8192x64_S32x64_0_0_1_1_n_n_wf : DotDims.WF S8192x32 S8192x64 S32x64 [0] [0] [1] [1] [] []
  dot_S8192x32_S32x64_S8192x64_1_0_0_1_n_n_wf : DotDims.WF S8192x32 S32x64 S8192x64 [1] [0] [0] [1] [] []
  dot_S8192x64_S64x64_S8192x64_1_1_0_0_n_n_wf : DotDims.WF S8192x64 S64x64 S8192x64 [1] [1] [0] [0] [] []
  dot_S8192x64_S3x64_S8192x3_1_1_0_0_n_n_wf : DotDims.WF S8192x64 S3x64 S8192x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x248.size a ≤ S524288x248.size a
  hwx0_0 : ∀ i : grid0.Coords, EltTy.bits .f32 = 32 ∨ (Rect.block (s := S524288x248) S8192x248.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x248.size a ≤ S64x248.size a
  hwx0_1 : ∀ i : grid0.Coords, EltTy.bits .f32 = 32 ∨ (Rect.block (s := S64x248) S64x248.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x1.size a ≤ S524288x1.size a
  hwx0_3 : ∀ i : grid0.Coords, EltTy.bits .i32 = 32 ∨ (Rect.block (s := S524288x1) S8192x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S524288x64.size a
  hwx0_4 : ∀ i : grid0.Coords, EltTy.bits .bf16 = 32 ∨ (Rect.block (s := S524288x64) S8192x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x64.size a ≤ S2x32x64.size a
  hwx0_5 : ∀ i : grid0.Coords, EltTy.bits .f32 = 32 ∨ (Rect.block (s := S2x32x64) S1x32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x64.size a ≤ S2x32x64.size a
  hwx0_6 : ∀ i : grid0.Coords, EltTy.bits .f32 = 32 ∨ (Rect.block (s := S2x32x64) S1x32x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x64.size a ≤ S2x32x64.size a
  hwx0_7 : ∀ i : grid0.Coords, EltTy.bits .f32 = 32 ∨ (Rect.block (s := S2x32x64) S1x32x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S524288x64.size a
  hwx1_0 : ∀ i : grid1.Coords, EltTy.bits .bf16 = 32 ∨ (Rect.block (s := S524288x64) S8192x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x1.size a ≤ S524288x1.size a
  hwx1_5 : ∀ i : grid1.Coords, EltTy.bits .i32 = 32 ∨ (Rect.block (s := S524288x1) S8192x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x64.size a ≤ S524288x64.size a
  hwx1_6 : ∀ i : grid1.Coords, EltTy.bits .bf16 = 32 ∨ (Rect.block (s := S524288x64) S8192x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x32x64.size a ≤ S2x32x64.size a
  hwx1_7 : ∀ i : grid1.Coords, EltTy.bits .f32 = 32 ∨ (Rect.block (s := S2x32x64) S1x32x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x32x64.size a ≤ S2x32x64.size a
  hwx1_8 : ∀ i : grid1.Coords, EltTy.bits .f32 = 32 ∨ (Rect.block (s := S2x32x64) S1x32x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x32x64.size a ≤ S2x32x64.size a
  hwx1_9 : ∀ i : grid1.Coords, EltTy.bits .f32 = 32 ∨ (Rect.block (s := S2x32x64) S1x32x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S524288x64.size a
  hwx2_0 : ∀ i : grid2.Coords, EltTy.bits .bf16 = 32 ∨ (Rect.block (s := S524288x64) S8192x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x1.size a ≤ S524288x1.size a
  hwx2_5 : ∀ i : grid2.Coords, EltTy.bits .i32 = 32 ∨ (Rect.block (s := S524288x1) S8192x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8192x64.size a ≤ S524288x64.size a
  hwx2_6 : ∀ i : grid2.Coords, EltTy.bits .bf16 = 32 ∨ (Rect.block (s := S524288x64) S8192x64.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x32x64.size a ≤ S2x32x64.size a
  hwx2_7 : ∀ i : grid2.Coords, EltTy.bits .f32 = 32 ∨ (Rect.block (s := S2x32x64) S1x32x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x32x64.size a ≤ S2x32x64.size a
  hwx2_8 : ∀ i : grid2.Coords, EltTy.bits .f32 = 32 ∨ (Rect.block (s := S2x32x64) S1x32x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x32x64.size a ≤ S2x32x64.size a
  hwx2_9 : ∀ i : grid2.Coords, EltTy.bits .f32 = 32 ∨ (Rect.block (s := S2x32x64) S1x32x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S524288x64.size a
  hwx3_0 : ∀ i : grid3.Coords, EltTy.bits .bf16 = 32 ∨ (Rect.block (s := S524288x64) S8192x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x64.size a ≤ S3x64.size a
  hwx3_3 : ∀ i : grid3.Coords, EltTy.bits .f32 = 32 ∨ (Rect.block (s := S3x64) S3x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x3.size a ≤ S1x3.size a
  hwx3_4 : ∀ i : grid3.Coords, EltTy.bits .f32 = 32 ∨ (Rect.block (s := S1x3) S1x3.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192x1.size a ≤ S524288x1.size a
  hwx3_5 : ∀ i : grid3.Coords, EltTy.bits .i32 = 32 ∨ (Rect.block (s := S524288x1) S8192x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8192x3.size a ≤ S524288x3.size a
  hwx3_6 : ∀ i : grid3.Coords, EltTy.bits .f32 = 32 ∨ (Rect.block (s := S524288x3) S8192x3.size (cc3_transform_6 i) (hinb3_6 i)).WholeWords (EltTy.packing .f32)

variable [Facts₀]

def dot_S8192x248_S64x248_S8192x64_1_1_0_0_n_n : DotDims S8192x248 S64x248 S8192x64 where
  lhsContracting := [1]
  rhsContracting := [1]
  lhsNonContracting := [0]
  rhsNonContracting := [0]
  lhsBatch := []
  rhsBatch := []
  wf := dot_S8192x248_S64x248_S8192x64_1_1_0_0_n_n_wf
def dot_S8192x32_S8192x64_S32x64_0_0_1_1_n_n : DotDims S8192x32 S8192x64 S32x64 where
  lhsContracting := [0]
  rhsContracting := [0]
  lhsNonContracting := [1]
  rhsNonContracting := [1]
  lhsBatch := []
  rhsBatch := []
  wf := dot_S8192x32_S8192x64_S32x64_0_0_1_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_1_0_0_n_n : DotDims S8192x64 S64x64 S8192x64 where
  lhsContracting := [1]
  rhsContracting := [1]
  lhsNonContracting := [0]
  rhsNonContracting := [0]
  lhsBatch := []
  rhsBatch := []
  wf := dot_S8192x64_S64x64_S8192x64_1_1_0_0_n_n_wf
def dot_S8192x64_S3x64_S8192x3_1_1_0_0_n_n : DotDims S8192x64 S3x64 S8192x3 where
  lhsContracting := [1]
  rhsContracting := [1]
  lhsNonContracting := [0]
  rhsNonContracting := [0]
  lhsBatch := []
  rhsBatch := []
  wf := dot_S8192x64_S3x64_S8192x3_1_1_0_0_n_n_wf

abbrev win0_0 : Pipeline.Window sig grid0 :=
  Pipeline.Window.ofSpec (Memref.whole main_arg0) S8192x248.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x248.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S8192x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x32x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x32x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x32x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond3 i == 1#1) | 6 => fun i => !(k0_cond3 i == 1#1) | 7 => fun i => !(k0_cond3 i == 1#1) | ⟨_ + 8, h⟩ => absurd h (Nat.not_lt.2 (Nat.le_add_left _ _))

abbrev win1_0 : Pipeline.Window sig grid1 :=
  Pipeline.Window.ofSpec (Memref.whole main_v2_0) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S8192x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S8192x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S1x32x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v21_2) S1x32x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v21_3) S1x32x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun i => !(k1_cond3 i == 1#1) | 8 => fun i => !(k1_cond3 i == 1#1) | 9 => fun i => !(k1_cond3 i == 1#1) | ⟨_ + 10, h⟩ => absurd h (Nat.not_lt.2 (Nat.le_add_left _ _))

abbrev win2_0 : Pipeline.Window sig grid2 :=
  Pipeline.Window.ofSpec (Memref.whole main_v21_0) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S8192x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S8192x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S1x32x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v40_2) S1x32x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v40_3) S1x32x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun i => !(k2_cond3 i == 1#1) | 8 => fun i => !(k2_cond3 i == 1#1) | 9 => fun i => !(k2_cond3 i == 1#1) | ⟨_ + 10, h⟩ => absurd h (Nat.not_lt.2 (Nat.le_add_left _ _))

abbrev win3_0 : Pipeline.Window sig grid3 :=
  Pipeline.Window.ofSpec (Memref.whole main_v40_0) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S3x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x3.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v0) S8192x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v59) S8192x3.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S524288x248 : Shape := ⟨2, ![524288, 248]⟩
abbrev S524288 : Shape := ⟨1, ![524288]⟩
abbrev S64x248 : Shape := ⟨2, ![64, 248]⟩
abbrev S64 : Shape := ⟨1, ![64]⟩
abbrev S64x64 : Shape := ⟨2, ![64, 64]⟩
abbrev S3x64 : Shape := ⟨2, ![3, 64]⟩
abbrev S3 : Shape := ⟨1, ![3]⟩
abbrev S248x64 : Shape := ⟨2, ![248, 64]⟩
abbrev S524288x64 : Shape := ⟨2, ![524288, 64]⟩
abbrev S1x64 : Shape := ⟨2, ![1, 64]⟩
abbrev S_ : Shape := ⟨0, ![]⟩
abbrev S32 : Shape := ⟨1, ![32]⟩
abbrev S524288x1 : Shape := ⟨2, ![524288, 1]⟩
abbrev S32x64 : Shape := ⟨2, ![32, 64]⟩
abbrev S32x1 : Shape := ⟨2, ![32, 1]⟩
abbrev S64x3 : Shape := ⟨2, ![64, 3]⟩
abbrev S524288x3 : Shape := ⟨2, ![524288, 3]⟩
abbrev S1x3 : Shape := ⟨2, ![1, 3]⟩

abbrev nBuf : Space → Nat
  | .hbm => 213
  | .vmem => 0
  | .smem => 0
  | _ => 0

abbrev hbmTy0_0 (i : Nat) : BufTy := match i % 128 with
  | 0 => ⟨S524288x248, .f32⟩
  | 1 => ⟨S524288, .i32⟩
  | 2 => ⟨S64x248, .f32⟩
  | 3 => ⟨S64, .f32⟩
  | 4 => ⟨S64x64, .f32⟩
  | 5 => ⟨S64, .f32⟩
  | 6 => ⟨S64x64, .f32⟩
  | 7 => ⟨S64, .f32⟩
  | 8 => ⟨S3x64, .f32⟩
  | 9 => ⟨S3, .f32⟩
  | 10 => ⟨S248x64, .f32⟩
  | 11 => ⟨S524288x64, .f32⟩
  | 12 => ⟨S1x64, .f32⟩
  | 13 => ⟨S524288x64, .f32⟩
  | 14 => ⟨S524288x64, .f32⟩
  | 15 => ⟨S_, .f32⟩
  | 16 => ⟨S524288x64, .f32⟩
  | 17 => ⟨S524288x64, .i1⟩
  | 18 => ⟨S_, .f32⟩
  | 19 => ⟨S524288x64, .f32⟩
  | 20 => ⟨S524288x64, .f32⟩
  | 21 => ⟨S524288x64, .f32⟩
  | 22 => ⟨S_, .f32⟩
  | 23 => ⟨S524288, .f32⟩
  | 24 => ⟨S_, .f32⟩
  | 25 => ⟨S32, .f32⟩
  | 26 => ⟨S524288x1, .i32⟩
  | 27 => ⟨S32, .f32⟩
  | 28 => ⟨S_, .f32⟩
  | 29 => ⟨S32x64, .f32⟩
  | 30 => ⟨S524288x1, .i32⟩
  | 31 => ⟨S32x64, .f32⟩
  | 32 => ⟨S_, .f32⟩
  | 33 => ⟨S32, .f32⟩
  | 34 => ⟨S32, .f32⟩
  | 35 => ⟨S32x1, .f32⟩
  | 36 => ⟨S32x64, .f32⟩
  | 37 => ⟨S32x64, .f32⟩
  | 38 => ⟨S_, .i32⟩
  | 39 => ⟨S524288, .i32⟩
  | 40 => ⟨S524288, .i1⟩
  | 41 => ⟨S_, .i32⟩
  | 42 => ⟨S524288, .i32⟩
  | 43 => ⟨S524288, .i32⟩
  | 44 => ⟨S524288, .i32⟩
  | 45 => ⟨S524288x1, .i32⟩
  | 46 => ⟨S524288x64, .f32⟩
  | 47 => ⟨S524288x64, .f32⟩
  | 48 => ⟨S524288x64, .f32⟩
  | 49 => ⟨S_, .f32⟩
  | 50 => ⟨S32x64, .f32⟩
  | 51 => ⟨S524288x1, .i32⟩
  | 52 => ⟨S32x64, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32x1, .f32⟩
  | 60 => ⟨S32x64, .f32⟩
  | 61 => ⟨S32x64, .f32⟩
  | 62 => ⟨S32x64, .f32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S524288x1, .i32⟩
  | 71 => ⟨S524288x64, .f32⟩
  | 72 => ⟨S_, .f32⟩
  | 73 => ⟨S524288x64, .f32⟩
  | 74 => ⟨S524288x64, .f32⟩
  | 75 => ⟨S524288x64, .f32⟩
  | 76 => ⟨S64x64, .f32⟩
  | 77 => ⟨S524288x64, .f32⟩
  | 78 => ⟨S1x64, .f32⟩
  | 79 => ⟨S524288x64, .f32⟩
  | 80 => ⟨S524288x64, .f32⟩
  | 81 => ⟨S_, .f32⟩
  | 82 => ⟨S524288x64, .f32⟩
  | 83 => ⟨S524288x64, .i1⟩
  | 84 => ⟨S_, .f32⟩
  | 85 => ⟨S524288x64, .f32⟩
  | 86 => ⟨S524288x64, .f32⟩
  | 87 => ⟨S524288x64, .f32⟩
  | 88 => ⟨S_, .f32⟩
  | 89 => ⟨S524288, .f32⟩
  | 90 => ⟨S_, .f32⟩
  | 91 => ⟨S32, .f32⟩
  | 92 => ⟨S524288x1, .i32⟩
  | 93 => ⟨S32, .f32⟩
  | 94 => ⟨S_, .f32⟩
  | 95 => ⟨S32x64, .f32⟩
  | 96 => ⟨S524288x1, .i32⟩
  | 97 => ⟨S32x64, .f32⟩
  | 98 => ⟨S_, .f32⟩
  | 99 => ⟨S32, .f32⟩
  | 100 => ⟨S32, .f32⟩
  | 101 => ⟨S32x1, .f32⟩
  | 102 => ⟨S32x64, .f32⟩
  | 103 => ⟨S32x64, .f32⟩
  | 104 => ⟨S_, .i32⟩
  | 105 => ⟨S524288, .i32⟩
  | 106 => ⟨S524288, .i1⟩
  | 107 => ⟨S_, .i32⟩
  | 108 => ⟨S524288, .i32⟩
  | 109 => ⟨S524288, .i32⟩
  | 110 => ⟨S524288, .i32⟩
  | 111 => ⟨S524288x1, .i32⟩
  | 112 => ⟨S524288x64, .f32⟩
  | 113 => ⟨S524288x64, .f32⟩
  | 114 => ⟨S524288x64, .f32⟩
  | 115 => ⟨S_, .f32⟩
  | 116 => ⟨S32x64, .f32⟩
  | 117 => ⟨S524288x1, .i32⟩
  | 118 => ⟨S32x64, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S32x1, .f32⟩
  | 126 => ⟨S32x64, .f32⟩
  | 127 => ⟨S32x64, .f32⟩
  | _ => ⟨S524288x248, .f32⟩

abbrev hbmTy0_1 (i : Nat) : BufTy := match i % 128 with
  | 0 => ⟨S32x64, .f32⟩
  | 1 => ⟨S_, .i32⟩
  | 2 => ⟨S524288, .i32⟩
  | 3 => ⟨S524288, .i1⟩
  | 4 => ⟨S_, .i32⟩
  | 5 => ⟨S524288, .i32⟩
  | 6 => ⟨S524288, .i32⟩
  | 7 => ⟨S524288, .i32⟩
  | 8 => ⟨S524288x1, .i32⟩
  | 9 => ⟨S524288x64, .f32⟩
  | 10 => ⟨S_, .f32⟩
  | 11 => ⟨S524288x64, .f32⟩
  | 12 => ⟨S524288x64, .f32⟩
  | 13 => ⟨S524288x64, .f32⟩
  | 14 => ⟨S64x64, .f32⟩
  | 15 => ⟨S524288x64, .f32⟩
  | 16 => ⟨S1x64, .f32⟩
  | 17 => ⟨S524288x64, .f32⟩
  | 18 => ⟨S524288x64, .f32⟩
  | 19 => ⟨S_, .f32⟩
  | 20 => ⟨S524288x64, .f32⟩
  | 21 => ⟨S524288x64, .i1⟩
  | 22 => ⟨S_, .f32⟩
  | 23 => ⟨S524288x64, .f32⟩
  | 24 => ⟨S524288x64, .f32⟩
  | 25 => ⟨S524288x64, .f32⟩
  | 26 => ⟨S_, .f32⟩
  | 27 => ⟨S524288, .f32⟩
  | 28 => ⟨S_, .f32⟩
  | 29 => ⟨S32, .f32⟩
  | 30 => ⟨S524288x1, .i32⟩
  | 31 => ⟨S32, .f32⟩
  | 32 => ⟨S_, .f32⟩
  | 33 => ⟨S32x64, .f32⟩
  | 34 => ⟨S524288x1, .i32⟩
  | 35 => ⟨S32x64, .f32⟩
  | 36 => ⟨S_, .f32⟩
  | 37 => ⟨S32, .f32⟩
  | 38 => ⟨S32, .f32⟩
  | 39 => ⟨S32x1, .f32⟩
  | 40 => ⟨S32x64, .f32⟩
  | 41 => ⟨S32x64, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x64, .f32⟩
  | 51 => ⟨S524288x64, .f32⟩
  | 52 => ⟨S524288x64, .f32⟩
  | 53 => ⟨S_, .f32⟩
  | 54 => ⟨S32x64, .f32⟩
  | 55 => ⟨S524288x1, .i32⟩
  | 56 => ⟨S32x64, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S32x1, .f32⟩
  | 64 => ⟨S32x64, .f32⟩
  | 65 => ⟨S32x64, .f32⟩
  | 66 => ⟨S32x64, .f32⟩
  | 67 => ⟨S_, .i32⟩
  | 68 => ⟨S524288, .i32⟩
  | 69 => ⟨S524288, .i1⟩
  | 70 => ⟨S_, .i32⟩
  | 71 => ⟨S524288, .i32⟩
  | 72 => ⟨S524288, .i32⟩
  | 73 => ⟨S524288, .i32⟩
  | 74 => ⟨S524288x1, .i32⟩
  | 75 => ⟨S524288x64, .f32⟩
  | 76 => ⟨S_, .f32⟩
  | 77 => ⟨S524288x64, .f32⟩
  | 78 => ⟨S524288x64, .f32⟩
  | 79 => ⟨S524288x64, .f32⟩
  | 80 => ⟨S64x3, .f32⟩
  | 81 => ⟨S524288x3, .f32⟩
  | 82 => ⟨S1x3, .f32⟩
  | 83 => ⟨S524288x3, .f32⟩
  | 84 => ⟨S524288x3, .f32⟩
  | _ => ⟨S524288x248, .f32⟩

abbrev hbmTy (i : Nat) : BufTy := match i / 128 with
  | 0 => hbmTy0_0 i
  | 1 => hbmTy0_1 i
  | _ => ⟨S524288x248, .f32⟩

abbrev bufTy : (tb : Table) → Fin (tcTables nBuf tb) → BufTy
  | .hbm, ⟨i, _⟩ => hbmTy i
  | _, _ => ⟨S524288x248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_17 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_c_19 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_v87 : Ref sig .tc := ⟨.hbm, 121, rfl⟩
abbrev main_cst_22 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_c_24 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_25 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_26 : Ref sig .tc := ⟨.hbm, 147, rfl⟩
abbrev main_v109 : Ref sig .tc := ⟨.hbm, 148, rfl⟩
abbrev main_v110 : Ref sig .tc := ⟨.hbm, 149, rfl⟩
abbrev main_cst_27 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_28 : Ref sig .tc := ⟨.hbm, 154, rfl⟩
abbrev main_v114 : Ref sig .tc := ⟨.hbm, 155, rfl⟩
abbrev main_cst_29 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_30 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_31 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_c_32 : Ref sig .tc := ⟨.hbm, 170, rfl⟩
abbrev main_v126 : Ref sig .tc := ⟨.hbm, 171, rfl⟩
abbrev main_v127 : Ref sig .tc := ⟨.hbm, 172, rfl⟩
abbrev main_c_33 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_34 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_35 : Ref sig .tc := ⟨.hbm, 185, rfl⟩
abbrev main_v138 : Ref sig .tc := ⟨.hbm, 186, rfl⟩
abbrev main_v139 : Ref sig .tc := ⟨.hbm, 187, rfl⟩
abbrev main_cst_36 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_c_37 : Ref sig .tc := ⟨.hbm, 195, rfl⟩
abbrev main_v146 : Ref sig .tc := ⟨.hbm, 196, rfl⟩
abbrev main_v147 : Ref sig .tc := ⟨.hbm, 197, rfl⟩
abbrev main_c_38 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_39 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩

abbrev nD : Nat := 1
abbrev τ : Topo := Topo.v7x

variable {F : FTy → Type} [FloatOps F]

class Facts₀ : Prop where
  transposes_S64x248_S248x64_1_0 : S64x248.Transposes [1, 0] S248x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S_S524288 : S_.BroadcastsInDim S524288 (![] : Fin 0 → Fin S524288.rank)
  bcast_S_S32 : S_.BroadcastsInDim S32 (![] : Fin 0 → Fin S32.rank)
  bcast_S524288_S524288x1_0 : S524288.BroadcastsInDim S524288x1 (![0] : Fin 1 → Fin S524288x1.rank)
  bcast_S_S32x64 : S_.BroadcastsInDim S32x64 (![] : Fin 0 → Fin S32x64.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  transposes_S64x64_S64x64_1_0 : S64x64.Transposes [1, 0] S64x64
  transposes_S3x64_S64x3_1_0 : S3x64.Transposes [1, 0] S64x3
  bcast_S3_S1x3_1 : S3.BroadcastsInDim S1x3 (![1] : Fin 1 → Fin S1x3.rank)
  bcast_S1x3_S524288x3_0_1 : S1x3.BroadcastsInDim S524288x3 (![0, 1] : Fin 2 → Fin S524288x3.rank)
  dot_S524288x248_S248x64_S524288x64_1_0_0_1_n_n_wf : DotDims.WF S524288x248 S248x64 S524288x64 [1] [0] [0] [1] [] []
  scatter_S32_S524288x1_S524288_n_0_0_1_wf : ScatterDims.WF S32 S524288x1 S524288 [] [0] [0] 1
  scatter_S32x64_S524288x1_S524288x64_1_0_0_1_wf : ScatterDims.WF S32x64 S524288x1 S524288x64 [1] [0] [0] 1
  gather_S32x64_S524288x1_S524288x64_1_0_n_n_0_1_164_wf : GatherDims.WF S32x64 S524288x1 S524288x64 [1] [0] [] [0] [] 1 ![1, 64]
  dot_S524288x64_S64x64_S524288x64_1_0_0_1_n_n_wf : DotDims.WF S524288x64 S64x64 S524288x64 [1] [0] [0] [1] [] []
  dot_S524288x64_S64x3_S524288x3_1_0_0_1_n_n_wf : DotDims.WF S524288x64 S64x3 S524288x3 [1] [0] [0] [1] [] []

variable [Facts₀]

def dot_S524288x248_S248x64_S524288x64_1_0_0_1_n_n : DotDims S524288x248 S248x64 S524288x64 where
  lhsContracting := [1]
  rhsContracting := [0]
  lhsNonContracting := [0]
  rhsNonContracting := [1]
  lhsBatch := []
  rhsBatch := []
  wf := dot_S524288x248_S248x64_S524288x64_1_0_0_1_n_n_wf
def scatter_S32_S524288x1_S524288_n_0_0_1 : ScatterDims S32 S524288x1 S524288 where
  updateWindowDims := []
  insertedWindowDims := [0]
  scatterDimsToOperandDims := [0]
  indexVectorDim := 1
  wf := scatter_S32_S524288x1_S524288_n_0_0_1_wf
def scatter_S32x64_S524288x1_S524288x64_1_0_0_1 : ScatterDims S32x64 S524288x1 S524288x64 where
  updateWindowDims := [1]
  insertedWindowDims := [0]
  scatterDimsToOperandDims := [0]
  indexVectorDim := 1
  wf := scatter_S32x64_S524288x1_S524288x64_1_0_0_1_wf
def gather_S32x64_S524288x1_S524288x64_1_0_n_n_0_1_164 : GatherDims S32x64 S524288x1 S524288x64 where
  offsetDims := [1]
  collapsedSliceDims := [0]
  operandBatchingDims := []
  startIndicesBatchingDims := []
  startIndexMap := [0]
  indexVectorDim := 1
  sliceSizes := ![1, 64]
  wf := gather_S32x64_S524288x1_S524288x64_1_0_n_n_0_1_164_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x3_S524288x3_1_0_0_1_n_n : DotDims S524288x64 S64x3 S524288x3 where
  lhsContracting := [1]
  rhsContracting := [0]
  lhsNonContracting := [0]
  rhsNonContracting := [1]
  lhsBatch := []
  rhsBatch := []
  wf := dot_S524288x64_S64x3_S524288x3_1_0_0_1_n_n_wf

class Facts : Prop extends Facts₀ where

variable [Facts]
-- ==== Proof.K.Runs0.lean ====
/- The first layer's body run in its three control cases (first, middle and last step of a core's half); each run records what it writes. -/
import proofs.«431227_j85710367359314_3_alg».proof.Proof.Gen.Kernel.Launch
import proofs.«431227_j85710367359314_3_alg».proof.Proof.Gen.Kernel.Skeleton
import proofs.«431227_j85710367359314_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

abbrev cond1 (i : grid0.Coords) : Prop := (Scalar.cmpi .ne (Scalar.extui (Scalar.cmpi .sgt (BitVec.ofNat 32 (i 1).val) 0#32)) 0#32) = 1#1
theorem hcond1 : ∀ t : Fin cfg0.N, cond1 (grid0.coords t) ↔ t.val % 32 ≠ 0 :=
  (by decide +kernel : ∀ t : Fin grid0.N, cond1 (grid0.coords t) ↔ t.val % 32 ≠ 0)

abbrev cond2 (i : grid0.Coords) : Prop := k0_cond3 i = 1#1
theorem hcond2 : ∀ t : Fin cfg0.N, cond2 (grid0.coords t) ↔ t.val % 32 = 31 :=
  (by decide +kernel : ∀ t : Fin grid0.N, cond2 (grid0.coords t) ↔ t.val % 32 = 31)

theorem live0 : ∀ (w : Fin 8), w.val < 5 → ∀ t : Fin cfg0.N, cfg0.idle w (grid0.coords t) = false := by decide +kernel
theorem idle5 : ∀ t : Fin cfg0.N, ¬cond2 (grid0.coords t) → cfg0.idle 5 (grid0.coords t) = true := by decide +kernel
theorem idle6 : ∀ t : Fin cfg0.N, ¬cond2 (grid0.coords t) → cfg0.idle 6 (grid0.coords t) = true := by decide +kernel
theorem idle7 : ∀ t : Fin cfg0.N, ¬cond2 (grid0.coords t) → cfg0.idle 7 (grid0.coords t) = true := by decide +kernel
theorem noFlush5 : ∀ t : Fin cfg0.N, ¬cond2 (grid0.coords t) → (cfg0.win 5).flush t = false := by decide +kernel
theorem noFlush6 : ∀ t : Fin cfg0.N, ¬cond2 (grid0.coords t) → (cfg0.win 6).flush t = false := by decide +kernel
theorem noFlush7 : ∀ t : Fin cfg0.N, ¬cond2 (grid0.coords t) → (cfg0.win 7).flush t = false := by decide +kernel
theorem live5 : ∀ t : Fin cfg0.N, cond2 (grid0.coords t) → cfg0.idle 5 (grid0.coords t) = false := by decide +kernel
theorem live6 : ∀ t : Fin cfg0.N, cond2 (grid0.coords t) → cfg0.idle 6 (grid0.coords t) = false := by decide +kernel
theorem live7 : ∀ t : Fin cfg0.N, cond2 (grid0.coords t) → cfg0.idle 7 (grid0.coords t) = false := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : cond0 i) (hc1 : ¬cond1 i) (hc2 : ¬cond2 i)
    (x0 : Vec F S8192x248 .f32) (x1 : Vec F S64x248 .f32) (x2 : Vec F S1x64 .f32) (x3 : Vec F S8192x1 .i32) :
    Σ' (L4 : List (PcH (F := F))) (LS0 : List (PcS (F := F))) (LS1 : List (PcS (F := F))), { LS2 : List (PcS (F := F)) //
      ∀ (xi5 xi6 xi7 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

set_option maxHeartbeats 4000000 in
noncomputable def runB (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : ¬cond0 i) (hc1 : cond1 i) (hc2 : ¬cond2 i)
    (x0 : Vec F S8192x248 .f32) (x1 : Vec F S64x248 .f32) (x2 : Vec F S1x64 .f32) (x3 : Vec F S8192x1 .i32) (xs0 xs1 xs2 : Vec F S32x64 .f32) :
    Σ' (L4 : List (PcH (F := F))) (LS0 : List (PcS (F := F))) (LS1 : List (PcS (F := F))), { LS2 : List (PcS (F := F)) //
      ∀ (xi5 xi6 xi7 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

set_option maxHeartbeats 4000000 in
noncomputable def runC (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : ¬cond0 i) (hc1 : cond1 i) (hc2 : cond2 i)
    (x0 : Vec F S8192x248 .f32) (x1 : Vec F S64x248 .f32) (x2 : Vec F S1x64 .f32) (x3 : Vec F S8192x1 .i32) (xs0 xs1 xs2 : Vec F S32x64 .f32) :
    Σ' (L4 : List (PcH (F := F))) (L5 : List (PcO (F := F))) (L6 : List (PcO (F := F))) (L7 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.Kernel.R0

end
-- ==== Proof.K.Reg0.lean ====
import proofs.«431227_j85710367359314_3_alg».proof.Proof.K.Runs0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

abbrev ms0 : Memref sig .tc .vmem S8192x248 .f32 := win0_0.stage (cfg0.slots t 0)
abbrev hs0 : (ms0 t).IsWhole := hstage0_0 ((cfg0.slots t 0).cast nbuf0_0)
abbrev ms1 : Memref sig .tc .vmem S64x248 .f32 := win0_1.stage (cfg0.slots t 1)
abbrev hs1 : (ms1 t).IsWhole := hstage0_1 ((cfg0.slots t 1).cast nbuf0_1)
abbrev ms2 : Memref sig .tc .vmem S1x64 .f32 := win0_2.stage (cfg0.slots t 2)
abbrev hs2 : (ms2 t).IsWhole := hstage0_2 ((cfg0.slots t 2).cast nbuf0_2)
abbrev ms3 : Memref sig .tc .vmem S8192x1 .i32 := win0_3.stage (cfg0.slots t 3)
abbrev hs3 : (ms3 t).IsWhole := hstage0_3 ((cfg0.slots t 3).cast nbuf0_3)
abbrev ms4 : Memref sig .tc .vmem S8192x64 .bf16 := win0_4.stage (cfg0.slots t 4)
abbrev hs4 : (ms4 t).IsWhole := hstage0_4 ((cfg0.slots t 4).cast nbuf0_4)
abbrev ms5 : Memref sig .tc .vmem S1x32x64 .f32 := win0_5.stage (cfg0.slots t 5)
abbrev hs5 : (ms5 t).IsWhole := hstage0_5 ((cfg0.slots t 5).cast nbuf0_5)
abbrev ms6 : Memref sig .tc .vmem S1x32x64 .f32 := win0_6.stage (cfg0.slots t 6)
abbrev hs6 : (ms6 t).IsWhole := hstage0_6 ((cfg0.slots t 6).cast nbuf0_6)
abbrev ms7 : Memref sig .tc .vmem S1x32x64 .f32 := win0_7.stage (cfg0.slots t 7)
abbrev hs7 : (ms7 t).IsWhole := hstage0_7 ((cfg0.slots t 7).cast nbuf0_7)
abbrev sc0 : Memref sig .tc .vmem S32x64 .f32 := Memref.whole cc0_scratch0
abbrev sc1 : Memref sig .tc .vmem S32x64 .f32 := Memref.whole cc0_scratch1
abbrev sc2 : Memref sig .tc .vmem S32x64 .f32 := Memref.whole cc0_scratch2
abbrev VS0 : View sig .tc .vmem S32x64 .f32 := (sc0).view
abbrev VS1 : View sig .tc .vmem S32x64 .f32 := (sc1).view
abbrev VS2 : View sig .tc .vmem S32x64 .f32 := (sc2).view
abbrev VH : View sig .tc .vmem S8192x64 .bf16 := (Memref.whole cc0_stg4_0 : Memref sig .tc .vmem S8192x64 .bf16).view
abbrev VO : View sig .tc .vmem S1x32x64 .f32 := (Memref.whole cc0_stg5_0 : Memref sig .tc .vmem S1x32x64 .f32).view

abbrev Outs (F : FTy → Type) [FloatOps F] : Type :=
  Vec F S8192x64 .bf16 × Vec F S1x32x64 .f32 × Vec F S1x32x64 .f32 × Vec F S1x32x64 .f32 × Vec F S32x64 .f32 × Vec F S32x64 .f32 × Vec F S32x64 .f32

def idleO : Vec F S1x32x64 .f32 := VO.read (Elt F) VO.junk

theorem cA0 (h0 : t.val % 32 = 0) : cond0 (grid0.coords t) := (hcond0 t).mpr h0
theorem cA1 (h0 : t.val % 32 = 0) : ¬cond1 (grid0.coords t) := fun h => (hcond1 t).mp h h0
theorem cA2 (h0 : t.val % 32 = 0) : ¬cond2 (grid0.coords t) := fun h => by
  have := (hcond2 t).mp h; omega
theorem cB0 (h0 : ¬t.val % 32 = 0) : ¬cond0 (grid0.coords t) := fun h => h0 ((hcond0 t).mp h)
theorem cB1 (h0 : ¬t.val % 32 = 0) : cond1 (grid0.coords t) := (hcond1 t).mpr h0
theorem cB2 (h1 : ¬t.val % 32 = 31) : ¬cond2 (grid0.coords t) := fun h => h1 ((hcond2 t).mp h)
theorem cC2 (h1 : t.val % 32 = 31) : cond2 (grid0.coords t) := (hcond2 t).mpr h1

/-- A buffer left with a covering list of pieces written holds what the pieces say, whatever it held before. -/
theorem owns_of_cover {s : Shape} {e : EltTy} {m : Memref sig .tc .vmem s e} (X : View sig .tc .vmem s e)
    {L : List (View.Piece (Elt F) s e)} (hL : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (X.read (Elt F) (X.writes (Elt F) X.junk L)) := by
  iintro ⟨%f, H⟩
  unfold owns; iexists _; isplitr
  swap; · iexact H
  ipureintro; exact View.read_writes_of_cover _ _ _ _ _ hL

section
variable (h0 : t.val % 32 = 0)
def rA :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cA0 t h0) (cA1 t h0) (cA2 t h0) (iblk V c 0 t) (iblk V c 1 t) (iblk V c 2 t) (iblk V c 3 t)
theorem coverA4 (y : S8192x64.Idx) :
    ∃ pc ∈ (rA V c t h0).1, y ∈ pc.1.set :=
  View.cover_of_tiledL _ S8192x64.size (by sl_kernel_rfl) y
theorem scoverA0 (y : S32x64.Idx) :
    ∃ pc ∈ (rA V c t h0).2.1, y ∈ pc.1.set :=
  View.cover_of_tiledL _ S32x64.size (by sl_kernel_rfl) y
theorem scoverA1 (y : S32x64.Idx) :
    ∃ pc ∈ (rA V c t h0).2.2.1, y ∈ pc.1.set :=
  View.cover_of_tiledL _ S32x64.size (by sl_kernel_rfl) y
theorem scoverA2 (y : S32x64.Idx) :
    ∃ pc ∈ (rA V c t h0).2.2.2.1, y ∈ pc.1.set :=
  View.cover_of_tiledL _ S32x64.size (by sl_kernel_rfl) y
def tupA : Outs F :=
  (VH.read (Elt F) (VH.writes (Elt F) VH.junk (rA V c t h0).1), idleO, idleO, idleO,
    VS0.read (Elt F) (VS0.writes (Elt F) VS0.junk (rA V c t h0).2.1), VS1.read (Elt F) (VS1.writes (Elt F) VS1.junk (rA V c t h0).2.2.1), VS2.read (Elt F) (VS2.writes (Elt F) VS2.junk (rA V c t h0).2.2.2.1))
end

section
variable (h0 : ¬t.val % 32 = 0)
section
variable (h1 : ¬t.val % 32 = 31) (xs0 xs1 xs2 : Vec F S32x64 .f32)
def rB :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cB0 t h0) (cB1 t h0) (cB2 t h1) (iblk V c 0 t) (iblk V c 1 t) (iblk V c 2 t) (iblk V c 3 t) xs0 xs1 xs2
theorem coverB4 (y : S8192x64.Idx) :
    ∃ pc ∈ (rB V c t h0 h1 xs0 xs1 xs2).1, y ∈ pc.1.set :=
  View.cover_of_tiledL _ S8192x64.size (by sl_kernel_rfl) y
theorem scoverB0 (y : S32x64.Idx) :
    ∃ pc ∈ (rB V c t h0 h1 xs0 xs1 xs2).2.1, y ∈ pc.1.set :=
  View.cover_of_tiledL _ S32x64.size (by sl_kernel_rfl) y
theorem scoverB1 (y : S32x64.Idx) :
    ∃ pc ∈ (rB V c t h0 h1 xs0 xs1 xs2).2.2.1, y ∈ pc.1.set :=
  View.cover_of_tiledL _ S32x64.size (by sl_kernel_rfl) y
theorem scoverB2 (y : S32x64.Idx) :
    ∃ pc ∈ (rB V c t h0 h1 xs0 xs1 xs2).2.2.2.1, y ∈ pc.1.set :=
  View.cover_of_tiledL _ S32x64.size (by sl_kernel_rfl) y
def tupB : Outs F :=
  (VH.read (Elt F) (VH.writes (Elt F) VH.junk (rB V c t h0 h1 xs0 xs1 xs2).1), idleO, idleO, idleO,
    VS0.read (Elt F) (VS0.writes (Elt F) VS0.junk (rB V c t h0 h1 xs0 xs1 xs2).2.1), VS1.read (Elt F) (VS1.writes (Elt F) VS1.junk (rB V c t h0 h1 xs0 xs1 xs2).2.2.1), VS2.read (Elt F) (VS2.writes (Elt F) VS2.junk (rB V c t h0 h1 xs0 xs1 xs2).2.2.2.1))
end
section
variable (h1 : t.val % 32 = 31) (xs0 xs1 xs2 : Vec F S32x64 .f32)
def rC :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cB0 t h0) (cB1 t h0) (cC2 t h1) (iblk V c 0 t) (iblk V c 1 t) (iblk V c 2 t) (iblk V c 3 t) xs0 xs1 xs2
theorem coverC4 (y : S8192x64.Idx) :
    ∃ pc ∈ (rC V c t h0 h1 xs0 xs1 xs2).1, y ∈ pc.1.set :=
  View.cover_of_tiledL _ S8192x64.size (by sl_kernel_rfl) y
theorem coverC5 (y : S1x32x64.Idx) :
    ∃ pc ∈ (rC V c t h0 h1 xs0 xs1 xs2).2.1, y ∈ pc.1.set :=
  View.cover_of_tiledL _ S1x32x64.size (by sl_kernel_rfl) y
theorem coverC6 (y : S1x32x64.Idx) :
    ∃ pc ∈ (rC V c t h0 h1 xs0 xs1 xs2).2.2.1, y ∈ pc.1.set :=
  View.cover_of_tiledL _ S1x32x64.size (by sl_kernel_rfl) y
theorem coverC7 (y : S1x32x64.Idx) :
    ∃ pc ∈ (rC V c t h0 h1 xs0 xs1 xs2).2.2.2.1, y ∈ pc.1.set :=
  View.cover_of_tiledL _ S1x32x64.size (by sl_kernel_rfl) y
theorem scoverC0 (y : S32x64.Idx) :
    ∃ pc ∈ (rC V c t h0 h1 xs0 xs1 xs2).2.2.2.2.1, y ∈ pc.1.set :=
  View.cover_of_tiledL _ S32x64.size (by sl_kernel_rfl) y
theorem scoverC1 (y : S32x64.Idx) :
    ∃ pc ∈ (rC V c t h0 h1 xs0 xs1 xs2).2.2.2.2.2.1, y ∈ pc.1.set :=
  View.cover_of_tiledL _ S32x64.size (by sl_kernel_rfl) y
theorem scoverC2 (y : S32x64.Idx) :
    ∃ pc ∈ (rC V c t h0 h1 xs0 xs1 xs2).2.2.2.2.2.2.1, y ∈ pc.1.set :=
  View.cover_of_tiledL _ S32x64.size (by sl_kernel_rfl) y
def tupC : Outs F :=
  (VH.read (Elt F) (VH.writes (Elt F) VH.junk (rC V c t h0 h1 xs0 xs1 xs2).1), VO.read (Elt F) (VO.writes (Elt F) VO.junk (rC V c t h0 h1 xs0 xs1 xs2).2.1), VO.read (Elt F) (VO.writes (Elt F) VO.junk (rC V c t h0 h1 xs0 xs1 xs2).2.2.1), VO.read (Elt F) (VO.writes (Elt F) VO.junk (rC V c t h0 h1 xs0 xs1 xs2).2.2.2.1),
    VS0.read (Elt F) (VS0.writes (Elt F) VS0.junk (rC V c t h0 h1 xs0 xs1 xs2).2.2.2.2.1), VS1.read (Elt F) (VS1.writes (Elt F) VS1.junk (rC V c t h0 h1 xs0 xs1 xs2).2.2.2.2.2.1), VS2.read (Elt F) (VS2.writes (Elt F) VS2.junk (rC V c t h0 h1 xs0 xs1 xs2).2.2.2.2.2.2.1))
end
end

/-- After position `n`: a multiple of 32 sets the three running sums, any other adds to what `n - 1` left, and 31 mod 32 also copies them out. -/
def outsAt (c : Dev nD) : (n : ℕ) → n < cfg0.N → Outs F
  | 0, hn => tupA V c ⟨0, hn⟩ (Nat.zero_mod _)
  | n + 1, hn =>
    if h0 : (n + 1) % 32 = 0 then tupA V c ⟨n + 1, hn⟩ h0
    else if h1 : (n + 1) % 32 = 31 then
      tupC V c ⟨n + 1, hn⟩ h0 h1 (outsAt c n (Nat.lt_of_succ_lt hn)).2.2.2.2.1 (outsAt c n (Nat.lt_of_succ_lt hn)).2.2.2.2.2.1 (outsAt c n (Nat.lt_of_succ_lt hn)).2.2.2.2.2.2
    else
      tupB V c ⟨n + 1, hn⟩ h0 h1 (outsAt c n (Nat.lt_of_succ_lt hn)).2.2.2.2.1 (outsAt c n (Nat.lt_of_succ_lt hn)).2.2.2.2.2.1 (outsAt c n (Nat.lt_of_succ_lt hn)).2.2.2.2.2.2

section
variable (h0 : t.val % 32 = 0)
theorem outsAt_A :
    outsAt V c t.val t.isLt = tupA V c t h0 := by
  obtain ⟨n, hn⟩ := t
  cases n with
  | zero => exact rfl
  | succ n => exact (dif_pos h0).trans rfl
theorem outA_4 :
    (outsAt V c t.val t.isLt).1 = VH.read (Elt F) (VH.writes (Elt F) VH.junk (rA V c t h0).1) :=
  (congrArg (fun x : Outs F => x.1) (outsAt_A V c t h0)).trans (by dsimp only [tupA] <;> rfl)
theorem outA_s0 :
    (outsAt V c t.val t.isLt).2.2.2.2.1 = VS0.read (Elt F) (VS0.writes (Elt F) VS0.junk (rA V c t h0).2.1) :=
  (congrArg (fun x : Outs F => x.2.2.2.2.1) (outsAt_A V c t h0)).trans (by dsimp only [tupA] <;> rfl)
theorem outA_s1 :
    (outsAt V c t.val t.isLt).2.2.2.2.2.1 = VS1.read (Elt F) (VS1.writes (Elt F) VS1.junk (rA V c t h0).2.2.1) :=
  (congrArg (fun x : Outs F => x.2.2.2.2.2.1) (outsAt_A V c t h0)).trans (by dsimp only [tupA] <;> rfl)
theorem outA_s2 :
    (outsAt V c t.val t.isLt).2.2.2.2.2.2 = VS2.read (Elt F) (VS2.writes (Elt F) VS2.junk (rA V c t h0).2.2.2.1) :=
  (congrArg (fun x : Outs F => x.2.2.2.2.2.2) (outsAt_A V c t h0)).trans (by dsimp only [tupA] <;> rfl)
end

section
variable (h0 : ¬t.val % 32 = 0)
section
variable (h1 : ¬t.val % 32 = 31)
theorem outsAt_B :
    outsAt V c t.val t.isLt = tupB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)
theorem outB_4 :
    (outsAt V c t.val t.isLt).1 = VH.read (Elt F) (VH.writes (Elt F) VH.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).1) :=
  (congrArg (fun x : Outs F => x.1) (outsAt_B V c t h0 h1)).trans (by dsimp only [tupB] <;> rfl)
theorem outB_s0 :
    (outsAt V c t.val t.isLt).2.2.2.2.1 = VS0.read (Elt F) (VS0.writes (Elt F) VS0.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.1) :=
  (congrArg (fun x : Outs F => x.2.2.2.2.1) (outsAt_B V c t h0 h1)).trans (by dsimp only [tupB] <;> rfl)
theorem outB_s1 :
    (outsAt V c t.val t.isLt).2.2.2.2.2.1 = VS1.read (Elt F) (VS1.writes (Elt F) VS1.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.1) :=
  (congrArg (fun x : Outs F => x.2.2.2.2.2.1) (outsAt_B V c t h0 h1)).trans (by dsimp only [tupB] <;> rfl)
theorem outB_s2 :
    (outsAt V c t.val t.isLt).2.2.2.2.2.2 = VS2.read (Elt F) (VS2.writes (Elt F) VS2.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.1) :=
  (congrArg (fun x : Outs F => x.2.2.2.2.2.2) (outsAt_B V c t h0 h1)).trans (by dsimp only [tupB] <;> rfl)
end
section
variable (h1 : t.val % 32 = 31)
theorem outsAt_C :
    outsAt V c t.val t.isLt = tupC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)
theorem outC_4 :
    (outsAt V c t.val t.isLt).1 = VH.read (Elt F) (VH.writes (Elt F) VH.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).1) :=
  (congrArg (fun x : Outs F => x.1) (outsAt_C V c t h0 h1)).trans (by dsimp only [tupC] <;> rfl)
theorem outC_5 :
    (outsAt V c t.val t.isLt).2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.1) :=
  (congrArg (fun x : Outs F => x.2.1) (outsAt_C V c t h0 h1)).trans (by dsimp only [tupC] <;> rfl)
theorem outC_6 :
    (outsAt V c t.val t.isLt).2.2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.1) :=
  (congrArg (fun x : Outs F => x.2.2.1) (outsAt_C V c t h0 h1)).trans (by dsimp only [tupC] <;> rfl)
theorem outC_7 :
    (outsAt V c t.val t.isLt).2.2.2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.1) :=
  (congrArg (fun x : Outs F => x.2.2.2.1) (outsAt_C V c t h0 h1)).trans (by dsimp only [tupC] <;> rfl)
theorem outC_s0 :
    (outsAt V c t.val t.isLt).2.2.2.2.1 = VS0.read (Elt F) (VS0.writes (Elt F) VS0.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.1) :=
  (congrArg (fun x : Outs F => x.2.2.2.2.1) (outsAt_C V c t h0 h1)).trans (by dsimp only [tupC] <;> rfl)
theorem outC_s1 :
    (outsAt V c t.val t.isLt).2.2.2.2.2.1 = VS1.read (Elt F) (VS1.writes (Elt F) VS1.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.2.1) :=
  (congrArg (fun x : Outs F => x.2.2.2.2.2.1) (outsAt_C V c t h0 h1)).trans (by dsimp only [tupC] <;> rfl)
theorem outC_s2 :
    (outsAt V c t.val t.isLt).2.2.2.2.2.2 = VS2.read (Elt F) (VS2.writes (Elt F) VS2.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.2.2.1) :=
  (congrArg (fun x : Outs F => x.2.2.2.2.2.2) (outsAt_C V c t h0 h1)).trans (by dsimp only [tupC] <;> rfl)
end
end

abbrev restBut : sProp 𝕄 :=
  Pipeline.scopedRestBut (Ix := Unit) (Name := ℕ) (U := UR sig nD τ) (Lvl := ℕ) (Val := Elt F) spec0 c [cc0_scratch0, cc0_scratch1, cc0_scratch2]

def PhiS (c : Dev nD) : (n : ℕ) → n ≤ cfg0.N → sProp 𝕄
  | 0, _ => Pipeline.ΦA spec0 c
  | n + 1, hn => iprop(iprop(iprop(owns (c : Thread nD τ) sc0 fullShare ((outsAt V c n hn).2.2.2.2.1) ∗ owns (c : Thread nD τ) sc1 fullShare ((outsAt V c n hn).2.2.2.2.2.1) ∗ owns (c : Thread nD τ) sc2 fullShare ((outsAt V c n hn).2.2.2.2.2.2)) ∗ restBut (F := F) c) ∗ (∃ r, prngReg c r))

theorem PhiS_zero (n : ℕ) (h : n ≤ cfg0.N) (hz : n = 0) : PhiS V c n h = Pipeline.ΦA spec0 c := by
  subst hz; rfl

theorem PhiS_succ (n : ℕ) (hn : n < cfg0.N) :
    PhiS V c (n + 1) hn = iprop(iprop(iprop(owns (c : Thread nD τ) sc0 fullShare ((outsAt V c n hn).2.2.2.2.1) ∗ owns (c : Thread nD τ) sc1 fullShare ((outsAt V c n hn).2.2.2.2.2.1) ∗ owns (c : Thread nD τ) sc2 fullShare ((outsAt V c n hn).2.2.2.2.2.2)) ∗ restBut (F := F) c) ∗ (∃ r, prngReg c r)) := rfl

theorem PhiS_pos (n : ℕ) (h : n ≤ cfg0.N) (hz : n ≠ 0) :
    PhiS V c n h = iprop(iprop(iprop(owns (c : Thread nD τ) sc0 fullShare ((outsAt V c (n - 1) (by omega)).2.2.2.2.1) ∗ owns (c : Thread nD τ) sc1 fullShare ((outsAt V c (n - 1) (by omega)).2.2.2.2.2.1) ∗ owns (c : Thread nD τ) sc2 fullShare ((outsAt V c (n - 1) (by omega)).2.2.2.2.2.2)) ∗ restBut (F := F) c) ∗ (∃ r, prngReg c r)) := by
  cases n with
  | zero => exact absurd rfl hz
  | succ n => rfl

theorem PhiA_eq :
    (Pipeline.ΦA spec0 c : sProp 𝕄)
      = iprop(iprop(iprop((∃ d, owns (c : Thread nD τ) sc0 fullShare d) ∗ (∃ d, owns (c : Thread nD τ) sc1 fullShare d) ∗ (∃ d, owns (c : Thread nD τ) sc2 fullShare d)) ∗ restBut (F := F) c) ∗ (∃ r, prngReg c r)) := by
  unfold Pipeline.ΦA; rw [scopedRest0_split]; simp only [sc0, sc1, sc2, owns_whole]; try rfl

/-- At any position the invariant gives back what the launch handed over: the running sums' contents are forgotten. -/
theorem PhiS_forget (n : ℕ) (h : n ≤ cfg0.N) : PhiS V c n h ⊢ Pipeline.ΦA spec0 c := by
  by_cases hz : n = 0
  · exact .of_eq (PhiS_zero V c n h hz)
  rw [PhiS_pos V c n h hz, PhiA_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
    | ⟨7, _⟩ => (outsAt V c t.val t.isLt).2.2.2.1
  Φ t := PhiS V c t.val (Nat.le_of_lt_succ t.isLt)
  q _ := fullShare
  owed _ := 0

theorem A_eq (w : Fin cfg0.W) : (dat V c).A w = V c (Pipeline.arrRef spec0 w) := by
  dsimp only [dat]

theorem PhiS_castSucc :
    (dat V c).Φ t.castSucc = PhiS V c t.val (Nat.le_of_lt t.isLt) := by
  dsimp only [dat]; simp only [Fin.coe_castSucc]

theorem after_0 : (dat V c).after 0 t = iblk V c 0 t := by dsimp only [dat]
theorem after_1 : (dat V c).after 1 t = iblk V c 1 t := by dsimp only [dat]
theorem after_2 : (dat V c).after 2 t = iblk V c 2 t := by dsimp only [dat]
theorem after_3 : (dat V c).after 3 t = iblk V c 3 t := by dsimp only [dat]
theorem after_4 : (dat V c).after 4 t = (outsAt V c t.val t.isLt).1 := by dsimp only [dat]
theorem after_5 : (dat V c).after 5 t = (outsAt V c t.val t.isLt).2.1 := by dsimp only [dat]
theorem after_6 : (dat V c).after 6 t = (outsAt V c t.val t.isLt).2.2.1 := by dsimp only [dat]
theorem after_7 : (dat V c).after 7 t = (outsAt V c t.val t.isLt).2.2.2.1 := by dsimp only [dat]

theorem before0 (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before1 (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before2 (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before3 (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem leaves_live (w : Fin cfg0.W) (h : cfg0.idle w (grid0.coords t) = false) :
    (dat V c).leavesExact w t = owns (c : Thread nD τ) ((cfg0.win w).stage (cfg0.slots t w)) fullShare ((dat V c).after w t) := by
  unfold Dat.leavesExact; rw [h]

def bodyPre : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the point's number mod 32 says which of the three cases it is in. -/
theorem sound_body :
    bodyPre V c t ⊢ wp frame (wpE (defs₀ (F := F)) Variants.none c none) Set.univ (bodyAt0 t) (fun _ => bodyPost V c t) := by
  unfold bodyPre bodyPost bodyAt0
  simp only [before0 V, before1 V, before2 V, before3 V]
  rw [show (dat V c).owesAt () t.succ = (dat V c).owesAt () t.castSucc from rfl]
  rw [show (dat V c).Φ t.succ = PhiS V c (t.val + 1) t.isLt from rfl, PhiS_succ, PhiS_castSucc V c t]
  rw [leaves_live V c t 0 (live0 0 (by decide) t), leaves_live V c t 1 (live0 1 (by decide) t), leaves_live V c t 2 (live0 2 (by decide) t), leaves_live V c t 3 (live0 3 (by decide) t), leaves_live V c t 4 (live0 4 (by decide) t), after_0, after_1, after_2, after_3, after_4]
  by_cases h0 : t.val % 32 = 0
  · rw [Dat.leavesExact_idle (dat V c) 5 t (idle5 t (cA2 t h0)) (noFlush5 t (cA2 t h0)), Dat.leavesExact_idle (dat V c) 6 t (idle6 t (cA2 t h0)) (noFlush6 t (cA2 t h0)), Dat.leavesExact_idle (dat V c) 7 t (idle7 t (cA2 t h0)) (noFlush7 t (cA2 t h0))]
    rw [outA_4 V c t h0, outA_s0 V c t h0, outA_s1 V c t h0, outA_s2 V c t h0]
    refine (sep_mono_left (PhiS_forget V c _ _)).trans ?_
    rw [PhiA_eq]
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA V c t h0).2.2.2.2 ((dat V c).before 5 t d5) ((dat V c).before 6 t d6) ((dat V c).before 7 t d7) Set.univ _)
    iframe H0 H1 H2 H3 H5 H6 H7 HS0 HS1 HS2
    isplitl [H4]; · iexists _; iexact H4
    iintro ⟨H0, H1, H2, H3, H4, H5, H6, H7, HS0, HS1, HS2⟩
    ihave HS0 := (owns_of_cover c VS0 (scoverA0 V c t h0)) $$ HS0
    ihave HS1 := (owns_of_cover c VS1 (scoverA1 V c t h0)) $$ HS1
    ihave HS2 := (owns_of_cover c VS2 (scoverA2 V c t h0)) $$ HS2
    ihave H4 := (owns_of_cover c VH (coverA4 V c t h0)) $$ H4
    iframe HS0 HS1 HS2 Hr Hg Ho H0 H1 H2 H3 H4
    isplitl [H5]; · iexists _; iexact H5
    isplitl [H6]; · iexists _; iexact H6
    iexists _; iexact H7
  have hz : t.val ≠ 0 := by omega
  by_cases h1 : t.val % 32 = 31
  · rw [leaves_live V c t 5 (live5 t (cC2 t h1)), leaves_live V c t 6 (live6 t (cC2 t h1)), leaves_live V c t 7 (live7 t (cC2 t h1)), after_5, after_6, after_7]
    rw [outC_4 V c t h0 h1, outC_5 V c t h0 h1, outC_6 V c t h0 h1, outC_7 V c t h0 h1, outC_s0 V c t h0 h1, outC_s1 V c t h0 h1, outC_s2 V c t h0 h1]
    rw [PhiS_pos V c _ _ hz]
    generalize outsAt V c (t.val - 1) (Nat.lt_of_le_of_lt (Nat.sub_le _ _) t.isLt) = p
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rC V c t h0 h1 p.2.2.2.2.1 p.2.2.2.2.2.1 p.2.2.2.2.2.2).2.2.2.2.2.2.2 Set.univ _)
    iframe H0 H1 H2 H3 HS0 HS1 HS2
    isplitl [H4]; · iexists _; iexact H4
    isplitl [H5]; · iexists _; iexact H5
    isplitl [H6]; · iexists _; iexact H6
    isplitl [H7]; · iexists _; iexact H7
    iintro ⟨H0, H1, H2, H3, H4, H5, H6, H7, HS0, HS1, HS2⟩
    ihave HS0 := (owns_of_cover c VS0 (scoverC0 V c t h0 h1 _ _ _)) $$ HS0
    ihave HS1 := (owns_of_cover c VS1 (scoverC1 V c t h0 h1 _ _ _)) $$ HS1
    ihave HS2 := (owns_of_cover c VS2 (scoverC2 V c t h0 h1 _ _ _)) $$ HS2
    ihave H4 := (owns_of_cover c VH (coverC4 V c t h0 h1 _ _ _)) $$ H4
    ihave H5 := (owns_of_cover c VO (coverC5 V c t h0 h1 _ _ _)) $$ H5
    ihave H6 := (owns_of_cover c VO (coverC6 V c t h0 h1 _ _ _)) $$ H6
    ihave H7 := (owns_of_cover c VO (coverC7 V c t h0 h1 _ _ _)) $$ H7
    iframe
  rw [Dat.leavesExact_idle (dat V c) 5 t (idle5 t (cB2 t h1)) (noFlush5 t (cB2 t h1)), Dat.leavesExact_idle (dat V c) 6 t (idle6 t (cB2 t h1)) (noFlush6 t (cB2 t h1)), Dat.leavesExact_idle (dat V c) 7 t (idle7 t (cB2 t h1)) (noFlush7 t (cB2 t h1))]
  rw [outB_4 V c t h0 h1, outB_s0 V c t h0 h1, outB_s1 V c t h0 h1, outB_s2 V c t h0 h1]
  rw [PhiS_pos V c _ _ hz]
  generalize outsAt V c (t.val - 1) (Nat.lt_of_le_of_lt (Nat.sub_le _ _) t.isLt) = p
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((rB V c t h0 h1 p.2.2.2.2.1 p.2.2.2.2.2.1 p.2.2.2.2.2.2).2.2.2.2 ((dat V c).before 5 t d5) ((dat V c).before 6 t d6) ((dat V c).before 7 t d7) Set.univ _)
  iframe H0 H1 H2 H3 H5 H6 H7 HS0 HS1 HS2
  isplitl [H4]; · iexists _; iexact H4
  iintro ⟨H0, H1, H2, H3, H4, H5, H6, H7, HS0, HS1, HS2⟩
  ihave HS0 := (owns_of_cover c VS0 (scoverB0 V c t h0 h1 _ _ _)) $$ HS0
  ihave HS1 := (owns_of_cover c VS1 (scoverB1 V c t h0 h1 _ _ _)) $$ HS1
  ihave HS2 := (owns_of_cover c VS2 (scoverB2 V c t h0 h1 _ _ _)) $$ HS2
  ihave H4 := (owns_of_cover c VH (coverB4 V c t h0 h1 _ _ _)) $$ H4
  iframe HS0 HS1 HS2 Hr Hg Ho H0 H1 H2 H3 H4
  isplitl [H5]; · iexists _; iexact H5
  isplitl [H6]; · iexists _; iexact H6
  iexists _; iexact H7

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := .of_eq rfl

theorem hout : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_forget V c _ _

end Cert.Kernel.R0

end
-- ==== Proof.K.Runs1.lean ====
/- A hidden layer's body run in its three control cases (first, middle and last step of a core's half); each run records what it writes. -/
import proofs.«431227_j85710367359314_3_alg».proof.Proof.Gen.Kernel.Launch
import proofs.«431227_j85710367359314_3_alg».proof.Proof.Gen.Kernel.Skeleton
import proofs.«431227_j85710367359314_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 32 = 0 :=
  (by decide +kernel : ∀ t : Fin grid1.N, cond0 (grid1.coords t) ↔ t.val % 32 = 0)

abbrev cond1 (i : grid1.Coords) : Prop := (Scalar.cmpi .ne (Scalar.extui (Scalar.cmpi .sgt (BitVec.ofNat 32 (i 1).val) 0#32)) 0#32) = 1#1
theorem hcond1 : ∀ t : Fin cfg1.N, cond1 (grid1.coords t) ↔ t.val % 32 ≠ 0 :=
  (by decide +kernel : ∀ t : Fin grid1.N, cond1 (grid1.coords t) ↔ t.val % 32 ≠ 0)

abbrev cond2 (i : grid1.Coords) : Prop := k1_cond3 i = 1#1
theorem hcond2 : ∀ t : Fin cfg1.N, cond2 (grid1.coords t) ↔ t.val % 32 = 31 :=
  (by decide +kernel : ∀ t : Fin grid1.N, cond2 (grid1.coords t) ↔ t.val % 32 = 31)

theorem hN : cfg1.N = 64 := by decide

theorem liveAlways : ∀ (w : Fin 10), w.val < 7 → ∀ t : Fin cfg1.N, cfg1.idle w (grid1.coords t) = false := by decide +kernel

theorem idle7 : ∀ t : Fin cfg1.N, ¬cond2 (grid1.coords t) → cfg1.idle 7 (grid1.coords t) = true := by decide +kernel
theorem idle8 : ∀ t : Fin cfg1.N, ¬cond2 (grid1.coords t) → cfg1.idle 8 (grid1.coords t) = true := by decide +kernel
theorem idle9 : ∀ t : Fin cfg1.N, ¬cond2 (grid1.coords t) → cfg1.idle 9 (grid1.coords t) = true := by decide +kernel
theorem noFlush7 : ∀ t : Fin cfg1.N, ¬cond2 (grid1.coords t) → (cfg1.win 7).flush t = false := by decide +kernel
theorem noFlush8 : ∀ t : Fin cfg1.N, ¬cond2 (grid1.coords t) → (cfg1.win 8).flush t = false := by decide +kernel
theorem noFlush9 : ∀ t : Fin cfg1.N, ¬cond2 (grid1.coords t) → (cfg1.win 9).flush t = false := by decide +kernel
theorem live7 : ∀ t : Fin cfg1.N, cond2 (grid1.coords t) → cfg1.idle 7 (grid1.coords t) = false := by decide +kernel
theorem live8 : ∀ t : Fin cfg1.N, cond2 (grid1.coords t) → cfg1.idle 8 (grid1.coords t) = false := by decide +kernel
theorem live9 : ∀ t : Fin cfg1.N, cond2 (grid1.coords t) → cfg1.idle 9 (grid1.coords t) = false := by decide +kernel
theorem flush7 : ∀ t : Fin cfg1.N, cond2 (grid1.coords t) → (cfg1.win 7).flush t = true := by decide +kernel
theorem flush8 : ∀ t : Fin cfg1.N, cond2 (grid1.coords t) → (cfg1.win 8).flush t = true := by decide +kernel
theorem flush9 : ∀ t : Fin cfg1.N, cond2 (grid1.coords t) → (cfg1.win 9).flush t = true := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : cond0 i) (hc1 : ¬cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runB (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runC (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (L7 : List (PcO (F := F))) (L8 : List (PcO (F := F))) (L9 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.Kernel.R1

end
-- ==== Proof.K.Reg1.lean ====
/- A hidden layer's region: its proof data, and the body obligation at every grid point, case by case from the three runs. -/
import proofs.«431227_j85710367359314_3_alg».proof.Proof.K.Runs1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S8192x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S32x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S32x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S8192x1 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S8192x64 .bf16 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x32x64 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x32x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x32x64 .f32 := win1_9.stage (cfg1.slots t 9)
abbrev hs9 (t : Fin cfg1.N) : (ms9 t).IsWhole := hstage1_9 ((cfg1.slots t 9).cast nbuf1_9)

abbrev scM0 : Memref sig .tc .vmem S32x64 .f32 := Memref.whole cc1_scratch0
abbrev VS0 : View sig .tc .vmem S32x64 .f32 := scM0.view
abbrev scM1 : Memref sig .tc .vmem S32x64 .f32 := Memref.whole cc1_scratch1
abbrev VS1 : View sig .tc .vmem S32x64 .f32 := scM1.view
abbrev scM2 : Memref sig .tc .vmem S32x64 .f32 := Memref.whole cc1_scratch2
abbrev VS2 : View sig .tc .vmem S32x64 .f32 := scM2.view

abbrev VO6 : View sig .tc .vmem S8192x64 .bf16 := (Memref.whole cc1_stg6_0 : Memref sig .tc .vmem S8192x64 .bf16).view
abbrev VO7 : View sig .tc .vmem S1x32x64 .f32 := (Memref.whole cc1_stg7_0 : Memref sig .tc .vmem S1x32x64 .f32).view
abbrev VO8 : View sig .tc .vmem S1x32x64 .f32 := (Memref.whole cc1_stg8_0 : Memref sig .tc .vmem S1x32x64 .f32).view
abbrev VO9 : View sig .tc .vmem S1x32x64 .f32 := (Memref.whole cc1_stg9_0 : Memref sig .tc .vmem S1x32x64 .f32).view

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- The launch's invariant with the three running sums split off. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest1_split]; simp only [scM0, scM1, scM2, owns_whole]; try rfl

theorem live_0 : ∀ t : Fin cfg1.N, cfg1.idle 0 (grid1.coords t) = false := liveAlways 0 (by decide)
theorem live_1 : ∀ t : Fin cfg1.N, cfg1.idle 1 (grid1.coords t) = false := liveAlways 1 (by decide)
theorem live_2 : ∀ t : Fin cfg1.N, cfg1.idle 2 (grid1.coords t) = false := liveAlways 2 (by decide)
theorem live_3 : ∀ t : Fin cfg1.N, cfg1.idle 3 (grid1.coords t) = false := liveAlways 3 (by decide)
theorem live_4 : ∀ t : Fin cfg1.N, cfg1.idle 4 (grid1.coords t) = false := liveAlways 4 (by decide)
theorem live_5 : ∀ t : Fin cfg1.N, cfg1.idle 5 (grid1.coords t) = false := liveAlways 5 (by decide)
theorem live_6 : ∀ t : Fin cfg1.N, cfg1.idle 6 (grid1.coords t) = false := liveAlways 6 (by decide)

theorem first_not_last (t : Fin cfg1.N) (h : t.val % 32 = 0) : ¬t.val % 32 = 31 := by omega
theorem last_not_first (t : Fin cfg1.N) (h : t.val % 32 = 31) : ¬t.val % 32 = 0 := by omega

abbrev rA (c : Dev nD) (t : Fin cfg1.N) (h0 : t.val % 32 = 0) :=
  runA (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) ((hcond0 t).mpr h0) (fun h => (hcond1 t).mp h h0) (fun h => first_not_last t h0 ((hcond2 t).mp h)) (iblk V c 0 t) (iblk V c 1 t) (iblk V c 2 t) (iblk V c 3 t) (iblk V c 4 t) (iblk V c 5 t)

abbrev rB (c : Dev nD) (t : Fin cfg1.N) (h0 : ¬t.val % 32 = 0) (h31 : ¬t.val % 32 = 31) (xs0 : Vec F S32x64 .f32) (xs1 : Vec F S32x64 .f32) (xs2 : Vec F S32x64 .f32) :=
  runB (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => h0 ((hcond0 t).mp h)) ((hcond1 t).mpr h0) (fun h => h31 ((hcond2 t).mp h)) (iblk V c 0 t) (iblk V c 1 t) (iblk V c 2 t) (iblk V c 3 t) (iblk V c 4 t) (iblk V c 5 t) xs0 xs1 xs2

abbrev rC (c : Dev nD) (t : Fin cfg1.N) (h31 : t.val % 32 = 31) (xs0 : Vec F S32x64 .f32) (xs1 : Vec F S32x64 .f32) (xs2 : Vec F S32x64 .f32) :=
  runC (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => last_not_first t h31 ((hcond0 t).mp h)) ((hcond1 t).mpr (last_not_first t h31)) ((hcond2 t).mpr h31) (iblk V c 0 t) (iblk V c 1 t) (iblk V c 2 t) (iblk V c 3 t) (iblk V c 4 t) (iblk V c 5 t) xs0 xs1 xs2

def outA (c : Dev nD) (t : Fin cfg1.N) (h0 : t.val % 32 = 0) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rA V c t h0).1),
   VO7.read (Elt F) VO7.junk,
   VO8.read (Elt F) VO8.junk,
   VO9.read (Elt F) VO9.junk,
   VS0.read (Elt F) (VS0.writes (Elt F) VS0.junk (rA V c t h0).2.1),
   VS1.read (Elt F) (VS1.writes (Elt F) VS1.junk (rA V c t h0).2.2.1),
   VS2.read (Elt F) (VS2.writes (Elt F) VS2.junk (rA V c t h0).2.2.2.1))

def outB (c : Dev nD) (t : Fin cfg1.N) (h0 : ¬t.val % 32 = 0) (h31 : ¬t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rB V c t h0 h31 xs0 xs1 xs2).1),
   VO7.read (Elt F) VO7.junk,
   VO8.read (Elt F) VO8.junk,
   VO9.read (Elt F) VO9.junk,
   VS0.read (Elt F) (VS0.writes (Elt F) VS0.junk (rB V c t h0 h31 xs0 xs1 xs2).2.1),
   VS1.read (Elt F) (VS1.writes (Elt F) VS1.junk (rB V c t h0 h31 xs0 xs1 xs2).2.2.1),
   VS2.read (Elt F) (VS2.writes (Elt F) VS2.junk (rB V c t h0 h31 xs0 xs1 xs2).2.2.2.1))

def outC (c : Dev nD) (t : Fin cfg1.N) (h31 : t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rC V c t h31 xs0 xs1 xs2).1),
   VO7.read (Elt F) (VO7.writes (Elt F) VO7.junk (rC V c t h31 xs0 xs1 xs2).2.1),
   VO8.read (Elt F) (VO8.writes (Elt F) VO8.junk (rC V c t h31 xs0 xs1 xs2).2.2.1),
   VO9.read (Elt F) (VO9.writes (Elt F) VO9.junk (rC V c t h31 xs0 xs1 xs2).2.2.2.1),
   VS0.read (Elt F) (VS0.writes (Elt F) VS0.junk (rC V c t h31 xs0 xs1 xs2).2.2.2.2.1),
   VS1.read (Elt F) (VS1.writes (Elt F) VS1.junk (rC V c t h31 xs0 xs1 xs2).2.2.2.2.2.1),
   VS2.read (Elt F) (VS2.writes (Elt F) VS2.junk (rC V c t h31 xs0 xs1 xs2).2.2.2.2.2.2.1))

/-- What the output blocks and the three running sums hold after position n: the case n mod 32 selects, over what position n - 1 left. -/
def outsAt (c : Dev nD) : (n : ℕ) → n < cfg1.N → Vec F S8192x64 .bf16 × Vec F S1x32x64 .f32 × Vec F S1x32x64 .f32 × Vec F S1x32x64 .f32 × Vec F S32x64 .f32 × Vec F S32x64 .f32 × Vec F S32x64 .f32
  | 0, hn => outA V c ⟨0, hn⟩ (Nat.zero_mod _)
  | n + 1, hn =>
    if h0 : (n + 1) % 32 = 0 then
      outA V c ⟨n + 1, hn⟩ h0
    else
      if h31 : (n + 1) % 32 = 31 then
        outC V c ⟨n + 1, hn⟩ h31 (outsAt c n (Nat.lt_of_succ_lt hn)).2.2.2.2.1 (outsAt c n (Nat.lt_of_succ_lt hn)).2.2.2.2.2.1 (outsAt c n (Nat.lt_of_succ_lt hn)).2.2.2.2.2.2
      else
        outB V c ⟨n + 1, hn⟩ h0 h31 (outsAt c n (Nat.lt_of_succ_lt hn)).2.2.2.2.1 (outsAt c n (Nat.lt_of_succ_lt hn)).2.2.2.2.2.1 (outsAt c n (Nat.lt_of_succ_lt hn)).2.2.2.2.2.2

theorem outsAt_A (c : Dev nD) (t : Fin cfg1.N) (h0 : t.val % 32 = 0) :
    outsAt V c t.val t.isLt = outA V c t h0 := by
  obtain ⟨n, hn⟩ := t
  cases n with
  | zero => exact rfl
  | succ n => exact (dif_pos h0).trans rfl

theorem outsAt_B (c : Dev nD) (t : Fin cfg1.N) (h0 : ¬t.val % 32 = 0) (h31 : ¬t.val % 32 = 31) :
    outsAt V c t.val t.isLt = outB V c t h0 h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h31).trans rfl)

theorem outsAt_C (c : Dev nD) (t : Fin cfg1.N) (h31 : t.val % 32 = 31) :
    outsAt V c t.val t.isLt = outC V c t h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h31); exact absurd h31 (by decide))
  | succ n => exact (dif_neg (last_not_first ⟨n + 1, hn⟩ h31)).trans ((dif_pos h31).trans rfl)

/-- The invariant before position n: the running sums at what position n - 1 left them, at anything before the first. -/
def PhiS (c : Dev nD) : (n : ℕ) → n ≤ cfg1.N → sProp 𝕄
  | 0, _ => Pipeline.ΦA spec1 c
  | n + 1, hn => iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare ((outsAt V c (n - 1) (by omega)).2.2.2.2.1) ∗ owns (c : Thread nD τ) scM1 fullShare ((outsAt V c (n - 1) (by omega)).2.2.2.2.2.1) ∗ owns (c : Thread nD τ) scM2 fullShare ((outsAt V c (n - 1) (by omega)).2.2.2.2.2.2)) ∗ restBut (F := F) c) ∗ (∃ r, prngReg c r)) := by
  cases n with
  | zero => exact absurd rfl hz
  | succ n => rfl

/-- At any position the invariant gives the running sums at some contents, as the launch hands them over. -/
theorem Phi_any (c : Dev nD) (n : ℕ) (h : n ≤ cfg1.N) :
    PhiS V c n h ⊢ iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  cases n with
  | zero => rw [PhiS_zero V c 0 h rfl, PhiA_eq]
  | succ n =>
    rw [PhiS_succ]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-- The proof data: the arrays as found, each input at its block, each output at outsAt, the invariant PhiS. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
    | ⟨9, _⟩ => (outsAt V c t.val t.isLt).2.2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]
theorem after_7 (c : Dev nD) (t : Fin cfg1.N) : (dat V c).after 7 t = (outsAt V c t.val t.isLt).2.1 := by dsimp only [dat]
theorem after_8 (c : Dev nD) (t : Fin cfg1.N) : (dat V c).after 8 t = (outsAt V c t.val t.isLt).2.2.1 := by dsimp only [dat]
theorem after_9 (c : Dev nD) (t : Fin cfg1.N) : (dat V c).after 9 t = (outsAt V c t.val t.isLt).2.2.2.1 := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d

theorem leaves_0 (c : Dev nD) (t : Fin cfg1.N) : (dat V c).leavesExact 0 t = owns (c : Thread nD τ) (ms0 t) fullShare (iblk V c 0 t) := by
  unfold Dat.leavesExact; rw [live_0 t, after_0]
theorem leaves_1 (c : Dev nD) (t : Fin cfg1.N) : (dat V c).leavesExact 1 t = owns (c : Thread nD τ) (ms1 t) fullShare (iblk V c 1 t) := by
  unfold Dat.leavesExact; rw [live_1 t, after_1]
theorem leaves_2 (c : Dev nD) (t : Fin cfg1.N) : (dat V c).leavesExact 2 t = owns (c : Thread nD τ) (ms2 t) fullShare (iblk V c 2 t) := by
  unfold Dat.leavesExact; rw [live_2 t, after_2]
theorem leaves_3 (c : Dev nD) (t : Fin cfg1.N) : (dat V c).leavesExact 3 t = owns (c : Thread nD τ) (ms3 t) fullShare (iblk V c 3 t) := by
  unfold Dat.leavesExact; rw [live_3 t, after_3]
theorem leaves_4 (c : Dev nD) (t : Fin cfg1.N) : (dat V c).leavesExact 4 t = owns (c : Thread nD τ) (ms4 t) fullShare (iblk V c 4 t) := by
  unfold Dat.leavesExact; rw [live_4 t, after_4]
theorem leaves_5 (c : Dev nD) (t : Fin cfg1.N) : (dat V c).leavesExact 5 t = owns (c : Thread nD τ) (ms5 t) fullShare (iblk V c 5 t) := by
  unfold Dat.leavesExact; rw [live_5 t, after_5]
theorem leaves_6 (c : Dev nD) (t : Fin cfg1.N) : (dat V c).leavesExact 6 t = owns (c : Thread nD τ) (ms6 t) fullShare ((outsAt V c t.val t.isLt).1) := by
  unfold Dat.leavesExact; rw [live_6 t, after_6]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 3200000 in
/-- The body at a first step: the running sums are set, so any contents will do for them. -/
theorem sound_A (c : Dev nD) (t : Fin cfg1.N) (h0 : t.val % 32 = 0) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid1.coords t) := fun h => first_not_last t h0 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_A V c t h0]
  unfold outA; (try dsimp only)
  rw [PhiS_castSucc V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (Phi_any V c _ _) $$ HΦ
  icases HΦ' with ⟨⟨⟨HS0, HS1, HS2⟩, HR⟩, Hg⟩
  iapply ((rA V c t h0).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a middle step: the running sums are read at what the step before left and added to. -/
theorem sound_B (c : Dev nD) (t : Fin cfg1.N) (h0 : ¬t.val % 32 = 0) (h31 : ¬t.val % 32 = 31) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid1.coords t) := fun h => h31 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_B V c t h0 h31]
  unfold outB; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB V c t h0 h31 _ _ _).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a last step: as a middle step, and the three partial-sum outputs take the finished sums. -/
theorem sound_C (c : Dev nD) (t : Fin cfg1.N) (h31 : t.val % 32 = 31) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  rw [show (dat V c).leavesExact 7 t = owns (c : Thread nD τ) (ms7 t) fullShare ((dat V c).after 7 t) from by
    unfold Dat.leavesExact; rw [live7 t ((hcond2 t).mpr h31)], after_7]
  rw [show (dat V c).leavesExact 8 t = owns (c : Thread nD τ) (ms8 t) fullShare ((dat V c).after 8 t) from by
    unfold Dat.leavesExact; rw [live8 t ((hcond2 t).mpr h31)], after_8]
  rw [show (dat V c).leavesExact 9 t = owns (c : Thread nD τ) (ms9 t) fullShare ((dat V c).after 9 t) from by
    unfold Dat.leavesExact; rw [live9 t ((hcond2 t).mpr h31)], after_9]
  rw [outsAt_C V c t h31]
  unfold outC; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC V c t h31 _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]
  · ihave H' := (Ring.owns_of_writes_tiledL VO7 S1x32x64.size) $$ H7; iapply H'; ipureintro; sl_kernel_rfl
  isplitl [H8]
  · ihave H' := (Ring.owns_of_writes_tiledL VO8 S1x32x64.size) $$ H8; iapply H'; ipureintro; sl_kernel_rfl
  ihave H' := (Ring.owns_of_writes_tiledL VO9 S1x32x64.size) $$ H9; iapply H'; ipureintro; sl_kernel_rfl

theorem sound_body (c : Dev nD) (t : Fin cfg1.N) :
    bodyPre V c t ⊢ wp frame (wpE (defs₀ (F := F)) Variants.none c none) Set.univ (bodyAt1 t) (fun _ => bodyPost V c t) := by
  by_cases h0 : t.val % 32 = 0
  · exact sound_A V c t h0
  · by_cases h31 : t.val % 32 = 31
    · exact sound_C V c t h31
    · exact sound_B V c t h0 h31

/-- The body obligation at every point: the step t mod 32 says which case applies. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) : (dat V c).Φ t ⊢ Pipeline.ΦA spec1 c := by
  rw [show (dat V c).Φ t = PhiS V c t.val (Nat.le_of_lt_succ t.isLt) from rfl, PhiA_eq]; exact Phi_any V c _ _

theorem hout (c : Dev nD) : (dat V c).Φ (Fin.last cfg1.N) ⊢ Pipeline.ΦA spec1 c := Phi_out V c _

end Cert.Kernel.R1

end
-- ==== Proof.K.Runs2.lean ====
/- A hidden layer's body run in its three control cases (first, middle and last step of a core's half); each run records what it writes. -/
import proofs.«431227_j85710367359314_3_alg».proof.Proof.Gen.Kernel.Launch
import proofs.«431227_j85710367359314_3_alg».proof.Proof.Gen.Kernel.Skeleton
import proofs.«431227_j85710367359314_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 32 = 0 :=
  (by decide +kernel : ∀ t : Fin grid2.N, cond0 (grid2.coords t) ↔ t.val % 32 = 0)

abbrev cond1 (i : grid2.Coords) : Prop := (Scalar.cmpi .ne (Scalar.extui (Scalar.cmpi .sgt (BitVec.ofNat 32 (i 1).val) 0#32)) 0#32) = 1#1
theorem hcond1 : ∀ t : Fin cfg2.N, cond1 (grid2.coords t) ↔ t.val % 32 ≠ 0 :=
  (by decide +kernel : ∀ t : Fin grid2.N, cond1 (grid2.coords t) ↔ t.val % 32 ≠ 0)

abbrev cond2 (i : grid2.Coords) : Prop := k2_cond3 i = 1#1
theorem hcond2 : ∀ t : Fin cfg2.N, cond2 (grid2.coords t) ↔ t.val % 32 = 31 :=
  (by decide +kernel : ∀ t : Fin grid2.N, cond2 (grid2.coords t) ↔ t.val % 32 = 31)

theorem hN : cfg2.N = 64 := by decide

theorem liveAlways : ∀ (w : Fin 10), w.val < 7 → ∀ t : Fin cfg2.N, cfg2.idle w (grid2.coords t) = false := by decide +kernel

theorem idle7 : ∀ t : Fin cfg2.N, ¬cond2 (grid2.coords t) → cfg2.idle 7 (grid2.coords t) = true := by decide +kernel
theorem idle8 : ∀ t : Fin cfg2.N, ¬cond2 (grid2.coords t) → cfg2.idle 8 (grid2.coords t) = true := by decide +kernel
theorem idle9 : ∀ t : Fin cfg2.N, ¬cond2 (grid2.coords t) → cfg2.idle 9 (grid2.coords t) = true := by decide +kernel
theorem noFlush7 : ∀ t : Fin cfg2.N, ¬cond2 (grid2.coords t) → (cfg2.win 7).flush t = false := by decide +kernel
theorem noFlush8 : ∀ t : Fin cfg2.N, ¬cond2 (grid2.coords t) → (cfg2.win 8).flush t = false := by decide +kernel
theorem noFlush9 : ∀ t : Fin cfg2.N, ¬cond2 (grid2.coords t) → (cfg2.win 9).flush t = false := by decide +kernel
theorem live7 : ∀ t : Fin cfg2.N, cond2 (grid2.coords t) → cfg2.idle 7 (grid2.coords t) = false := by decide +kernel
theorem live8 : ∀ t : Fin cfg2.N, cond2 (grid2.coords t) → cfg2.idle 8 (grid2.coords t) = false := by decide +kernel
theorem live9 : ∀ t : Fin cfg2.N, cond2 (grid2.coords t) → cfg2.idle 9 (grid2.coords t) = false := by decide +kernel
theorem flush7 : ∀ t : Fin cfg2.N, cond2 (grid2.coords t) → (cfg2.win 7).flush t = true := by decide +kernel
theorem flush8 : ∀ t : Fin cfg2.N, cond2 (grid2.coords t) → (cfg2.win 8).flush t = true := by decide +kernel
theorem flush9 : ∀ t : Fin cfg2.N, cond2 (grid2.coords t) → (cfg2.win 9).flush t = true := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : cond0 i) (hc1 : ¬cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runB (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runC (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (L7 : List (PcO (F := F))) (L8 : List (PcO (F := F))) (L9 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.Kernel.R2

end
-- ==== Proof.K.Reg2.lean ====
/- A hidden layer's region: its proof data, and the body obligation at every grid point, case by case from the three runs. -/
import proofs.«431227_j85710367359314_3_alg».proof.Proof.K.Runs2

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg2.N) : Memref sig .tc .vmem S8192x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S32x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S32x64 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S64x64 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x64 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S8192x1 .i32 := win2_5.stage (cfg2.slots t 5)
abbrev hs5 (t : Fin cfg2.N) : (ms5 t).IsWhole := hstage2_5 ((cfg2.slots t 5).cast nbuf2_5)
abbrev ms6 (t : Fin cfg2.N) : Memref sig .tc .vmem S8192x64 .bf16 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x32x64 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x32x64 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S1x32x64 .f32 := win2_9.stage (cfg2.slots t 9)
abbrev hs9 (t : Fin cfg2.N) : (ms9 t).IsWhole := hstage2_9 ((cfg2.slots t 9).cast nbuf2_9)

abbrev scM0 : Memref sig .tc .vmem S32x64 .f32 := Memref.whole cc2_scratch0
abbrev VS0 : View sig .tc .vmem S32x64 .f32 := scM0.view
abbrev scM1 : Memref sig .tc .vmem S32x64 .f32 := Memref.whole cc2_scratch1
abbrev VS1 : View sig .tc .vmem S32x64 .f32 := scM1.view
abbrev scM2 : Memref sig .tc .vmem S32x64 .f32 := Memref.whole cc2_scratch2
abbrev VS2 : View sig .tc .vmem S32x64 .f32 := scM2.view

abbrev VO6 : View sig .tc .vmem S8192x64 .bf16 := (Memref.whole cc2_stg6_0 : Memref sig .tc .vmem S8192x64 .bf16).view
abbrev VO7 : View sig .tc .vmem S1x32x64 .f32 := (Memref.whole cc2_stg7_0 : Memref sig .tc .vmem S1x32x64 .f32).view
abbrev VO8 : View sig .tc .vmem S1x32x64 .f32 := (Memref.whole cc2_stg8_0 : Memref sig .tc .vmem S1x32x64 .f32).view
abbrev VO9 : View sig .tc .vmem S1x32x64 .f32 := (Memref.whole cc2_stg9_0 : Memref sig .tc .vmem S1x32x64 .f32).view

abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The launch's invariant with the three running sums split off. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest2_split]; simp only [scM0, scM1, scM2, owns_whole]; try rfl

theorem live_0 : ∀ t : Fin cfg2.N, cfg2.idle 0 (grid2.coords t) = false := liveAlways 0 (by decide)
theorem live_1 : ∀ t : Fin cfg2.N, cfg2.idle 1 (grid2.coords t) = false := liveAlways 1 (by decide)
theorem live_2 : ∀ t : Fin cfg2.N, cfg2.idle 2 (grid2.coords t) = false := liveAlways 2 (by decide)
theorem live_3 : ∀ t : Fin cfg2.N, cfg2.idle 3 (grid2.coords t) = false := liveAlways 3 (by decide)
theorem live_4 : ∀ t : Fin cfg2.N, cfg2.idle 4 (grid2.coords t) = false := liveAlways 4 (by decide)
theorem live_5 : ∀ t : Fin cfg2.N, cfg2.idle 5 (grid2.coords t) = false := liveAlways 5 (by decide)
theorem live_6 : ∀ t : Fin cfg2.N, cfg2.idle 6 (grid2.coords t) = false := liveAlways 6 (by decide)

theorem first_not_last (t : Fin cfg2.N) (h : t.val % 32 = 0) : ¬t.val % 32 = 31 := by omega
theorem last_not_first (t : Fin cfg2.N) (h : t.val % 32 = 31) : ¬t.val % 32 = 0 := by omega

abbrev rA (c : Dev nD) (t : Fin cfg2.N) (h0 : t.val % 32 = 0) :=
  runA (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) ((hcond0 t).mpr h0) (fun h => (hcond1 t).mp h h0) (fun h => first_not_last t h0 ((hcond2 t).mp h)) (iblk V c 0 t) (iblk V c 1 t) (iblk V c 2 t) (iblk V c 3 t) (iblk V c 4 t) (iblk V c 5 t)

abbrev rB (c : Dev nD) (t : Fin cfg2.N) (h0 : ¬t.val % 32 = 0) (h31 : ¬t.val % 32 = 31) (xs0 : Vec F S32x64 .f32) (xs1 : Vec F S32x64 .f32) (xs2 : Vec F S32x64 .f32) :=
  runB (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => h0 ((hcond0 t).mp h)) ((hcond1 t).mpr h0) (fun h => h31 ((hcond2 t).mp h)) (iblk V c 0 t) (iblk V c 1 t) (iblk V c 2 t) (iblk V c 3 t) (iblk V c 4 t) (iblk V c 5 t) xs0 xs1 xs2

abbrev rC (c : Dev nD) (t : Fin cfg2.N) (h31 : t.val % 32 = 31) (xs0 : Vec F S32x64 .f32) (xs1 : Vec F S32x64 .f32) (xs2 : Vec F S32x64 .f32) :=
  runC (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => last_not_first t h31 ((hcond0 t).mp h)) ((hcond1 t).mpr (last_not_first t h31)) ((hcond2 t).mpr h31) (iblk V c 0 t) (iblk V c 1 t) (iblk V c 2 t) (iblk V c 3 t) (iblk V c 4 t) (iblk V c 5 t) xs0 xs1 xs2

def outA (c : Dev nD) (t : Fin cfg2.N) (h0 : t.val % 32 = 0) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rA V c t h0).1),
   VO7.read (Elt F) VO7.junk,
   VO8.read (Elt F) VO8.junk,
   VO9.read (Elt F) VO9.junk,
   VS0.read (Elt F) (VS0.writes (Elt F) VS0.junk (rA V c t h0).2.1),
   VS1.read (Elt F) (VS1.writes (Elt F) VS1.junk (rA V c t h0).2.2.1),
   VS2.read (Elt F) (VS2.writes (Elt F) VS2.junk (rA V c t h0).2.2.2.1))

def outB (c : Dev nD) (t : Fin cfg2.N) (h0 : ¬t.val % 32 = 0) (h31 : ¬t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rB V c t h0 h31 xs0 xs1 xs2).1),
   VO7.read (Elt F) VO7.junk,
   VO8.read (Elt F) VO8.junk,
   VO9.read (Elt F) VO9.junk,
   VS0.read (Elt F) (VS0.writes (Elt F) VS0.junk (rB V c t h0 h31 xs0 xs1 xs2).2.1),
   VS1.read (Elt F) (VS1.writes (Elt F) VS1.junk (rB V c t h0 h31 xs0 xs1 xs2).2.2.1),
   VS2.read (Elt F) (VS2.writes (Elt F) VS2.junk (rB V c t h0 h31 xs0 xs1 xs2).2.2.2.1))

def outC (c : Dev nD) (t : Fin cfg2.N) (h31 : t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rC V c t h31 xs0 xs1 xs2).1),
   VO7.read (Elt F) (VO7.writes (Elt F) VO7.junk (rC V c t h31 xs0 xs1 xs2).2.1),
   VO8.read (Elt F) (VO8.writes (Elt F) VO8.junk (rC V c t h31 xs0 xs1 xs2).2.2.1),
   VO9.read (Elt F) (VO9.writes (Elt F) VO9.junk (rC V c t h31 xs0 xs1 xs2).2.2.2.1),
   VS0.read (Elt F) (VS0.writes (Elt F) VS0.junk (rC V c t h31 xs0 xs1 xs2).2.2.2.2.1),
   VS1.read (Elt F) (VS1.writes (Elt F) VS1.junk (rC V c t h31 xs0 xs1 xs2).2.2.2.2.2.1),
   VS2.read (Elt F) (VS2.writes (Elt F) VS2.junk (rC V c t h31 xs0 xs1 xs2).2.2.2.2.2.2.1))

/-- What the output blocks and the three running sums hold after position n: the case n mod 32 selects, over what position n - 1 left. -/
def outsAt (c : Dev nD) : (n : ℕ) → n < cfg2.N → Vec F S8192x64 .bf16 × Vec F S1x32x64 .f32 × Vec F S1x32x64 .f32 × Vec F S1x32x64 .f32 × Vec F S32x64 .f32 × Vec F S32x64 .f32 × Vec F S32x64 .f32
  | 0, hn => outA V c ⟨0, hn⟩ (Nat.zero_mod _)
  | n + 1, hn =>
    if h0 : (n + 1) % 32 = 0 then
      outA V c ⟨n + 1, hn⟩ h0
    else
      if h31 : (n + 1) % 32 = 31 then
        outC V c ⟨n + 1, hn⟩ h31 (outsAt c n (Nat.lt_of_succ_lt hn)).2.2.2.2.1 (outsAt c n (Nat.lt_of_succ_lt hn)).2.2.2.2.2.1 (outsAt c n (Nat.lt_of_succ_lt hn)).2.2.2.2.2.2
      else
        outB V c ⟨n + 1, hn⟩ h0 h31 (outsAt c n (Nat.lt_of_succ_lt hn)).2.2.2.2.1 (outsAt c n (Nat.lt_of_succ_lt hn)).2.2.2.2.2.1 (outsAt c n (Nat.lt_of_succ_lt hn)).2.2.2.2.2.2

theorem outsAt_A (c : Dev nD) (t : Fin cfg2.N) (h0 : t.val % 32 = 0) :
    outsAt V c t.val t.isLt = outA V c t h0 := by
  obtain ⟨n, hn⟩ := t
  cases n with
  | zero => exact rfl
  | succ n => exact (dif_pos h0).trans rfl

theorem outsAt_B (c : Dev nD) (t : Fin cfg2.N) (h0 : ¬t.val % 32 = 0) (h31 : ¬t.val % 32 = 31) :
    outsAt V c t.val t.isLt = outB V c t h0 h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h31).trans rfl)

theorem outsAt_C (c : Dev nD) (t : Fin cfg2.N) (h31 : t.val % 32 = 31) :
    outsAt V c t.val t.isLt = outC V c t h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h31); exact absurd h31 (by decide))
  | succ n => exact (dif_neg (last_not_first ⟨n + 1, hn⟩ h31)).trans ((dif_pos h31).trans rfl)

/-- The invariant before position n: the running sums at what position n - 1 left them, at anything before the first. -/
def PhiS (c : Dev nD) : (n : ℕ) → n ≤ cfg2.N → sProp 𝕄
  | 0, _ => Pipeline.ΦA spec2 c
  | n + 1, hn => iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM0 fullShare ((outsAt V c (n - 1) (by omega)).2.2.2.2.1) ∗ owns (c : Thread nD τ) scM1 fullShare ((outsAt V c (n - 1) (by omega)).2.2.2.2.2.1) ∗ owns (c : Thread nD τ) scM2 fullShare ((outsAt V c (n - 1) (by omega)).2.2.2.2.2.2)) ∗ restBut (F := F) c) ∗ (∃ r, prngReg c r)) := by
  cases n with
  | zero => exact absurd rfl hz
  | succ n => rfl

/-- At any position the invariant gives the running sums at some contents, as the launch hands them over. -/
theorem Phi_any (c : Dev nD) (n : ℕ) (h : n ≤ cfg2.N) :
    PhiS V c n h ⊢ iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  cases n with
  | zero => rw [PhiS_zero V c 0 h rfl, PhiA_eq]
  | succ n =>
    rw [PhiS_succ]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-- The proof data: the arrays as found, each input at its block, each output at outsAt, the invariant PhiS. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
    | ⟨9, _⟩ => (outsAt V c t.val t.isLt).2.2.2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = (outsAt V c t.val t.isLt).1 := by dsimp only [dat]
theorem after_7 (c : Dev nD) (t : Fin cfg2.N) : (dat V c).after 7 t = (outsAt V c t.val t.isLt).2.1 := by dsimp only [dat]
theorem after_8 (c : Dev nD) (t : Fin cfg2.N) : (dat V c).after 8 t = (outsAt V c t.val t.isLt).2.2.1 := by dsimp only [dat]
theorem after_9 (c : Dev nD) (t : Fin cfg2.N) : (dat V c).after 9 t = (outsAt V c t.val t.isLt).2.2.2.1 := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d

theorem leaves_0 (c : Dev nD) (t : Fin cfg2.N) : (dat V c).leavesExact 0 t = owns (c : Thread nD τ) (ms0 t) fullShare (iblk V c 0 t) := by
  unfold Dat.leavesExact; rw [live_0 t, after_0]
theorem leaves_1 (c : Dev nD) (t : Fin cfg2.N) : (dat V c).leavesExact 1 t = owns (c : Thread nD τ) (ms1 t) fullShare (iblk V c 1 t) := by
  unfold Dat.leavesExact; rw [live_1 t, after_1]
theorem leaves_2 (c : Dev nD) (t : Fin cfg2.N) : (dat V c).leavesExact 2 t = owns (c : Thread nD τ) (ms2 t) fullShare (iblk V c 2 t) := by
  unfold Dat.leavesExact; rw [live_2 t, after_2]
theorem leaves_3 (c : Dev nD) (t : Fin cfg2.N) : (dat V c).leavesExact 3 t = owns (c : Thread nD τ) (ms3 t) fullShare (iblk V c 3 t) := by
  unfold Dat.leavesExact; rw [live_3 t, after_3]
theorem leaves_4 (c : Dev nD) (t : Fin cfg2.N) : (dat V c).leavesExact 4 t = owns (c : Thread nD τ) (ms4 t) fullShare (iblk V c 4 t) := by
  unfold Dat.leavesExact; rw [live_4 t, after_4]
theorem leaves_5 (c : Dev nD) (t : Fin cfg2.N) : (dat V c).leavesExact 5 t = owns (c : Thread nD τ) (ms5 t) fullShare (iblk V c 5 t) := by
  unfold Dat.leavesExact; rw [live_5 t, after_5]
theorem leaves_6 (c : Dev nD) (t : Fin cfg2.N) : (dat V c).leavesExact 6 t = owns (c : Thread nD τ) (ms6 t) fullShare ((outsAt V c t.val t.isLt).1) := by
  unfold Dat.leavesExact; rw [live_6 t, after_6]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 3200000 in
/-- The body at a first step: the running sums are set, so any contents will do for them. -/
theorem sound_A (c : Dev nD) (t : Fin cfg2.N) (h0 : t.val % 32 = 0) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid2.coords t) := fun h => first_not_last t h0 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_A V c t h0]
  unfold outA; (try dsimp only)
  rw [PhiS_castSucc V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (Phi_any V c _ _) $$ HΦ
  icases HΦ' with ⟨⟨⟨HS0, HS1, HS2⟩, HR⟩, Hg⟩
  iapply ((rA V c t h0).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a middle step: the running sums are read at what the step before left and added to. -/
theorem sound_B (c : Dev nD) (t : Fin cfg2.N) (h0 : ¬t.val % 32 = 0) (h31 : ¬t.val % 32 = 31) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid2.coords t) := fun h => h31 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_B V c t h0 h31]
  unfold outB; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB V c t h0 h31 _ _ _).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a last step: as a middle step, and the three partial-sum outputs take the finished sums. -/
theorem sound_C (c : Dev nD) (t : Fin cfg2.N) (h31 : t.val % 32 = 31) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  rw [show (dat V c).leavesExact 7 t = owns (c : Thread nD τ) (ms7 t) fullShare ((dat V c).after 7 t) from by
    unfold Dat.leavesExact; rw [live7 t ((hcond2 t).mpr h31)], after_7]
  rw [show (dat V c).leavesExact 8 t = owns (c : Thread nD τ) (ms8 t) fullShare ((dat V c).after 8 t) from by
    unfold Dat.leavesExact; rw [live8 t ((hcond2 t).mpr h31)], after_8]
  rw [show (dat V c).leavesExact 9 t = owns (c : Thread nD τ) (ms9 t) fullShare ((dat V c).after 9 t) from by
    unfold Dat.leavesExact; rw [live9 t ((hcond2 t).mpr h31)], after_9]
  rw [outsAt_C V c t h31]
  unfold outC; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC V c t h31 _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]
  · ihave H' := (Ring.owns_of_writes_tiledL VO7 S1x32x64.size) $$ H7; iapply H'; ipureintro; sl_kernel_rfl
  isplitl [H8]
  · ihave H' := (Ring.owns_of_writes_tiledL VO8 S1x32x64.size) $$ H8; iapply H'; ipureintro; sl_kernel_rfl
  ihave H' := (Ring.owns_of_writes_tiledL VO9 S1x32x64.size) $$ H9; iapply H'; ipureintro; sl_kernel_rfl

theorem sound_body (c : Dev nD) (t : Fin cfg2.N) :
    bodyPre V c t ⊢ wp frame (wpE (defs₀ (F := F)) Variants.none c none) Set.univ (bodyAt2 t) (fun _ => bodyPost V c t) := by
  by_cases h0 : t.val % 32 = 0
  · exact sound_A V c t h0
  · by_cases h31 : t.val % 32 = 31
    · exact sound_C V c t h31
    · exact sound_B V c t h0 h31

/-- The body obligation at every point: the step t mod 32 says which case applies. -/
theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) : (dat V c).Φ t ⊢ Pipeline.ΦA spec2 c := by
  rw [show (dat V c).Φ t = PhiS V c t.val (Nat.le_of_lt_succ t.isLt) from rfl, PhiA_eq]; exact Phi_any V c _ _

theorem hout (c : Dev nD) : (dat V c).Φ (Fin.last cfg2.N) ⊢ Pipeline.ΦA spec2 c := Phi_out V c _

end Cert.Kernel.R2

end
-- ==== Proof.K.Runs3.lean ====
/- The last layer's body run once; the run records what it writes. -/
import proofs.«431227_j85710367359314_3_alg».proof.Proof.Gen.Kernel.Launch
import proofs.«431227_j85710367359314_3_alg».proof.Proof.Gen.Kernel.Skeleton
import proofs.«431227_j85710367359314_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem live3 : ∀ (w : Fin 7) (t : Fin cfg3.N), cfg3.idle w (grid3.coords t) = false := by decide +kernel

abbrev PcO := View.Piece (Elt F) S8192x3 .f32

set_option maxHeartbeats 4000000 in
noncomputable def run (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) :
    { L6 : List (PcO (F := F)) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc3__norm_fwd_final_kernel i arg1 harg1 arg2 harg2 arg3 harg3 arg4 harg4 arg5 harg5 arg6 harg6 arg7 harg7) K } := by
  refine ⟨?_, fun E K => ?run⟩
  case run =>
    simp only [cc3__norm_fwd_final_kernel_eq_skeleton]; unfold cc3__norm_fwd_final_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Kernel.R3

end
-- ==== Proof.K.Reg3.lean ====
/- The last region's proof data and its body obligation at every grid point. -/
import proofs.«431227_j85710367359314_3_alg».proof.Proof.K.Runs3

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg3.N) : Memref sig .tc .vmem S8192x64 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S32x64 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S32x64 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S3x64 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x3 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S8192x1 .i32 := win3_5.stage (cfg3.slots t 5)
abbrev hs5 (t : Fin cfg3.N) : (ms5 t).IsWhole := hstage3_5 ((cfg3.slots t 5).cast nbuf3_5)
abbrev ms6 (t : Fin cfg3.N) : Memref sig .tc .vmem S8192x3 .f32 := win3_6.stage (cfg3.slots t 6)
abbrev hs6 (t : Fin cfg3.N) : (ms6 t).IsWhole := hstage3_6 ((cfg3.slots t 6).cast nbuf3_6)

abbrev VO : View sig .tc .vmem S8192x3 .f32 := (Memref.whole cc3_stg6_0 : Memref sig .tc .vmem S8192x3 .f32).view

theorem cover (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) (y : S8192x3.Idx) :
    ∃ pc ∈ (run c i arg1 harg1 arg2 harg2 arg3 harg3 arg4 harg4 arg5 harg5 arg6 harg6 arg7 harg7 x0 x1 x2 x3 x4 x5).1, y ∈ pc.1.set :=
  View.cover_of_tiledL (run c i arg1 harg1 arg2 harg2 arg3 harg3 arg4 harg4 arg5 harg5 arg6 harg6 arg7 harg7 x0 x1 x2 x3 x4 x5).1 S8192x3.size (by sl_kernel_rfl) y

def out (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) : Vec F S8192x3 .f32 :=
  VO.read (Elt F) (VO.writes (Elt F) VO.junk (run c i arg1 harg1 arg2 harg2 arg3 harg3 arg4 harg4 arg5 harg5 arg6 harg6 arg7 harg7 x0 x1 x2 x3 x4 x5).1)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = out c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d
theorem before_3 (c : Dev nD) (t : Fin cfg3.N) (d) : (dat V c).before 3 t d = iblk V c 3 t :=
  before_of_3 V (dat V c) (A_eq V c 3) (after_3 V c) t d
theorem before_4 (c : Dev nD) (t : Fin cfg3.N) (d) : (dat V c).before 4 t d = iblk V c 4 t :=
  before_of_4 V (dat V c) (A_eq V c 4) (after_4 V c) t d
theorem before_5 (c : Dev nD) (t : Fin cfg3.N) (d) : (dat V c).before 5 t d = iblk V c 5 t :=
  before_of_5 V (dat V c) (A_eq V c 5) (after_5 V c) t d

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg3.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 1600000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold out
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((run c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := .rfl

theorem hout (c : Dev nD) : (dat V c).Φ (Fin.last cfg3.N) ⊢ Pipeline.ΦA spec3 c := .rfl

end Cert.Kernel.R3

end
-- ==== Proof.K.Main.lean ====
import proofs.«431227_j85710367359314_3_alg».proof.Proof.K.Reg0
import proofs.«431227_j85710367359314_3_alg».proof.Proof.K.Reg1
import proofs.«431227_j85710367359314_3_alg».proof.Proof.K.Reg2
import proofs.«431227_j85710367359314_3_alg».proof.Proof.K.Reg3
import proofs.«431227_j85710367359314_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg) (c : Dev nD)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Valuation τ sig (Elt F) :=
  Pipeline.withArrays spec0 c (W1 m ρ c) fun w => (R0.dat (V1 m ρ) c).arrAt w cfg0.N
theorem W2_arr (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((R0.dat (V1 m ρ) c).arrAt_in w hin _).trans (R0.A_eq (V1 m ρ) c w))
theorem W1_of (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Valuation τ sig (Elt F) :=
  Pipeline.withArrays spec1 c (W3 m ρ c) fun w => (R1.dat (V3 m ρ) c).arrAt w cfg1.N
theorem W4_arr (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((R1.dat (V3 m ρ) c).arrAt_in w hin _).trans (R1.A_eq (V3 m ρ) c w))
theorem W3_of (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Valuation τ sig (Elt F) :=
  Pipeline.withArrays spec2 c (W5 m ρ c) fun w => (R2.dat (V5 m ρ) c).arrAt w cfg2.N
theorem W6_arr (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_in (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((R2.dat (V5 m ρ) c).arrAt_in w hin _).trans (R2.A_eq (V5 m ρ) c w))
theorem W5_of (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 : Valuation τ sig (Elt F) :=
  Pipeline.withArrays spec3 c (W7 m ρ c) fun w => (R3.dat (V7 m ρ) c).arrAt w cfg3.N
theorem W8_arr (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W7_of (r : Ref sig .tc) (h : r ∉ hostOps3_W) :
    W7 m ρ c (Proc.devRef .tc r) = W6 m ρ c (Proc.devRef .tc r) :=
  StableHlo.after_of_writes_sub hostOps3 _ hostOps3_writes h

theorem W8_out : W8 m ρ c (Proc.devRef .tc main_v59) = (R3.dat (V7 m ρ) c).arrAt 6 cfg3.N :=
  W8_arr m ρ c 6

def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
-- A region leaves a buffer as it found it unless the buffer is one of its output arrays.
set_option backward.isDefEq.respectTransparency.types false in
theorem keep (p : Fin 4) (Wi Wo : Dev nD → Valuation τ sig (Elt F))
    (hA : ∀ w, (pdats m ρ p c).A w = Wi c (Proc.devRef .tc (Pipeline.arrRef (cfgs p).spec w)))
    (hF : ∀ w, (pdats m ρ p c).arrAt w (cfgs p).N = Wo c (Proc.devRef .tc (Pipeline.arrRef (cfgs p).spec w)))
    (hrest : ∀ b : Ref sig .tc, (∀ w, Pipeline.arrRef (cfgs p).spec w ≠ b) → Wo c (Proc.devRef .tc b) = Wi c (Proc.devRef .tc b))
    (b : Ref sig .tc) (h : ∀ w, Pipeline.arrRef (cfgs p).spec w = b → ((cfgs p).win w).isOut = false) :
    Wo c (Proc.devRef .tc b) = Wi c (Proc.devRef .tc b) := by
  by_cases e : ∃ w, Pipeline.arrRef (cfgs p).spec w = b
  · obtain ⟨w, rfl⟩ := e
    exact (hF w).symm.trans (((pdats m ρ p c).arrAt_in w (h w rfl) _).trans (hA w))
  · exact hrest b fun w ew => e ⟨w, ew⟩

-- A buffer no host stretch writes and no region has as an output array ends as launched.
set_option backward.isDefEq.respectTransparency.types false in
theorem W8_arg (b : Ref sig .tc)
    (h : (b ∉ hostOps0_W ∧ b ∉ hostOps1_W ∧ b ∉ hostOps2_W ∧ b ∉ hostOps3_W)
      ∧ ∀ (p : Fin 4) w, Pipeline.arrRef (cfgs p).spec w = b → ((cfgs p).win w).isOut = false) :
    W8 m ρ c (Proc.devRef .tc b) = W0 m ρ c (Proc.devRef .tc b) :=
  (keep m ρ c 3 (W7 m ρ) (W8 m ρ) (R3.A_eq (V7 m ρ) c) (fun w => (W8_arr m ρ c w).symm) (W8_of_ne m ρ c) b (h.2 3)).trans <|
    (W7_of m ρ c b h.1.2.2.2).trans <|
    (keep m ρ c 2 (W5 m ρ) (W6 m ρ) (R2.A_eq (V5 m ρ) c) (fun w => (W6_arr m ρ c w).symm) (W6_of_ne m ρ c) b (h.2 2)).trans <|
    (W5_of m ρ c b h.1.2.2.1).trans <|
    (keep m ρ c 1 (W3 m ρ) (W4 m ρ) (R1.A_eq (V3 m ρ) c) (fun w => (W4_arr m ρ c w).symm) (W4_of_ne m ρ c) b (h.2 1)).trans <|
    (W3_of m ρ c b h.1.2.1).trans <|
    (keep m ρ c 0 (W1 m ρ) (W2 m ρ) (R0.A_eq (V1 m ρ) c) (fun w => (W2_arr m ρ c w).symm) (W2_of_ne m ρ c) b (h.2 0)).trans
      (W1_of m ρ c b h.1.1)

theorem W8_main_arg0 : W8 m ρ c (Proc.devRef .tc main_arg0) = m ((c : Thread nD τ).loc main_arg0) := W8_arg m ρ c main_arg0 (by decide)
theorem W8_main_arg1 : W8 m ρ c (Proc.devRef .tc main_arg1) = m ((c : Thread nD τ).loc main_arg1) := W8_arg m ρ c main_arg1 (by decide)
theorem W8_main_arg2 : W8 m ρ c (Proc.devRef .tc main_arg2) = m ((c : Thread nD τ).loc main_arg2) := W8_arg m ρ c main_arg2 (by decide)
theorem W8_main_arg3 : W8 m ρ c (Proc.devRef .tc main_arg3) = m ((c : Thread nD τ).loc main_arg3) := W8_arg m ρ c main_arg3 (by decide)
theorem W8_main_arg4 : W8 m ρ c (Proc.devRef .tc main_arg4) = m ((c : Thread nD τ).loc main_arg4) := W8_arg m ρ c main_arg4 (by decide)
theorem W8_main_arg5 : W8 m ρ c (Proc.devRef .tc main_arg5) = m ((c : Thread nD τ).loc main_arg5) := W8_arg m ρ c main_arg5 (by decide)
theorem W8_main_arg6 : W8 m ρ c (Proc.devRef .tc main_arg6) = m ((c : Thread nD τ).loc main_arg6) := W8_arg m ρ c main_arg6 (by decide)
theorem W8_main_arg7 : W8 m ρ c (Proc.devRef .tc main_arg7) = m ((c : Thread nD τ).loc main_arg7) := W8_arg m ρ c main_arg7 (by decide)
theorem W8_main_arg8 : W8 m ρ c (Proc.devRef .tc main_arg8) = m ((c : Thread nD τ).loc main_arg8) := W8_arg m ρ c main_arg8 (by decide)
theorem W8_main_arg9 : W8 m ρ c (Proc.devRef .tc main_arg9) = m ((c : Thread nD τ).loc main_arg9) := W8_arg m ρ c main_arg9 (by decide)

abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ : sProp 𝕄 := iprop(StableHlo.held (c : Thread nD τ) (Pipeline.ucRefs τ sig) (W8 m ρ c) ∗ ∃ r, prngReg c r)

-- A region as a step from contents `Wi` to contents `Wo`, where `Wo` differs from `Wi` only at the region's arrays.
set_option backward.isDefEq.respectTransparency.types false in
def mkReg (p : Fin 4) (lf : Pipeline.LaunchFacts (nD := nD) (τ := τ) cfgs p) (Wi Wo : Dev nD → Valuation τ sig (Elt F))
    (Q : Dev nD → sProp 𝕄) (hQ : ∀ c : Dev nD, iprop(StableHlo.held (c : Thread nD τ) (Pipeline.ucRefs τ sig) (Wo c) ∗ R c) ⊢ Q c)
    (hb : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hbd : ∀ c (S : Finset (SemLoc sig × Unit)), (↑S : Set (SemLoc sig × Unit)) ⊆ (pdats m ρ p c).bound () 0)
    (hA : ∀ c w, (pdats m ρ p c).A w = Wi c (Proc.devRef .tc (Pipeline.arrRef (cfgs p).spec w)))
    (hF : ∀ c w, (pdats m ρ p c).arrAt w (cfgs p).N = Wo c (Proc.devRef .tc (Pipeline.arrRef (cfgs p).spec w)))
    (hrest : ∀ c (b : Ref sig .tc), (∀ w, Pipeline.arrRef (cfgs p).spec w ≠ b) → Wo c (Proc.devRef .tc b) = Wi c (Proc.devRef .tc b))
    (hΦi : ∀ c, Pipeline.ΦA (cfgs p).spec c ⊢ (pdats m ρ p c).Φ 0)
    (hΦo : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Wi c) ∗ R c)
  post := Q
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%S, HO⟩; iexists S; isplitr; · ipureintro; exact hbd c S
      iexact HO
    isplitl [Hp]; · iexact Hp
    iexact Hrest
  hin c := by
    refine (?_ : _ ⊢ (Pipeline.ΦA (cfgs p).spec c : sProp 𝕄)).trans (hΦi c)
    unfold Pipeline.ΦA
    iintro ⟨Hp, -, Hr⟩
    isplitl [Hr]; · iexact Hr
    iexact Hp
  hout c := by
    refine (hΦo c).trans (?_ : (Pipeline.ΦA (cfgs p).spec c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    iapply (hQ c)
    isplitl [Ha Hrest]
    · iapply hjoin; isplitl [Ha] <;> iassumption
    isplitl [HY]; · iexact HY
    unfold Pipeline.Dat.owesAt Pipeline.owesWithin; rw [howed c]
    icases HO with ⟨%S, -, HO⟩; iexists S; iexact HO

set_option backward.isDefEq.respectTransparency.types false in
def reg0 : Pipeline.RegionSeg (pcfgs (F := F)) adm (pdats m ρ) () defs₀ 𝒱₀ L lv 0 :=
  mkReg m ρ 0 launch0 (W1 m ρ) (W2 m ρ) _ (fun _ => .rfl)
    (fun c => (R0.body_obligation (V1 m ρ) c).loose) (fun _ _ => rfl) (fun _ _ => rfl) (fun _ _ _ _ => Or.inl trivial)
    (R0.A_eq (V1 m ρ)) (fun c w => (W2_arr m ρ c w).symm) (W2_of_ne m ρ) (R0.hin (V1 m ρ)) (R0.hout (V1 m ρ))

set_option backward.isDefEq.respectTransparency.types false in
def reg1 : Pipeline.RegionSeg (pcfgs (F := F)) adm (pdats m ρ) () defs₀ 𝒱₀ L lv 1 :=
  mkReg m ρ 1 launch1 (W3 m ρ) (W4 m ρ) _ (fun _ => .rfl)
    (fun c => (R1.body_obligation (V3 m ρ) c).loose) (fun _ _ => rfl) (fun _ _ => rfl) (fun _ _ _ _ => Or.inl trivial)
    (R1.A_eq (V3 m ρ)) (fun c w => (W4_arr m ρ c w).symm) (W4_of_ne m ρ) (R1.hin (V3 m ρ)) (R1.hout (V3 m ρ))

set_option backward.isDefEq.respectTransparency.types false in
def reg2 : Pipeline.RegionSeg (pcfgs (F := F)) adm (pdats m ρ) () defs₀ 𝒱₀ L lv 2 :=
  mkReg m ρ 2 launch2 (W5 m ρ) (W6 m ρ) _ (fun _ => .rfl)
    (fun c => (R2.body_obligation (V5 m ρ) c).loose) (fun _ _ => rfl) (fun _ _ => rfl) (fun _ _ _ _ => Or.inl trivial)
    (R2.A_eq (V5 m ρ)) (fun c w => (W6_arr m ρ c w).symm) (W6_of_ne m ρ) (R2.hin (V5 m ρ)) (R2.hout (V5 m ρ))

set_option backward.isDefEq.respectTransparency.types false in
def reg3 : Pipeline.RegionSeg (pcfgs (F := F)) adm (pdats m ρ) () defs₀ 𝒱₀ L lv 3 :=
  mkReg m ρ 3 launch3 (W7 m ρ) (W8 m ρ) (fun c => iprop(Tₙ m ρ c ∗ ∃ W, owes (c : Thread nD τ) (0 : CellTallies nD τ sig Unit) W))
    (fun c => by
      iintro ⟨Hh, Hp, HO⟩
      isplitr [HO]
      · isplitl [Hh]; · iexact Hh
        iexact Hp
      iexact HO)
    (fun c => (R3.body_obligation (V7 m ρ) c).loose) (fun _ _ => rfl) (fun _ _ => rfl) (fun _ _ _ _ => Or.inl trivial)
    (R3.A_eq (V7 m ρ)) (fun c w => (W8_arr m ρ c w).symm) (W8_of_ne m ρ) (R3.hin (V7 m ρ)) (R3.hout (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩) (run_all m ρ)

end Cert.Kernel.Run

end
-- ==== Proof.KI.Runs0.lean ====
/- The first layer's body run in its three control cases (first, middle and last step of a core's half); each run records what it writes. -/
import proofs.«431227_j85710367359314_3_alg».proof.Proof.Gen.KernelIdeal.Launch
import proofs.«431227_j85710367359314_3_alg».proof.Proof.Gen.KernelIdeal.Skeleton
import proofs.«431227_j85710367359314_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 32 = 0 :=
  (by decide +kernel : ∀ t : Fin grid0.N, cond0 (grid0.coords t) ↔ t.val % 32 = 0)

abbrev cond1 (i : grid0.Coords) : Prop := (Scalar.cmpi .ne (Scalar.extui (Scalar.cmpi .sgt (BitVec.ofNat 32 (i 1).val) 0#32)) 0#32) = 1#1
theorem hcond1 : ∀ t : Fin cfg0.N, cond1 (grid0.coords t) ↔ t.val % 32 ≠ 0 :=
  (by decide +kernel : ∀ t : Fin grid0.N, cond1 (grid0.coords t) ↔ t.val % 32 ≠ 0)

abbrev cond2 (i : grid0.Coords) : Prop := k0_cond3 i = 1#1
theorem hcond2 : ∀ t : Fin cfg0.N, cond2 (grid0.coords t) ↔ t.val % 32 = 31 :=
  (by decide +kernel : ∀ t : Fin grid0.N, cond2 (grid0.coords t) ↔ t.val % 32 = 31)

theorem live0 : ∀ (w : Fin 8), w.val < 5 → ∀ t : Fin cfg0.N, cfg0.idle w (grid0.coords t) = false := by decide +kernel
theorem idle5 : ∀ t : Fin cfg0.N, ¬cond2 (grid0.coords t) → cfg0.idle 5 (grid0.coords t) = true := by decide +kernel
theorem idle6 : ∀ t : Fin cfg0.N, ¬cond2 (grid0.coords t) → cfg0.idle 6 (grid0.coords t) = true := by decide +kernel
theorem idle7 : ∀ t : Fin cfg0.N, ¬cond2 (grid0.coords t) → cfg0.idle 7 (grid0.coords t) = true := by decide +kernel
theorem noFlush5 : ∀ t : Fin cfg0.N, ¬cond2 (grid0.coords t) → (cfg0.win 5).flush t = false := by decide +kernel
theorem noFlush6 : ∀ t : Fin cfg0.N, ¬cond2 (grid0.coords t) → (cfg0.win 6).flush t = false := by decide +kernel
theorem noFlush7 : ∀ t : Fin cfg0.N, ¬cond2 (grid0.coords t) → (cfg0.win 7).flush t = false := by decide +kernel
theorem live5 : ∀ t : Fin cfg0.N, cond2 (grid0.coords t) → cfg0.idle 5 (grid0.coords t) = false := by decide +kernel
theorem live6 : ∀ t : Fin cfg0.N, cond2 (grid0.coords t) → cfg0.idle 6 (grid0.coords t) = false := by decide +kernel
theorem live7 : ∀ t : Fin cfg0.N, cond2 (grid0.coords t) → cfg0.idle 7 (grid0.coords t) = false := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : cond0 i) (hc1 : ¬cond1 i) (hc2 : ¬cond2 i)
    (x0 : Vec F S8192x248 .f32) (x1 : Vec F S64x248 .f32) (x2 : Vec F S1x64 .f32) (x3 : Vec F S8192x1 .i32) :
    Σ' (L4 : List (PcH (F := F))) (LS0 : List (PcS (F := F))) (LS1 : List (PcS (F := F))), { LS2 : List (PcS (F := F)) //
      ∀ (xi5 xi6 xi7 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

set_option maxHeartbeats 4000000 in
noncomputable def runB (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : ¬cond0 i) (hc1 : cond1 i) (hc2 : ¬cond2 i)
    (x0 : Vec F S8192x248 .f32) (x1 : Vec F S64x248 .f32) (x2 : Vec F S1x64 .f32) (x3 : Vec F S8192x1 .i32) (xs0 xs1 xs2 : Vec F S32x64 .f32) :
    Σ' (L4 : List (PcH (F := F))) (LS0 : List (PcS (F := F))) (LS1 : List (PcS (F := F))), { LS2 : List (PcS (F := F)) //
      ∀ (xi5 xi6 xi7 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, fun xi5 xi6 xi7 E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

set_option maxHeartbeats 4000000 in
noncomputable def runC (c : Dev nD) (i : grid0.Coords) (arg2 : Memref sig .tc .vmem S8192x248 .f32) (harg2 : arg2.IsWhole) (arg3 : Memref sig .tc .vmem S64x248 .f32) (harg3 : arg3.IsWhole) (arg4 : Memref sig .tc .vmem S1x64 .f32) (harg4 : arg4.IsWhole) (arg5 : Memref sig .tc .vmem S8192x1 .i32) (harg5 : arg5.IsWhole) (arg6 : Memref sig .tc .vmem S8192x64 .bf16) (harg6 : arg6.IsWhole) (arg7 : Memref sig .tc .vmem S1x32x64 .f32) (harg7 : arg7.IsWhole) (arg8 : Memref sig .tc .vmem S1x32x64 .f32) (harg8 : arg8.IsWhole) (arg9 : Memref sig .tc .vmem S1x32x64 .f32) (harg9 : arg9.IsWhole) (arg10 : Memref sig .tc .vmem S32x64 .f32) (harg10 : arg10.IsWhole) (arg11 : Memref sig .tc .vmem S32x64 .f32) (harg11 : arg11.IsWhole) (arg12 : Memref sig .tc .vmem S32x64 .f32) (harg12 : arg12.IsWhole) (hc0 : ¬cond0 i) (hc1 : cond1 i) (hc2 : cond2 i)
    (x0 : Vec F S8192x248 .f32) (x1 : Vec F S64x248 .f32) (x2 : Vec F S1x64 .f32) (x3 : Vec F S8192x1 .i32) (xs0 xs1 xs2 : Vec F S32x64 .f32) :
    Σ' (L4 : List (PcH (F := F))) (L5 : List (PcO (F := F))) (L6 : List (PcO (F := F))) (L7 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__fwd_stats_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__fwd_stats_kernel_eq_skeleton]; unfold cc0__fwd_stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg10.eq_unread hfs0; obtain rfl := harg11.eq_unread hfs1; obtain rfl := harg12.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.R0

end
-- ==== Proof.KI.Reg0.lean ====
import proofs.«431227_j85710367359314_3_alg».proof.Proof.KI.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

abbrev ms0 : Memref sig .tc .vmem S8192x248 .f32 := win0_0.stage (cfg0.slots t 0)
abbrev hs0 : (ms0 t).IsWhole := hstage0_0 ((cfg0.slots t 0).cast nbuf0_0)
abbrev ms1 : Memref sig .tc .vmem S64x248 .f32 := win0_1.stage (cfg0.slots t 1)
abbrev hs1 : (ms1 t).IsWhole := hstage0_1 ((cfg0.slots t 1).cast nbuf0_1)
abbrev ms2 : Memref sig .tc .vmem S1x64 .f32 := win0_2.stage (cfg0.slots t 2)
abbrev hs2 : (ms2 t).IsWhole := hstage0_2 ((cfg0.slots t 2).cast nbuf0_2)
abbrev ms3 : Memref sig .tc .vmem S8192x1 .i32 := win0_3.stage (cfg0.slots t 3)
abbrev hs3 : (ms3 t).IsWhole := hstage0_3 ((cfg0.slots t 3).cast nbuf0_3)
abbrev ms4 : Memref sig .tc .vmem S8192x64 .bf16 := win0_4.stage (cfg0.slots t 4)
abbrev hs4 : (ms4 t).IsWhole := hstage0_4 ((cfg0.slots t 4).cast nbuf0_4)
abbrev ms5 : Memref sig .tc .vmem S1x32x64 .f32 := win0_5.stage (cfg0.slots t 5)
abbrev hs5 : (ms5 t).IsWhole := hstage0_5 ((cfg0.slots t 5).cast nbuf0_5)
abbrev ms6 : Memref sig .tc .vmem S1x32x64 .f32 := win0_6.stage (cfg0.slots t 6)
abbrev hs6 : (ms6 t).IsWhole := hstage0_6 ((cfg0.slots t 6).cast nbuf0_6)
abbrev ms7 : Memref sig .tc .vmem S1x32x64 .f32 := win0_7.stage (cfg0.slots t 7)
abbrev hs7 : (ms7 t).IsWhole := hstage0_7 ((cfg0.slots t 7).cast nbuf0_7)
abbrev sc0 : Memref sig .tc .vmem S32x64 .f32 := Memref.whole cc0_scratch0
abbrev sc1 : Memref sig .tc .vmem S32x64 .f32 := Memref.whole cc0_scratch1
abbrev sc2 : Memref sig .tc .vmem S32x64 .f32 := Memref.whole cc0_scratch2
abbrev VS0 : View sig .tc .vmem S32x64 .f32 := (sc0).view
abbrev VS1 : View sig .tc .vmem S32x64 .f32 := (sc1).view
abbrev VS2 : View sig .tc .vmem S32x64 .f32 := (sc2).view
abbrev VH : View sig .tc .vmem S8192x64 .bf16 := (Memref.whole cc0_stg4_0 : Memref sig .tc .vmem S8192x64 .bf16).view
abbrev VO : View sig .tc .vmem S1x32x64 .f32 := (Memref.whole cc0_stg5_0 : Memref sig .tc .vmem S1x32x64 .f32).view

abbrev Outs (F : FTy → Type) [FloatOps F] : Type :=
  Vec F S8192x64 .bf16 × Vec F S1x32x64 .f32 × Vec F S1x32x64 .f32 × Vec F S1x32x64 .f32 × Vec F S32x64 .f32 × Vec F S32x64 .f32 × Vec F S32x64 .f32

def idleO : Vec F S1x32x64 .f32 := VO.read (Elt F) VO.junk

theorem cA0 (h0 : t.val % 32 = 0) : cond0 (grid0.coords t) := (hcond0 t).mpr h0
theorem cA1 (h0 : t.val % 32 = 0) : ¬cond1 (grid0.coords t) := fun h => (hcond1 t).mp h h0
theorem cA2 (h0 : t.val % 32 = 0) : ¬cond2 (grid0.coords t) := fun h => by
  have := (hcond2 t).mp h; omega
theorem cB0 (h0 : ¬t.val % 32 = 0) : ¬cond0 (grid0.coords t) := fun h => h0 ((hcond0 t).mp h)
theorem cB1 (h0 : ¬t.val % 32 = 0) : cond1 (grid0.coords t) := (hcond1 t).mpr h0
theorem cB2 (h1 : ¬t.val % 32 = 31) : ¬cond2 (grid0.coords t) := fun h => h1 ((hcond2 t).mp h)
theorem cC2 (h1 : t.val % 32 = 31) : cond2 (grid0.coords t) := (hcond2 t).mpr h1

/-- A buffer left with a covering list of pieces written holds what the pieces say, whatever it held before. -/
theorem owns_of_cover {s : Shape} {e : EltTy} {m : Memref sig .tc .vmem s e} (X : View sig .tc .vmem s e)
    {L : List (View.Piece (Elt F) s e)} (hL : ∀ y, ∃ pc ∈ L, y ∈ pc.1.set) :
    (iprop(∃ f, m.view.loc (c : Thread nD τ) ↦[m.view.set]{fullShare} m.view.writes (Elt F) f L) : sProp 𝕄)
      ⊢ owns (c : Thread nD τ) m fullShare (X.read (Elt F) (X.writes (Elt F) X.junk L)) := by
  iintro ⟨%f, H⟩
  unfold owns; iexists _; isplitr
  swap; · iexact H
  ipureintro; exact View.read_writes_of_cover _ _ _ _ _ hL

section
variable (h0 : t.val % 32 = 0)
def rA :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cA0 t h0) (cA1 t h0) (cA2 t h0) (iblk V c 0 t) (iblk V c 1 t) (iblk V c 2 t) (iblk V c 3 t)
theorem coverA4 (y : S8192x64.Idx) :
    ∃ pc ∈ (rA V c t h0).1, y ∈ pc.1.set :=
  View.cover_of_tiledL _ S8192x64.size (by sl_kernel_rfl) y
theorem scoverA0 (y : S32x64.Idx) :
    ∃ pc ∈ (rA V c t h0).2.1, y ∈ pc.1.set :=
  View.cover_of_tiledL _ S32x64.size (by sl_kernel_rfl) y
theorem scoverA1 (y : S32x64.Idx) :
    ∃ pc ∈ (rA V c t h0).2.2.1, y ∈ pc.1.set :=
  View.cover_of_tiledL _ S32x64.size (by sl_kernel_rfl) y
theorem scoverA2 (y : S32x64.Idx) :
    ∃ pc ∈ (rA V c t h0).2.2.2.1, y ∈ pc.1.set :=
  View.cover_of_tiledL _ S32x64.size (by sl_kernel_rfl) y
def tupA : Outs F :=
  (VH.read (Elt F) (VH.writes (Elt F) VH.junk (rA V c t h0).1), idleO, idleO, idleO,
    VS0.read (Elt F) (VS0.writes (Elt F) VS0.junk (rA V c t h0).2.1), VS1.read (Elt F) (VS1.writes (Elt F) VS1.junk (rA V c t h0).2.2.1), VS2.read (Elt F) (VS2.writes (Elt F) VS2.junk (rA V c t h0).2.2.2.1))
end

section
variable (h0 : ¬t.val % 32 = 0)
section
variable (h1 : ¬t.val % 32 = 31) (xs0 xs1 xs2 : Vec F S32x64 .f32)
def rB :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cB0 t h0) (cB1 t h0) (cB2 t h1) (iblk V c 0 t) (iblk V c 1 t) (iblk V c 2 t) (iblk V c 3 t) xs0 xs1 xs2
theorem coverB4 (y : S8192x64.Idx) :
    ∃ pc ∈ (rB V c t h0 h1 xs0 xs1 xs2).1, y ∈ pc.1.set :=
  View.cover_of_tiledL _ S8192x64.size (by sl_kernel_rfl) y
theorem scoverB0 (y : S32x64.Idx) :
    ∃ pc ∈ (rB V c t h0 h1 xs0 xs1 xs2).2.1, y ∈ pc.1.set :=
  View.cover_of_tiledL _ S32x64.size (by sl_kernel_rfl) y
theorem scoverB1 (y : S32x64.Idx) :
    ∃ pc ∈ (rB V c t h0 h1 xs0 xs1 xs2).2.2.1, y ∈ pc.1.set :=
  View.cover_of_tiledL _ S32x64.size (by sl_kernel_rfl) y
theorem scoverB2 (y : S32x64.Idx) :
    ∃ pc ∈ (rB V c t h0 h1 xs0 xs1 xs2).2.2.2.1, y ∈ pc.1.set :=
  View.cover_of_tiledL _ S32x64.size (by sl_kernel_rfl) y
def tupB : Outs F :=
  (VH.read (Elt F) (VH.writes (Elt F) VH.junk (rB V c t h0 h1 xs0 xs1 xs2).1), idleO, idleO, idleO,
    VS0.read (Elt F) (VS0.writes (Elt F) VS0.junk (rB V c t h0 h1 xs0 xs1 xs2).2.1), VS1.read (Elt F) (VS1.writes (Elt F) VS1.junk (rB V c t h0 h1 xs0 xs1 xs2).2.2.1), VS2.read (Elt F) (VS2.writes (Elt F) VS2.junk (rB V c t h0 h1 xs0 xs1 xs2).2.2.2.1))
end
section
variable (h1 : t.val % 32 = 31) (xs0 xs1 xs2 : Vec F S32x64 .f32)
def rC :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) (cB0 t h0) (cB1 t h0) (cC2 t h1) (iblk V c 0 t) (iblk V c 1 t) (iblk V c 2 t) (iblk V c 3 t) xs0 xs1 xs2
theorem coverC4 (y : S8192x64.Idx) :
    ∃ pc ∈ (rC V c t h0 h1 xs0 xs1 xs2).1, y ∈ pc.1.set :=
  View.cover_of_tiledL _ S8192x64.size (by sl_kernel_rfl) y
theorem coverC5 (y : S1x32x64.Idx) :
    ∃ pc ∈ (rC V c t h0 h1 xs0 xs1 xs2).2.1, y ∈ pc.1.set :=
  View.cover_of_tiledL _ S1x32x64.size (by sl_kernel_rfl) y
theorem coverC6 (y : S1x32x64.Idx) :
    ∃ pc ∈ (rC V c t h0 h1 xs0 xs1 xs2).2.2.1, y ∈ pc.1.set :=
  View.cover_of_tiledL _ S1x32x64.size (by sl_kernel_rfl) y
theorem coverC7 (y : S1x32x64.Idx) :
    ∃ pc ∈ (rC V c t h0 h1 xs0 xs1 xs2).2.2.2.1, y ∈ pc.1.set :=
  View.cover_of_tiledL _ S1x32x64.size (by sl_kernel_rfl) y
theorem scoverC0 (y : S32x64.Idx) :
    ∃ pc ∈ (rC V c t h0 h1 xs0 xs1 xs2).2.2.2.2.1, y ∈ pc.1.set :=
  View.cover_of_tiledL _ S32x64.size (by sl_kernel_rfl) y
theorem scoverC1 (y : S32x64.Idx) :
    ∃ pc ∈ (rC V c t h0 h1 xs0 xs1 xs2).2.2.2.2.2.1, y ∈ pc.1.set :=
  View.cover_of_tiledL _ S32x64.size (by sl_kernel_rfl) y
theorem scoverC2 (y : S32x64.Idx) :
    ∃ pc ∈ (rC V c t h0 h1 xs0 xs1 xs2).2.2.2.2.2.2.1, y ∈ pc.1.set :=
  View.cover_of_tiledL _ S32x64.size (by sl_kernel_rfl) y
def tupC : Outs F :=
  (VH.read (Elt F) (VH.writes (Elt F) VH.junk (rC V c t h0 h1 xs0 xs1 xs2).1), VO.read (Elt F) (VO.writes (Elt F) VO.junk (rC V c t h0 h1 xs0 xs1 xs2).2.1), VO.read (Elt F) (VO.writes (Elt F) VO.junk (rC V c t h0 h1 xs0 xs1 xs2).2.2.1), VO.read (Elt F) (VO.writes (Elt F) VO.junk (rC V c t h0 h1 xs0 xs1 xs2).2.2.2.1),
    VS0.read (Elt F) (VS0.writes (Elt F) VS0.junk (rC V c t h0 h1 xs0 xs1 xs2).2.2.2.2.1), VS1.read (Elt F) (VS1.writes (Elt F) VS1.junk (rC V c t h0 h1 xs0 xs1 xs2).2.2.2.2.2.1), VS2.read (Elt F) (VS2.writes (Elt F) VS2.junk (rC V c t h0 h1 xs0 xs1 xs2).2.2.2.2.2.2.1))
end
end

/-- After position `n`: a multiple of 32 sets the three running sums, any other adds to what `n - 1` left, and 31 mod 32 also copies them out. -/
def outsAt (c : Dev nD) : (n : ℕ) → n < cfg0.N → Outs F
  | 0, hn => tupA V c ⟨0, hn⟩ (Nat.zero_mod _)
  | n + 1, hn =>
    if h0 : (n + 1) % 32 = 0 then tupA V c ⟨n + 1, hn⟩ h0
    else if h1 : (n + 1) % 32 = 31 then
      tupC V c ⟨n + 1, hn⟩ h0 h1 (outsAt c n (Nat.lt_of_succ_lt hn)).2.2.2.2.1 (outsAt c n (Nat.lt_of_succ_lt hn)).2.2.2.2.2.1 (outsAt c n (Nat.lt_of_succ_lt hn)).2.2.2.2.2.2
    else
      tupB V c ⟨n + 1, hn⟩ h0 h1 (outsAt c n (Nat.lt_of_succ_lt hn)).2.2.2.2.1 (outsAt c n (Nat.lt_of_succ_lt hn)).2.2.2.2.2.1 (outsAt c n (Nat.lt_of_succ_lt hn)).2.2.2.2.2.2

section
variable (h0 : t.val % 32 = 0)
theorem outsAt_A :
    outsAt V c t.val t.isLt = tupA V c t h0 := by
  obtain ⟨n, hn⟩ := t
  cases n with
  | zero => exact rfl
  | succ n => exact (dif_pos h0).trans rfl
theorem outA_4 :
    (outsAt V c t.val t.isLt).1 = VH.read (Elt F) (VH.writes (Elt F) VH.junk (rA V c t h0).1) :=
  (congrArg (fun x : Outs F => x.1) (outsAt_A V c t h0)).trans (by dsimp only [tupA] <;> rfl)
theorem outA_s0 :
    (outsAt V c t.val t.isLt).2.2.2.2.1 = VS0.read (Elt F) (VS0.writes (Elt F) VS0.junk (rA V c t h0).2.1) :=
  (congrArg (fun x : Outs F => x.2.2.2.2.1) (outsAt_A V c t h0)).trans (by dsimp only [tupA] <;> rfl)
theorem outA_s1 :
    (outsAt V c t.val t.isLt).2.2.2.2.2.1 = VS1.read (Elt F) (VS1.writes (Elt F) VS1.junk (rA V c t h0).2.2.1) :=
  (congrArg (fun x : Outs F => x.2.2.2.2.2.1) (outsAt_A V c t h0)).trans (by dsimp only [tupA] <;> rfl)
theorem outA_s2 :
    (outsAt V c t.val t.isLt).2.2.2.2.2.2 = VS2.read (Elt F) (VS2.writes (Elt F) VS2.junk (rA V c t h0).2.2.2.1) :=
  (congrArg (fun x : Outs F => x.2.2.2.2.2.2) (outsAt_A V c t h0)).trans (by dsimp only [tupA] <;> rfl)
end

section
variable (h0 : ¬t.val % 32 = 0)
section
variable (h1 : ¬t.val % 32 = 31)
theorem outsAt_B :
    outsAt V c t.val t.isLt = tupB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h1).trans rfl)
theorem outB_4 :
    (outsAt V c t.val t.isLt).1 = VH.read (Elt F) (VH.writes (Elt F) VH.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).1) :=
  (congrArg (fun x : Outs F => x.1) (outsAt_B V c t h0 h1)).trans (by dsimp only [tupB] <;> rfl)
theorem outB_s0 :
    (outsAt V c t.val t.isLt).2.2.2.2.1 = VS0.read (Elt F) (VS0.writes (Elt F) VS0.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.1) :=
  (congrArg (fun x : Outs F => x.2.2.2.2.1) (outsAt_B V c t h0 h1)).trans (by dsimp only [tupB] <;> rfl)
theorem outB_s1 :
    (outsAt V c t.val t.isLt).2.2.2.2.2.1 = VS1.read (Elt F) (VS1.writes (Elt F) VS1.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.1) :=
  (congrArg (fun x : Outs F => x.2.2.2.2.2.1) (outsAt_B V c t h0 h1)).trans (by dsimp only [tupB] <;> rfl)
theorem outB_s2 :
    (outsAt V c t.val t.isLt).2.2.2.2.2.2 = VS2.read (Elt F) (VS2.writes (Elt F) VS2.junk (rB V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.1) :=
  (congrArg (fun x : Outs F => x.2.2.2.2.2.2) (outsAt_B V c t h0 h1)).trans (by dsimp only [tupB] <;> rfl)
end
section
variable (h1 : t.val % 32 = 31)
theorem outsAt_C :
    outsAt V c t.val t.isLt = tupC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_pos h1).trans rfl)
theorem outC_4 :
    (outsAt V c t.val t.isLt).1 = VH.read (Elt F) (VH.writes (Elt F) VH.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).1) :=
  (congrArg (fun x : Outs F => x.1) (outsAt_C V c t h0 h1)).trans (by dsimp only [tupC] <;> rfl)
theorem outC_5 :
    (outsAt V c t.val t.isLt).2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.1) :=
  (congrArg (fun x : Outs F => x.2.1) (outsAt_C V c t h0 h1)).trans (by dsimp only [tupC] <;> rfl)
theorem outC_6 :
    (outsAt V c t.val t.isLt).2.2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.1) :=
  (congrArg (fun x : Outs F => x.2.2.1) (outsAt_C V c t h0 h1)).trans (by dsimp only [tupC] <;> rfl)
theorem outC_7 :
    (outsAt V c t.val t.isLt).2.2.2.1 = VO.read (Elt F) (VO.writes (Elt F) VO.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.1) :=
  (congrArg (fun x : Outs F => x.2.2.2.1) (outsAt_C V c t h0 h1)).trans (by dsimp only [tupC] <;> rfl)
theorem outC_s0 :
    (outsAt V c t.val t.isLt).2.2.2.2.1 = VS0.read (Elt F) (VS0.writes (Elt F) VS0.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.1) :=
  (congrArg (fun x : Outs F => x.2.2.2.2.1) (outsAt_C V c t h0 h1)).trans (by dsimp only [tupC] <;> rfl)
theorem outC_s1 :
    (outsAt V c t.val t.isLt).2.2.2.2.2.1 = VS1.read (Elt F) (VS1.writes (Elt F) VS1.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.2.1) :=
  (congrArg (fun x : Outs F => x.2.2.2.2.2.1) (outsAt_C V c t h0 h1)).trans (by dsimp only [tupC] <;> rfl)
theorem outC_s2 :
    (outsAt V c t.val t.isLt).2.2.2.2.2.2 = VS2.read (Elt F) (VS2.writes (Elt F) VS2.junk (rC V c t h0 h1 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2).2.2.2.2.2.2.1) :=
  (congrArg (fun x : Outs F => x.2.2.2.2.2.2) (outsAt_C V c t h0 h1)).trans (by dsimp only [tupC] <;> rfl)
end
end

abbrev restBut : sProp 𝕄 :=
  Pipeline.scopedRestBut (Ix := Unit) (Name := ℕ) (U := UR sig nD τ) (Lvl := ℕ) (Val := Elt F) spec0 c [cc0_scratch0, cc0_scratch1, cc0_scratch2]

def PhiS (c : Dev nD) : (n : ℕ) → n ≤ cfg0.N → sProp 𝕄
  | 0, _ => Pipeline.ΦA spec0 c
  | n + 1, hn => iprop(iprop(iprop(owns (c : Thread nD τ) sc0 fullShare ((outsAt V c n hn).2.2.2.2.1) ∗ owns (c : Thread nD τ) sc1 fullShare ((outsAt V c n hn).2.2.2.2.2.1) ∗ owns (c : Thread nD τ) sc2 fullShare ((outsAt V c n hn).2.2.2.2.2.2)) ∗ restBut (F := F) c) ∗ (∃ r, prngReg c r))

theorem PhiS_zero (n : ℕ) (h : n ≤ cfg0.N) (hz : n = 0) : PhiS V c n h = Pipeline.ΦA spec0 c := by
  subst hz; rfl

theorem PhiS_succ (n : ℕ) (hn : n < cfg0.N) :
    PhiS V c (n + 1) hn = iprop(iprop(iprop(owns (c : Thread nD τ) sc0 fullShare ((outsAt V c n hn).2.2.2.2.1) ∗ owns (c : Thread nD τ) sc1 fullShare ((outsAt V c n hn).2.2.2.2.2.1) ∗ owns (c : Thread nD τ) sc2 fullShare ((outsAt V c n hn).2.2.2.2.2.2)) ∗ restBut (F := F) c) ∗ (∃ r, prngReg c r)) := rfl

theorem PhiS_pos (n : ℕ) (h : n ≤ cfg0.N) (hz : n ≠ 0) :
    PhiS V c n h = iprop(iprop(iprop(owns (c : Thread nD τ) sc0 fullShare ((outsAt V c (n - 1) (by omega)).2.2.2.2.1) ∗ owns (c : Thread nD τ) sc1 fullShare ((outsAt V c (n - 1) (by omega)).2.2.2.2.2.1) ∗ owns (c : Thread nD τ) sc2 fullShare ((outsAt V c (n - 1) (by omega)).2.2.2.2.2.2)) ∗ restBut (F := F) c) ∗ (∃ r, prngReg c r)) := by
  cases n with
  | zero => exact absurd rfl hz
  | succ n => rfl

theorem PhiA_eq :
    (Pipeline.ΦA spec0 c : sProp 𝕄)
      = iprop(iprop(iprop((∃ d, owns (c : Thread nD τ) sc0 fullShare d) ∗ (∃ d, owns (c : Thread nD τ) sc1 fullShare d) ∗ (∃ d, owns (c : Thread nD τ) sc2 fullShare d)) ∗ restBut (F := F) c) ∗ (∃ r, prngReg c r)) := by
  unfold Pipeline.ΦA; rw [scopedRest0_split]; simp only [sc0, sc1, sc2, owns_whole]; try rfl

/-- At any position the invariant gives back what the launch handed over: the running sums' contents are forgotten. -/
theorem PhiS_forget (n : ℕ) (h : n ≤ cfg0.N) : PhiS V c n h ⊢ Pipeline.ΦA spec0 c := by
  by_cases hz : n = 0
  · exact .of_eq (PhiS_zero V c n h hz)
  rw [PhiS_pos V c n h hz, PhiA_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
    | ⟨7, _⟩ => (outsAt V c t.val t.isLt).2.2.2.1
  Φ t := PhiS V c t.val (Nat.le_of_lt_succ t.isLt)
  q _ := fullShare
  owed _ := 0

theorem A_eq (w : Fin cfg0.W) : (dat V c).A w = V c (Pipeline.arrRef spec0 w) := by
  dsimp only [dat]

theorem PhiS_castSucc :
    (dat V c).Φ t.castSucc = PhiS V c t.val (Nat.le_of_lt t.isLt) := by
  dsimp only [dat]; simp only [Fin.coe_castSucc]

theorem after_0 : (dat V c).after 0 t = iblk V c 0 t := by dsimp only [dat]
theorem after_1 : (dat V c).after 1 t = iblk V c 1 t := by dsimp only [dat]
theorem after_2 : (dat V c).after 2 t = iblk V c 2 t := by dsimp only [dat]
theorem after_3 : (dat V c).after 3 t = iblk V c 3 t := by dsimp only [dat]
theorem after_4 : (dat V c).after 4 t = (outsAt V c t.val t.isLt).1 := by dsimp only [dat]
theorem after_5 : (dat V c).after 5 t = (outsAt V c t.val t.isLt).2.1 := by dsimp only [dat]
theorem after_6 : (dat V c).after 6 t = (outsAt V c t.val t.isLt).2.2.1 := by dsimp only [dat]
theorem after_7 : (dat V c).after 7 t = (outsAt V c t.val t.isLt).2.2.2.1 := by dsimp only [dat]

theorem before0 (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before1 (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before2 (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before3 (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

theorem leaves_live (w : Fin cfg0.W) (h : cfg0.idle w (grid0.coords t) = false) :
    (dat V c).leavesExact w t = owns (c : Thread nD τ) ((cfg0.win w).stage (cfg0.slots t w)) fullShare ((dat V c).after w t) := by
  unfold Dat.leavesExact; rw [h]

def bodyPre : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the point's number mod 32 says which of the three cases it is in. -/
theorem sound_body :
    bodyPre V c t ⊢ wp frame (wpE (defs₀ (F := F)) Variants.none c none) Set.univ (bodyAt0 t) (fun _ => bodyPost V c t) := by
  unfold bodyPre bodyPost bodyAt0
  simp only [before0 V, before1 V, before2 V, before3 V]
  rw [show (dat V c).owesAt () t.succ = (dat V c).owesAt () t.castSucc from rfl]
  rw [show (dat V c).Φ t.succ = PhiS V c (t.val + 1) t.isLt from rfl, PhiS_succ, PhiS_castSucc V c t]
  rw [leaves_live V c t 0 (live0 0 (by decide) t), leaves_live V c t 1 (live0 1 (by decide) t), leaves_live V c t 2 (live0 2 (by decide) t), leaves_live V c t 3 (live0 3 (by decide) t), leaves_live V c t 4 (live0 4 (by decide) t), after_0, after_1, after_2, after_3, after_4]
  by_cases h0 : t.val % 32 = 0
  · rw [Dat.leavesExact_idle (dat V c) 5 t (idle5 t (cA2 t h0)) (noFlush5 t (cA2 t h0)), Dat.leavesExact_idle (dat V c) 6 t (idle6 t (cA2 t h0)) (noFlush6 t (cA2 t h0)), Dat.leavesExact_idle (dat V c) 7 t (idle7 t (cA2 t h0)) (noFlush7 t (cA2 t h0))]
    rw [outA_4 V c t h0, outA_s0 V c t h0, outA_s1 V c t h0, outA_s2 V c t h0]
    refine (sep_mono_left (PhiS_forget V c _ _)).trans ?_
    rw [PhiA_eq]
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA V c t h0).2.2.2.2 ((dat V c).before 5 t d5) ((dat V c).before 6 t d6) ((dat V c).before 7 t d7) Set.univ _)
    iframe H0 H1 H2 H3 H5 H6 H7 HS0 HS1 HS2
    isplitl [H4]; · iexists _; iexact H4
    iintro ⟨H0, H1, H2, H3, H4, H5, H6, H7, HS0, HS1, HS2⟩
    ihave HS0 := (owns_of_cover c VS0 (scoverA0 V c t h0)) $$ HS0
    ihave HS1 := (owns_of_cover c VS1 (scoverA1 V c t h0)) $$ HS1
    ihave HS2 := (owns_of_cover c VS2 (scoverA2 V c t h0)) $$ HS2
    ihave H4 := (owns_of_cover c VH (coverA4 V c t h0)) $$ H4
    iframe HS0 HS1 HS2 Hr Hg Ho H0 H1 H2 H3 H4
    isplitl [H5]; · iexists _; iexact H5
    isplitl [H6]; · iexists _; iexact H6
    iexists _; iexact H7
  have hz : t.val ≠ 0 := by omega
  by_cases h1 : t.val % 32 = 31
  · rw [leaves_live V c t 5 (live5 t (cC2 t h1)), leaves_live V c t 6 (live6 t (cC2 t h1)), leaves_live V c t 7 (live7 t (cC2 t h1)), after_5, after_6, after_7]
    rw [outC_4 V c t h0 h1, outC_5 V c t h0 h1, outC_6 V c t h0 h1, outC_7 V c t h0 h1, outC_s0 V c t h0 h1, outC_s1 V c t h0 h1, outC_s2 V c t h0 h1]
    rw [PhiS_pos V c _ _ hz]
    generalize outsAt V c (t.val - 1) (Nat.lt_of_le_of_lt (Nat.sub_le _ _) t.isLt) = p
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rC V c t h0 h1 p.2.2.2.2.1 p.2.2.2.2.2.1 p.2.2.2.2.2.2).2.2.2.2.2.2.2 Set.univ _)
    iframe H0 H1 H2 H3 HS0 HS1 HS2
    isplitl [H4]; · iexists _; iexact H4
    isplitl [H5]; · iexists _; iexact H5
    isplitl [H6]; · iexists _; iexact H6
    isplitl [H7]; · iexists _; iexact H7
    iintro ⟨H0, H1, H2, H3, H4, H5, H6, H7, HS0, HS1, HS2⟩
    ihave HS0 := (owns_of_cover c VS0 (scoverC0 V c t h0 h1 _ _ _)) $$ HS0
    ihave HS1 := (owns_of_cover c VS1 (scoverC1 V c t h0 h1 _ _ _)) $$ HS1
    ihave HS2 := (owns_of_cover c VS2 (scoverC2 V c t h0 h1 _ _ _)) $$ HS2
    ihave H4 := (owns_of_cover c VH (coverC4 V c t h0 h1 _ _ _)) $$ H4
    ihave H5 := (owns_of_cover c VO (coverC5 V c t h0 h1 _ _ _)) $$ H5
    ihave H6 := (owns_of_cover c VO (coverC6 V c t h0 h1 _ _ _)) $$ H6
    ihave H7 := (owns_of_cover c VO (coverC7 V c t h0 h1 _ _ _)) $$ H7
    iframe
  rw [Dat.leavesExact_idle (dat V c) 5 t (idle5 t (cB2 t h1)) (noFlush5 t (cB2 t h1)), Dat.leavesExact_idle (dat V c) 6 t (idle6 t (cB2 t h1)) (noFlush6 t (cB2 t h1)), Dat.leavesExact_idle (dat V c) 7 t (idle7 t (cB2 t h1)) (noFlush7 t (cB2 t h1))]
  rw [outB_4 V c t h0 h1, outB_s0 V c t h0 h1, outB_s1 V c t h0 h1, outB_s2 V c t h0 h1]
  rw [PhiS_pos V c _ _ hz]
  generalize outsAt V c (t.val - 1) (Nat.lt_of_le_of_lt (Nat.sub_le _ _) t.isLt) = p
  iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((rB V c t h0 h1 p.2.2.2.2.1 p.2.2.2.2.2.1 p.2.2.2.2.2.2).2.2.2.2 ((dat V c).before 5 t d5) ((dat V c).before 6 t d6) ((dat V c).before 7 t d7) Set.univ _)
  iframe H0 H1 H2 H3 H5 H6 H7 HS0 HS1 HS2
  isplitl [H4]; · iexists _; iexact H4
  iintro ⟨H0, H1, H2, H3, H4, H5, H6, H7, HS0, HS1, HS2⟩
  ihave HS0 := (owns_of_cover c VS0 (scoverB0 V c t h0 h1 _ _ _)) $$ HS0
  ihave HS1 := (owns_of_cover c VS1 (scoverB1 V c t h0 h1 _ _ _)) $$ HS1
  ihave HS2 := (owns_of_cover c VS2 (scoverB2 V c t h0 h1 _ _ _)) $$ HS2
  ihave H4 := (owns_of_cover c VH (coverB4 V c t h0 h1 _ _ _)) $$ H4
  iframe HS0 HS1 HS2 Hr Hg Ho H0 H1 H2 H3 H4
  isplitl [H5]; · iexists _; iexact H5
  isplitl [H6]; · iexists _; iexact H6
  iexists _; iexact H7

theorem body_obligation : BodyObligation (dat (F := F) V c) (defs₀ (F := F)) Variants.none () Set.univ := fun t => by
  rw [bigSep_W0, bigSep_W0]
  exact sound_body V c t

theorem hin : Pipeline.ΦA spec0 c ⊢ (dat V c).Φ 0 := .of_eq rfl

theorem hout : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_forget V c _ _

end Cert.KernelIdeal.R0

end
-- ==== Proof.KI.Runs1.lean ====
/- A hidden layer's body run in its three control cases (first, middle and last step of a core's half); each run records what it writes. -/
import proofs.«431227_j85710367359314_3_alg».proof.Proof.Gen.KernelIdeal.Launch
import proofs.«431227_j85710367359314_3_alg».proof.Proof.Gen.KernelIdeal.Skeleton
import proofs.«431227_j85710367359314_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 32 = 0 :=
  (by decide +kernel : ∀ t : Fin grid1.N, cond0 (grid1.coords t) ↔ t.val % 32 = 0)

abbrev cond1 (i : grid1.Coords) : Prop := (Scalar.cmpi .ne (Scalar.extui (Scalar.cmpi .sgt (BitVec.ofNat 32 (i 1).val) 0#32)) 0#32) = 1#1
theorem hcond1 : ∀ t : Fin cfg1.N, cond1 (grid1.coords t) ↔ t.val % 32 ≠ 0 :=
  (by decide +kernel : ∀ t : Fin grid1.N, cond1 (grid1.coords t) ↔ t.val % 32 ≠ 0)

abbrev cond2 (i : grid1.Coords) : Prop := k1_cond3 i = 1#1
theorem hcond2 : ∀ t : Fin cfg1.N, cond2 (grid1.coords t) ↔ t.val % 32 = 31 :=
  (by decide +kernel : ∀ t : Fin grid1.N, cond2 (grid1.coords t) ↔ t.val % 32 = 31)

theorem hN : cfg1.N = 64 := by decide

theorem liveAlways : ∀ (w : Fin 10), w.val < 7 → ∀ t : Fin cfg1.N, cfg1.idle w (grid1.coords t) = false := by decide +kernel

theorem idle7 : ∀ t : Fin cfg1.N, ¬cond2 (grid1.coords t) → cfg1.idle 7 (grid1.coords t) = true := by decide +kernel
theorem idle8 : ∀ t : Fin cfg1.N, ¬cond2 (grid1.coords t) → cfg1.idle 8 (grid1.coords t) = true := by decide +kernel
theorem idle9 : ∀ t : Fin cfg1.N, ¬cond2 (grid1.coords t) → cfg1.idle 9 (grid1.coords t) = true := by decide +kernel
theorem noFlush7 : ∀ t : Fin cfg1.N, ¬cond2 (grid1.coords t) → (cfg1.win 7).flush t = false := by decide +kernel
theorem noFlush8 : ∀ t : Fin cfg1.N, ¬cond2 (grid1.coords t) → (cfg1.win 8).flush t = false := by decide +kernel
theorem noFlush9 : ∀ t : Fin cfg1.N, ¬cond2 (grid1.coords t) → (cfg1.win 9).flush t = false := by decide +kernel
theorem live7 : ∀ t : Fin cfg1.N, cond2 (grid1.coords t) → cfg1.idle 7 (grid1.coords t) = false := by decide +kernel
theorem live8 : ∀ t : Fin cfg1.N, cond2 (grid1.coords t) → cfg1.idle 8 (grid1.coords t) = false := by decide +kernel
theorem live9 : ∀ t : Fin cfg1.N, cond2 (grid1.coords t) → cfg1.idle 9 (grid1.coords t) = false := by decide +kernel
theorem flush7 : ∀ t : Fin cfg1.N, cond2 (grid1.coords t) → (cfg1.win 7).flush t = true := by decide +kernel
theorem flush8 : ∀ t : Fin cfg1.N, cond2 (grid1.coords t) → (cfg1.win 8).flush t = true := by decide +kernel
theorem flush9 : ∀ t : Fin cfg1.N, cond2 (grid1.coords t) → (cfg1.win 9).flush t = true := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : cond0 i) (hc1 : ¬cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runB (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runC (c : Dev nD) (i : grid1.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (L7 : List (PcO (F := F))) (L8 : List (PcO (F := F))) (L9 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc1__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc1__norm_fwd_stats_kernel_eq_skeleton]; unfold cc1__norm_fwd_stats_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.R1

end
-- ==== Proof.KI.Reg1.lean ====
/- A hidden layer's region: its proof data, and the body obligation at every grid point, case by case from the three runs. -/
import proofs.«431227_j85710367359314_3_alg».proof.Proof.KI.Runs1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S8192x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S32x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S32x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S64x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S8192x1 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S8192x64 .bf16 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x32x64 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S1x32x64 .f32 := win1_8.stage (cfg1.slots t 8)
abbrev hs8 (t : Fin cfg1.N) : (ms8 t).IsWhole := hstage1_8 ((cfg1.slots t 8).cast nbuf1_8)
abbrev ms9 (t : Fin cfg1.N) : Memref sig .tc .vmem S1x32x64 .f32 := win1_9.stage (cfg1.slots t 9)
abbrev hs9 (t : Fin cfg1.N) : (ms9 t).IsWhole := hstage1_9 ((cfg1.slots t 9).cast nbuf1_9)

abbrev scM0 : Memref sig .tc .vmem S32x64 .f32 := Memref.whole cc1_scratch0
abbrev VS0 : View sig .tc .vmem S32x64 .f32 := scM0.view
abbrev scM1 : Memref sig .tc .vmem S32x64 .f32 := Memref.whole cc1_scratch1
abbrev VS1 : View sig .tc .vmem S32x64 .f32 := scM1.view
abbrev scM2 : Memref sig .tc .vmem S32x64 .f32 := Memref.whole cc1_scratch2
abbrev VS2 : View sig .tc .vmem S32x64 .f32 := scM2.view

abbrev VO6 : View sig .tc .vmem S8192x64 .bf16 := (Memref.whole cc1_stg6_0 : Memref sig .tc .vmem S8192x64 .bf16).view
abbrev VO7 : View sig .tc .vmem S1x32x64 .f32 := (Memref.whole cc1_stg7_0 : Memref sig .tc .vmem S1x32x64 .f32).view
abbrev VO8 : View sig .tc .vmem S1x32x64 .f32 := (Memref.whole cc1_stg8_0 : Memref sig .tc .vmem S1x32x64 .f32).view
abbrev VO9 : View sig .tc .vmem S1x32x64 .f32 := (Memref.whole cc1_stg9_0 : Memref sig .tc .vmem S1x32x64 .f32).view

abbrev restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- The launch's invariant with the three running sums split off. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest1_split]; simp only [scM0, scM1, scM2, owns_whole]; try rfl

theorem live_0 : ∀ t : Fin cfg1.N, cfg1.idle 0 (grid1.coords t) = false := liveAlways 0 (by decide)
theorem live_1 : ∀ t : Fin cfg1.N, cfg1.idle 1 (grid1.coords t) = false := liveAlways 1 (by decide)
theorem live_2 : ∀ t : Fin cfg1.N, cfg1.idle 2 (grid1.coords t) = false := liveAlways 2 (by decide)
theorem live_3 : ∀ t : Fin cfg1.N, cfg1.idle 3 (grid1.coords t) = false := liveAlways 3 (by decide)
theorem live_4 : ∀ t : Fin cfg1.N, cfg1.idle 4 (grid1.coords t) = false := liveAlways 4 (by decide)
theorem live_5 : ∀ t : Fin cfg1.N, cfg1.idle 5 (grid1.coords t) = false := liveAlways 5 (by decide)
theorem live_6 : ∀ t : Fin cfg1.N, cfg1.idle 6 (grid1.coords t) = false := liveAlways 6 (by decide)

theorem first_not_last (t : Fin cfg1.N) (h : t.val % 32 = 0) : ¬t.val % 32 = 31 := by omega
theorem last_not_first (t : Fin cfg1.N) (h : t.val % 32 = 31) : ¬t.val % 32 = 0 := by omega

abbrev rA (c : Dev nD) (t : Fin cfg1.N) (h0 : t.val % 32 = 0) :=
  runA (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) ((hcond0 t).mpr h0) (fun h => (hcond1 t).mp h h0) (fun h => first_not_last t h0 ((hcond2 t).mp h)) (iblk V c 0 t) (iblk V c 1 t) (iblk V c 2 t) (iblk V c 3 t) (iblk V c 4 t) (iblk V c 5 t)

abbrev rB (c : Dev nD) (t : Fin cfg1.N) (h0 : ¬t.val % 32 = 0) (h31 : ¬t.val % 32 = 31) (xs0 : Vec F S32x64 .f32) (xs1 : Vec F S32x64 .f32) (xs2 : Vec F S32x64 .f32) :=
  runB (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => h0 ((hcond0 t).mp h)) ((hcond1 t).mpr h0) (fun h => h31 ((hcond2 t).mp h)) (iblk V c 0 t) (iblk V c 1 t) (iblk V c 2 t) (iblk V c 3 t) (iblk V c 4 t) (iblk V c 5 t) xs0 xs1 xs2

abbrev rC (c : Dev nD) (t : Fin cfg1.N) (h31 : t.val % 32 = 31) (xs0 : Vec F S32x64 .f32) (xs1 : Vec F S32x64 .f32) (xs2 : Vec F S32x64 .f32) :=
  runC (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => last_not_first t h31 ((hcond0 t).mp h)) ((hcond1 t).mpr (last_not_first t h31)) ((hcond2 t).mpr h31) (iblk V c 0 t) (iblk V c 1 t) (iblk V c 2 t) (iblk V c 3 t) (iblk V c 4 t) (iblk V c 5 t) xs0 xs1 xs2

def outA (c : Dev nD) (t : Fin cfg1.N) (h0 : t.val % 32 = 0) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rA V c t h0).1),
   VO7.read (Elt F) VO7.junk,
   VO8.read (Elt F) VO8.junk,
   VO9.read (Elt F) VO9.junk,
   VS0.read (Elt F) (VS0.writes (Elt F) VS0.junk (rA V c t h0).2.1),
   VS1.read (Elt F) (VS1.writes (Elt F) VS1.junk (rA V c t h0).2.2.1),
   VS2.read (Elt F) (VS2.writes (Elt F) VS2.junk (rA V c t h0).2.2.2.1))

def outB (c : Dev nD) (t : Fin cfg1.N) (h0 : ¬t.val % 32 = 0) (h31 : ¬t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rB V c t h0 h31 xs0 xs1 xs2).1),
   VO7.read (Elt F) VO7.junk,
   VO8.read (Elt F) VO8.junk,
   VO9.read (Elt F) VO9.junk,
   VS0.read (Elt F) (VS0.writes (Elt F) VS0.junk (rB V c t h0 h31 xs0 xs1 xs2).2.1),
   VS1.read (Elt F) (VS1.writes (Elt F) VS1.junk (rB V c t h0 h31 xs0 xs1 xs2).2.2.1),
   VS2.read (Elt F) (VS2.writes (Elt F) VS2.junk (rB V c t h0 h31 xs0 xs1 xs2).2.2.2.1))

def outC (c : Dev nD) (t : Fin cfg1.N) (h31 : t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rC V c t h31 xs0 xs1 xs2).1),
   VO7.read (Elt F) (VO7.writes (Elt F) VO7.junk (rC V c t h31 xs0 xs1 xs2).2.1),
   VO8.read (Elt F) (VO8.writes (Elt F) VO8.junk (rC V c t h31 xs0 xs1 xs2).2.2.1),
   VO9.read (Elt F) (VO9.writes (Elt F) VO9.junk (rC V c t h31 xs0 xs1 xs2).2.2.2.1),
   VS0.read (Elt F) (VS0.writes (Elt F) VS0.junk (rC V c t h31 xs0 xs1 xs2).2.2.2.2.1),
   VS1.read (Elt F) (VS1.writes (Elt F) VS1.junk (rC V c t h31 xs0 xs1 xs2).2.2.2.2.2.1),
   VS2.read (Elt F) (VS2.writes (Elt F) VS2.junk (rC V c t h31 xs0 xs1 xs2).2.2.2.2.2.2.1))

/-- What the output blocks and the three running sums hold after position n: the case n mod 32 selects, over what position n - 1 left. -/
def outsAt (c : Dev nD) : (n : ℕ) → n < cfg1.N → Vec F S8192x64 .bf16 × Vec F S1x32x64 .f32 × Vec F S1x32x64 .f32 × Vec F S1x32x64 .f32 × Vec F S32x64 .f32 × Vec F S32x64 .f32 × Vec F S32x64 .f32
  | 0, hn => outA V c ⟨0, hn⟩ (Nat.zero_mod _)
  | n + 1, hn =>
    if h0 : (n + 1) % 32 = 0 then
      outA V c ⟨n + 1, hn⟩ h0
    else
      if h31 : (n + 1) % 32 = 31 then
        outC V c ⟨n + 1, hn⟩ h31 (outsAt c n (Nat.lt_of_succ_lt hn)).2.2.2.2.1 (outsAt c n (Nat.lt_of_succ_lt hn)).2.2.2.2.2.1 (outsAt c n (Nat.lt_of_succ_lt hn)).2.2.2.2.2.2
      else
        outB V c ⟨n + 1, hn⟩ h0 h31 (outsAt c n (Nat.lt_of_succ_lt hn)).2.2.2.2.1 (outsAt c n (Nat.lt_of_succ_lt hn)).2.2.2.2.2.1 (outsAt c n (Nat.lt_of_succ_lt hn)).2.2.2.2.2.2

theorem outsAt_A (c : Dev nD) (t : Fin cfg1.N) (h0 : t.val % 32 = 0) :
    outsAt V c t.val t.isLt = outA V c t h0 := by
  obtain ⟨n, hn⟩ := t
  cases n with
  | zero => exact rfl
  | succ n => exact (dif_pos h0).trans rfl

theorem outsAt_B (c : Dev nD) (t : Fin cfg1.N) (h0 : ¬t.val % 32 = 0) (h31 : ¬t.val % 32 = 31) :
    outsAt V c t.val t.isLt = outB V c t h0 h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h31).trans rfl)

theorem outsAt_C (c : Dev nD) (t : Fin cfg1.N) (h31 : t.val % 32 = 31) :
    outsAt V c t.val t.isLt = outC V c t h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h31); exact absurd h31 (by decide))
  | succ n => exact (dif_neg (last_not_first ⟨n + 1, hn⟩ h31)).trans ((dif_pos h31).trans rfl)

/-- The invariant before position n: the running sums at what position n - 1 left them, at anything before the first. -/
def PhiS (c : Dev nD) : (n : ℕ) → n ≤ cfg1.N → sProp 𝕄
  | 0, _ => Pipeline.ΦA spec1 c
  | n + 1, hn => iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM0 fullShare ((outsAt V c (n - 1) (by omega)).2.2.2.2.1) ∗ owns (c : Thread nD τ) scM1 fullShare ((outsAt V c (n - 1) (by omega)).2.2.2.2.2.1) ∗ owns (c : Thread nD τ) scM2 fullShare ((outsAt V c (n - 1) (by omega)).2.2.2.2.2.2)) ∗ restBut (F := F) c) ∗ (∃ r, prngReg c r)) := by
  cases n with
  | zero => exact absurd rfl hz
  | succ n => rfl

/-- At any position the invariant gives the running sums at some contents, as the launch hands them over. -/
theorem Phi_any (c : Dev nD) (n : ℕ) (h : n ≤ cfg1.N) :
    PhiS V c n h ⊢ iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  cases n with
  | zero => rw [PhiS_zero V c 0 h rfl, PhiA_eq]
  | succ n =>
    rw [PhiS_succ]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-- The proof data: the arrays as found, each input at its block, each output at outsAt, the invariant PhiS. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
    | ⟨9, _⟩ => (outsAt V c t.val t.isLt).2.2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = (outsAt V c t.val t.isLt).1 := by dsimp only [dat]
theorem after_7 (c : Dev nD) (t : Fin cfg1.N) : (dat V c).after 7 t = (outsAt V c t.val t.isLt).2.1 := by dsimp only [dat]
theorem after_8 (c : Dev nD) (t : Fin cfg1.N) : (dat V c).after 8 t = (outsAt V c t.val t.isLt).2.2.1 := by dsimp only [dat]
theorem after_9 (c : Dev nD) (t : Fin cfg1.N) : (dat V c).after 9 t = (outsAt V c t.val t.isLt).2.2.2.1 := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d

theorem leaves_0 (c : Dev nD) (t : Fin cfg1.N) : (dat V c).leavesExact 0 t = owns (c : Thread nD τ) (ms0 t) fullShare (iblk V c 0 t) := by
  unfold Dat.leavesExact; rw [live_0 t, after_0]
theorem leaves_1 (c : Dev nD) (t : Fin cfg1.N) : (dat V c).leavesExact 1 t = owns (c : Thread nD τ) (ms1 t) fullShare (iblk V c 1 t) := by
  unfold Dat.leavesExact; rw [live_1 t, after_1]
theorem leaves_2 (c : Dev nD) (t : Fin cfg1.N) : (dat V c).leavesExact 2 t = owns (c : Thread nD τ) (ms2 t) fullShare (iblk V c 2 t) := by
  unfold Dat.leavesExact; rw [live_2 t, after_2]
theorem leaves_3 (c : Dev nD) (t : Fin cfg1.N) : (dat V c).leavesExact 3 t = owns (c : Thread nD τ) (ms3 t) fullShare (iblk V c 3 t) := by
  unfold Dat.leavesExact; rw [live_3 t, after_3]
theorem leaves_4 (c : Dev nD) (t : Fin cfg1.N) : (dat V c).leavesExact 4 t = owns (c : Thread nD τ) (ms4 t) fullShare (iblk V c 4 t) := by
  unfold Dat.leavesExact; rw [live_4 t, after_4]
theorem leaves_5 (c : Dev nD) (t : Fin cfg1.N) : (dat V c).leavesExact 5 t = owns (c : Thread nD τ) (ms5 t) fullShare (iblk V c 5 t) := by
  unfold Dat.leavesExact; rw [live_5 t, after_5]
theorem leaves_6 (c : Dev nD) (t : Fin cfg1.N) : (dat V c).leavesExact 6 t = owns (c : Thread nD τ) (ms6 t) fullShare ((outsAt V c t.val t.isLt).1) := by
  unfold Dat.leavesExact; rw [live_6 t, after_6]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 3200000 in
/-- The body at a first step: the running sums are set, so any contents will do for them. -/
theorem sound_A (c : Dev nD) (t : Fin cfg1.N) (h0 : t.val % 32 = 0) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid1.coords t) := fun h => first_not_last t h0 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_A V c t h0]
  unfold outA; (try dsimp only)
  rw [PhiS_castSucc V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (Phi_any V c _ _) $$ HΦ
  icases HΦ' with ⟨⟨⟨HS0, HS1, HS2⟩, HR⟩, Hg⟩
  iapply ((rA V c t h0).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a middle step: the running sums are read at what the step before left and added to. -/
theorem sound_B (c : Dev nD) (t : Fin cfg1.N) (h0 : ¬t.val % 32 = 0) (h31 : ¬t.val % 32 = 31) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid1.coords t) := fun h => h31 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_B V c t h0 h31]
  unfold outB; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB V c t h0 h31 _ _ _).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a last step: as a middle step, and the three partial-sum outputs take the finished sums. -/
theorem sound_C (c : Dev nD) (t : Fin cfg1.N) (h31 : t.val % 32 = 31) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  rw [show (dat V c).leavesExact 7 t = owns (c : Thread nD τ) (ms7 t) fullShare ((dat V c).after 7 t) from by
    unfold Dat.leavesExact; rw [live7 t ((hcond2 t).mpr h31)], after_7]
  rw [show (dat V c).leavesExact 8 t = owns (c : Thread nD τ) (ms8 t) fullShare ((dat V c).after 8 t) from by
    unfold Dat.leavesExact; rw [live8 t ((hcond2 t).mpr h31)], after_8]
  rw [show (dat V c).leavesExact 9 t = owns (c : Thread nD τ) (ms9 t) fullShare ((dat V c).after 9 t) from by
    unfold Dat.leavesExact; rw [live9 t ((hcond2 t).mpr h31)], after_9]
  rw [outsAt_C V c t h31]
  unfold outC; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC V c t h31 _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]
  · ihave H' := (Ring.owns_of_writes_tiledL VO7 S1x32x64.size) $$ H7; iapply H'; ipureintro; sl_kernel_rfl
  isplitl [H8]
  · ihave H' := (Ring.owns_of_writes_tiledL VO8 S1x32x64.size) $$ H8; iapply H'; ipureintro; sl_kernel_rfl
  ihave H' := (Ring.owns_of_writes_tiledL VO9 S1x32x64.size) $$ H9; iapply H'; ipureintro; sl_kernel_rfl

theorem sound_body (c : Dev nD) (t : Fin cfg1.N) :
    bodyPre V c t ⊢ wp frame (wpE (defs₀ (F := F)) Variants.none c none) Set.univ (bodyAt1 t) (fun _ => bodyPost V c t) := by
  by_cases h0 : t.val % 32 = 0
  · exact sound_A V c t h0
  · by_cases h31 : t.val % 32 = 31
    · exact sound_C V c t h31
    · exact sound_B V c t h0 h31

/-- The body obligation at every point: the step t mod 32 says which case applies. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) : (dat V c).Φ t ⊢ Pipeline.ΦA spec1 c := by
  rw [show (dat V c).Φ t = PhiS V c t.val (Nat.le_of_lt_succ t.isLt) from rfl, PhiA_eq]; exact Phi_any V c _ _

theorem hout (c : Dev nD) : (dat V c).Φ (Fin.last cfg1.N) ⊢ Pipeline.ΦA spec1 c := Phi_out V c _

end Cert.KernelIdeal.R1

end
-- ==== Proof.KI.Runs2.lean ====
/- A hidden layer's body run in its three control cases (first, middle and last step of a core's half); each run records what it writes. -/
import proofs.«431227_j85710367359314_3_alg».proof.Proof.Gen.KernelIdeal.Launch
import proofs.«431227_j85710367359314_3_alg».proof.Proof.Gen.KernelIdeal.Skeleton
import proofs.«431227_j85710367359314_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 32 = 0 :=
  (by decide +kernel : ∀ t : Fin grid2.N, cond0 (grid2.coords t) ↔ t.val % 32 = 0)

abbrev cond1 (i : grid2.Coords) : Prop := (Scalar.cmpi .ne (Scalar.extui (Scalar.cmpi .sgt (BitVec.ofNat 32 (i 1).val) 0#32)) 0#32) = 1#1
theorem hcond1 : ∀ t : Fin cfg2.N, cond1 (grid2.coords t) ↔ t.val % 32 ≠ 0 :=
  (by decide +kernel : ∀ t : Fin grid2.N, cond1 (grid2.coords t) ↔ t.val % 32 ≠ 0)

abbrev cond2 (i : grid2.Coords) : Prop := k2_cond3 i = 1#1
theorem hcond2 : ∀ t : Fin cfg2.N, cond2 (grid2.coords t) ↔ t.val % 32 = 31 :=
  (by decide +kernel : ∀ t : Fin grid2.N, cond2 (grid2.coords t) ↔ t.val % 32 = 31)

theorem hN : cfg2.N = 64 := by decide

theorem liveAlways : ∀ (w : Fin 10), w.val < 7 → ∀ t : Fin cfg2.N, cfg2.idle w (grid2.coords t) = false := by decide +kernel

theorem idle7 : ∀ t : Fin cfg2.N, ¬cond2 (grid2.coords t) → cfg2.idle 7 (grid2.coords t) = true := by decide +kernel
theorem idle8 : ∀ t : Fin cfg2.N, ¬cond2 (grid2.coords t) → cfg2.idle 8 (grid2.coords t) = true := by decide +kernel
theorem idle9 : ∀ t : Fin cfg2.N, ¬cond2 (grid2.coords t) → cfg2.idle 9 (grid2.coords t) = true := by decide +kernel
theorem noFlush7 : ∀ t : Fin cfg2.N, ¬cond2 (grid2.coords t) → (cfg2.win 7).flush t = false := by decide +kernel
theorem noFlush8 : ∀ t : Fin cfg2.N, ¬cond2 (grid2.coords t) → (cfg2.win 8).flush t = false := by decide +kernel
theorem noFlush9 : ∀ t : Fin cfg2.N, ¬cond2 (grid2.coords t) → (cfg2.win 9).flush t = false := by decide +kernel
theorem live7 : ∀ t : Fin cfg2.N, cond2 (grid2.coords t) → cfg2.idle 7 (grid2.coords t) = false := by decide +kernel
theorem live8 : ∀ t : Fin cfg2.N, cond2 (grid2.coords t) → cfg2.idle 8 (grid2.coords t) = false := by decide +kernel
theorem live9 : ∀ t : Fin cfg2.N, cond2 (grid2.coords t) → cfg2.idle 9 (grid2.coords t) = false := by decide +kernel
theorem flush7 : ∀ t : Fin cfg2.N, cond2 (grid2.coords t) → (cfg2.win 7).flush t = true := by decide +kernel
theorem flush8 : ∀ t : Fin cfg2.N, cond2 (grid2.coords t) → (cfg2.win 8).flush t = true := by decide +kernel
theorem flush9 : ∀ t : Fin cfg2.N, cond2 (grid2.coords t) → (cfg2.win 9).flush t = true := by decide +kernel

abbrev PcH := View.Piece (Elt F) S8192x64 .bf16
abbrev PcO := View.Piece (Elt F) S1x32x64 .f32
abbrev PcS := View.Piece (Elt F) S32x64 .f32

set_option maxHeartbeats 4000000 in
noncomputable def runA (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : cond0 i) (hc1 : ¬cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runB (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : ¬cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (LS0 : List (PcS (F := F))) (LS1 : List (PcS (F := F))), { LS2 : List (PcS (F := F)) //
      ∀ (xi7 xi8 xi9 : Vec F S1x32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 xi9 E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

set_option maxHeartbeats 4000000 in
noncomputable def runC (c : Dev nD) (i : grid2.Coords) (arg2 : Memref sig .tc .vmem S8192x64 .bf16) (harg2 : arg2.IsWhole) (arg3 : Memref sig .tc .vmem S32x64 .f32) (harg3 : arg3.IsWhole) (arg4 : Memref sig .tc .vmem S32x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8192x1 .i32) (harg7 : arg7.IsWhole) (arg8 : Memref sig .tc .vmem S8192x64 .bf16) (harg8 : arg8.IsWhole) (arg9 : Memref sig .tc .vmem S1x32x64 .f32) (harg9 : arg9.IsWhole) (arg10 : Memref sig .tc .vmem S1x32x64 .f32) (harg10 : arg10.IsWhole) (arg11 : Memref sig .tc .vmem S1x32x64 .f32) (harg11 : arg11.IsWhole) (arg12 : Memref sig .tc .vmem S32x64 .f32) (harg12 : arg12.IsWhole) (arg13 : Memref sig .tc .vmem S32x64 .f32) (harg13 : arg13.IsWhole) (arg14 : Memref sig .tc .vmem S32x64 .f32) (harg14 : arg14.IsWhole) (hc0 : ¬cond0 i) (hc1 : cond1 i) (hc2 : cond2 i)
    (x0 : Vec F S8192x64 .bf16) (x1 : Vec F S32x64 .f32) (x2 : Vec F S32x64 .f32) (x3 : Vec F S64x64 .f32) (x4 : Vec F S1x64 .f32) (x5 : Vec F S8192x1 .i32) (xs0 : Vec F S32x64 .f32) (xs1 : Vec F S32x64 .f32) (xs2 : Vec F S32x64 .f32) :
    Σ' (L6 : List (PcH (F := F))) (L7 : List (PcO (F := F))) (L8 : List (PcO (F := F))) (L9 : List (PcO (F := F))) (LS0 : List (PcS (F := F))) (LS1 : List (PcS (F := F))), { LS2 : List (PcS (F := F)) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc2__norm_fwd_stats_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc2__norm_fwd_stats_kernel_eq_skeleton]; unfold cc2__norm_fwd_stats_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0; obtain rfl := harg13.eq_unread hfs1; obtain rfl := harg14.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.R2

end
-- ==== Proof.KI.Reg2.lean ====
/- A hidden layer's region: its proof data, and the body obligation at every grid point, case by case from the three runs. -/
import proofs.«431227_j85710367359314_3_alg».proof.Proof.KI.Runs2

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg2.N) : Memref sig .tc .vmem S8192x64 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S32x64 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S32x64 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S64x64 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x64 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S8192x1 .i32 := win2_5.stage (cfg2.slots t 5)
abbrev hs5 (t : Fin cfg2.N) : (ms5 t).IsWhole := hstage2_5 ((cfg2.slots t 5).cast nbuf2_5)
abbrev ms6 (t : Fin cfg2.N) : Memref sig .tc .vmem S8192x64 .bf16 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x32x64 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x32x64 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S1x32x64 .f32 := win2_9.stage (cfg2.slots t 9)
abbrev hs9 (t : Fin cfg2.N) : (ms9 t).IsWhole := hstage2_9 ((cfg2.slots t 9).cast nbuf2_9)

abbrev scM0 : Memref sig .tc .vmem S32x64 .f32 := Memref.whole cc2_scratch0
abbrev VS0 : View sig .tc .vmem S32x64 .f32 := scM0.view
abbrev scM1 : Memref sig .tc .vmem S32x64 .f32 := Memref.whole cc2_scratch1
abbrev VS1 : View sig .tc .vmem S32x64 .f32 := scM1.view
abbrev scM2 : Memref sig .tc .vmem S32x64 .f32 := Memref.whole cc2_scratch2
abbrev VS2 : View sig .tc .vmem S32x64 .f32 := scM2.view

abbrev VO6 : View sig .tc .vmem S8192x64 .bf16 := (Memref.whole cc2_stg6_0 : Memref sig .tc .vmem S8192x64 .bf16).view
abbrev VO7 : View sig .tc .vmem S1x32x64 .f32 := (Memref.whole cc2_stg7_0 : Memref sig .tc .vmem S1x32x64 .f32).view
abbrev VO8 : View sig .tc .vmem S1x32x64 .f32 := (Memref.whole cc2_stg8_0 : Memref sig .tc .vmem S1x32x64 .f32).view
abbrev VO9 : View sig .tc .vmem S1x32x64 .f32 := (Memref.whole cc2_stg9_0 : Memref sig .tc .vmem S1x32x64 .f32).view

abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The launch's invariant with the three running sums split off. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest2_split]; simp only [scM0, scM1, scM2, owns_whole]; try rfl

theorem live_0 : ∀ t : Fin cfg2.N, cfg2.idle 0 (grid2.coords t) = false := liveAlways 0 (by decide)
theorem live_1 : ∀ t : Fin cfg2.N, cfg2.idle 1 (grid2.coords t) = false := liveAlways 1 (by decide)
theorem live_2 : ∀ t : Fin cfg2.N, cfg2.idle 2 (grid2.coords t) = false := liveAlways 2 (by decide)
theorem live_3 : ∀ t : Fin cfg2.N, cfg2.idle 3 (grid2.coords t) = false := liveAlways 3 (by decide)
theorem live_4 : ∀ t : Fin cfg2.N, cfg2.idle 4 (grid2.coords t) = false := liveAlways 4 (by decide)
theorem live_5 : ∀ t : Fin cfg2.N, cfg2.idle 5 (grid2.coords t) = false := liveAlways 5 (by decide)
theorem live_6 : ∀ t : Fin cfg2.N, cfg2.idle 6 (grid2.coords t) = false := liveAlways 6 (by decide)

theorem first_not_last (t : Fin cfg2.N) (h : t.val % 32 = 0) : ¬t.val % 32 = 31 := by omega
theorem last_not_first (t : Fin cfg2.N) (h : t.val % 32 = 31) : ¬t.val % 32 = 0 := by omega

abbrev rA (c : Dev nD) (t : Fin cfg2.N) (h0 : t.val % 32 = 0) :=
  runA (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) ((hcond0 t).mpr h0) (fun h => (hcond1 t).mp h h0) (fun h => first_not_last t h0 ((hcond2 t).mp h)) (iblk V c 0 t) (iblk V c 1 t) (iblk V c 2 t) (iblk V c 3 t) (iblk V c 4 t) (iblk V c 5 t)

abbrev rB (c : Dev nD) (t : Fin cfg2.N) (h0 : ¬t.val % 32 = 0) (h31 : ¬t.val % 32 = 31) (xs0 : Vec F S32x64 .f32) (xs1 : Vec F S32x64 .f32) (xs2 : Vec F S32x64 .f32) :=
  runB (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => h0 ((hcond0 t).mp h)) ((hcond1 t).mpr h0) (fun h => h31 ((hcond2 t).mp h)) (iblk V c 0 t) (iblk V c 1 t) (iblk V c 2 t) (iblk V c 3 t) (iblk V c 4 t) (iblk V c 5 t) xs0 xs1 xs2

abbrev rC (c : Dev nD) (t : Fin cfg2.N) (h31 : t.val % 32 = 31) (xs0 : Vec F S32x64 .f32) (xs1 : Vec F S32x64 .f32) (xs2 : Vec F S32x64 .f32) :=
  runC (F := F) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) (fun h => last_not_first t h31 ((hcond0 t).mp h)) ((hcond1 t).mpr (last_not_first t h31)) ((hcond2 t).mpr h31) (iblk V c 0 t) (iblk V c 1 t) (iblk V c 2 t) (iblk V c 3 t) (iblk V c 4 t) (iblk V c 5 t) xs0 xs1 xs2

def outA (c : Dev nD) (t : Fin cfg2.N) (h0 : t.val % 32 = 0) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rA V c t h0).1),
   VO7.read (Elt F) VO7.junk,
   VO8.read (Elt F) VO8.junk,
   VO9.read (Elt F) VO9.junk,
   VS0.read (Elt F) (VS0.writes (Elt F) VS0.junk (rA V c t h0).2.1),
   VS1.read (Elt F) (VS1.writes (Elt F) VS1.junk (rA V c t h0).2.2.1),
   VS2.read (Elt F) (VS2.writes (Elt F) VS2.junk (rA V c t h0).2.2.2.1))

def outB (c : Dev nD) (t : Fin cfg2.N) (h0 : ¬t.val % 32 = 0) (h31 : ¬t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rB V c t h0 h31 xs0 xs1 xs2).1),
   VO7.read (Elt F) VO7.junk,
   VO8.read (Elt F) VO8.junk,
   VO9.read (Elt F) VO9.junk,
   VS0.read (Elt F) (VS0.writes (Elt F) VS0.junk (rB V c t h0 h31 xs0 xs1 xs2).2.1),
   VS1.read (Elt F) (VS1.writes (Elt F) VS1.junk (rB V c t h0 h31 xs0 xs1 xs2).2.2.1),
   VS2.read (Elt F) (VS2.writes (Elt F) VS2.junk (rB V c t h0 h31 xs0 xs1 xs2).2.2.2.1))

def outC (c : Dev nD) (t : Fin cfg2.N) (h31 : t.val % 32 = 31) (xs0 : Vec F S32x64 .f32) (xs1 : Vec F S32x64 .f32) (xs2 : Vec F S32x64 .f32) : Vec F S8192x64 .bf16 × Vec F S1x32x64 .f32 × Vec F S1x32x64 .f32 × Vec F S1x32x64 .f32 × Vec F S32x64 .f32 × Vec F S32x64 .f32 × Vec F S32x64 .f32 :=
  (VO6.read (Elt F) (VO6.writes (Elt F) VO6.junk (rC V c t h31 xs0 xs1 xs2).1),
   VO7.read (Elt F) (VO7.writes (Elt F) VO7.junk (rC V c t h31 xs0 xs1 xs2).2.1),
   VO8.read (Elt F) (VO8.writes (Elt F) VO8.junk (rC V c t h31 xs0 xs1 xs2).2.2.1),
   VO9.read (Elt F) (VO9.writes (Elt F) VO9.junk (rC V c t h31 xs0 xs1 xs2).2.2.2.1),
   VS0.read (Elt F) (VS0.writes (Elt F) VS0.junk (rC V c t h31 xs0 xs1 xs2).2.2.2.2.1),
   VS1.read (Elt F) (VS1.writes (Elt F) VS1.junk (rC V c t h31 xs0 xs1 xs2).2.2.2.2.2.1),
   VS2.read (Elt F) (VS2.writes (Elt F) VS2.junk (rC V c t h31 xs0 xs1 xs2).2.2.2.2.2.2.1))

/-- What the output blocks and the three running sums hold after position n: the case n mod 32 selects, over what position n - 1 left. -/
def outsAt (c : Dev nD) : (n : ℕ) → n < cfg2.N → Vec F S8192x64 .bf16 × Vec F S1x32x64 .f32 × Vec F S1x32x64 .f32 × Vec F S1x32x64 .f32 × Vec F S32x64 .f32 × Vec F S32x64 .f32 × Vec F S32x64 .f32
  | 0, hn => outA V c ⟨0, hn⟩ (Nat.zero_mod _)
  | n + 1, hn =>
    if h0 : (n + 1) % 32 = 0 then
      outA V c ⟨n + 1, hn⟩ h0
    else
      if h31 : (n + 1) % 32 = 31 then
        outC V c ⟨n + 1, hn⟩ h31 (outsAt c n (Nat.lt_of_succ_lt hn)).2.2.2.2.1 (outsAt c n (Nat.lt_of_succ_lt hn)).2.2.2.2.2.1 (outsAt c n (Nat.lt_of_succ_lt hn)).2.2.2.2.2.2
      else
        outB V c ⟨n + 1, hn⟩ h0 h31 (outsAt c n (Nat.lt_of_succ_lt hn)).2.2.2.2.1 (outsAt c n (Nat.lt_of_succ_lt hn)).2.2.2.2.2.1 (outsAt c n (Nat.lt_of_succ_lt hn)).2.2.2.2.2.2

theorem outsAt_A (c : Dev nD) (t : Fin cfg2.N) (h0 : t.val % 32 = 0) :
    outsAt V c t.val t.isLt = outA V c t h0 := by
  obtain ⟨n, hn⟩ := t
  cases n with
  | zero => exact rfl
  | succ n => exact (dif_pos h0).trans rfl

theorem outsAt_B (c : Dev nD) (t : Fin cfg2.N) (h0 : ¬t.val % 32 = 0) (h31 : ¬t.val % 32 = 31) :
    outsAt V c t.val t.isLt = outB V c t h0 h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans ((dif_neg h31).trans rfl)

theorem outsAt_C (c : Dev nD) (t : Fin cfg2.N) (h31 : t.val % 32 = 31) :
    outsAt V c t.val t.isLt = outC V c t h31 (outsAt V c (t.val - 1) (Nat.lt_of_le_of_lt (Nat.sub_le _ _) t.isLt)).2.2.2.2.1 (outsAt V c (t.val - 1) (Nat.lt_of_le_of_lt (Nat.sub_le _ _) t.isLt)).2.2.2.2.2.1 (outsAt V c (t.val - 1) (Nat.lt_of_le_of_lt (Nat.sub_le _ _) t.isLt)).2.2.2.2.2.2 := by
  obtain ⟨n, hn⟩ := t
  cases n with
  | zero => exact (by exfalso; (try dsimp only at h31); exact absurd h31 (by decide))
  | succ n => exact (dif_neg (last_not_first ⟨n + 1, hn⟩ h31)).trans ((dif_pos h31).trans rfl)

/-- The invariant before position n: the running sums at what position n - 1 left them, at anything before the first. -/
def PhiS (c : Dev nD) : (n : ℕ) → n ≤ cfg2.N → sProp 𝕄
  | 0, _ => Pipeline.ΦA spec2 c
  | n + 1, hn => iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM0 fullShare ((outsAt V c n hn).2.2.2.2.1) ∗ owns (c : Thread nD τ) scM1 fullShare ((outsAt V c n hn).2.2.2.2.2.1) ∗ owns (c : Thread nD τ) scM2 fullShare ((outsAt V c n hn).2.2.2.2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM0 fullShare ((outsAt V c (n - 1) (by omega)).2.2.2.2.1) ∗ owns (c : Thread nD τ) scM1 fullShare ((outsAt V c (n - 1) (by omega)).2.2.2.2.2.1) ∗ owns (c : Thread nD τ) scM2 fullShare ((outsAt V c (n - 1) (by omega)).2.2.2.2.2.2)) ∗ restBut (F := F) c) ∗ (∃ r, prngReg c r)) := by
  cases n with
  | zero => exact absurd rfl hz
  | succ n => rfl

/-- At any position the invariant gives the running sums at some contents, as the launch hands them over. -/
theorem Phi_any (c : Dev nD) (n : ℕ) (h : n ≤ cfg2.N) :
    PhiS V c n h ⊢ iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  cases n with
  | zero => rw [PhiS_zero V c 0 h rfl, PhiA_eq]
  | succ n =>
    rw [PhiS_succ]
    iintro ⟨⟨⟨HS0, HS1, HS2⟩, HR⟩, Hg⟩
    isplitl [HS0 HS1 HS2 HR]
    · isplitl [HS0 HS1 HS2]
      · isplitl [HS0]; · iexists _; iexact HS0
        isplitl [HS1]; · iexists _; iexact HS1
        iexists _; iexact HS2
      iexact HR
    iexact Hg

/-- The proof data: the arrays as found, each input at its block, each output at outsAt, the invariant PhiS. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2.1
    | ⟨8, _⟩ => (outsAt V c t.val t.isLt).2.2.1
    | ⟨9, _⟩ => (outsAt V c t.val t.isLt).2.2.2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = (outsAt V c t.val t.isLt).1 := by dsimp only [dat]
theorem after_7 (c : Dev nD) (t : Fin cfg2.N) : (dat V c).after 7 t = (outsAt V c t.val t.isLt).2.1 := by dsimp only [dat]
theorem after_8 (c : Dev nD) (t : Fin cfg2.N) : (dat V c).after 8 t = (outsAt V c t.val t.isLt).2.2.1 := by dsimp only [dat]
theorem after_9 (c : Dev nD) (t : Fin cfg2.N) : (dat V c).after 9 t = (outsAt V c t.val t.isLt).2.2.2.1 := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d
theorem before_5 (c : Dev nD) (t : Fin cfg2.N) (d) : (dat V c).before 5 t d = iblk V c 5 t :=
  before_of_5 V (dat V c) (A_eq V c 5) (after_5 V c) t d

theorem leaves_0 (c : Dev nD) (t : Fin cfg2.N) : (dat V c).leavesExact 0 t = owns (c : Thread nD τ) (ms0 t) fullShare (iblk V c 0 t) := by
  unfold Dat.leavesExact; rw [live_0 t, after_0]
theorem leaves_1 (c : Dev nD) (t : Fin cfg2.N) : (dat V c).leavesExact 1 t = owns (c : Thread nD τ) (ms1 t) fullShare (iblk V c 1 t) := by
  unfold Dat.leavesExact; rw [live_1 t, after_1]
theorem leaves_2 (c : Dev nD) (t : Fin cfg2.N) : (dat V c).leavesExact 2 t = owns (c : Thread nD τ) (ms2 t) fullShare (iblk V c 2 t) := by
  unfold Dat.leavesExact; rw [live_2 t, after_2]
theorem leaves_3 (c : Dev nD) (t : Fin cfg2.N) : (dat V c).leavesExact 3 t = owns (c : Thread nD τ) (ms3 t) fullShare (iblk V c 3 t) := by
  unfold Dat.leavesExact; rw [live_3 t, after_3]
theorem leaves_4 (c : Dev nD) (t : Fin cfg2.N) : (dat V c).leavesExact 4 t = owns (c : Thread nD τ) (ms4 t) fullShare (iblk V c 4 t) := by
  unfold Dat.leavesExact; rw [live_4 t, after_4]
theorem leaves_5 (c : Dev nD) (t : Fin cfg2.N) : (dat V c).leavesExact 5 t = owns (c : Thread nD τ) (ms5 t) fullShare (iblk V c 5 t) := by
  unfold Dat.leavesExact; rw [live_5 t, after_5]
theorem leaves_6 (c : Dev nD) (t : Fin cfg2.N) : (dat V c).leavesExact 6 t = owns (c : Thread nD τ) (ms6 t) fullShare ((outsAt V c t.val t.isLt).1) := by
  unfold Dat.leavesExact; rw [live_6 t, after_6]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 3200000 in
/-- The body at a first step: the running sums are set, so any contents will do for them. -/
theorem sound_A (c : Dev nD) (t : Fin cfg2.N) (h0 : t.val % 32 = 0) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid2.coords t) := fun h => first_not_last t h0 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_A V c t h0]
  unfold outA; (try dsimp only)
  rw [PhiS_castSucc V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (Phi_any V c _ _) $$ HΦ
  icases HΦ' with ⟨⟨⟨HS0, HS1, HS2⟩, HR⟩, Hg⟩
  iapply ((rA V c t h0).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a middle step: the running sums are read at what the step before left and added to. -/
theorem sound_B (c : Dev nD) (t : Fin cfg2.N) (h0 : ¬t.val % 32 = 0) (h31 : ¬t.val % 32 = 31) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  have hc2 : ¬cond2 (grid2.coords t) := fun h => h31 ((hcond2 t).mp h)
  rw [Dat.leavesExact_idle (dat V c) 7 t (idle7 t hc2) (noFlush7 t hc2), Dat.leavesExact_idle (dat V c) 8 t (idle8 t hc2) (noFlush8 t hc2), Dat.leavesExact_idle (dat V c) 9 t (idle9 t hc2) (noFlush9 t hc2)]
  rw [outsAt_B V c t h0 h31]
  unfold outB; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rB V c t h0 h31 _ _ _).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, H7, H8, H9, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]; · iexists _; iexact H7
  isplitl [H8]; · iexists _; iexact H8
  iexists _; iexact H9

set_option maxHeartbeats 3200000 in
/-- The body at a last step: as a middle step, and the three partial-sum outputs take the finished sums. -/
theorem sound_C (c : Dev nD) (t : Fin cfg2.N) (h31 : t.val % 32 = 31) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  have hlt : t.val < 64 := lt_of_lt_of_eq t.isLt hN
  rw [leaves_0 V c t, leaves_1 V c t, leaves_2 V c t, leaves_3 V c t, leaves_4 V c t, leaves_5 V c t, leaves_6 V c t]
  rw [show (dat V c).leavesExact 7 t = owns (c : Thread nD τ) (ms7 t) fullShare ((dat V c).after 7 t) from by
    unfold Dat.leavesExact; rw [live7 t ((hcond2 t).mpr h31)], after_7]
  rw [show (dat V c).leavesExact 8 t = owns (c : Thread nD τ) (ms8 t) fullShare ((dat V c).after 8 t) from by
    unfold Dat.leavesExact; rw [live8 t ((hcond2 t).mpr h31)], after_8]
  rw [show (dat V c).leavesExact 9 t = owns (c : Thread nD τ) (ms9 t) fullShare ((dat V c).after 9 t) from by
    unfold Dat.leavesExact; rw [live9 t ((hcond2 t).mpr h31)], after_9]
  rw [outsAt_C V c t h31]
  unfold outC; (try dsimp only)
  have hz : t.val ≠ 0 := by omega
  rw [PhiS_castSucc V c t, PhiS_pos V c _ _ hz]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((rC V c t h31 _ _ _).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩⟩
  isplitl [HS0 HS1 HS2 HR Hg]
  · isplitl [HS0 HS1 HS2 HR]
    · isplitl [HS0 HS1 HS2]
      · isplitl [HS0]
        · ihave H' := (Ring.owns_of_writes_tiledL VS0 S32x64.size) $$ HS0; iapply H'; ipureintro; sl_kernel_rfl
        isplitl [HS1]
        · ihave H' := (Ring.owns_of_writes_tiledL VS1 S32x64.size) $$ HS1; iapply H'; ipureintro; sl_kernel_rfl
        ihave H' := (Ring.owns_of_writes_tiledL VS2 S32x64.size) $$ HS2; iapply H'; ipureintro; sl_kernel_rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · ihave H' := (Ring.owns_of_writes_tiledL VO6 S8192x64.size) $$ H6; iapply H'; ipureintro; sl_kernel_rfl
  isplitl [H7]
  · ihave H' := (Ring.owns_of_writes_tiledL VO7 S1x32x64.size) $$ H7; iapply H'; ipureintro; sl_kernel_rfl
  isplitl [H8]
  · ihave H' := (Ring.owns_of_writes_tiledL VO8 S1x32x64.size) $$ H8; iapply H'; ipureintro; sl_kernel_rfl
  ihave H' := (Ring.owns_of_writes_tiledL VO9 S1x32x64.size) $$ H9; iapply H'; ipureintro; sl_kernel_rfl

theorem sound_body (c : Dev nD) (t : Fin cfg2.N) :
    bodyPre V c t ⊢ wp frame (wpE (defs₀ (F := F)) Variants.none c none) Set.univ (bodyAt2 t) (fun _ => bodyPost V c t) := by
  by_cases h0 : t.val % 32 = 0
  · exact sound_A V c t h0
  · by_cases h31 : t.val % 32 = 31
    · exact sound_C V c t h31
    · exact sound_B V c t h0 h31

/-- The body obligation at every point: the step t mod 32 says which case applies. -/
theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) : (dat V c).Φ t ⊢ Pipeline.ΦA spec2 c := by
  rw [show (dat V c).Φ t = PhiS V c t.val (Nat.le_of_lt_succ t.isLt) from rfl, PhiA_eq]; exact Phi_any V c _ _

theorem hout (c : Dev nD) : (dat V c).Φ (Fin.last cfg2.N) ⊢ Pipeline.ΦA spec2 c := Phi_out V c _

end Cert.KernelIdeal.R2

end
-- ==== Proof.KI.Runs3.lean ====
/- The last layer's body run once; the run records what it writes. -/
import proofs.«431227_j85710367359314_3_alg».proof.Proof.Gen.KernelIdeal.Launch
import proofs.«431227_j85710367359314_3_alg».proof.Proof.Gen.KernelIdeal.Skeleton
import proofs.«431227_j85710367359314_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem live3 : ∀ (w : Fin 7) (t : Fin cfg3.N), cfg3.idle w (grid3.coords t) = false := by decide +kernel

abbrev PcO := View.Piece (Elt F) S8192x3 .f32

set_option maxHeartbeats 4000000 in
noncomputable def run (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) :
    { L6 : List (PcO (F := F)) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc3__norm_fwd_final_kernel i arg1 harg1 arg2 harg2 arg3 harg3 arg4 harg4 arg5 harg5 arg6 harg6 arg7 harg7) K } := by
  refine ⟨?_, fun E K => ?run⟩
  case run =>
    simp only [cc3__norm_fwd_final_kernel_eq_skeleton]; unfold cc3__norm_fwd_final_kernel_skel
    simp only [k3_part1_eq_skeleton]; unfold k3_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.R3

end
-- ==== Proof.KI.Reg3.lean ====
/- The last region's proof data and its body obligation at every grid point. -/
import proofs.«431227_j85710367359314_3_alg».proof.Proof.KI.Runs3

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg3.N) : Memref sig .tc .vmem S8192x64 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S32x64 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S32x64 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S3x64 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x3 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S8192x1 .i32 := win3_5.stage (cfg3.slots t 5)
abbrev hs5 (t : Fin cfg3.N) : (ms5 t).IsWhole := hstage3_5 ((cfg3.slots t 5).cast nbuf3_5)
abbrev ms6 (t : Fin cfg3.N) : Memref sig .tc .vmem S8192x3 .f32 := win3_6.stage (cfg3.slots t 6)
abbrev hs6 (t : Fin cfg3.N) : (ms6 t).IsWhole := hstage3_6 ((cfg3.slots t 6).cast nbuf3_6)

abbrev VO : View sig .tc .vmem S8192x3 .f32 := (Memref.whole cc3_stg6_0 : Memref sig .tc .vmem S8192x3 .f32).view

theorem cover (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) (y : S8192x3.Idx) :
    ∃ pc ∈ (run c i arg1 harg1 arg2 harg2 arg3 harg3 arg4 harg4 arg5 harg5 arg6 harg6 arg7 harg7 x0 x1 x2 x3 x4 x5).1, y ∈ pc.1.set :=
  View.cover_of_tiledL (run c i arg1 harg1 arg2 harg2 arg3 harg3 arg4 harg4 arg5 harg5 arg6 harg6 arg7 harg7 x0 x1 x2 x3 x4 x5).1 S8192x3.size (by sl_kernel_rfl) y

def out (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) : Vec F S8192x3 .f32 :=
  VO.read (Elt F) (VO.writes (Elt F) VO.junk (run c i arg1 harg1 arg2 harg2 arg3 harg3 arg4 harg4 arg5 harg5 arg6 harg6 arg7 harg7 x0 x1 x2 x3 x4 x5).1)

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = out c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d
theorem before_3 (c : Dev nD) (t : Fin cfg3.N) (d) : (dat V c).before 3 t d = iblk V c 3 t :=
  before_of_3 V (dat V c) (A_eq V c 3) (after_3 V c) t d
theorem before_4 (c : Dev nD) (t : Fin cfg3.N) (d) : (dat V c).before 4 t d = iblk V c 4 t :=
  before_of_4 V (dat V c) (A_eq V c 4) (after_4 V c) t d
theorem before_5 (c : Dev nD) (t : Fin cfg3.N) (d) : (dat V c).before 5 t d = iblk V c 5 t :=
  before_of_5 V (dat V c) (A_eq V c 5) (after_5 V c) t d

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg3.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 1600000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  unfold out
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((run c (grid3.coords t) (ms0 t) (hs0 t) (ms1 t) (hs1 t) (ms2 t) (hs2 t) (ms3 t) (hs3 t) (ms4 t) (hs4 t) (ms5 t) (hs5 t) (ms6 t) (hs6 t) (iblk V c 0 t) (iblk V c 1 t) (iblk V c 2 t) (iblk V c 3 t) (iblk V c 4 t) (iblk V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := .rfl

theorem hout (c : Dev nD) : (dat V c).Φ (Fin.last cfg3.N) ⊢ Pipeline.ΦA spec3 c := .rfl

end Cert.KernelIdeal.R3

end
-- ==== Proof.KI.Main.lean ====
import proofs.«431227_j85710367359314_3_alg».proof.Proof.KI.Reg0
import proofs.«431227_j85710367359314_3_alg».proof.Proof.KI.Reg1
import proofs.«431227_j85710367359314_3_alg».proof.Proof.KI.Reg2
import proofs.«431227_j85710367359314_3_alg».proof.Proof.KI.Reg3
import proofs.«431227_j85710367359314_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg) (c : Dev nD)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Valuation τ sig (Elt F) :=
  Pipeline.withArrays spec0 c (W1 m ρ c) fun w => (R0.dat (V1 m ρ) c).arrAt w cfg0.N
theorem W2_arr (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((R0.dat (V1 m ρ) c).arrAt_in w hin _).trans (R0.A_eq (V1 m ρ) c w))
theorem W1_of (r : Ref sig .tc) (h : r ∉ hostOps0_W) :
    W1 m ρ c (Proc.devRef .tc r) = W0 m ρ c (Proc.devRef .tc r) :=
  StableHlo.after_of_writes_sub hostOps0 _ hostOps0_writes h

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Valuation τ sig (Elt F) :=
  Pipeline.withArrays spec1 c (W3 m ρ c) fun w => (R1.dat (V3 m ρ) c).arrAt w cfg1.N
theorem W4_arr (w : Fin cfg1.W) :
    W4 m ρ c (Proc.devRef .tc (Pipeline.arrRef spec1 w)) = (R1.dat (V3 m ρ) c).arrAt w cfg1.N := by
  unfold W4; exact Pipeline.withArrays_arr spec1 launch1.win.arr_inj c _ _ w
theorem W4_of_ne (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((R1.dat (V3 m ρ) c).arrAt_in w hin _).trans (R1.A_eq (V3 m ρ) c w))
theorem W3_of (r : Ref sig .tc) (h : r ∉ hostOps1_W) :
    W3 m ρ c (Proc.devRef .tc r) = W2 m ρ c (Proc.devRef .tc r) :=
  StableHlo.after_of_writes_sub hostOps1 _ hostOps1_writes h

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Valuation τ sig (Elt F) :=
  Pipeline.withArrays spec2 c (W5 m ρ c) fun w => (R2.dat (V5 m ρ) c).arrAt w cfg2.N
theorem W6_arr (w : Fin cfg2.W) :
    W6 m ρ c (Proc.devRef .tc (Pipeline.arrRef spec2 w)) = (R2.dat (V5 m ρ) c).arrAt w cfg2.N := by
  unfold W6; exact Pipeline.withArrays_arr spec2 launch2.win.arr_inj c _ _ w
theorem W6_of_ne (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_in (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((R2.dat (V5 m ρ) c).arrAt_in w hin _).trans (R2.A_eq (V5 m ρ) c w))
theorem W5_of (r : Ref sig .tc) (h : r ∉ hostOps2_W) :
    W5 m ρ c (Proc.devRef .tc r) = W4 m ρ c (Proc.devRef .tc r) :=
  StableHlo.after_of_writes_sub hostOps2 _ hostOps2_writes h

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 : Valuation τ sig (Elt F) :=
  Pipeline.withArrays spec3 c (W7 m ρ c) fun w => (R3.dat (V7 m ρ) c).arrAt w cfg3.N
theorem W8_arr (w : Fin cfg3.W) :
    W8 m ρ c (Proc.devRef .tc (Pipeline.arrRef spec3 w)) = (R3.dat (V7 m ρ) c).arrAt w cfg3.N := by
  unfold W8; exact Pipeline.withArrays_arr spec3 launch3.win.arr_inj c _ _ w
theorem W8_of_ne (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W7_of (r : Ref sig .tc) (h : r ∉ hostOps3_W) :
    W7 m ρ c (Proc.devRef .tc r) = W6 m ρ c (Proc.devRef .tc r) :=
  StableHlo.after_of_writes_sub hostOps3 _ hostOps3_writes h

theorem W8_out : W8 m ρ c (Proc.devRef .tc main_v59) = (R3.dat (V7 m ρ) c).arrAt 6 cfg3.N :=
  W8_arr m ρ c 6

def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V3 m ρ) c
  | ⟨2, _⟩ => fun c => R2.dat (V5 m ρ) c
  | ⟨3, _⟩ => fun c => R3.dat (V7 m ρ) c
-- A region leaves a buffer as it found it unless the buffer is one of its output arrays.
set_option backward.isDefEq.respectTransparency.types false in
theorem keep (p : Fin 4) (Wi Wo : Dev nD → Valuation τ sig (Elt F))
    (hA : ∀ w, (pdats m ρ p c).A w = Wi c (Proc.devRef .tc (Pipeline.arrRef (cfgs p).spec w)))
    (hF : ∀ w, (pdats m ρ p c).arrAt w (cfgs p).N = Wo c (Proc.devRef .tc (Pipeline.arrRef (cfgs p).spec w)))
    (hrest : ∀ b : Ref sig .tc, (∀ w, Pipeline.arrRef (cfgs p).spec w ≠ b) → Wo c (Proc.devRef .tc b) = Wi c (Proc.devRef .tc b))
    (b : Ref sig .tc) (h : ∀ w, Pipeline.arrRef (cfgs p).spec w = b → ((cfgs p).win w).isOut = false) :
    Wo c (Proc.devRef .tc b) = Wi c (Proc.devRef .tc b) := by
  by_cases e : ∃ w, Pipeline.arrRef (cfgs p).spec w = b
  · obtain ⟨w, rfl⟩ := e
    exact (hF w).symm.trans (((pdats m ρ p c).arrAt_in w (h w rfl) _).trans (hA w))
  · exact hrest b fun w ew => e ⟨w, ew⟩

-- A buffer no host stretch writes and no region has as an output array ends as launched.
set_option backward.isDefEq.respectTransparency.types false in
theorem W8_arg (b : Ref sig .tc)
    (h : (b ∉ hostOps0_W ∧ b ∉ hostOps1_W ∧ b ∉ hostOps2_W ∧ b ∉ hostOps3_W)
      ∧ ∀ (p : Fin 4) w, Pipeline.arrRef (cfgs p).spec w = b → ((cfgs p).win w).isOut = false) :
    W8 m ρ c (Proc.devRef .tc b) = W0 m ρ c (Proc.devRef .tc b) :=
  (keep m ρ c 3 (W7 m ρ) (W8 m ρ) (R3.A_eq (V7 m ρ) c) (fun w => (W8_arr m ρ c w).symm) (W8_of_ne m ρ c) b (h.2 3)).trans <|
    (W7_of m ρ c b h.1.2.2.2).trans <|
    (keep m ρ c 2 (W5 m ρ) (W6 m ρ) (R2.A_eq (V5 m ρ) c) (fun w => (W6_arr m ρ c w).symm) (W6_of_ne m ρ c) b (h.2 2)).trans <|
    (W5_of m ρ c b h.1.2.2.1).trans <|
    (keep m ρ c 1 (W3 m ρ) (W4 m ρ) (R1.A_eq (V3 m ρ) c) (fun w => (W4_arr m ρ c w).symm) (W4_of_ne m ρ c) b (h.2 1)).trans <|
    (W3_of m ρ c b h.1.2.1).trans <|
    (keep m ρ c 0 (W1 m ρ) (W2 m ρ) (R0.A_eq (V1 m ρ) c) (fun w => (W2_arr m ρ c w).symm) (W2_of_ne m ρ c) b (h.2 0)).trans
      (W1_of m ρ c b h.1.1)

theorem W8_main_arg0 : W8 m ρ c (Proc.devRef .tc main_arg0) = m ((c : Thread nD τ).loc main_arg0) := W8_arg m ρ c main_arg0 (by decide)
theorem W8_main_arg1 : W8 m ρ c (Proc.devRef .tc main_arg1) = m ((c : Thread nD τ).loc main_arg1) := W8_arg m ρ c main_arg1 (by decide)
theorem W8_main_arg2 : W8 m ρ c (Proc.devRef .tc main_arg2) = m ((c : Thread nD τ).loc main_arg2) := W8_arg m ρ c main_arg2 (by decide)
theorem W8_main_arg3 : W8 m ρ c (Proc.devRef .tc main_arg3) = m ((c : Thread nD τ).loc main_arg3) := W8_arg m ρ c main_arg3 (by decide)
theorem W8_main_arg4 : W8 m ρ c (Proc.devRef .tc main_arg4) = m ((c : Thread nD τ).loc main_arg4) := W8_arg m ρ c main_arg4 (by decide)
theorem W8_main_arg5 : W8 m ρ c (Proc.devRef .tc main_arg5) = m ((c : Thread nD τ).loc main_arg5) := W8_arg m ρ c main_arg5 (by decide)
theorem W8_main_arg6 : W8 m ρ c (Proc.devRef .tc main_arg6) = m ((c : Thread nD τ).loc main_arg6) := W8_arg m ρ c main_arg6 (by decide)
theorem W8_main_arg7 : W8 m ρ c (Proc.devRef .tc main_arg7) = m ((c : Thread nD τ).loc main_arg7) := W8_arg m ρ c main_arg7 (by decide)
theorem W8_main_arg8 : W8 m ρ c (Proc.devRef .tc main_arg8) = m ((c : Thread nD τ).loc main_arg8) := W8_arg m ρ c main_arg8 (by decide)
theorem W8_main_arg9 : W8 m ρ c (Proc.devRef .tc main_arg9) = m ((c : Thread nD τ).loc main_arg9) := W8_arg m ρ c main_arg9 (by decide)

abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ : sProp 𝕄 := iprop(StableHlo.held (c : Thread nD τ) (Pipeline.ucRefs τ sig) (W8 m ρ c) ∗ ∃ r, prngReg c r)

-- A region as a step from contents `Wi` to contents `Wo`, where `Wo` differs from `Wi` only at the region's arrays.
set_option backward.isDefEq.respectTransparency.types false in
def mkReg (p : Fin 4) (lf : Pipeline.LaunchFacts (nD := nD) (τ := τ) cfgs p) (Wi Wo : Dev nD → Valuation τ sig (Elt F))
    (Q : Dev nD → sProp 𝕄) (hQ : ∀ c : Dev nD, iprop(StableHlo.held (c : Thread nD τ) (Pipeline.ucRefs τ sig) (Wo c) ∗ R c) ⊢ Q c)
    (hb : ∀ c, Pipeline.BodyObligationLoose (pdats m ρ p c) (defs₀ (F := F)) 𝒱₀ () Set.univ)
    (hq : ∀ c w, (pdats m ρ p c).q w = fullShare) (howed : ∀ c t, (pdats m ρ p c).owed t = 0)
    (hbd : ∀ c (S : Finset (SemLoc sig × Unit)), (↑S : Set (SemLoc sig × Unit)) ⊆ (pdats m ρ p c).bound () 0)
    (hA : ∀ c w, (pdats m ρ p c).A w = Wi c (Proc.devRef .tc (Pipeline.arrRef (cfgs p).spec w)))
    (hF : ∀ c w, (pdats m ρ p c).arrAt w (cfgs p).N = Wo c (Proc.devRef .tc (Pipeline.arrRef (cfgs p).spec w)))
    (hrest : ∀ c (b : Ref sig .tc), (∀ w, Pipeline.arrRef (cfgs p).spec w ≠ b) → Wo c (Proc.devRef .tc b) = Wi c (Proc.devRef .tc b))
    (hΦi : ∀ c, Pipeline.ΦA (cfgs p).spec c ⊢ (pdats m ρ p c).Φ 0)
    (hΦo : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Wi c) ∗ R c)
  post := Q
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%S, HO⟩; iexists S; isplitr; · ipureintro; exact hbd c S
      iexact HO
    isplitl [Hp]; · iexact Hp
    iexact Hrest
  hin c := by
    refine (?_ : _ ⊢ (Pipeline.ΦA (cfgs p).spec c : sProp 𝕄)).trans (hΦi c)
    unfold Pipeline.ΦA
    iintro ⟨Hp, -, Hr⟩
    isplitl [Hr]; · iexact Hr
    iexact Hp
  hout c := by
    refine (hΦo c).trans (?_ : (Pipeline.ΦA (cfgs p).spec c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c)
      fun b hb => hrest c b fun w e => hb (Finset.mem_image.mpr ⟨w, Finset.mem_univ _, e⟩)
    rw [Pipeline.unscopedBufs_held] at hjoin
    iintro ⟨Ha, HO, HY, Hrest⟩
    imodintro
    iapply (hQ c)
    isplitl [Ha Hrest]
    · iapply hjoin; isplitl [Ha] <;> iassumption
    isplitl [HY]; · iexact HY
    unfold Pipeline.Dat.owesAt Pipeline.owesWithin; rw [howed c]
    icases HO with ⟨%S, -, HO⟩; iexists S; iexact HO

set_option backward.isDefEq.respectTransparency.types false in
def reg0 : Pipeline.RegionSeg (pcfgs (F := F)) adm (pdats m ρ) () defs₀ 𝒱₀ L lv 0 :=
  mkReg m ρ 0 launch0 (W1 m ρ) (W2 m ρ) _ (fun _ => .rfl)
    (fun c => (R0.body_obligation (V1 m ρ) c).loose) (fun _ _ => rfl) (fun _ _ => rfl) (fun _ _ _ _ => Or.inl trivial)
    (R0.A_eq (V1 m ρ)) (fun c w => (W2_arr m ρ c w).symm) (W2_of_ne m ρ) (R0.hin (V1 m ρ)) (R0.hout (V1 m ρ))

set_option backward.isDefEq.respectTransparency.types false in
def reg1 : Pipeline.RegionSeg (pcfgs (F := F)) adm (pdats m ρ) () defs₀ 𝒱₀ L lv 1 :=
  mkReg m ρ 1 launch1 (W3 m ρ) (W4 m ρ) _ (fun _ => .rfl)
    (fun c => (R1.body_obligation (V3 m ρ) c).loose) (fun _ _ => rfl) (fun _ _ => rfl) (fun _ _ _ _ => Or.inl trivial)
    (R1.A_eq (V3 m ρ)) (fun c w => (W4_arr m ρ c w).symm) (W4_of_ne m ρ) (R1.hin (V3 m ρ)) (R1.hout (V3 m ρ))

set_option backward.isDefEq.respectTransparency.types false in
def reg2 : Pipeline.RegionSeg (pcfgs (F := F)) adm (pdats m ρ) () defs₀ 𝒱₀ L lv 2 :=
  mkReg m ρ 2 launch2 (W5 m ρ) (W6 m ρ) _ (fun _ => .rfl)
    (fun c => (R2.body_obligation (V5 m ρ) c).loose) (fun _ _ => rfl) (fun _ _ => rfl) (fun _ _ _ _ => Or.inl trivial)
    (R2.A_eq (V5 m ρ)) (fun c w => (W6_arr m ρ c w).symm) (W6_of_ne m ρ) (R2.hin (V5 m ρ)) (R2.hout (V5 m ρ))

set_option backward.isDefEq.respectTransparency.types false in
def reg3 : Pipeline.RegionSeg (pcfgs (F := F)) adm (pdats m ρ) () defs₀ 𝒱₀ L lv 3 :=
  mkReg m ρ 3 launch3 (W7 m ρ) (W8 m ρ) (fun c => iprop(Tₙ m ρ c ∗ ∃ W, owes (c : Thread nD τ) (0 : CellTallies nD τ sig Unit) W))
    (fun c => by
      iintro ⟨Hh, Hp, HO⟩
      isplitr [HO]
      · isplitl [Hh]; · iexact Hh
        iexact Hp
      iexact HO)
    (fun c => (R3.body_obligation (V7 m ρ) c).loose) (fun _ _ => rfl) (fun _ _ => rfl) (fun _ _ _ _ => Or.inl trivial)
    (R3.A_eq (V7 m ρ)) (fun c w => (W8_arr m ρ c w).symm) (W8_of_ne m ρ) (R3.hin (V7 m ρ)) (R3.hout (V7 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

theorem main_run : main (F := F) c = Pipeline.Seg.run (segs m ρ) := by
  rw [main_chain c, Pipeline.Seg.run_eq_chain]; rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c)⟩) (run_all m ρ)

end Cert.KernelIdeal.Run

end
-- ==== Proof.RefRead.lean ====
/- The reference program read one operation at a time: `val_main_vN` is what operation N writes, as a function of the
   program's arguments, and `val_main_vN_apply` reads that value at an index from the operands at an index. -/
import proofs.«431227_j85710367359314_3_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.TcCoe Idealize.SL.Sem Idealize.ShloMosaic.StableHlo

variable {F : FTy → Type} [FloatOps F]

def val_main_v0 (x2 : (⟨S64x248, .f32⟩ : BufTy).Contents (Elt F)) : (⟨S248x64, .f32⟩ : BufTy).Contents (Elt F) :=
  transpose S248x64 [1, 0] (x2) transposes_S64x248_S248x64_1_0

abbrev idx_main_v0 (i : S248x64.Idx) : S64x248.Idx := fun a => match a with
  | ⟨0, _⟩ => ⟨(i 1).val, (i 1).isLt⟩
  | ⟨1, _⟩ => ⟨(i 0).val, (i 0).isLt⟩

theorem val_main_v0_apply (x2 : (⟨S64x248, .f32⟩ : BufTy).Contents (Elt F)) (i : S248x64.Idx) :
    val_main_v0 (F := F) x2 i = x2 (idx_main_v0 i) := by
  unfold val_main_v0
  exact transpose_apply [1, 0] x2 transposes_S64x248_S248x64_1_0 i (idx_main_v0 i) (fun b => match b with
    | ⟨0, _⟩ => rfl
    | ⟨1, _⟩ => rfl)

def val_main_v1 (x0 : (⟨S524288x248, .f32⟩ : BufTy).Contents (Elt F)) (x2 : (⟨S64x248, .f32⟩ : BufTy).Contents (Elt F)) : (⟨S524288x64, .f32⟩ : BufTy).Contents (Elt F) :=
  Host.dotGeneral dot_S524288x248_S248x64_S524288x64_1_0_0_1_n_n none (x0) (val_main_v0 (F := F) x2)

theorem lhs_main_v1_0 (i : S524288x64.Idx) (q : dot_S524288x248_S248x64_S524288x64_1_0_0_1_n_n.contr.Idx) :
    (dot_S524288x248_S248x64_S524288x64_1_0_0_1_n_n.lhsIdx i q 0).val = (i 0).val := by
  unfold DotDims.lhsIdx
  rw [dif_neg (show ¬(0 : Fin S524288x248.rank) ∈ dot_S524288x248_S248x64_S524288x64_1_0_0_1_n_n.lhsBatch by decide), dif_pos (show (0 : Fin S524288x248.rank) ∈ dot_S524288x248_S248x64_S524288x64_1_0_0_1_n_n.lhsNonContracting by decide)]
  rfl

theorem lhs_main_v1_1 (i : S524288x64.Idx) (q : dot_S524288x248_S248x64_S524288x64_1_0_0_1_n_n.contr.Idx) :
    (dot_S524288x248_S248x64_S524288x64_1_0_0_1_n_n.lhsIdx i q 1).val = (q ⟨0, by decide⟩).val :=
  dot_S524288x248_S248x64_S524288x64_1_0_0_1_n_n.lhsIdx_val_of_single rfl i q

theorem rhs_main_v1_0 (i : S524288x64.Idx) (q : dot_S524288x248_S248x64_S524288x64_1_0_0_1_n_n.contr.Idx) :
    (dot_S524288x248_S248x64_S524288x64_1_0_0_1_n_n.rhsIdx i q 0).val = (q ⟨0, by decide⟩).val :=
  dot_S524288x248_S248x64_S524288x64_1_0_0_1_n_n.rhsIdx_val_of_single rfl i q

theorem rhs_main_v1_1 (i : S524288x64.Idx) (q : dot_S524288x248_S248x64_S524288x64_1_0_0_1_n_n.contr.Idx) :
    (dot_S524288x248_S248x64_S524288x64_1_0_0_1_n_n.rhsIdx i q 1).val = (i 1).val := by
  unfold DotDims.rhsIdx
  rw [dif_neg (show ¬(1 : Fin S248x64.rank) ∈ dot_S524288x248_S248x64_S524288x64_1_0_0_1_n_n.rhsBatch by decide), dif_pos (show (1 : Fin S248x64.rank) ∈ dot_S524288x248_S248x64_S524288x64_1_0_0_1_n_n.rhsNonContracting by decide)]
  rfl

abbrev lidx_main_v1 (i : S524288x64.Idx) (k : Fin 248) : S524288x248.Idx := fun a => match a with
  | ⟨0, _⟩ => ⟨(i 0).val, (i 0).isLt⟩
  | ⟨1, _⟩ => ⟨k.val, k.isLt⟩

abbrev ridx_main_v1 (i : S524288x64.Idx) (k : Fin 248) : S248x64.Idx := fun a => match a with
  | ⟨0, _⟩ => ⟨k.val, k.isLt⟩
  | ⟨1, _⟩ => ⟨(i 1).val, (i 1).isLt⟩

theorem val_main_v1_apply (x0 : (⟨S524288x248, .f32⟩ : BufTy).Contents (Elt Ideal)) (x2 : (⟨S64x248, .f32⟩ : BufTy).Contents (Elt Ideal)) (i : S524288x64.Idx) :
    val_main_v1 (F := Ideal) x0 x2 i = ∑ k : Fin 248, x0 (lidx_main_v1 i k) * (val_main_v0 (F := Ideal) x2) (ridx_main_v1 i k) := by
  unfold val_main_v1
  generalize val_main_v0 (F := Ideal) x2 = y0
  simp only [Host.dotGeneral]
  rw [Ideal.dotGeneral_apply, ← Equiv.sum_comp (ValueIdx.contrEquiv1 dot_S524288x248_S248x64_S524288x64_1_0_0_1_n_n 248 rfl rfl).symm]
  refine Finset.sum_congr rfl fun k _ => ?_
  have hk := ValueIdx.contrEquiv1_symm_val dot_S524288x248_S248x64_S524288x64_1_0_0_1_n_n 248 rfl rfl k
  have el : dot_S524288x248_S248x64_S524288x64_1_0_0_1_n_n.lhsIdx i ((ValueIdx.contrEquiv1 dot_S524288x248_S248x64_S524288x64_1_0_0_1_n_n 248 rfl rfl).symm k) = lidx_main_v1 i k := funext fun a => Fin.ext (by
    match a with
    | ⟨0, _⟩ => exact lhs_main_v1_0 _ _
    | ⟨1, _⟩ => exact (lhs_main_v1_1 _ _).trans hk)
  have er : dot_S524288x248_S248x64_S524288x64_1_0_0_1_n_n.rhsIdx i ((ValueIdx.contrEquiv1 dot_S524288x248_S248x64_S524288x64_1_0_0_1_n_n 248 rfl rfl).symm k) = ridx_main_v1 i k := funext fun a => Fin.ext (by
    match a with
    | ⟨0, _⟩ => exact (rhs_main_v1_0 _ _).trans hk
    | ⟨1, _⟩ => exact rhs_main_v1_1 _ _)
  rw [el, er]

def val_main_v2 (x3 : (⟨S64, .f32⟩ : BufTy).Contents (Elt F)) : (⟨S1x64, .f32⟩ : BufTy).Contents (Elt F) :=
  broadcastInDim S1x64 ![1] bcast_S64_S1x64_1 (x3)

abbrev idx_main_v2 (i : S1x64.Idx) : S64.Idx := fun a => match a with
  | ⟨0, _⟩ => ⟨(i 1).val, (i 1).isLt⟩

theorem val_main_v2_apply (x3 : (⟨S64, .f32⟩ : BufTy).Contents (Elt F)) (i : S1x64.Idx) :
    val_main_v2 (F := F) x3 i = x3 (idx_main_v2 i) := by
  unfold val_main_v2
  exact broadcastInDim_apply _ bcast_S64_S1x64_1 x3 i (idx_main_v2 i) (fun a => match a with
    | ⟨0, _⟩ => by show (i 1).val = if (64 : Nat) = 1 then 0 else (i 1).val; rw [if_neg (by decide)])

def val_main_v3 (x3 : (⟨S64, .f32⟩ : BufTy).Contents (Elt F)) : (⟨S524288x64, .f32⟩ : BufTy).Contents (Elt F) :=
  broadcastInDim S524288x64 ![0, 1] bcast_S1x64_S524288x64_0_1 (val_main_v2 (F := F) x3)

abbrev idx_main_v3 (i : S524288x64.Idx) : S1x64.Idx := fun a => match a with
  | ⟨0, _⟩ => ⟨0, Nat.one_pos⟩
  | ⟨1, _⟩ => ⟨(i 1).val, (i 1).isLt⟩

theorem val_main_v3_apply (x3 : (⟨S64, .f32⟩ : BufTy).Contents (Elt F)) (i : S524288x64.Idx) :
    val_main_v3 (F := F) x3 i = val_main_v2 (F := F) x3 (idx_main_v3 i) := by
  unfold val_main_v3
  generalize val_main_v2 (F := F) x3 = y
  exact broadcastInDim_apply _ bcast_S1x64_S524288x64_0_1 y i (idx_main_v3 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v4 (x0 : (⟨S524288x248, .f32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  addf (val_main_v1 (F := F) x0 x2) (val_main_v3 (F := F) x3)

theorem val_main_v4_apply (x0 : (⟨S524288x248, .f32⟩ : BufTy).Contents (Elt F)) (x2 : (⟨S64x248, .f32⟩ : BufTy).Contents (Elt F)) (x3 : (⟨S64, .f32⟩ : BufTy).Contents (Elt F)) (i : S524288x64.Idx) :
    val_main_v4 (F := F) x0 x2 x3 i = FloatOps.addf (val_main_v1 (F := F) x0 x2 i) (val_main_v3 (F := F) x3 i) := rfl

def val_main_cst : (⟨S_, .f32⟩ : BufTy).Contents (Elt F) :=
  constant S_ .f32 0x00000000#32

def val_main_v5 : (⟨S524288x64, .f32⟩ : BufTy).Contents (Elt F) :=
  broadcastInDim S524288x64 ![] bcast_S_S524288x64 (val_main_cst (F := F))

def val_main_v6 (x0 : (⟨S524288x248, .f32⟩ : BufTy).Contents (Elt F)) (x2 : (⟨S64x248, .f32⟩ : BufTy).Contents (Elt F)) (x3 : (⟨S64, .f32⟩ : BufTy).Contents (Elt F)) : (⟨S524288x64, .i1⟩ : BufTy).Contents (Elt F) :=
  cmpf .oge (val_main_v4 (F := F) x0 x2 x3) (val_main_v5 (F := F))

def val_main_cst_0 : (⟨S_, .f32⟩ : BufTy).Contents (Elt F) :=
  constant S_ .f32 0x3C23D70A#32

def val_main_v7 : (⟨S524288x64, .f32⟩ : BufTy).Contents (Elt F) :=
  broadcastInDim S524288x64 ![] bcast_S_S524288x64 (val_main_cst_0 (F := F))

def val_main_v8 (x0 : (⟨S524288x248, .f32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  mulf (val_main_v7 (F := F)) (val_main_v4 (F := F) x0 x2 x3)

def val_main_v9 (x0 : (⟨S524288x248, .f32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  select (val_main_v6 (F := F) x0 x2 x3) (val_main_v4 (F := F) x0 x2 x3) (val_main_v8 (F := F) x0 x2 x3)

def val_main_cst_1 : (⟨S_, .f32⟩ : BufTy).Contents (Elt F) :=
  constant S_ .f32 0x3F800000#32

def val_main_v10 : (⟨S524288, .f32⟩ : BufTy).Contents (Elt F) :=
  broadcastInDim S524288 ![] bcast_S_S524288 (val_main_cst_1 (F := F))

def val_main_cst_2 : (⟨S_, .f32⟩ : BufTy).Contents (Elt F) :=
  constant S_ .f32 0x00000000#32

def val_main_v11 : (⟨S32, .f32⟩ : BufTy).Contents (Elt F) :=
  broadcastInDim S32 ![] bcast_S_S32 (val_main_cst_2 (F := F))

def val_main_v12 (x1 : (⟨S524288, .i32⟩ : BufTy).Contents (Elt F)) : (⟨S524288x1, .i32⟩ : BufTy).Contents (Elt F) :=
  broadcastInDim S524288x1 ![0] bcast_S524288_S524288x1_0 (x1)

def val_main_v13 (x1 : (⟨S524288, .i32⟩ : BufTy).Contents (Elt F)) : (⟨S32, .f32⟩ : BufTy).Contents (Elt F) :=
  Host.scatterAdd scatter_S32_S524288x1_S524288_n_0_0_1 (val_main_v11 (F := F)) (val_main_v12 (F := F) x1) (val_main_v10 (F := F))

def val_main_cst_3 : (⟨S_, .f32⟩ : BufTy).Contents (Elt F) :=
  constant S_ .f32 0x00000000#32

def val_main_v14 : (⟨S32x64, .f32⟩ : BufTy).Contents (Elt F) :=
  broadcastInDim S32x64 ![] bcast_S_S32x64 (val_main_cst_3 (F := F))

def val_main_v15 (x1 : (⟨S524288, .i32⟩ : BufTy).Contents (Elt F)) : (⟨S524288x1, .i32⟩ : BufTy).Contents (Elt F) :=
  broadcastInDim S524288x1 ![0] bcast_S524288_S524288x1_0 (x1)

def val_main_v16 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S32x64, .f32⟩ : BufTy).Contents (Elt F) :=
  Host.scatterAdd scatter_S32x64_S524288x1_S524288x64_1_0_0_1 (val_main_v14 (F := F)) (val_main_v15 (F := F) x1) (val_main_v9 (F := F) x0 x2 x3)

def val_main_cst_4 : (⟨S_, .f32⟩ : BufTy).Contents (Elt F) :=
  constant S_ .f32 0x3F800000#32

def val_main_v17 : (⟨S32, .f32⟩ : BufTy).Contents (Elt F) :=
  broadcastInDim S32 ![] bcast_S_S32 (val_main_cst_4 (F := F))

def val_main_v18 (x1 : (⟨S524288, .i32⟩ : BufTy).Contents (Elt F)) : (⟨S32, .f32⟩ : BufTy).Contents (Elt F) :=
  maximumf (val_main_v13 (F := F) x1) (val_main_v17 (F := F))

def val_main_v19 (x1 : (⟨S524288, .i32⟩ : BufTy).Contents (Elt F)) : (⟨S32x1, .f32⟩ : BufTy).Contents (Elt F) :=
  broadcastInDim S32x1 ![0] bcast_S32_S32x1_0 (val_main_v18 (F := F) x1)

def val_main_v20 (x1 : (⟨S524288, .i32⟩ : BufTy).Contents (Elt F)) : (⟨S32x64, .f32⟩ : BufTy).Contents (Elt F) :=
  broadcastInDim S32x64 ![0, 1] bcast_S32x1_S32x64_0_1 (val_main_v19 (F := F) x1)

def val_main_v21 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S32x64, .f32⟩ : BufTy).Contents (Elt F) :=
  Host.divf (val_main_v16 (F := F) x0 x1 x2 x3) (val_main_v20 (F := F) x1)

def val_main_c : (⟨S_, .i32⟩ : BufTy).Contents (Elt F) :=
  constantI S_ 32 0#32

def val_main_v22 : (⟨S524288, .i32⟩ : BufTy).Contents (Elt F) :=
  broadcastInDim S524288 ![] bcast_S_S524288 (val_main_c (F := F))

def val_main_v23 (x1 : (⟨S524288, .i32⟩ : BufTy).Contents (Elt F)) : (⟨S524288, .i1⟩ : BufTy).Contents (Elt F) :=
  cmpi .slt (x1) (val_main_v22 (F := F))

def val_main_c_5 : (⟨S_, .i32⟩ : BufTy).Contents (Elt F) :=
  constantI S_ 32 32#32

def val_main_v24 : (⟨S524288, .i32⟩ : BufTy).Contents (Elt F) :=
  broadcastInDim S524288 ![] bcast_S_S524288 (val_main_c_5 (F := F))

def val_main_v25 (x1 : (⟨S524288, .i32⟩ : BufTy).Contents (Elt F)) : (⟨S524288, .i32⟩ : BufTy).Contents (Elt F) :=
  addi (x1) (val_main_v24 (F := F))

def val_main_v26 (x1 : (⟨S524288, .i32⟩ : BufTy).Contents (Elt F)) : (⟨S524288, .i32⟩ : BufTy).Contents (Elt F) :=
  select (val_main_v23 (F := F) x1) (val_main_v25 (F := F) x1) (x1)

def val_main_v27 (x1 : (⟨S524288, .i32⟩ : BufTy).Contents (Elt F)) : (⟨S524288x1, .i32⟩ : BufTy).Contents (Elt F) :=
  broadcastInDim S524288x1 ![0] bcast_S524288_S524288x1_0 (val_main_v26 (F := F) x1)

def val_main_v28 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  Host.gather gather_S32x64_S524288x1_S524288x64_1_0_n_n_0_1_164 (val_main_v21 (F := F) x0 x1 x2 x3) (val_main_v27 (F := F) x1)

def val_main_v29 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  subf (val_main_v9 (F := F) x0 x2 x3) (val_main_v28 (F := F) x0 x1 x2 x3)

def val_main_v30 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  mulf (val_main_v29 (F := F) x0 x1 x2 x3) (val_main_v29 (F := F) x0 x1 x2 x3)

def val_main_cst_6 : (⟨S_, .f32⟩ : BufTy).Contents (Elt F) :=
  constant S_ .f32 0x00000000#32

def val_main_v31 : (⟨S32x64, .f32⟩ : BufTy).Contents (Elt F) :=
  broadcastInDim S32x64 ![] bcast_S_S32x64 (val_main_cst_6 (F := F))

def val_main_v32 (x1 : (⟨S524288, .i32⟩ : BufTy).Contents (Elt F)) : (⟨S524288x1, .i32⟩ : BufTy).Contents (Elt F) :=
  broadcastInDim S524288x1 ![0] bcast_S524288_S524288x1_0 (x1)

def val_main_v33 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S32x64, .f32⟩ : BufTy).Contents (Elt F) :=
  Host.scatterAdd scatter_S32x64_S524288x1_S524288x64_1_0_0_1 (val_main_v31 (F := F)) (val_main_v32 (F := F) x1) (val_main_v30 (F := F) x0 x1 x2 x3)

def val_main_cst_7 : (⟨S_, .f32⟩ : BufTy).Contents (Elt F) :=
  constant S_ .f32 0x3F800000#32

def val_main_v34 : (⟨S32, .f32⟩ : BufTy).Contents (Elt F) :=
  broadcastInDim S32 ![] bcast_S_S32 (val_main_cst_7 (F := F))

def val_main_v35 (x1 : (⟨S524288, .i32⟩ : BufTy).Contents (Elt F)) : (⟨S32, .f32⟩ : BufTy).Contents (Elt F) :=
  subf (val_main_v13 (F := F) x1) (val_main_v34 (F := F))

def val_main_cst_8 : (⟨S_, .f32⟩ : BufTy).Contents (Elt F) :=
  constant S_ .f32 0x3F800000#32

def val_main_v36 : (⟨S32, .f32⟩ : BufTy).Contents (Elt F) :=
  broadcastInDim S32 ![] bcast_S_S32 (val_main_cst_8 (F := F))

def val_main_v37 (x1 : (⟨S524288, .i32⟩ : BufTy).Contents (Elt F)) : (⟨S32, .f32⟩ : BufTy).Contents (Elt F) :=
  maximumf (val_main_v35 (F := F) x1) (val_main_v36 (F := F))

def val_main_v38 (x1 : (⟨S524288, .i32⟩ : BufTy).Contents (Elt F)) : (⟨S32x1, .f32⟩ : BufTy).Contents (Elt F) :=
  broadcastInDim S32x1 ![0] bcast_S32_S32x1_0 (val_main_v37 (F := F) x1)

def val_main_v39 (x1 : (⟨S524288, .i32⟩ : BufTy).Contents (Elt F)) : (⟨S32x64, .f32⟩ : BufTy).Contents (Elt F) :=
  broadcastInDim S32x64 ![0, 1] bcast_S32x1_S32x64_0_1 (val_main_v38 (F := F) x1)

def val_main_v40 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S32x64, .f32⟩ : BufTy).Contents (Elt F) :=
  Host.divf (val_main_v33 (F := F) x0 x1 x2 x3) (val_main_v39 (F := F) x1)

def val_main_v41 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S32x64, .f32⟩ : BufTy).Contents (Elt F) :=
  Host.sqrt (val_main_v40 (F := F) x0 x1 x2 x3)

def val_main_c_9 : (⟨S_, .i32⟩ : BufTy).Contents (Elt F) :=
  constantI S_ 32 0#32

def val_main_v42 : (⟨S524288, .i32⟩ : BufTy).Contents (Elt F) :=
  broadcastInDim S524288 ![] bcast_S_S524288 (val_main_c_9 (F := F))

def val_main_v43 (x1 : (⟨S524288, .i32⟩ : BufTy).Contents (Elt F)) : (⟨S524288, .i1⟩ : BufTy).Contents (Elt F) :=
  cmpi .slt (x1) (val_main_v42 (F := F))

def val_main_c_10 : (⟨S_, .i32⟩ : BufTy).Contents (Elt F) :=
  constantI S_ 32 32#32

def val_main_v44 : (⟨S524288, .i32⟩ : BufTy).Contents (Elt F) :=
  broadcastInDim S524288 ![] bcast_S_S524288 (val_main_c_10 (F := F))

def val_main_v45 (x1 : (⟨S524288, .i32⟩ : BufTy).Contents (Elt F)) : (⟨S524288, .i32⟩ : BufTy).Contents (Elt F) :=
  addi (x1) (val_main_v44 (F := F))

def val_main_v46 (x1 : (⟨S524288, .i32⟩ : BufTy).Contents (Elt F)) : (⟨S524288, .i32⟩ : BufTy).Contents (Elt F) :=
  select (val_main_v43 (F := F) x1) (val_main_v45 (F := F) x1) (x1)

def val_main_v47 (x1 : (⟨S524288, .i32⟩ : BufTy).Contents (Elt F)) : (⟨S524288x1, .i32⟩ : BufTy).Contents (Elt F) :=
  broadcastInDim S524288x1 ![0] bcast_S524288_S524288x1_0 (val_main_v46 (F := F) x1)

def val_main_v48 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  Host.gather gather_S32x64_S524288x1_S524288x64_1_0_n_n_0_1_164 (val_main_v41 (F := F) x0 x1 x2 x3) (val_main_v47 (F := F) x1)

def val_main_cst_11 : (⟨S_, .f32⟩ : BufTy).Contents (Elt F) :=
  constant S_ .f32 0x322BCC77#32

def val_main_v49 : (⟨S524288x64, .f32⟩ : BufTy).Contents (Elt F) :=
  broadcastInDim S524288x64 ![] bcast_S_S524288x64 (val_main_cst_11 (F := F))

def val_main_v50 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  addf (val_main_v48 (F := F) x0 x1 x2 x3) (val_main_v49 (F := F))

def val_main_v51 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) : (⟨S524288x64, .f32⟩ : BufTy).Contents (Elt F) :=
  Host.divf (val_main_v29 (F := F) x0 x1 x2 x3) (val_main_v50 (F := F) x0 x1 x2 x3)

def val_main_v52 (x4 : (⟨S64x64, .f32⟩ : BufTy).Contents (Elt F)) : (⟨S64x64, .f32⟩ : BufTy).Contents (Elt F) :=
  transpose S64x64 [1, 0] (x4) transposes_S64x64_S64x64_1_0

abbrev idx_main_v52 (i : S64x64.Idx) : S64x64.Idx := fun a => match a with
  | ⟨0, _⟩ => ⟨(i 1).val, (i 1).isLt⟩
  | ⟨1, _⟩ => ⟨(i 0).val, (i 0).isLt⟩

theorem val_main_v52_apply (x4 : (⟨S64x64, .f32⟩ : BufTy).Contents (Elt F)) (i : S64x64.Idx) :
    val_main_v52 (F := F) x4 i = x4 (idx_main_v52 i) := by
  unfold val_main_v52
  exact transpose_apply [1, 0] x4 transposes_S64x64_S64x64_1_0 i (idx_main_v52 i) (fun b => match b with
    | ⟨0, _⟩ => rfl
    | ⟨1, _⟩ => rfl)

def val_main_v53 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) : (⟨S524288x64, .f32⟩ : BufTy).Contents (Elt F) :=
  Host.dotGeneral dot_S524288x64_S64x64_S524288x64_1_0_0_1_n_n none (val_main_v51 (F := F) x0 x1 x2 x3) (val_main_v52 (F := F) x4)

theorem lhs_main_v53_0 (i : S524288x64.Idx) (q : dot_S524288x64_S64x64_S524288x64_1_0_0_1_n_n.contr.Idx) :
    (dot_S524288x64_S64x64_S524288x64_1_0_0_1_n_n.lhsIdx i q 0).val = (i 0).val := by
  unfold DotDims.lhsIdx
  rw [dif_neg (show ¬(0 : Fin S524288x64.rank) ∈ dot_S524288x64_S64x64_S524288x64_1_0_0_1_n_n.lhsBatch by decide), dif_pos (show (0 : Fin S524288x64.rank) ∈ dot_S524288x64_S64x64_S524288x64_1_0_0_1_n_n.lhsNonContracting by decide)]
  rfl

theorem lhs_main_v53_1 (i : S524288x64.Idx) (q : dot_S524288x64_S64x64_S524288x64_1_0_0_1_n_n.contr.Idx) :
    (dot_S524288x64_S64x64_S524288x64_1_0_0_1_n_n.lhsIdx i q 1).val = (q ⟨0, by decide⟩).val :=
  dot_S524288x64_S64x64_S524288x64_1_0_0_1_n_n.lhsIdx_val_of_single rfl i q

theorem rhs_main_v53_0 (i : S524288x64.Idx) (q : dot_S524288x64_S64x64_S524288x64_1_0_0_1_n_n.contr.Idx) :
    (dot_S524288x64_S64x64_S524288x64_1_0_0_1_n_n.rhsIdx i q 0).val = (q ⟨0, by decide⟩).val :=
  dot_S524288x64_S64x64_S524288x64_1_0_0_1_n_n.rhsIdx_val_of_single rfl i q

theorem rhs_main_v53_1 (i : S524288x64.Idx) (q : dot_S524288x64_S64x64_S524288x64_1_0_0_1_n_n.contr.Idx) :
    (dot_S524288x64_S64x64_S524288x64_1_0_0_1_n_n.rhsIdx i q 1).val = (i 1).val := by
  unfold DotDims.rhsIdx
  rw [dif_neg (show ¬(1 : Fin S64x64.rank) ∈ dot_S524288x64_S64x64_S524288x64_1_0_0_1_n_n.rhsBatch by decide), dif_pos (show (1 : Fin S64x64.rank) ∈ dot_S524288x64_S64x64_S524288x64_1_0_0_1_n_n.rhsNonContracting by decide)]
  rfl

abbrev lidx_main_v53 (i : S524288x64.Idx) (k : Fin 64) : S524288x64.Idx := fun a => match a with
  | ⟨0, _⟩ => ⟨(i 0).val, (i 0).isLt⟩
  | ⟨1, _⟩ => ⟨k.val, k.isLt⟩

abbrev ridx_main_v53 (i : S524288x64.Idx) (k : Fin 64) : S64x64.Idx := fun a => match a with
  | ⟨0, _⟩ => ⟨k.val, k.isLt⟩
  | ⟨1, _⟩ => ⟨(i 1).val, (i 1).isLt⟩

theorem val_main_v53_apply (x0 : (⟨S524288x248, .f32⟩ : BufTy).Contents (Elt Ideal)) (x1 : (⟨S524288, .i32⟩ : BufTy).Contents (Elt Ideal)) (x2 : (⟨S64x248, .f32⟩ : BufTy).Contents (Elt Ideal)) (x3 : (⟨S64, .f32⟩ : BufTy).Contents (Elt Ideal)) (x4 : (⟨S64x64, .f32⟩ : BufTy).Contents (Elt Ideal)) (i : S524288x64.Idx) :
    val_main_v53 (F := Ideal) x0 x1 x2 x3 x4 i = ∑ k : Fin 64, (val_main_v51 (F := Ideal) x0 x1 x2 x3) (lidx_main_v53 i k) * (val_main_v52 (F := Ideal) x4) (ridx_main_v53 i k) := by
  unfold val_main_v53
  generalize val_main_v51 (F := Ideal) x0 x1 x2 x3 = y0
  generalize val_main_v52 (F := Ideal) x4 = y1
  simp only [Host.dotGeneral]
  rw [Ideal.dotGeneral_apply, ← Equiv.sum_comp (ValueIdx.contrEquiv1 dot_S524288x64_S64x64_S524288x64_1_0_0_1_n_n 64 rfl rfl).symm]
  refine Finset.sum_congr rfl fun k _ => ?_
  have hk := ValueIdx.contrEquiv1_symm_val dot_S524288x64_S64x64_S524288x64_1_0_0_1_n_n 64 rfl rfl k
  have el : dot_S524288x64_S64x64_S524288x64_1_0_0_1_n_n.lhsIdx i ((ValueIdx.contrEquiv1 dot_S524288x64_S64x64_S524288x64_1_0_0_1_n_n 64 rfl rfl).symm k) = lidx_main_v53 i k := funext fun a => Fin.ext (by
    match a with
    | ⟨0, _⟩ => exact lhs_main_v53_0 _ _
    | ⟨1, _⟩ => exact (lhs_main_v53_1 _ _).trans hk)
  have er : dot_S524288x64_S64x64_S524288x64_1_0_0_1_n_n.rhsIdx i ((ValueIdx.contrEquiv1 dot_S524288x64_S64x64_S524288x64_1_0_0_1_n_n 64 rfl rfl).symm k) = ridx_main_v53 i k := funext fun a => Fin.ext (by
    match a with
    | ⟨0, _⟩ => exact (rhs_main_v53_0 _ _).trans hk
    | ⟨1, _⟩ => exact rhs_main_v53_1 _ _)
  rw [el, er]

def val_main_v54 (x5 : (⟨S64, .f32⟩ : BufTy).Contents (Elt F)) : (⟨S1x64, .f32⟩ : BufTy).Contents (Elt F) :=
  broadcastInDim S1x64 ![1] bcast_S64_S1x64_1 (x5)

abbrev idx_main_v54 (i : S1x64.Idx) : S64.Idx := fun a => match a with
  | ⟨0, _⟩ => ⟨(i 1).val, (i 1).isLt⟩

theorem val_main_v54_apply (x5 : (⟨S64, .f32⟩ : BufTy).Contents (Elt F)) (i : S1x64.Idx) :
    val_main_v54 (F := F) x5 i = x5 (idx_main_v54 i) := by
  unfold val_main_v54
  exact broadcastInDim_apply _ bcast_S64_S1x64_1 x5 i (idx_main_v54 i) (fun a => match a with
    | ⟨0, _⟩ => by show (i 1).val = if (64 : Nat) = 1 then 0 else (i 1).val; rw [if_neg (by decide)])

def val_main_v55 (x5 : (⟨S64, .f32⟩ : BufTy).Contents (Elt F)) : (⟨S524288x64, .f32⟩ : BufTy).Contents (Elt F) :=
  broadcastInDim S524288x64 ![0, 1] bcast_S1x64_S524288x64_0_1 (val_main_v54 (F := F) x5)

abbrev idx_main_v55 (i : S524288x64.Idx) : S1x64.Idx := fun a => match a with
  | ⟨0, _⟩ => ⟨0, Nat.one_pos⟩
  | ⟨1, _⟩ => ⟨(i 1).val, (i 1).isLt⟩

theorem val_main_v55_apply (x5 : (⟨S64, .f32⟩ : BufTy).Contents (Elt F)) (i : S524288x64.Idx) :
    val_main_v55 (F := F) x5 i = val_main_v54 (F := F) x5 (idx_main_v55 i) := by
  unfold val_main_v55
  generalize val_main_v54 (F := F) x5 = y
  exact broadcastInDim_apply _ bcast_S1x64_S524288x64_0_1 y i (idx_main_v55 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v56 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  addf (val_main_v53 (F := F) x0 x1 x2 x3 x4) (val_main_v55 (F := F) x5)

theorem val_main_v56_apply (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (i : S524288x64.Idx) :
    val_main_v56 (F := F) x0 x1 x2 x3 x4 x5 i = FloatOps.addf (val_main_v53 (F := F) x0 x1 x2 x3 x4 i) (val_main_v55 (F := F) x5 i) := rfl

def val_main_cst_12 : (⟨S_, .f32⟩ : BufTy).Contents (Elt F) :=
  constant S_ .f32 0x00000000#32

def val_main_v57 : (⟨S524288x64, .f32⟩ : BufTy).Contents (Elt F) :=
  broadcastInDim S524288x64 ![] bcast_S_S524288x64 (val_main_cst_12 (F := F))

def val_main_v58 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .i1⟩ : BufTy).Contents (Elt F) :=
  cmpf .oge (val_main_v56 (F := F) x0 x1 x2 x3 x4 x5) (val_main_v57 (F := F))

def val_main_cst_13 : (⟨S_, .f32⟩ : BufTy).Contents (Elt F) :=
  constant S_ .f32 0x3C23D70A#32

def val_main_v59 : (⟨S524288x64, .f32⟩ : BufTy).Contents (Elt F) :=
  broadcastInDim S524288x64 ![] bcast_S_S524288x64 (val_main_cst_13 (F := F))

def val_main_v60 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  mulf (val_main_v59 (F := F)) (val_main_v56 (F := F) x0 x1 x2 x3 x4 x5)

def val_main_v61 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  select (val_main_v58 (F := F) x0 x1 x2 x3 x4 x5) (val_main_v56 (F := F) x0 x1 x2 x3 x4 x5) (val_main_v60 (F := F) x0 x1 x2 x3 x4 x5)

def val_main_cst_14 : (⟨S_, .f32⟩ : BufTy).Contents (Elt F) :=
  constant S_ .f32 0x3F800000#32

def val_main_v62 : (⟨S524288, .f32⟩ : BufTy).Contents (Elt F) :=
  broadcastInDim S524288 ![] bcast_S_S524288 (val_main_cst_14 (F := F))

def val_main_cst_15 : (⟨S_, .f32⟩ : BufTy).Contents (Elt F) :=
  constant S_ .f32 0x00000000#32

def val_main_v63 : (⟨S32, .f32⟩ : BufTy).Contents (Elt F) :=
  broadcastInDim S32 ![] bcast_S_S32 (val_main_cst_15 (F := F))

def val_main_v64 (x1 : (⟨S524288, .i32⟩ : BufTy).Contents (Elt F)) : (⟨S524288x1, .i32⟩ : BufTy).Contents (Elt F) :=
  broadcastInDim S524288x1 ![0] bcast_S524288_S524288x1_0 (x1)

def val_main_v65 (x1 : (⟨S524288, .i32⟩ : BufTy).Contents (Elt F)) : (⟨S32, .f32⟩ : BufTy).Contents (Elt F) :=
  Host.scatterAdd scatter_S32_S524288x1_S524288_n_0_0_1 (val_main_v63 (F := F)) (val_main_v64 (F := F) x1) (val_main_v62 (F := F))

def val_main_cst_16 : (⟨S_, .f32⟩ : BufTy).Contents (Elt F) :=
  constant S_ .f32 0x00000000#32

def val_main_v66 : (⟨S32x64, .f32⟩ : BufTy).Contents (Elt F) :=
  broadcastInDim S32x64 ![] bcast_S_S32x64 (val_main_cst_16 (F := F))

def val_main_v67 (x1 : (⟨S524288, .i32⟩ : BufTy).Contents (Elt F)) : (⟨S524288x1, .i32⟩ : BufTy).Contents (Elt F) :=
  broadcastInDim S524288x1 ![0] bcast_S524288_S524288x1_0 (x1)

def val_main_v68 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S32x64, .f32⟩ : BufTy).Contents (Elt F) :=
  Host.scatterAdd scatter_S32x64_S524288x1_S524288x64_1_0_0_1 (val_main_v66 (F := F)) (val_main_v67 (F := F) x1) (val_main_v61 (F := F) x0 x1 x2 x3 x4 x5)

def val_main_cst_17 : (⟨S_, .f32⟩ : BufTy).Contents (Elt F) :=
  constant S_ .f32 0x3F800000#32

def val_main_v69 : (⟨S32, .f32⟩ : BufTy).Contents (Elt F) :=
  broadcastInDim S32 ![] bcast_S_S32 (val_main_cst_17 (F := F))

def val_main_v70 (x1 : (⟨S524288, .i32⟩ : BufTy).Contents (Elt F)) : (⟨S32, .f32⟩ : BufTy).Contents (Elt F) :=
  maximumf (val_main_v65 (F := F) x1) (val_main_v69 (F := F))

def val_main_v71 (x1 : (⟨S524288, .i32⟩ : BufTy).Contents (Elt F)) : (⟨S32x1, .f32⟩ : BufTy).Contents (Elt F) :=
  broadcastInDim S32x1 ![0] bcast_S32_S32x1_0 (val_main_v70 (F := F) x1)

def val_main_v72 (x1 : (⟨S524288, .i32⟩ : BufTy).Contents (Elt F)) : (⟨S32x64, .f32⟩ : BufTy).Contents (Elt F) :=
  broadcastInDim S32x64 ![0, 1] bcast_S32x1_S32x64_0_1 (val_main_v71 (F := F) x1)

def val_main_v73 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S32x64, .f32⟩ : BufTy).Contents (Elt F) :=
  Host.divf (val_main_v68 (F := F) x0 x1 x2 x3 x4 x5) (val_main_v72 (F := F) x1)

def val_main_c_18 : (⟨S_, .i32⟩ : BufTy).Contents (Elt F) :=
  constantI S_ 32 0#32

def val_main_v74 : (⟨S524288, .i32⟩ : BufTy).Contents (Elt F) :=
  broadcastInDim S524288 ![] bcast_S_S524288 (val_main_c_18 (F := F))

def val_main_v75 (x1 : (⟨S524288, .i32⟩ : BufTy).Contents (Elt F)) : (⟨S524288, .i1⟩ : BufTy).Contents (Elt F) :=
  cmpi .slt (x1) (val_main_v74 (F := F))

def val_main_c_19 : (⟨S_, .i32⟩ : BufTy).Contents (Elt F) :=
  constantI S_ 32 32#32

def val_main_v76 : (⟨S524288, .i32⟩ : BufTy).Contents (Elt F) :=
  broadcastInDim S524288 ![] bcast_S_S524288 (val_main_c_19 (F := F))

def val_main_v77 (x1 : (⟨S524288, .i32⟩ : BufTy).Contents (Elt F)) : (⟨S524288, .i32⟩ : BufTy).Contents (Elt F) :=
  addi (x1) (val_main_v76 (F := F))

def val_main_v78 (x1 : (⟨S524288, .i32⟩ : BufTy).Contents (Elt F)) : (⟨S524288, .i32⟩ : BufTy).Contents (Elt F) :=
  select (val_main_v75 (F := F) x1) (val_main_v77 (F := F) x1) (x1)

def val_main_v79 (x1 : (⟨S524288, .i32⟩ : BufTy).Contents (Elt F)) : (⟨S524288x1, .i32⟩ : BufTy).Contents (Elt F) :=
  broadcastInDim S524288x1 ![0] bcast_S524288_S524288x1_0 (val_main_v78 (F := F) x1)

def val_main_v80 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  Host.gather gather_S32x64_S524288x1_S524288x64_1_0_n_n_0_1_164 (val_main_v73 (F := F) x0 x1 x2 x3 x4 x5) (val_main_v79 (F := F) x1)

def val_main_v81 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  subf (val_main_v61 (F := F) x0 x1 x2 x3 x4 x5) (val_main_v80 (F := F) x0 x1 x2 x3 x4 x5)

def val_main_v82 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  mulf (val_main_v81 (F := F) x0 x1 x2 x3 x4 x5) (val_main_v81 (F := F) x0 x1 x2 x3 x4 x5)

def val_main_cst_20 : (⟨S_, .f32⟩ : BufTy).Contents (Elt F) :=
  constant S_ .f32 0x00000000#32

def val_main_v83 : (⟨S32x64, .f32⟩ : BufTy).Contents (Elt F) :=
  broadcastInDim S32x64 ![] bcast_S_S32x64 (val_main_cst_20 (F := F))

def val_main_v84 (x1 : (⟨S524288, .i32⟩ : BufTy).Contents (Elt F)) : (⟨S524288x1, .i32⟩ : BufTy).Contents (Elt F) :=
  broadcastInDim S524288x1 ![0] bcast_S524288_S524288x1_0 (x1)

def val_main_v85 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S32x64, .f32⟩ : BufTy).Contents (Elt F) :=
  Host.scatterAdd scatter_S32x64_S524288x1_S524288x64_1_0_0_1 (val_main_v83 (F := F)) (val_main_v84 (F := F) x1) (val_main_v82 (F := F) x0 x1 x2 x3 x4 x5)

def val_main_cst_21 : (⟨S_, .f32⟩ : BufTy).Contents (Elt F) :=
  constant S_ .f32 0x3F800000#32

def val_main_v86 : (⟨S32, .f32⟩ : BufTy).Contents (Elt F) :=
  broadcastInDim S32 ![] bcast_S_S32 (val_main_cst_21 (F := F))

def val_main_v87 (x1 : (⟨S524288, .i32⟩ : BufTy).Contents (Elt F)) : (⟨S32, .f32⟩ : BufTy).Contents (Elt F) :=
  subf (val_main_v65 (F := F) x1) (val_main_v86 (F := F))

def val_main_cst_22 : (⟨S_, .f32⟩ : BufTy).Contents (Elt F) :=
  constant S_ .f32 0x3F800000#32

def val_main_v88 : (⟨S32, .f32⟩ : BufTy).Contents (Elt F) :=
  broadcastInDim S32 ![] bcast_S_S32 (val_main_cst_22 (F := F))

def val_main_v89 (x1 : (⟨S524288, .i32⟩ : BufTy).Contents (Elt F)) : (⟨S32, .f32⟩ : BufTy).Contents (Elt F) :=
  maximumf (val_main_v87 (F := F) x1) (val_main_v88 (F := F))

def val_main_v90 (x1 : (⟨S524288, .i32⟩ : BufTy).Contents (Elt F)) : (⟨S32x1, .f32⟩ : BufTy).Contents (Elt F) :=
  broadcastInDim S32x1 ![0] bcast_S32_S32x1_0 (val_main_v89 (F := F) x1)

def val_main_v91 (x1 : (⟨S524288, .i32⟩ : BufTy).Contents (Elt F)) : (⟨S32x64, .f32⟩ : BufTy).Contents (Elt F) :=
  broadcastInDim S32x64 ![0, 1] bcast_S32x1_S32x64_0_1 (val_main_v90 (F := F) x1)

def val_main_v92 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S32x64, .f32⟩ : BufTy).Contents (Elt F) :=
  Host.divf (val_main_v85 (F := F) x0 x1 x2 x3 x4 x5) (val_main_v91 (F := F) x1)

def val_main_v93 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S32x64, .f32⟩ : BufTy).Contents (Elt F) :=
  Host.sqrt (val_main_v92 (F := F) x0 x1 x2 x3 x4 x5)

def val_main_c_23 : (⟨S_, .i32⟩ : BufTy).Contents (Elt F) :=
  constantI S_ 32 0#32

def val_main_v94 : (⟨S524288, .i32⟩ : BufTy).Contents (Elt F) :=
  broadcastInDim S524288 ![] bcast_S_S524288 (val_main_c_23 (F := F))

def val_main_v95 (x1 : (⟨S524288, .i32⟩ : BufTy).Contents (Elt F)) : (⟨S524288, .i1⟩ : BufTy).Contents (Elt F) :=
  cmpi .slt (x1) (val_main_v94 (F := F))

def val_main_c_24 : (⟨S_, .i32⟩ : BufTy).Contents (Elt F) :=
  constantI S_ 32 32#32

def val_main_v96 : (⟨S524288, .i32⟩ : BufTy).Contents (Elt F) :=
  broadcastInDim S524288 ![] bcast_S_S524288 (val_main_c_24 (F := F))

def val_main_v97 (x1 : (⟨S524288, .i32⟩ : BufTy).Contents (Elt F)) : (⟨S524288, .i32⟩ : BufTy).Contents (Elt F) :=
  addi (x1) (val_main_v96 (F := F))

def val_main_v98 (x1 : (⟨S524288, .i32⟩ : BufTy).Contents (Elt F)) : (⟨S524288, .i32⟩ : BufTy).Contents (Elt F) :=
  select (val_main_v95 (F := F) x1) (val_main_v97 (F := F) x1) (x1)

def val_main_v99 (x1 : (⟨S524288, .i32⟩ : BufTy).Contents (Elt F)) : (⟨S524288x1, .i32⟩ : BufTy).Contents (Elt F) :=
  broadcastInDim S524288x1 ![0] bcast_S524288_S524288x1_0 (val_main_v98 (F := F) x1)

def val_main_v100 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  Host.gather gather_S32x64_S524288x1_S524288x64_1_0_n_n_0_1_164 (val_main_v93 (F := F) x0 x1 x2 x3 x4 x5) (val_main_v99 (F := F) x1)

def val_main_cst_25 : (⟨S_, .f32⟩ : BufTy).Contents (Elt F) :=
  constant S_ .f32 0x322BCC77#32

def val_main_v101 : (⟨S524288x64, .f32⟩ : BufTy).Contents (Elt F) :=
  broadcastInDim S524288x64 ![] bcast_S_S524288x64 (val_main_cst_25 (F := F))

def val_main_v102 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  addf (val_main_v100 (F := F) x0 x1 x2 x3 x4 x5) (val_main_v101 (F := F))

def val_main_v103 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) : (⟨S524288x64, .f32⟩ : BufTy).Contents (Elt F) :=
  Host.divf (val_main_v81 (F := F) x0 x1 x2 x3 x4 x5) (val_main_v102 (F := F) x0 x1 x2 x3 x4 x5)

def val_main_v104 (x6 : (⟨S64x64, .f32⟩ : BufTy).Contents (Elt F)) : (⟨S64x64, .f32⟩ : BufTy).Contents (Elt F) :=
  transpose S64x64 [1, 0] (x6) transposes_S64x64_S64x64_1_0

abbrev idx_main_v104 (i : S64x64.Idx) : S64x64.Idx := fun a => match a with
  | ⟨0, _⟩ => ⟨(i 1).val, (i 1).isLt⟩
  | ⟨1, _⟩ => ⟨(i 0).val, (i 0).isLt⟩

theorem val_main_v104_apply (x6 : (⟨S64x64, .f32⟩ : BufTy).Contents (Elt F)) (i : S64x64.Idx) :
    val_main_v104 (F := F) x6 i = x6 (idx_main_v104 i) := by
  unfold val_main_v104
  exact transpose_apply [1, 0] x6 transposes_S64x64_S64x64_1_0 i (idx_main_v104 i) (fun b => match b with
    | ⟨0, _⟩ => rfl
    | ⟨1, _⟩ => rfl)

def val_main_v105 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) : (⟨S524288x64, .f32⟩ : BufTy).Contents (Elt F) :=
  Host.dotGeneral dot_S524288x64_S64x64_S524288x64_1_0_0_1_n_n none (val_main_v103 (F := F) x0 x1 x2 x3 x4 x5) (val_main_v104 (F := F) x6)

theorem lhs_main_v105_0 (i : S524288x64.Idx) (q : dot_S524288x64_S64x64_S524288x64_1_0_0_1_n_n.contr.Idx) :
    (dot_S524288x64_S64x64_S524288x64_1_0_0_1_n_n.lhsIdx i q 0).val = (i 0).val := by
  unfold DotDims.lhsIdx
  rw [dif_neg (show ¬(0 : Fin S524288x64.rank) ∈ dot_S524288x64_S64x64_S524288x64_1_0_0_1_n_n.lhsBatch by decide), dif_pos (show (0 : Fin S524288x64.rank) ∈ dot_S524288x64_S64x64_S524288x64_1_0_0_1_n_n.lhsNonContracting by decide)]
  rfl

theorem lhs_main_v105_1 (i : S524288x64.Idx) (q : dot_S524288x64_S64x64_S524288x64_1_0_0_1_n_n.contr.Idx) :
    (dot_S524288x64_S64x64_S524288x64_1_0_0_1_n_n.lhsIdx i q 1).val = (q ⟨0, by decide⟩).val :=
  dot_S524288x64_S64x64_S524288x64_1_0_0_1_n_n.lhsIdx_val_of_single rfl i q

theorem rhs_main_v105_0 (i : S524288x64.Idx) (q : dot_S524288x64_S64x64_S524288x64_1_0_0_1_n_n.contr.Idx) :
    (dot_S524288x64_S64x64_S524288x64_1_0_0_1_n_n.rhsIdx i q 0).val = (q ⟨0, by decide⟩).val :=
  dot_S524288x64_S64x64_S524288x64_1_0_0_1_n_n.rhsIdx_val_of_single rfl i q

theorem rhs_main_v105_1 (i : S524288x64.Idx) (q : dot_S524288x64_S64x64_S524288x64_1_0_0_1_n_n.contr.Idx) :
    (dot_S524288x64_S64x64_S524288x64_1_0_0_1_n_n.rhsIdx i q 1).val = (i 1).val := by
  unfold DotDims.rhsIdx
  rw [dif_neg (show ¬(1 : Fin S64x64.rank) ∈ dot_S524288x64_S64x64_S524288x64_1_0_0_1_n_n.rhsBatch by decide), dif_pos (show (1 : Fin S64x64.rank) ∈ dot_S524288x64_S64x64_S524288x64_1_0_0_1_n_n.rhsNonContracting by decide)]
  rfl

abbrev lidx_main_v105 (i : S524288x64.Idx) (k : Fin 64) : S524288x64.Idx := fun a => match a with
  | ⟨0, _⟩ => ⟨(i 0).val, (i 0).isLt⟩
  | ⟨1, _⟩ => ⟨k.val, k.isLt⟩

abbrev ridx_main_v105 (i : S524288x64.Idx) (k : Fin 64) : S64x64.Idx := fun a => match a with
  | ⟨0, _⟩ => ⟨k.val, k.isLt⟩
  | ⟨1, _⟩ => ⟨(i 1).val, (i 1).isLt⟩

theorem val_main_v105_apply (x0 : (⟨S524288x248, .f32⟩ : BufTy).Contents (Elt Ideal)) (x1 : (⟨S524288, .i32⟩ : BufTy).Contents (Elt Ideal)) (x2 : (⟨S64x248, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (i : S524288x64.Idx) :
    val_main_v105 (F := Ideal) x0 x1 x2 x3 x4 x5 x6 i = ∑ k : Fin 64, (val_main_v103 (F := Ideal) x0 x1 x2 x3 x4 x5) (lidx_main_v105 i k) * (val_main_v104 (F := Ideal) x6) (ridx_main_v105 i k) := by
  unfold val_main_v105
  generalize val_main_v103 (F := Ideal) x0 x1 x2 x3 x4 x5 = y0
  generalize val_main_v104 (F := Ideal) x6 = y1
  simp only [Host.dotGeneral]
  rw [Ideal.dotGeneral_apply, ← Equiv.sum_comp (ValueIdx.contrEquiv1 dot_S524288x64_S64x64_S524288x64_1_0_0_1_n_n 64 rfl rfl).symm]
  refine Finset.sum_congr rfl fun k _ => ?_
  have hk := ValueIdx.contrEquiv1_symm_val dot_S524288x64_S64x64_S524288x64_1_0_0_1_n_n 64 rfl rfl k
  have el : dot_S524288x64_S64x64_S524288x64_1_0_0_1_n_n.lhsIdx i ((ValueIdx.contrEquiv1 dot_S524288x64_S64x64_S524288x64_1_0_0_1_n_n 64 rfl rfl).symm k) = lidx_main_v105 i k := funext fun a => Fin.ext (by
    match a with
    | ⟨0, _⟩ => exact lhs_main_v105_0 _ _
    | ⟨1, _⟩ => exact (lhs_main_v105_1 _ _).trans hk)
  have er : dot_S524288x64_S64x64_S524288x64_1_0_0_1_n_n.rhsIdx i ((ValueIdx.contrEquiv1 dot_S524288x64_S64x64_S524288x64_1_0_0_1_n_n 64 rfl rfl).symm k) = ridx_main_v105 i k := funext fun a => Fin.ext (by
    match a with
    | ⟨0, _⟩ => exact (rhs_main_v105_0 _ _).trans hk
    | ⟨1, _⟩ => exact rhs_main_v105_1 _ _)
  rw [el, er]

def val_main_v106 (x7 : (⟨S64, .f32⟩ : BufTy).Contents (Elt F)) : (⟨S1x64, .f32⟩ : BufTy).Contents (Elt F) :=
  broadcastInDim S1x64 ![1] bcast_S64_S1x64_1 (x7)

abbrev idx_main_v106 (i : S1x64.Idx) : S64.Idx := fun a => match a with
  | ⟨0, _⟩ => ⟨(i 1).val, (i 1).isLt⟩

theorem val_main_v106_apply (x7 : (⟨S64, .f32⟩ : BufTy).Contents (Elt F)) (i : S1x64.Idx) :
    val_main_v106 (F := F) x7 i = x7 (idx_main_v106 i) := by
  unfold val_main_v106
  exact broadcastInDim_apply _ bcast_S64_S1x64_1 x7 i (idx_main_v106 i) (fun a => match a with
    | ⟨0, _⟩ => by show (i 1).val = if (64 : Nat) = 1 then 0 else (i 1).val; rw [if_neg (by decide)])

def val_main_v107 (x7 : (⟨S64, .f32⟩ : BufTy).Contents (Elt F)) : (⟨S524288x64, .f32⟩ : BufTy).Contents (Elt F) :=
  broadcastInDim S524288x64 ![0, 1] bcast_S1x64_S524288x64_0_1 (val_main_v106 (F := F) x7)

abbrev idx_main_v107 (i : S524288x64.Idx) : S1x64.Idx := fun a => match a with
  | ⟨0, _⟩ => ⟨0, Nat.one_pos⟩
  | ⟨1, _⟩ => ⟨(i 1).val, (i 1).isLt⟩

theorem val_main_v107_apply (x7 : (⟨S64, .f32⟩ : BufTy).Contents (Elt F)) (i : S524288x64.Idx) :
    val_main_v107 (F := F) x7 i = val_main_v106 (F := F) x7 (idx_main_v107 i) := by
  unfold val_main_v107
  generalize val_main_v106 (F := F) x7 = y
  exact broadcastInDim_apply _ bcast_S1x64_S524288x64_0_1 y i (idx_main_v107 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v108 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  addf (val_main_v105 (F := F) x0 x1 x2 x3 x4 x5 x6) (val_main_v107 (F := F) x7)

theorem val_main_v108_apply (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (i : S524288x64.Idx) :
    val_main_v108 (F := F) x0 x1 x2 x3 x4 x5 x6 x7 i = FloatOps.addf (val_main_v105 (F := F) x0 x1 x2 x3 x4 x5 x6 i) (val_main_v107 (F := F) x7 i) := rfl

def val_main_cst_26 : (⟨S_, .f32⟩ : BufTy).Contents (Elt F) :=
  constant S_ .f32 0x00000000#32

def val_main_v109 : (⟨S524288x64, .f32⟩ : BufTy).Contents (Elt F) :=
  broadcastInDim S524288x64 ![] bcast_S_S524288x64 (val_main_cst_26 (F := F))

def val_main_v110 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .i1⟩ : BufTy).Contents (Elt F) :=
  cmpf .oge (val_main_v108 (F := F) x0 x1 x2 x3 x4 x5 x6 x7) (val_main_v109 (F := F))

def val_main_cst_27 : (⟨S_, .f32⟩ : BufTy).Contents (Elt F) :=
  constant S_ .f32 0x3C23D70A#32

def val_main_v111 : (⟨S524288x64, .f32⟩ : BufTy).Contents (Elt F) :=
  broadcastInDim S524288x64 ![] bcast_S_S524288x64 (val_main_cst_27 (F := F))

def val_main_v112 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  mulf (val_main_v111 (F := F)) (val_main_v108 (F := F) x0 x1 x2 x3 x4 x5 x6 x7)

def val_main_v113 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  select (val_main_v110 (F := F) x0 x1 x2 x3 x4 x5 x6 x7) (val_main_v108 (F := F) x0 x1 x2 x3 x4 x5 x6 x7) (val_main_v112 (F := F) x0 x1 x2 x3 x4 x5 x6 x7)

def val_main_cst_28 : (⟨S_, .f32⟩ : BufTy).Contents (Elt F) :=
  constant S_ .f32 0x3F800000#32

def val_main_v114 : (⟨S524288, .f32⟩ : BufTy).Contents (Elt F) :=
  broadcastInDim S524288 ![] bcast_S_S524288 (val_main_cst_28 (F := F))

def val_main_cst_29 : (⟨S_, .f32⟩ : BufTy).Contents (Elt F) :=
  constant S_ .f32 0x00000000#32

def val_main_v115 : (⟨S32, .f32⟩ : BufTy).Contents (Elt F) :=
  broadcastInDim S32 ![] bcast_S_S32 (val_main_cst_29 (F := F))

def val_main_v116 (x1 : (⟨S524288, .i32⟩ : BufTy).Contents (Elt F)) : (⟨S524288x1, .i32⟩ : BufTy).Contents (Elt F) :=
  broadcastInDim S524288x1 ![0] bcast_S524288_S524288x1_0 (x1)

def val_main_v117 (x1 : (⟨S524288, .i32⟩ : BufTy).Contents (Elt F)) : (⟨S32, .f32⟩ : BufTy).Contents (Elt F) :=
  Host.scatterAdd scatter_S32_S524288x1_S524288_n_0_0_1 (val_main_v115 (F := F)) (val_main_v116 (F := F) x1) (val_main_v114 (F := F))

def val_main_cst_30 : (⟨S_, .f32⟩ : BufTy).Contents (Elt F) :=
  constant S_ .f32 0x00000000#32

def val_main_v118 : (⟨S32x64, .f32⟩ : BufTy).Contents (Elt F) :=
  broadcastInDim S32x64 ![] bcast_S_S32x64 (val_main_cst_30 (F := F))

def val_main_v119 (x1 : (⟨S524288, .i32⟩ : BufTy).Contents (Elt F)) : (⟨S524288x1, .i32⟩ : BufTy).Contents (Elt F) :=
  broadcastInDim S524288x1 ![0] bcast_S524288_S524288x1_0 (x1)

def val_main_v120 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S32x64, .f32⟩ : BufTy).Contents (Elt F) :=
  Host.scatterAdd scatter_S32x64_S524288x1_S524288x64_1_0_0_1 (val_main_v118 (F := F)) (val_main_v119 (F := F) x1) (val_main_v113 (F := F) x0 x1 x2 x3 x4 x5 x6 x7)

def val_main_cst_31 : (⟨S_, .f32⟩ : BufTy).Contents (Elt F) :=
  constant S_ .f32 0x3F800000#32

def val_main_v121 : (⟨S32, .f32⟩ : BufTy).Contents (Elt F) :=
  broadcastInDim S32 ![] bcast_S_S32 (val_main_cst_31 (F := F))

def val_main_v122 (x1 : (⟨S524288, .i32⟩ : BufTy).Contents (Elt F)) : (⟨S32, .f32⟩ : BufTy).Contents (Elt F) :=
  maximumf (val_main_v117 (F := F) x1) (val_main_v121 (F := F))

def val_main_v123 (x1 : (⟨S524288, .i32⟩ : BufTy).Contents (Elt F)) : (⟨S32x1, .f32⟩ : BufTy).Contents (Elt F) :=
  broadcastInDim S32x1 ![0] bcast_S32_S32x1_0 (val_main_v122 (F := F) x1)

def val_main_v124 (x1 : (⟨S524288, .i32⟩ : BufTy).Contents (Elt F)) : (⟨S32x64, .f32⟩ : BufTy).Contents (Elt F) :=
  broadcastInDim S32x64 ![0, 1] bcast_S32x1_S32x64_0_1 (val_main_v123 (F := F) x1)

def val_main_v125 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S32x64, .f32⟩ : BufTy).Contents (Elt F) :=
  Host.divf (val_main_v120 (F := F) x0 x1 x2 x3 x4 x5 x6 x7) (val_main_v124 (F := F) x1)

def val_main_c_32 : (⟨S_, .i32⟩ : BufTy).Contents (Elt F) :=
  constantI S_ 32 0#32

def val_main_v126 : (⟨S524288, .i32⟩ : BufTy).Contents (Elt F) :=
  broadcastInDim S524288 ![] bcast_S_S524288 (val_main_c_32 (F := F))

def val_main_v127 (x1 : (⟨S524288, .i32⟩ : BufTy).Contents (Elt F)) : (⟨S524288, .i1⟩ : BufTy).Contents (Elt F) :=
  cmpi .slt (x1) (val_main_v126 (F := F))

def val_main_c_33 : (⟨S_, .i32⟩ : BufTy).Contents (Elt F) :=
  constantI S_ 32 32#32

def val_main_v128 : (⟨S524288, .i32⟩ : BufTy).Contents (Elt F) :=
  broadcastInDim S524288 ![] bcast_S_S524288 (val_main_c_33 (F := F))

def val_main_v129 (x1 : (⟨S524288, .i32⟩ : BufTy).Contents (Elt F)) : (⟨S524288, .i32⟩ : BufTy).Contents (Elt F) :=
  addi (x1) (val_main_v128 (F := F))

def val_main_v130 (x1 : (⟨S524288, .i32⟩ : BufTy).Contents (Elt F)) : (⟨S524288, .i32⟩ : BufTy).Contents (Elt F) :=
  select (val_main_v127 (F := F) x1) (val_main_v129 (F := F) x1) (x1)

def val_main_v131 (x1 : (⟨S524288, .i32⟩ : BufTy).Contents (Elt F)) : (⟨S524288x1, .i32⟩ : BufTy).Contents (Elt F) :=
  broadcastInDim S524288x1 ![0] bcast_S524288_S524288x1_0 (val_main_v130 (F := F) x1)

def val_main_v132 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  Host.gather gather_S32x64_S524288x1_S524288x64_1_0_n_n_0_1_164 (val_main_v125 (F := F) x0 x1 x2 x3 x4 x5 x6 x7) (val_main_v131 (F := F) x1)

def val_main_v133 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  subf (val_main_v113 (F := F) x0 x1 x2 x3 x4 x5 x6 x7) (val_main_v132 (F := F) x0 x1 x2 x3 x4 x5 x6 x7)

def val_main_v134 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  mulf (val_main_v133 (F := F) x0 x1 x2 x3 x4 x5 x6 x7) (val_main_v133 (F := F) x0 x1 x2 x3 x4 x5 x6 x7)

def val_main_cst_34 : (⟨S_, .f32⟩ : BufTy).Contents (Elt F) :=
  constant S_ .f32 0x00000000#32

def val_main_v135 : (⟨S32x64, .f32⟩ : BufTy).Contents (Elt F) :=
  broadcastInDim S32x64 ![] bcast_S_S32x64 (val_main_cst_34 (F := F))

def val_main_v136 (x1 : (⟨S524288, .i32⟩ : BufTy).Contents (Elt F)) : (⟨S524288x1, .i32⟩ : BufTy).Contents (Elt F) :=
  broadcastInDim S524288x1 ![0] bcast_S524288_S524288x1_0 (x1)

def val_main_v137 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S32x64, .f32⟩ : BufTy).Contents (Elt F) :=
  Host.scatterAdd scatter_S32x64_S524288x1_S524288x64_1_0_0_1 (val_main_v135 (F := F)) (val_main_v136 (F := F) x1) (val_main_v134 (F := F) x0 x1 x2 x3 x4 x5 x6 x7)

def val_main_cst_35 : (⟨S_, .f32⟩ : BufTy).Contents (Elt F) :=
  constant S_ .f32 0x3F800000#32

def val_main_v138 : (⟨S32, .f32⟩ : BufTy).Contents (Elt F) :=
  broadcastInDim S32 ![] bcast_S_S32 (val_main_cst_35 (F := F))

def val_main_v139 (x1 : (⟨S524288, .i32⟩ : BufTy).Contents (Elt F)) : (⟨S32, .f32⟩ : BufTy).Contents (Elt F) :=
  subf (val_main_v117 (F := F) x1) (val_main_v138 (F := F))

def val_main_cst_36 : (⟨S_, .f32⟩ : BufTy).Contents (Elt F) :=
  constant S_ .f32 0x3F800000#32

def val_main_v140 : (⟨S32, .f32⟩ : BufTy).Contents (Elt F) :=
  broadcastInDim S32 ![] bcast_S_S32 (val_main_cst_36 (F := F))

def val_main_v141 (x1 : (⟨S524288, .i32⟩ : BufTy).Contents (Elt F)) : (⟨S32, .f32⟩ : BufTy).Contents (Elt F) :=
  maximumf (val_main_v139 (F := F) x1) (val_main_v140 (F := F))

def val_main_v142 (x1 : (⟨S524288, .i32⟩ : BufTy).Contents (Elt F)) : (⟨S32x1, .f32⟩ : BufTy).Contents (Elt F) :=
  broadcastInDim S32x1 ![0] bcast_S32_S32x1_0 (val_main_v141 (F := F) x1)

def val_main_v143 (x1 : (⟨S524288, .i32⟩ : BufTy).Contents (Elt F)) : (⟨S32x64, .f32⟩ : BufTy).Contents (Elt F) :=
  broadcastInDim S32x64 ![0, 1] bcast_S32x1_S32x64_0_1 (val_main_v142 (F := F) x1)

def val_main_v144 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S32x64, .f32⟩ : BufTy).Contents (Elt F) :=
  Host.divf (val_main_v137 (F := F) x0 x1 x2 x3 x4 x5 x6 x7) (val_main_v143 (F := F) x1)

def val_main_v145 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S32x64, .f32⟩ : BufTy).Contents (Elt F) :=
  Host.sqrt (val_main_v144 (F := F) x0 x1 x2 x3 x4 x5 x6 x7)

def val_main_c_37 : (⟨S_, .i32⟩ : BufTy).Contents (Elt F) :=
  constantI S_ 32 0#32

def val_main_v146 : (⟨S524288, .i32⟩ : BufTy).Contents (Elt F) :=
  broadcastInDim S524288 ![] bcast_S_S524288 (val_main_c_37 (F := F))

def val_main_v147 (x1 : (⟨S524288, .i32⟩ : BufTy).Contents (Elt F)) : (⟨S524288, .i1⟩ : BufTy).Contents (Elt F) :=
  cmpi .slt (x1) (val_main_v146 (F := F))

def val_main_c_38 : (⟨S_, .i32⟩ : BufTy).Contents (Elt F) :=
  constantI S_ 32 32#32

def val_main_v148 : (⟨S524288, .i32⟩ : BufTy).Contents (Elt F) :=
  broadcastInDim S524288 ![] bcast_S_S524288 (val_main_c_38 (F := F))

def val_main_v149 (x1 : (⟨S524288, .i32⟩ : BufTy).Contents (Elt F)) : (⟨S524288, .i32⟩ : BufTy).Contents (Elt F) :=
  addi (x1) (val_main_v148 (F := F))

def val_main_v150 (x1 : (⟨S524288, .i32⟩ : BufTy).Contents (Elt F)) : (⟨S524288, .i32⟩ : BufTy).Contents (Elt F) :=
  select (val_main_v147 (F := F) x1) (val_main_v149 (F := F) x1) (x1)

def val_main_v151 (x1 : (⟨S524288, .i32⟩ : BufTy).Contents (Elt F)) : (⟨S524288x1, .i32⟩ : BufTy).Contents (Elt F) :=
  broadcastInDim S524288x1 ![0] bcast_S524288_S524288x1_0 (val_main_v150 (F := F) x1)

def val_main_v152 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  Host.gather gather_S32x64_S524288x1_S524288x64_1_0_n_n_0_1_164 (val_main_v145 (F := F) x0 x1 x2 x3 x4 x5 x6 x7) (val_main_v151 (F := F) x1)

def val_main_cst_39 : (⟨S_, .f32⟩ : BufTy).Contents (Elt F) :=
  constant S_ .f32 0x322BCC77#32

def val_main_v153 : (⟨S524288x64, .f32⟩ : BufTy).Contents (Elt F) :=
  broadcastInDim S524288x64 ![] bcast_S_S524288x64 (val_main_cst_39 (F := F))

def val_main_v154 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  addf (val_main_v152 (F := F) x0 x1 x2 x3 x4 x5 x6 x7) (val_main_v153 (F := F))

def val_main_v155 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) : (⟨S524288x64, .f32⟩ : BufTy).Contents (Elt F) :=
  Host.divf (val_main_v133 (F := F) x0 x1 x2 x3 x4 x5 x6 x7) (val_main_v154 (F := F) x0 x1 x2 x3 x4 x5 x6 x7)

def val_main_v156 (x8 : (⟨S3x64, .f32⟩ : BufTy).Contents (Elt F)) : (⟨S64x3, .f32⟩ : BufTy).Contents (Elt F) :=
  transpose S64x3 [1, 0] (x8) transposes_S3x64_S64x3_1_0

abbrev idx_main_v156 (i : S64x3.Idx) : S3x64.Idx := fun a => match a with
  | ⟨0, _⟩ => ⟨(i 1).val, (i 1).isLt⟩
  | ⟨1, _⟩ => ⟨(i 0).val, (i 0).isLt⟩

theorem val_main_v156_apply (x8 : (⟨S3x64, .f32⟩ : BufTy).Contents (Elt F)) (i : S64x3.Idx) :
    val_main_v156 (F := F) x8 i = x8 (idx_main_v156 i) := by
  unfold val_main_v156
  exact transpose_apply [1, 0] x8 transposes_S3x64_S64x3_1_0 i (idx_main_v156 i) (fun b => match b with
    | ⟨0, _⟩ => rfl
    | ⟨1, _⟩ => rfl)

def val_main_v157 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S3x64, .f32⟩ : BufTy).Contents (Elt F)) : (⟨S524288x3, .f32⟩ : BufTy).Contents (Elt F) :=
  Host.dotGeneral dot_S524288x64_S64x3_S524288x3_1_0_0_1_n_n none (val_main_v155 (F := F) x0 x1 x2 x3 x4 x5 x6 x7) (val_main_v156 (F := F) x8)

theorem lhs_main_v157_0 (i : S524288x3.Idx) (q : dot_S524288x64_S64x3_S524288x3_1_0_0_1_n_n.contr.Idx) :
    (dot_S524288x64_S64x3_S524288x3_1_0_0_1_n_n.lhsIdx i q 0).val = (i 0).val := by
  unfold DotDims.lhsIdx
  rw [dif_neg (show ¬(0 : Fin S524288x64.rank) ∈ dot_S524288x64_S64x3_S524288x3_1_0_0_1_n_n.lhsBatch by decide), dif_pos (show (0 : Fin S524288x64.rank) ∈ dot_S524288x64_S64x3_S524288x3_1_0_0_1_n_n.lhsNonContracting by decide)]
  rfl

theorem lhs_main_v157_1 (i : S524288x3.Idx) (q : dot_S524288x64_S64x3_S524288x3_1_0_0_1_n_n.contr.Idx) :
    (dot_S524288x64_S64x3_S524288x3_1_0_0_1_n_n.lhsIdx i q 1).val = (q ⟨0, by decide⟩).val :=
  dot_S524288x64_S64x3_S524288x3_1_0_0_1_n_n.lhsIdx_val_of_single rfl i q

theorem rhs_main_v157_0 (i : S524288x3.Idx) (q : dot_S524288x64_S64x3_S524288x3_1_0_0_1_n_n.contr.Idx) :
    (dot_S524288x64_S64x3_S524288x3_1_0_0_1_n_n.rhsIdx i q 0).val = (q ⟨0, by decide⟩).val :=
  dot_S524288x64_S64x3_S524288x3_1_0_0_1_n_n.rhsIdx_val_of_single rfl i q

theorem rhs_main_v157_1 (i : S524288x3.Idx) (q : dot_S524288x64_S64x3_S524288x3_1_0_0_1_n_n.contr.Idx) :
    (dot_S524288x64_S64x3_S524288x3_1_0_0_1_n_n.rhsIdx i q 1).val = (i 1).val := by
  unfold DotDims.rhsIdx
  rw [dif_neg (show ¬(1 : Fin S64x3.rank) ∈ dot_S524288x64_S64x3_S524288x3_1_0_0_1_n_n.rhsBatch by decide), dif_pos (show (1 : Fin S64x3.rank) ∈ dot_S524288x64_S64x3_S524288x3_1_0_0_1_n_n.rhsNonContracting by decide)]
  rfl

abbrev lidx_main_v157 (i : S524288x3.Idx) (k : Fin 64) : S524288x64.Idx := fun a => match a with
  | ⟨0, _⟩ => ⟨(i 0).val, (i 0).isLt⟩
  | ⟨1, _⟩ => ⟨k.val, k.isLt⟩

abbrev ridx_main_v157 (i : S524288x3.Idx) (k : Fin 64) : S64x3.Idx := fun a => match a with
  | ⟨0, _⟩ => ⟨k.val, k.isLt⟩
  | ⟨1, _⟩ => ⟨(i 1).val, (i 1).isLt⟩

theorem val_main_v157_apply (x0 : (⟨S524288x248, .f32⟩ : BufTy).Contents (Elt Ideal)) (x1 : (⟨S524288, .i32⟩ : BufTy).Contents (Elt Ideal)) (x2 : (⟨S64x248, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S3x64, .f32⟩ : BufTy).Contents (Elt Ideal)) (i : S524288x3.Idx) :
    val_main_v157 (F := Ideal) x0 x1 x2 x3 x4 x5 x6 x7 x8 i = ∑ k : Fin 64, (val_main_v155 (F := Ideal) x0 x1 x2 x3 x4 x5 x6 x7) (lidx_main_v157 i k) * (val_main_v156 (F := Ideal) x8) (ridx_main_v157 i k) := by
  unfold val_main_v157
  generalize val_main_v155 (F := Ideal) x0 x1 x2 x3 x4 x5 x6 x7 = y0
  generalize val_main_v156 (F := Ideal) x8 = y1
  simp only [Host.dotGeneral]
  rw [Ideal.dotGeneral_apply, ← Equiv.sum_comp (ValueIdx.contrEquiv1 dot_S524288x64_S64x3_S524288x3_1_0_0_1_n_n 64 rfl rfl).symm]
  refine Finset.sum_congr rfl fun k _ => ?_
  have hk := ValueIdx.contrEquiv1_symm_val dot_S524288x64_S64x3_S524288x3_1_0_0_1_n_n 64 rfl rfl k
  have el : dot_S524288x64_S64x3_S524288x3_1_0_0_1_n_n.lhsIdx i ((ValueIdx.contrEquiv1 dot_S524288x64_S64x3_S524288x3_1_0_0_1_n_n 64 rfl rfl).symm k) = lidx_main_v157 i k := funext fun a => Fin.ext (by
    match a with
    | ⟨0, _⟩ => exact lhs_main_v157_0 _ _
    | ⟨1, _⟩ => exact (lhs_main_v157_1 _ _).trans hk)
  have er : dot_S524288x64_S64x3_S524288x3_1_0_0_1_n_n.rhsIdx i ((ValueIdx.contrEquiv1 dot_S524288x64_S64x3_S524288x3_1_0_0_1_n_n 64 rfl rfl).symm k) = ridx_main_v157 i k := funext fun a => Fin.ext (by
    match a with
    | ⟨0, _⟩ => exact (rhs_main_v157_0 _ _).trans hk
    | ⟨1, _⟩ => exact rhs_main_v157_1 _ _)
  rw [el, er]

def val_main_v158 (x9 : (⟨S3, .f32⟩ : BufTy).Contents (Elt F)) : (⟨S1x3, .f32⟩ : BufTy).Contents (Elt F) :=
  broadcastInDim S1x3 ![1] bcast_S3_S1x3_1 (x9)

abbrev idx_main_v158 (i : S1x3.Idx) : S3.Idx := fun a => match a with
  | ⟨0, _⟩ => ⟨(i 1).val, (i 1).isLt⟩

theorem val_main_v158_apply (x9 : (⟨S3, .f32⟩ : BufTy).Contents (Elt F)) (i : S1x3.Idx) :
    val_main_v158 (F := F) x9 i = x9 (idx_main_v158 i) := by
  unfold val_main_v158
  exact broadcastInDim_apply _ bcast_S3_S1x3_1 x9 i (idx_main_v158 i) (fun a => match a with
    | ⟨0, _⟩ => by show (i 1).val = if (3 : Nat) = 1 then 0 else (i 1).val; rw [if_neg (by decide)])

def val_main_v159 (x9 : (⟨S3, .f32⟩ : BufTy).Contents (Elt F)) : (⟨S524288x3, .f32⟩ : BufTy).Contents (Elt F) :=
  broadcastInDim S524288x3 ![0, 1] bcast_S1x3_S524288x3_0_1 (val_main_v158 (F := F) x9)

abbrev idx_main_v159 (i : S524288x3.Idx) : S1x3.Idx := fun a => match a with
  | ⟨0, _⟩ => ⟨0, Nat.one_pos⟩
  | ⟨1, _⟩ => ⟨(i 1).val, (i 1).isLt⟩

theorem val_main_v159_apply (x9 : (⟨S3, .f32⟩ : BufTy).Contents (Elt F)) (i : S524288x3.Idx) :
    val_main_v159 (F := F) x9 i = val_main_v158 (F := F) x9 (idx_main_v159 i) := by
  unfold val_main_v159
  generalize val_main_v158 (F := F) x9 = y
  exact broadcastInDim_apply _ bcast_S1x3_S524288x3_0_1 y i (idx_main_v159 i) (fun a => match a with
    | ⟨0, _⟩ => by show 0 = if (1 : Nat) = 1 then 0 else (i 0).val; rw [if_pos rfl]
    | ⟨1, _⟩ => by show (i 1).val = if (3 : Nat) = 1 then 0 else (i 1).val; rw [if_neg (by decide)])

def val_main_v160 (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S3x64, .f32⟩ : BufTy).Contents (Elt F)) (x9 : (⟨S3, .f32⟩ : BufTy).Contents (Elt F)) : (⟨S524288x3, .f32⟩ : BufTy).Contents (Elt F) :=
  addf (val_main_v157 (F := F) x0 x1 x2 x3 x4 x5 x6 x7 x8) (val_main_v159 (F := F) x9)

theorem val_main_v160_apply (x0 : (⟨S524288x248, .f32⟩ : BufTy).Contents (Elt F)) (x1 : (⟨S524288, .i32⟩ : BufTy).Contents (Elt F)) (x2 : (⟨S64x248, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S3x64, .f32⟩ : BufTy).Contents (Elt F)) (x9 : (⟨S3, .f32⟩ : BufTy).Contents (Elt F)) (i : S524288x3.Idx) :
    val_main_v160 (F := F) x0 x1 x2 x3 x4 x5 x6 x7 x8 x9 i = FloatOps.addf (val_main_v157 (F := F) x0 x1 x2 x3 x4 x5 x6 x7 x8 i) (val_main_v159 (F := F) x9 i) := rfl

end Cert.ReferenceIdeal.RefRead

end
-- ==== Proof.ClaimsRef.lean ====
/- The reference's frame, and the six equations saying that narrowing a value and widening it back is the identity over the extended reals. -/
import proofs.«431227_j85710367359314_3_alg».proof.Defs
import proofs.«431227_j85710367359314_3_alg».proof.Proof.RefRun
import proofs.«431227_j85710367359314_3_alg».proof.Proof.Gen.Kernel
import proofs.«431227_j85710367359314_3_alg».proof.Proof.Gen.KernelIdeal
import proofs.«431227_j85710367359314_3_alg».proof.Proof.Gen.ReferenceIdeal
import proofs.«431227_j85710367359314_3_alg».proof.Proof.Gen.Pre_finite_inputs

noncomputable section

namespace Cert.Proof.ClaimsRef

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

end Cert.Proof.ClaimsRef

end
-- ==== Proof.Stages.lean ====
/- The network both programs compute, as plain functions on the extended reals: affine layers with a leaky rectifier, normalised group by group in between. -/
import Idealize.ShloMosaic.PureOps.Ideal
import Idealize.ShloMosaic.Lib.ValueIdx
import Mathlib.Algebra.BigOperators.Group.Finset.Basic

noncomputable section

namespace Cert.Stages

open Idealize.ShloMosaic

abbrev Rows := Fin 524288
abbrev Grp := Fin 32

def slope : EReal := Ideal.ofBits .f32 0x3C23D70A#32

def eps : EReal := Ideal.ofBits .f32 0x322BCC77#32

def act (p : EReal) : EReal := if 0 ≤ p then p else slope * p

def lin {K D : ℕ} (z : Rows → Fin K → EReal) (W : Fin D → Fin K → EReal) (b : Fin D → EReal) : Rows → Fin D → EReal :=
  fun n d => (∑ k : Fin K, z n k * W d k) + b d

variable (gid : Rows → Grp)

def segsum {D : ℕ} (h : Rows → Fin D → EReal) (g : Grp) (d : Fin D) : EReal := ∑ n : Rows, if gid n = g then h n d else 0
def segcnt (g : Grp) : EReal := ∑ n : Rows, if gid n = g then (1 : EReal) else 0

def mu {D : ℕ} (h : Rows → Fin D → EReal) (g : Grp) (d : Fin D) : EReal := Ideal.div (segsum gid h g d) (max (segcnt gid g) 1)

def sdK {D : ℕ} (h : Rows → Fin D → EReal) (g : Grp) (d : Fin D) : EReal :=
  Ideal.sqrt (max (Ideal.div (segsum gid (fun n d => h n d * h n d) g d - segcnt gid g * mu gid h g d * mu gid h g d) (max (segcnt gid g - 1) 1)) 0)

def sdR {D : ℕ} (h : Rows → Fin D → EReal) (g : Grp) (d : Fin D) : EReal :=
  Ideal.sqrt (Ideal.div (segsum gid (fun n d => (h n d - mu gid h (gid n) d) * (h n d - mu gid h (gid n) d)) g d) (max (segcnt gid g - 1) 1))

def normWith {D : ℕ} (sd : (Rows → Fin D → EReal) → Grp → Fin D → EReal) (h : Rows → Fin D → EReal) : Rows → Fin D → EReal :=
  fun n d => Ideal.div (h n d - mu gid h (gid n) d) (sd h (gid n) d + eps)

def layer {K D : ℕ} (sd : (Rows → Fin K → EReal) → Grp → Fin K → EReal) (W : Fin D → Fin K → EReal) (b : Fin D → EReal)
    (h : Rows → Fin K → EReal) : Rows → Fin D → EReal :=
  fun n d => act (lin (normWith gid sd h) W b n d)

def h1 (x : Rows → Fin 248 → EReal) (W1 : Fin 64 → Fin 248 → EReal) (b1 : Fin 64 → EReal) : Rows → Fin 64 → EReal :=
  fun n d => act (lin x W1 b1 n d)

def out (sd : (Rows → Fin 64 → EReal) → Grp → Fin 64 → EReal)
    (x : Rows → Fin 248 → EReal) (W1 : Fin 64 → Fin 248 → EReal) (b1 : Fin 64 → EReal)
    (W2 : Fin 64 → Fin 64 → EReal) (b2 : Fin 64 → EReal) (W3 : Fin 64 → Fin 64 → EReal) (b3 : Fin 64 → EReal)
    (W4 : Fin 3 → Fin 64 → EReal) (b4 : Fin 3 → EReal) : Rows → Fin 3 → EReal :=
  lin (normWith gid sd (layer gid sd W3 b3 (layer gid sd W2 b2 (h1 x W1 b1)))) W4 b4

open Idealize.ShloMosaic.ValueIdx

abbrev mat {A B : ℕ} {α : Type} (x : (⟨2, ![A, B]⟩ : Shape).Idx → α) : Fin A → Fin B → α := fun a b => x (ix2 a b)

abbrev vec {A : ℕ} {α : Type} (x : (⟨1, ![A]⟩ : Shape).Idx → α) : Fin A → α := fun a => x (ix1 a)

def gidOf (ids : (⟨1, ![524288]⟩ : Shape).Idx → BitVec 32) (h : ∀ j, (ids j).toNat < 32) : Rows → Grp :=
  fun n => ⟨(ids (ix1 n)).toNat, h _⟩

end Cert.Stages

end
-- ==== Proof.RefLemmas.lean ====
/- A scatter-add into the 32 groups and a gather from them read at an index, and one normalisation of the reference read stage by stage. -/
import proofs.«431227_j85710367359314_3_alg».proof.Proof.Gen.ReferenceIdeal
import proofs.«431227_j85710367359314_3_alg».proof.Proof.Stages
import Idealize.ShloMosaic.Lib.Pipeline.Value
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.RefLemmas

open Cert.ReferenceIdeal Cert.ReferenceIdeal.Gen Idealize.ShloMosaic Idealize.ShloMosaic.ValueIdx
open Idealize.ShloMosaic.StableHlo.Predicate (toInt_eq_toNat_of_lt slt_iff_toNat)
open scoped BigOperators

abbrev scCnt : ScatterDims S32 S524288x1 S524288 := scatter_S32_S524288x1_S524288_n_0_0_1
abbrev scRow : ScatterDims S32x64 S524288x1 S524288x64 := scatter_S32x64_S524288x1_S524288x64_1_0_0_1
abbrev gaRow : GatherDims S32x64 S524288x1 S524288x64 := gather_S32x64_S524288x1_S524288x64_1_0_n_n_0_1_164

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

theorem ofBits_one_f32 : Ideal.ofBits .f32 0x3F800000#32 = 1 := IdealRules.sign_bit.ideal_onePat .f32

theorem resultIdx?_eq_some {s si u : Shape} (D : ScatterDims s si u) {w : Nat} (j : u.Idx) (idx : IVec si w) (i : s.Idx)
    (h : ∀ a, D.start j idx a + (D.window j a : Int) = ((i a).val : Int)) : D.resultIdx? j idx = some i := by
  unfold ScatterDims.resultIdx?
  have hh : ∀ a, 0 ≤ D.start j idx a + (D.window j a : Int) ∧ D.start j idx a + (D.window j a : Int) < (s.size a : Int) :=
    fun a => by rw [h a]; exact ⟨Int.natCast_nonneg _, by exact_mod_cast (i a).isLt⟩
  rw [dif_pos hh]
  refine congrArg some (funext fun a => Fin.ext ?_)
  show (D.start j idx a + (D.window j a : Int)).toNat = (i a).val
  rw [h a]; exact Int.toNat_natCast _

theorem sc1_start (n : Fin 524288) (idx : IVec S524288x1 32) :
    scCnt.start (ix1 n) idx 0 = (idx (ix2 n (0 : Fin 1))).toInt := by
  unfold ScatterDims.start
  rw [dif_pos (show (0 : Fin S32.rank) ∈ scCnt.scatterDimsToOperandDims by decide)]
  have hsi : scCnt.siIdx (ix1 n) ⟨List.idxOf (0 : Fin S32.rank) scCnt.scatterDimsToOperandDims,
      List.idxOf_lt_length_iff.2 (by decide)⟩ = ix2 n (0 : Fin 1) := by
    funext b; refine Fin.ext ?_
    match b with
    | ⟨0, _⟩ => rfl
    | ⟨1, _⟩ => rfl
  rw [hsi]

theorem sc1_window (n : Fin 524288) : scCnt.window (ix1 n) 0 = 0 := by
  unfold ScatterDims.window
  rw [dif_neg (show ¬ (0 : Fin S32.rank) ∈ scCnt.sKept by decide)]

theorem sc1_result (n : Fin 524288) (idx : IVec S524288x1 32) (k : Fin 32)
    (hk : (idx (ix2 n (0 : Fin 1))).toInt = (k.val : Int)) : scCnt.resultIdx? (ix1 n) idx = some (ix1 k) :=
  resultIdx?_eq_some scCnt _ _ _ fun a => by
    match a with
    | ⟨0, _⟩ =>
      show scCnt.start (ix1 n) idx 0 + (scCnt.window (ix1 n) 0 : Int) = (k.val : Int)
      rw [sc1_start, sc1_window, hk]; simp

theorem scatterCnt_apply (z : FVec Ideal S32 .f32) (idx : IVec S524288x1 32) (u : FVec Ideal S524288 .f32)
    (gid : Fin 524288 → Fin 32) (hg : ∀ n, (idx (ix2 n (0 : Fin 1))).toInt = ((gid n).val : Int)) (g : Fin 32) :
    Host.scatterAdd scCnt z idx u (ix1 g) = z (ix1 g) + ∑ n : Fin 524288, if gid n = g then u (ix1 n) else 0 := by
  show Ideal.hostScatterAdd scCnt z idx u (ix1 g) = _
  unfold Ideal.hostScatterAdd
  show _ + _ = _ + _
  refine congrArg₂ (· + ·) rfl ?_
  rw [Finset.sum_filter, ← Equiv.sum_comp (idxEquiv1 (n := 524288)).symm]
  refine Finset.sum_congr rfl fun n _ => ?_
  have e : (scCnt.resultIdx? ((idxEquiv1 (n := 524288)).symm n) idx = some (ix1 g)) ↔ gid n = g := by
    show scCnt.resultIdx? (ix1 n) idx = some (ix1 g) ↔ _
    rw [sc1_result n idx (gid n) (hg n)]
    constructor
    · intro e; exact congrFun (Option.some.inj e) 0
    · intro e; rw [e]
  exact if_congr e rfl rfl

theorem sc2_start0 (n : Fin 524288) (d : Fin 64) (idx : IVec S524288x1 32) :
    scRow.start (ix2 n d) idx 0 = (idx (ix2 n (0 : Fin 1))).toInt := by
  unfold ScatterDims.start
  rw [dif_pos (show (0 : Fin S32x64.rank) ∈ scRow.scatterDimsToOperandDims by decide)]
  have hsi : scRow.siIdx (ix2 n d) ⟨List.idxOf (0 : Fin S32x64.rank) scRow.scatterDimsToOperandDims,
      List.idxOf_lt_length_iff.2 (by decide)⟩ = ix2 n (0 : Fin 1) := by
    funext b; refine Fin.ext ?_
    match b with
    | ⟨0, _⟩ => rfl
    | ⟨1, _⟩ => rfl
  rw [hsi]

theorem sc2_start1 (n : Fin 524288) (d : Fin 64) (idx : IVec S524288x1 32) : scRow.start (ix2 n d) idx 1 = 0 := by
  unfold ScatterDims.start
  rw [dif_neg (show ¬ (1 : Fin S32x64.rank) ∈ scRow.scatterDimsToOperandDims by decide)]

theorem sc2_window0 (n : Fin 524288) (d : Fin 64) : scRow.window (ix2 n d) 0 = 0 := by
  unfold ScatterDims.window
  rw [dif_neg (show ¬ (0 : Fin S32x64.rank) ∈ scRow.sKept by decide)]

theorem sc2_window1 (n : Fin 524288) (d : Fin 64) : scRow.window (ix2 n d) 1 = d.val := by
  unfold ScatterDims.window
  rw [dif_pos (show (1 : Fin S32x64.rank) ∈ scRow.sKept by decide)]
  rfl

theorem sc2_result (n : Fin 524288) (d : Fin 64) (idx : IVec S524288x1 32) (k : Fin 32)
    (hk : (idx (ix2 n (0 : Fin 1))).toInt = (k.val : Int)) : scRow.resultIdx? (ix2 n d) idx = some (ix2 k d) :=
  resultIdx?_eq_some scRow _ _ _ fun a => by
    match a with
    | ⟨0, _⟩ =>
      show scRow.start (ix2 n d) idx 0 + (scRow.window (ix2 n d) 0 : Int) = (k.val : Int)
      rw [sc2_start0, sc2_window0, hk]; simp
    | ⟨1, _⟩ =>
      show scRow.start (ix2 n d) idx 1 + (scRow.window (ix2 n d) 1 : Int) = (d.val : Int)
      rw [sc2_start1, sc2_window1]; simp

theorem scatterRow_apply (z : FVec Ideal S32x64 .f32) (idx : IVec S524288x1 32) (u : FVec Ideal S524288x64 .f32)
    (gid : Fin 524288 → Fin 32) (hg : ∀ n, (idx (ix2 n (0 : Fin 1))).toInt = ((gid n).val : Int)) (g : Fin 32) (d : Fin 64) :
    Host.scatterAdd scRow z idx u (ix2 g d) = z (ix2 g d) + ∑ n : Fin 524288, if gid n = g then u (ix2 n d) else 0 := by
  show Ideal.hostScatterAdd scRow z idx u (ix2 g d) = _
  unfold Ideal.hostScatterAdd
  show _ + _ = _ + _
  refine congrArg₂ (· + ·) rfl ?_
  rw [Finset.sum_filter, sum_idx2]
  refine Finset.sum_congr rfl fun n _ => ?_
  have e : ∀ d' : Fin 64, (scRow.resultIdx? (ix2 n d') idx = some (ix2 g d)) ↔ (d' = d ∧ gid n = g) := fun d' => by
    rw [sc2_result n d' idx (gid n) (hg n)]
    constructor
    · intro e; have e' := Option.some.inj e; exact ⟨congrFun e' 1, congrFun e' 0⟩
    · rintro ⟨e1, e2⟩; rw [e1, e2]
  simp only [e]
  by_cases h : gid n = g
  · simp [h]
  · simp [h]

theorem gatherRow_apply {α : Type} (t : S32x64.Idx → α) (idx : IVec S524288x1 32) (n : Fin 524288) (d : Fin 64) (k : Fin 32)
    (hk : (idx (ix2 n (0 : Fin 1))).toInt = (k.val : Int)) : Host.gather gaRow t idx (ix2 n d) = t (ix2 k d) := by
  unfold Host.gather
  refine congrArg t (funext fun a => Fin.ext ?_)
  match a with
  | ⟨0, _⟩ =>
    show gaRow.start (ix2 n d) idx 0 + gaRow.batchCoord (ix2 n d) 0 + gaRow.offCoord (ix2 n d) 0 = k.val
    rw [GatherDims.batchCoord_eq_zero _ _ _ (show ¬ (0 : Fin S32x64.rank) ∈ gaRow.operandBatchingDims by decide),
      GatherDims.offCoord_eq_zero _ _ _ (show ¬ (0 : Fin S32x64.rank) ∈ gaRow.sKept by decide)]
    unfold GatherDims.start
    rw [dif_pos (show (0 : Fin S32x64.rank) ∈ gaRow.startIndexMap by decide)]
    have hsi : gaRow.siIdx (ix2 n d) ⟨List.idxOf (0 : Fin S32x64.rank) gaRow.startIndexMap,
        List.idxOf_lt_length_iff.2 (by decide)⟩ = ix2 n (0 : Fin 1) := by
      funext b; refine Fin.ext ?_
      match b with
      | ⟨0, _⟩ => rfl
      | ⟨1, _⟩ => rfl
    rw [hsi, hk]
    show min ((k.val : Int).toNat) (32 - 1) + 0 + 0 = k.val
    have hk32 := k.isLt
    rw [Int.toNat_natCast]; omega
  | ⟨1, _⟩ =>
    show gaRow.start (ix2 n d) idx 1 + gaRow.batchCoord (ix2 n d) 1 + gaRow.offCoord (ix2 n d) 1 = d.val
    rw [GatherDims.batchCoord_eq_zero _ _ _ (show ¬ (1 : Fin S32x64.rank) ∈ gaRow.operandBatchingDims by decide)]
    unfold GatherDims.start GatherDims.offCoord
    rw [dif_neg (show ¬ (1 : Fin S32x64.rank) ∈ gaRow.startIndexMap by decide),
      dif_pos (show (1 : Fin S32x64.rank) ∈ gaRow.sKept by decide)]
    show 0 + 0 + d.val = d.val
    omega

theorem wrap_eq (a : BitVec 32) (ha : a.toNat < 32) :
    Scalar.select (IntOp.cmpi .slt a 0#32) (IntOp.addi a 32#32) a = a := by
  have h : ¬ IntOp.cmpi .slt a 0#32 = 1#1 := by
    rw [slt_iff_toNat (by omega) (by decide)]; simp
  unfold Scalar.select
  exact if_neg h

theorem toInt_of_lt32 (a : BitVec 32) (ha : a.toNat < 32) : a.toInt = (a.toNat : Int) :=
  toInt_eq_toNat_of_lt (by omega)

theorem bcastCol_apply {α : Type} (y : S524288.Idx → α) (n : Fin 524288) :
    broadcastInDim S524288x1 ![0] bcast_S524288_S524288x1_0 y (ix2 n (0 : Fin 1)) = y (ix1 n) :=
  broadcastInDim_apply _ bcast_S524288_S524288x1_0 y _ (ix1 n) (fun a => match a with
    | ⟨0, _⟩ => by show n.val = if (524288 : Nat) = 1 then 0 else n.val; rw [if_neg (by decide)])

theorem bcastG1_apply {α : Type} (y : S32.Idx → α) (g : Fin 32) :
    broadcastInDim S32x1 ![0] bcast_S32_S32x1_0 y (ix2 g (0 : Fin 1)) = y (ix1 g) :=
  broadcastInDim_apply _ bcast_S32_S32x1_0 y _ (ix1 g) (fun a => match a with
    | ⟨0, _⟩ => by show g.val = if (32 : Nat) = 1 then 0 else g.val; rw [if_neg (by decide)])

theorem bcastG2_apply {α : Type} (y : S32x1.Idx → α) (g : Fin 32) (d : Fin 64) :
    broadcastInDim S32x64 ![0, 1] bcast_S32x1_S32x64_0_1 y (ix2 g d) = y (ix2 g (0 : Fin 1)) :=
  broadcastInDim_apply _ bcast_S32x1_S32x64_0_1 y _ (ix2 g (0 : Fin 1)) (fun a => match a with
    | ⟨0, _⟩ => by show g.val = if (32 : Nat) = 1 then 0 else g.val; rw [if_neg (by decide)]
    | ⟨1, _⟩ => by show 0 = if (1 : Nat) = 1 then 0 else d.val; rw [if_pos rfl])

theorem bcast0_S32 {α : Type} (y : S_.Idx → α) (i : S32.Idx) : broadcastInDim S32 ![] bcast_S_S32 y i = y ix0 :=
  broadcastInDim_apply _ bcast_S_S32 y i ix0 (fun a => a.elim0)
theorem bcast0_S524288 {α : Type} (y : S_.Idx → α) (i : S524288.Idx) : broadcastInDim S524288 ![] bcast_S_S524288 y i = y ix0 :=
  broadcastInDim_apply _ bcast_S_S524288 y i ix0 (fun a => a.elim0)
theorem bcast0_S32x64 {α : Type} (y : S_.Idx → α) (i : S32x64.Idx) : broadcastInDim S32x64 ![] bcast_S_S32x64 y i = y ix0 :=
  broadcastInDim_apply _ bcast_S_S32x64 y i ix0 (fun a => a.elim0)
theorem bcast0_S524288x64 {α : Type} (y : S_.Idx → α) (i : S524288x64.Idx) :
    broadcastInDim S524288x64 ![] bcast_S_S524288x64 y i = y ix0 :=
  broadcastInDim_apply _ bcast_S_S524288x64 y i ix0 (fun a => a.elim0)

def idsCol (x1 : IVec S524288 32) : IVec S524288x1 32 := broadcastInDim S524288x1 ![0] bcast_S524288_S524288x1_0 x1

def idsWrap (x1 : IVec S524288 32) : IVec S524288x1 32 :=
  broadcastInDim S524288x1 ![0] bcast_S524288_S524288x1_0
    (select (cmpi .slt x1 (broadcastInDim S524288 ![] bcast_S_S524288 (constantI S_ 32 0#32)))
      (addi x1 (broadcastInDim S524288 ![] bcast_S_S524288 (constantI S_ 32 32#32))) x1)

def cntArr (x1 : IVec S524288 32) : FVec Ideal S32 .f32 :=
  Host.scatterAdd scCnt (broadcastInDim S32 ![] bcast_S_S32 (constant (F := Ideal) S_ .f32 0x00000000#32)) (idsCol x1)
    (broadcastInDim S524288 ![] bcast_S_S524288 (constant (F := Ideal) S_ .f32 0x3F800000#32))

def onesG : FVec Ideal S32 .f32 := broadcastInDim S32 ![] bcast_S_S32 (constant (F := Ideal) S_ .f32 0x3F800000#32)

def spread (y : FVec Ideal S32 .f32) : FVec Ideal S32x64 .f32 :=
  broadcastInDim S32x64 ![0, 1] bcast_S32x1_S32x64_0_1 (broadcastInDim S32x1 ![0] bcast_S32_S32x1_0 y)

def sumArr (x1 : IVec S524288 32) (u : FVec Ideal S524288x64 .f32) : FVec Ideal S32x64 .f32 :=
  Host.scatterAdd scRow (broadcastInDim S32x64 ![] bcast_S_S32x64 (constant (F := Ideal) S_ .f32 0x00000000#32)) (idsCol x1) u

def muArr (x1 : IVec S524288 32) (h : FVec Ideal S524288x64 .f32) : FVec Ideal S32x64 .f32 :=
  Host.divf (sumArr x1 h) (spread (maximumf (cntArr x1) onesG))

def centArr (x1 : IVec S524288 32) (h : FVec Ideal S524288x64 .f32) : FVec Ideal S524288x64 .f32 :=
  subf h (Host.gather gaRow (muArr x1 h) (idsWrap x1))

def sdArr (x1 : IVec S524288 32) (h : FVec Ideal S524288x64 .f32) : FVec Ideal S32x64 .f32 :=
  Host.sqrt (Host.divf (sumArr x1 (mulf (centArr x1 h) (centArr x1 h))) (spread (maximumf (subf (cntArr x1) onesG) onesG)))

def normArr (x1 : IVec S524288 32) (h : FVec Ideal S524288x64 .f32) : FVec Ideal S524288x64 .f32 :=
  Host.divf (centArr x1 h)
    (addf (Host.gather gaRow (sdArr x1 h) (idsWrap x1)) (broadcastInDim S524288x64 ![] bcast_S_S524288x64 (constant (F := Ideal) S_ .f32 0x322BCC77#32)))

def actArr (p : FVec Ideal S524288x64 .f32) : FVec Ideal S524288x64 .f32 :=
  select (cmpf .oge p (broadcastInDim S524288x64 ![] bcast_S_S524288x64 (constant (F := Ideal) S_ .f32 0x00000000#32))) p
    (mulf (broadcastInDim S524288x64 ![] bcast_S_S524288x64 (constant (F := Ideal) S_ .f32 0x3C23D70A#32)) p)

open Cert.Stages

variable (x1 : IVec S524288 32) (hr : ∀ j, (x1 j).toNat < 32)

theorem idsCol_toInt (n : Fin 524288) : (idsCol x1 (ix2 n (0 : Fin 1))).toInt = ((gidOf x1 hr n).val : Int) := by
  unfold idsCol; rw [bcastCol_apply]; exact toInt_of_lt32 _ (hr _)

theorem idsWrap_toInt (n : Fin 524288) : (idsWrap x1 (ix2 n (0 : Fin 1))).toInt = ((gidOf x1 hr n).val : Int) := by
  unfold idsWrap; rw [bcastCol_apply]
  show (Scalar.select (IntOp.cmpi .slt (x1 (ix1 n)) (broadcastInDim S524288 ![] bcast_S_S524288 (constantI S_ 32 0#32) (ix1 n)))
    (IntOp.addi (x1 (ix1 n)) (broadcastInDim S524288 ![] bcast_S_S524288 (constantI S_ 32 32#32) (ix1 n))) (x1 (ix1 n))).toInt = _
  rw [bcast0_S524288, bcast0_S524288]
  show (Scalar.select (IntOp.cmpi .slt (x1 (ix1 n)) 0#32) (IntOp.addi (x1 (ix1 n)) 32#32) (x1 (ix1 n))).toInt = _
  rw [wrap_eq _ (hr _)]; exact toInt_of_lt32 _ (hr _)

theorem cntArr_apply (g : Fin 32) : cntArr x1 (ix1 g) = segcnt (gidOf x1 hr) g := by
  unfold cntArr
  rw [scatterCnt_apply _ _ _ (gidOf x1 hr) (idsCol_toInt x1 hr) g, bcast0_S32]
  show Ideal.ofBits .f32 0x00000000#32 + _ = _
  rw [Ideal.ofBits_zero_f32, zero_add]
  unfold segcnt
  refine Finset.sum_congr rfl fun n _ => ?_
  rw [bcast0_S524288]
  show (if gidOf x1 hr n = g then Ideal.ofBits .f32 0x3F800000#32 else 0) = _
  rw [ofBits_one_f32]

theorem onesG_apply (i : S32.Idx) : onesG i = 1 := by
  unfold onesG; rw [bcast0_S32]; exact ofBits_one_f32

theorem spread_apply (y : FVec Ideal S32 .f32) (g : Fin 32) (d : Fin 64) : spread y (ix2 g d) = y (ix1 g) := by
  unfold spread; rw [bcastG2_apply, bcastG1_apply]

theorem sumArr_apply (u : FVec Ideal S524288x64 .f32) (g : Fin 32) (d : Fin 64) :
    sumArr x1 u (ix2 g d) = segsum (gidOf x1 hr) (mat u) g d := by
  unfold sumArr
  rw [scatterRow_apply _ _ _ (gidOf x1 hr) (idsCol_toInt x1 hr) g d, bcast0_S32x64]
  show Ideal.ofBits .f32 0x00000000#32 + _ = _
  rw [Ideal.ofBits_zero_f32, zero_add]
  rfl

theorem muArr_apply (h : FVec Ideal S524288x64 .f32) (g : Fin 32) (d : Fin 64) :
    muArr x1 h (ix2 g d) = mu (gidOf x1 hr) (mat h) g d := by
  unfold muArr
  rw [hostDivf_apply, sumArr_apply x1 hr, spread_apply, maximumf_apply, cntArr_apply x1 hr, onesG_apply]
  rfl

theorem centArr_apply (h : FVec Ideal S524288x64 .f32) (n : Fin 524288) (d : Fin 64) :
    centArr x1 h (ix2 n d) = h (ix2 n d) - mu (gidOf x1 hr) (mat h) (gidOf x1 hr n) d := by
  unfold centArr
  rw [subf_apply, gatherRow_apply _ _ n d (gidOf x1 hr n) (idsWrap_toInt x1 hr n), muArr_apply x1 hr]

theorem sdArr_apply (h : FVec Ideal S524288x64 .f32) (g : Fin 32) (d : Fin 64) :
    sdArr x1 h (ix2 g d) = sdR (gidOf x1 hr) (mat h) g d := by
  have key : segsum (gidOf x1 hr) (mat (mulf (centArr x1 h) (centArr x1 h))) g d
      = segsum (gidOf x1 hr) (fun n d => (mat h n d - mu (gidOf x1 hr) (mat h) (gidOf x1 hr n) d)
          * (mat h n d - mu (gidOf x1 hr) (mat h) (gidOf x1 hr n) d)) g d := by
    unfold segsum
    refine Finset.sum_congr rfl fun n _ => ?_
    show (if gidOf x1 hr n = g then (mulf (centArr x1 h) (centArr x1 h)) (ix2 n d) else 0) = _
    rw [mulf_apply, centArr_apply x1 hr]
  unfold sdArr
  rw [hostSqrt_apply, hostDivf_apply, sumArr_apply x1 hr, spread_apply, maximumf_apply, subf_apply, cntArr_apply x1 hr, onesG_apply, key]
  rfl

theorem normArr_apply (h : FVec Ideal S524288x64 .f32) (n : Fin 524288) (d : Fin 64) :
    normArr x1 h (ix2 n d) = normWith (gidOf x1 hr) (sdR (gidOf x1 hr)) (mat h) n d := by
  unfold normArr
  rw [hostDivf_apply, addf_apply, centArr_apply x1 hr, gatherRow_apply _ _ n d (gidOf x1 hr n) (idsWrap_toInt x1 hr n),
    sdArr_apply x1 hr, bcast0_S524288x64, constant_apply]
  rfl

theorem norm_mat (h : FVec Ideal S524288x64 .f32) (H : Rows → Fin 64 → EReal) (e : ∀ n d, h (ix2 n d) = H n d) :
    mat (normArr x1 h) = normWith (gidOf x1 hr) (sdR (gidOf x1 hr)) H := by
  funext n d
  show normArr x1 h (ix2 n d) = _
  rw [normArr_apply x1 hr]
  have e' : mat h = H := funext fun n => funext fun d => e n d
  rw [e']

omit hr in
theorem actArr_apply (p : FVec Ideal S524288x64 .f32) (i : S524288x64.Idx) : actArr p i = act (p i) := by
  unfold actArr
  rw [select_apply, cmpf_apply, mulf_apply, bcast0_S524288x64, bcast0_S524288x64, constant_apply, constant_apply, Ideal.ofBits_zero_f32]
  show Scalar.select (Ideal.cmp .oge (p i) 0) (p i) (Ideal.ofBits .f32 0x3C23D70A#32 * p i) = act (p i)
  unfold Scalar.select Ideal.cmp Cert.Stages.act Cert.Stages.slope
  by_cases h0 : (0 : EReal) ≤ p i <;> simp [h0]

end Cert.RefLemmas

end
-- ==== Proof.RefValue.lean ====
/- The reference's result at a row and a column is the specification's network there. -/
import proofs.«431227_j85710367359314_3_alg».proof.Proof.RefRead
import proofs.«431227_j85710367359314_3_alg».proof.Proof.RefLemmas
import proofs.«431227_j85710367359314_3_alg».proof.Proof.Stages

noncomputable section

namespace Cert.RefValue

open Cert.ReferenceIdeal Cert.ReferenceIdeal.Gen Cert.ReferenceIdeal.RefRead Cert.RefLemmas Cert.Stages
open Idealize.ShloMosaic Idealize.ShloMosaic.ValueIdx
open scoped BigOperators

variable (x0 : (⟨S524288x248, .f32⟩ : BufTy).Contents (Elt Ideal)) (x1 : (⟨S524288, .i32⟩ : BufTy).Contents (Elt Ideal)) (x2 : (⟨S64x248, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S3x64, .f32⟩ : BufTy).Contents (Elt Ideal)) (x9 : (⟨S3, .f32⟩ : BufTy).Contents (Elt Ideal))
variable (hr : ∀ j, (x1 j).toNat < 32)

theorem v4_lin (n : Fin 524288) (d : Fin 64) :
    val_main_v4 (F := Ideal) x0 x2 x3 (ix2 n d) = lin (mat (x0)) (mat x2) (vec x3) n d := by
  rw [val_main_v4_apply, val_main_v1_apply, val_main_v3_apply, val_main_v2_apply]
  show (∑ k : Fin 248, (x0) (lidx_main_v1 (ix2 n d) k) * val_main_v0 (F := Ideal) x2 (ridx_main_v1 (ix2 n d) k))
    + x3 (idx_main_v2 (idx_main_v3 (ix2 n d))) = _
  unfold lin
  refine congrArg₂ (· + ·) ?_ ?_
  · refine Finset.sum_congr rfl fun k _ => ?_
    rw [val_main_v0_apply]
    have e1 : lidx_main_v1 (ix2 n d) k = ix2 n k := funext fun a => match a with
      | ⟨0, _⟩ => rfl
      | ⟨1, _⟩ => rfl
    have e2 : idx_main_v0 (ridx_main_v1 (ix2 n d) k) = ix2 d k := funext fun a => match a with
      | ⟨0, _⟩ => rfl
      | ⟨1, _⟩ => rfl
    rw [e1, e2]
  · have e3 : idx_main_v2 (idx_main_v3 (ix2 n d)) = ix1 d := funext fun a => match a with
      | ⟨0, _⟩ => rfl
    rw [e3]

theorem v9_eq : val_main_v9 (F := Ideal) x0 x2 x3 = actArr (val_main_v4 (F := Ideal) x0 x2 x3) := rfl

theorem v9_h1 (n : Fin 524288) (d : Fin 64) :
    val_main_v9 (F := Ideal) x0 x2 x3 (ix2 n d) = h1 (mat x0) (mat x2) (vec x3) n d := by
  rw [v9_eq, actArr_apply, v4_lin]; rfl

theorem v51_eq : val_main_v51 (F := Ideal) x0 x1 x2 x3 = normArr x1 (val_main_v9 (F := Ideal) x0 x2 x3) := rfl

theorem v56_lin (n : Fin 524288) (d : Fin 64) :
    val_main_v56 (F := Ideal) x0 x1 x2 x3 x4 x5 (ix2 n d) = lin (mat (val_main_v51 (F := Ideal) x0 x1 x2 x3)) (mat x4) (vec x5) n d := by
  rw [val_main_v56_apply, val_main_v53_apply, val_main_v55_apply, val_main_v54_apply]
  show (∑ k : Fin 64, (val_main_v51 (F := Ideal) x0 x1 x2 x3) (lidx_main_v53 (ix2 n d) k) * val_main_v52 (F := Ideal) x4 (ridx_main_v53 (ix2 n d) k))
    + x5 (idx_main_v54 (idx_main_v55 (ix2 n d))) = _
  unfold lin
  refine congrArg₂ (· + ·) ?_ ?_
  · refine Finset.sum_congr rfl fun k _ => ?_
    rw [val_main_v52_apply]
    have e1 : lidx_main_v53 (ix2 n d) k = ix2 n k := funext fun a => match a with
      | ⟨0, _⟩ => rfl
      | ⟨1, _⟩ => rfl
    have e2 : idx_main_v52 (ridx_main_v53 (ix2 n d) k) = ix2 d k := funext fun a => match a with
      | ⟨0, _⟩ => rfl
      | ⟨1, _⟩ => rfl
    rw [e1, e2]
  · have e3 : idx_main_v54 (idx_main_v55 (ix2 n d)) = ix1 d := funext fun a => match a with
      | ⟨0, _⟩ => rfl
    rw [e3]

theorem v61_eq : val_main_v61 (F := Ideal) x0 x1 x2 x3 x4 x5 = actArr (val_main_v56 (F := Ideal) x0 x1 x2 x3 x4 x5) := rfl

theorem v61_layer (n : Fin 524288) (d : Fin 64) :
    val_main_v61 (F := Ideal) x0 x1 x2 x3 x4 x5 (ix2 n d)
      = layer (gidOf x1 hr) (sdR (gidOf x1 hr)) (mat x4) (vec x5) (h1 (mat x0) (mat x2) (vec x3)) n d := by
  have eA : mat (val_main_v51 (F := Ideal) x0 x1 x2 x3) = normWith (gidOf x1 hr) (sdR (gidOf x1 hr)) (h1 (mat x0) (mat x2) (vec x3)) := by
    rw [v51_eq]; exact norm_mat x1 hr _ _ (v9_h1 x0 x2 x3)
  rw [v61_eq, actArr_apply, v56_lin, eA]; rfl

theorem v103_eq : val_main_v103 (F := Ideal) x0 x1 x2 x3 x4 x5 = normArr x1 (val_main_v61 (F := Ideal) x0 x1 x2 x3 x4 x5) := rfl

theorem v108_lin (n : Fin 524288) (d : Fin 64) :
    val_main_v108 (F := Ideal) x0 x1 x2 x3 x4 x5 x6 x7 (ix2 n d) = lin (mat (val_main_v103 (F := Ideal) x0 x1 x2 x3 x4 x5)) (mat x6) (vec x7) n d := by
  rw [val_main_v108_apply, val_main_v105_apply, val_main_v107_apply, val_main_v106_apply]
  show (∑ k : Fin 64, (val_main_v103 (F := Ideal) x0 x1 x2 x3 x4 x5) (lidx_main_v105 (ix2 n d) k) * val_main_v104 (F := Ideal) x6 (ridx_main_v105 (ix2 n d) k))
    + x7 (idx_main_v106 (idx_main_v107 (ix2 n d))) = _
  unfold lin
  refine congrArg₂ (· + ·) ?_ ?_
  · refine Finset.sum_congr rfl fun k _ => ?_
    rw [val_main_v104_apply]
    have e1 : lidx_main_v105 (ix2 n d) k = ix2 n k := funext fun a => match a with
      | ⟨0, _⟩ => rfl
      | ⟨1, _⟩ => rfl
    have e2 : idx_main_v104 (ridx_main_v105 (ix2 n d) k) = ix2 d k := funext fun a => match a with
      | ⟨0, _⟩ => rfl
      | ⟨1, _⟩ => rfl
    rw [e1, e2]
  · have e3 : idx_main_v106 (idx_main_v107 (ix2 n d)) = ix1 d := funext fun a => match a with
      | ⟨0, _⟩ => rfl
    rw [e3]

theorem v113_eq : val_main_v113 (F := Ideal) x0 x1 x2 x3 x4 x5 x6 x7 = actArr (val_main_v108 (F := Ideal) x0 x1 x2 x3 x4 x5 x6 x7) := rfl

theorem v113_layer (n : Fin 524288) (d : Fin 64) :
    val_main_v113 (F := Ideal) x0 x1 x2 x3 x4 x5 x6 x7 (ix2 n d)
      = layer (gidOf x1 hr) (sdR (gidOf x1 hr)) (mat x6) (vec x7)
          (layer (gidOf x1 hr) (sdR (gidOf x1 hr)) (mat x4) (vec x5) (h1 (mat x0) (mat x2) (vec x3))) n d := by
  have eA : mat (val_main_v103 (F := Ideal) x0 x1 x2 x3 x4 x5)
      = normWith (gidOf x1 hr) (sdR (gidOf x1 hr)) (layer (gidOf x1 hr) (sdR (gidOf x1 hr)) (mat x4) (vec x5) (h1 (mat x0) (mat x2) (vec x3))) := by
    rw [v103_eq]; exact norm_mat x1 hr _ _ (v61_layer x0 x1 x2 x3 x4 x5 hr)
  rw [v113_eq, actArr_apply, v108_lin, eA]; rfl

theorem v155_eq : val_main_v155 (F := Ideal) x0 x1 x2 x3 x4 x5 x6 x7 = normArr x1 (val_main_v113 (F := Ideal) x0 x1 x2 x3 x4 x5 x6 x7) := rfl

theorem v160_lin (n : Fin 524288) (d : Fin 3) :
    val_main_v160 (F := Ideal) x0 x1 x2 x3 x4 x5 x6 x7 x8 x9 (ix2 n d) = lin (mat (val_main_v155 (F := Ideal) x0 x1 x2 x3 x4 x5 x6 x7)) (mat x8) (vec x9) n d := by
  rw [val_main_v160_apply, val_main_v157_apply, val_main_v159_apply, val_main_v158_apply]
  show (∑ k : Fin 64, (val_main_v155 (F := Ideal) x0 x1 x2 x3 x4 x5 x6 x7) (lidx_main_v157 (ix2 n d) k) * val_main_v156 (F := Ideal) x8 (ridx_main_v157 (ix2 n d) k))
    + x9 (idx_main_v158 (idx_main_v159 (ix2 n d))) = _
  unfold lin
  refine congrArg₂ (· + ·) ?_ ?_
  · refine Finset.sum_congr rfl fun k _ => ?_
    rw [val_main_v156_apply]
    have e1 : lidx_main_v157 (ix2 n d) k = ix2 n k := funext fun a => match a with
      | ⟨0, _⟩ => rfl
      | ⟨1, _⟩ => rfl
    have e2 : idx_main_v156 (ridx_main_v157 (ix2 n d) k) = ix2 d k := funext fun a => match a with
      | ⟨0, _⟩ => rfl
      | ⟨1, _⟩ => rfl
    rw [e1, e2]
  · have e3 : idx_main_v158 (idx_main_v159 (ix2 n d)) = ix1 d := funext fun a => match a with
      | ⟨0, _⟩ => rfl
    rw [e3]

theorem ref_value (n : Fin 524288) (d : Fin 3) :
    val_main_v160 (F := Ideal) x0 x1 x2 x3 x4 x5 x6 x7 x8 x9 (ix2 n d)
      = out (gidOf x1 hr) (sdR (gidOf x1 hr)) (mat x0) (mat x2) (vec x3) (mat x4) (vec x5) (mat x6) (vec x7) (mat x8) (vec x9) n d := by
  have eA : mat (val_main_v155 (F := Ideal) x0 x1 x2 x3 x4 x5 x6 x7)
      = normWith (gidOf x1 hr) (sdR (gidOf x1 hr))
          (layer (gidOf x1 hr) (sdR (gidOf x1 hr)) (mat x6) (vec x7)
            (layer (gidOf x1 hr) (sdR (gidOf x1 hr)) (mat x4) (vec x5) (h1 (mat x0) (mat x2) (vec x3)))) := by
    rw [v155_eq]; exact norm_mat x1 hr _ _ (v113_layer x0 x1 x2 x3 x4 x5 x6 x7 hr)
  rw [v160_lin, eA]; rfl

end Cert.RefValue

end
-- ==== Proof.PreFacts.lean ====
/- The precondition read as facts: every float entry is a real number and every group number lies below 32. -/
import proofs.«431227_j85710367359314_3_alg».proof.Defs
import Idealize.ShloMosaic.Lib.ReduceAll
import Idealize.ShloMosaic.Lib.StableHlo.Predicate
import Idealize.ShloMosaic.Lib.ValueIdx

noncomputable section

namespace Cert.PreFacts

open Idealize.ShloMosaic Idealize.SL.Sem Cert.Pre_finite_inputs

variable [hPre : Cert.Pre_finite_inputs.Facts]

instance subsingleton_S_ : Subsingleton S_.Idx := ⟨fun a b => funext fun d => d.elim0⟩

variable {F : FTy → Type} [FloatOps F]

abbrev FiniteAt (x : F .f32) : Prop :=
  FloatOps.cmpf .olt (FloatOps.hostAbsf x) (FloatOps.ofBits (F := F) .f32 0x7F800000#32) = 1#1

theorem split
    (a0 : FVec F S524288x248 .f32) (a1 : IVec S524288 32) (a2 : FVec F S64x248 .f32) (a3 : FVec F S64 .f32)
    (a4 : FVec F S64x64 .f32) (a5 : FVec F S64 .f32) (a6 : FVec F S64x64 .f32) (a7 : FVec F S64 .f32)
    (a8 : FVec F S3x64 .f32) (a9 : FVec F S3 .f32)
    (h : Cert.Pre_finite_inputs.fn (F := F) a0 a1 a2 a3 a4 a5 a6 a7 a8 a9 = (fun _ => 1#1)) :
    (∀ i, FiniteAt (a0 i)) ∧ (∀ i, FiniteAt (a2 i)) ∧ (∀ i, FiniteAt (a3 i)) ∧ (∀ i, FiniteAt (a4 i)) ∧
    (∀ i, FiniteAt (a5 i)) ∧ (∀ i, FiniteAt (a6 i)) ∧ (∀ i, FiniteAt (a7 i)) ∧ (∀ i, FiniteAt (a8 i)) ∧
    (∀ i, FiniteAt (a9 i)) ∧ (∀ i, IntOp.cmpi .sge (a1 i) 0#32 = 1#1) ∧ (∀ i, IntOp.cmpi .slt (a1 i) 32#32 = 1#1) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h2⟩, h3⟩, h4⟩, h5⟩, h6⟩, h7⟩, h8⟩, h9⟩, hge⟩, hlt⟩ := e
  refine ⟨fun i => ?_, fun i => ?_, fun i => ?_, fun i => ?_, fun i => ?_, fun i => ?_, fun i => ?_, fun i => ?_,
    fun i => ?_, fun i => ?_, fun i => ?_⟩
  · exact Host.reduce_andi_all _ _ _ _ _ h0 i
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i
  · exact Host.reduce_andi_all _ _ _ _ _ h7 i
  · exact Host.reduce_andi_all _ _ _ _ _ h8 i
  · exact Host.reduce_andi_all _ _ _ _ _ h9 i
  · exact Host.reduce_andi_all _ _ _ _ _ hge i
  · exact Host.reduce_andi_all _ _ _ _ _ hlt i

theorem word_range (w : BitVec 32) (h0 : IntOp.cmpi .sge w 0#32 = 1#1) (h1 : IntOp.cmpi .slt w 32#32 = 1#1) :
    (0 ≤ w.toInt ∧ w.toInt < 32) ∧ w.toNat < 32 ∧ w.toInt = (w.toNat : ℤ) := by
  unfold IntOp.cmpi at h0 h1
  rw [StableHlo.Predicate.ofBool_eq_one_iff] at h0 h1
  simp only [BitVec.slt, BitVec.sle, decide_eq_true_eq] at h0 h1
  have z0 : (0#32 : BitVec 32).toInt = 0 := by decide
  have z32 : (32#32 : BitVec 32).toInt = 32 := by decide
  rw [z0] at h0
  rw [z32] at h1
  have h32 := w.isLt
  have hcases : w.toInt = (w.toNat : ℤ) := by
    rw [BitVec.toInt_eq_toNat_cond] at h0 ⊢
    by_cases hc : 2 * w.toNat < 2 ^ 32
    · rw [if_pos hc]
    · rw [if_neg hc] at h0
      omega
  refine ⟨⟨h0, h1⟩, ?_, hcases⟩
  omega

theorem real_of_finiteAt (x : Ideal .f32) (h : FiniteAt (F := Ideal) x) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  rw [StableHlo.Predicate.ofBool_eq_one_iff] at h'
  have hlt : max (x : EReal) (-(x : EReal)) < ⊤ := by simpa using h'
  rw [max_lt_iff] at hlt
  induction x using EReal.rec with
  | bot => exact absurd hlt.2 (by simp)
  | top => exact absurd hlt.1 (by simp)
  | coe r => exact ⟨r, rfl⟩

section Arrays

variable (a0 : FVec F S524288x248 .f32) (a1 : IVec S524288 32) (a2 : FVec F S64x248 .f32) (a3 : FVec F S64 .f32)
    (a4 : FVec F S64x64 .f32) (a5 : FVec F S64 .f32) (a6 : FVec F S64x64 .f32) (a7 : FVec F S64 .f32)
    (a8 : FVec F S3x64 .f32) (a9 : FVec F S3 .f32)

theorem idx_range (h : Cert.Pre_finite_inputs.fn (F := F) a0 a1 a2 a3 a4 a5 a6 a7 a8 a9 = (fun _ => 1#1)) (j : S524288.Idx) :
    (0 ≤ (a1 j).toInt ∧ (a1 j).toInt < 32) ∧ (a1 j).toNat < 32 ∧ (a1 j).toInt = ((a1 j).toNat : ℤ) :=
  have s := split a0 a1 a2 a3 a4 a5 a6 a7 a8 a9 h
  word_range (a1 j) (s.2.2.2.2.2.2.2.2.2.1 j) (s.2.2.2.2.2.2.2.2.2.2 j)

end Arrays

section IdealArrays

variable (a0 : FVec Ideal S524288x248 .f32) (a1 : IVec S524288 32) (a2 : FVec Ideal S64x248 .f32) (a3 : FVec Ideal S64 .f32)
    (a4 : FVec Ideal S64x64 .f32) (a5 : FVec Ideal S64 .f32) (a6 : FVec Ideal S64x64 .f32) (a7 : FVec Ideal S64 .f32)
    (a8 : FVec Ideal S3x64 .f32) (a9 : FVec Ideal S3 .f32)

theorem all_real (h : Cert.Pre_finite_inputs.fn (F := Ideal) a0 a1 a2 a3 a4 a5 a6 a7 a8 a9 = (fun _ => 1#1)) :
    (∀ j, ∃ r : ℝ, a0 j = (r : EReal)) ∧ (∀ j, ∃ r : ℝ, a2 j = (r : EReal)) ∧ (∀ j, ∃ r : ℝ, a3 j = (r : EReal)) ∧
    (∀ j, ∃ r : ℝ, a4 j = (r : EReal)) ∧ (∀ j, ∃ r : ℝ, a5 j = (r : EReal)) ∧ (∀ j, ∃ r : ℝ, a6 j = (r : EReal)) ∧
    (∀ j, ∃ r : ℝ, a7 j = (r : EReal)) ∧ (∀ j, ∃ r : ℝ, a8 j = (r : EReal)) ∧ (∀ j, ∃ r : ℝ, a9 j = (r : EReal)) := by
  obtain ⟨h0, h2, h3, h4, h5, h6, h7, h8, h9, -, -⟩ := split a0 a1 a2 a3 a4 a5 a6 a7 a8 a9 h
  exact ⟨fun j => real_of_finiteAt _ (h0 j), fun j => real_of_finiteAt _ (h2 j), fun j => real_of_finiteAt _ (h3 j),
    fun j => real_of_finiteAt _ (h4 j), fun j => real_of_finiteAt _ (h5 j), fun j => real_of_finiteAt _ (h6 j),
    fun j => real_of_finiteAt _ (h7 j), fun j => real_of_finiteAt _ (h8 j), fun j => real_of_finiteAt _ (h9 j)⟩

end IdealArrays

namespace KernelIdeal

variable (m : (ℓ : Loc Cert.KernelIdeal.nD Cert.KernelIdeal.τ Cert.KernelIdeal.sig) → Buf (Elt Ideal) ℓ)

theorem pre_at (h : Cert.Pre_KernelIdeal m) (c : Dev Cert.KernelIdeal.nD) :
    Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = (fun _ => 1#1) := h c

theorem idx_range (h : Cert.Pre_KernelIdeal m) (c : Dev Cert.KernelIdeal.nD) (j : S524288.Idx) :
    (0 ≤ (((m ((c.tc : Thread Cert.KernelIdeal.nD Cert.KernelIdeal.τ).loc Cert.KernelIdeal.main_arg1)) : IVec S524288 32) j).toInt ∧ (((m ((c.tc : Thread Cert.KernelIdeal.nD Cert.KernelIdeal.τ).loc Cert.KernelIdeal.main_arg1)) : IVec S524288 32) j).toInt < 32)
      ∧ (((m ((c.tc : Thread Cert.KernelIdeal.nD Cert.KernelIdeal.τ).loc Cert.KernelIdeal.main_arg1)) : IVec S524288 32) j).toNat < 32
      ∧ (((m ((c.tc : Thread Cert.KernelIdeal.nD Cert.KernelIdeal.τ).loc Cert.KernelIdeal.main_arg1)) : IVec S524288 32) j).toInt = ((((m ((c.tc : Thread Cert.KernelIdeal.nD Cert.KernelIdeal.τ).loc Cert.KernelIdeal.main_arg1)) : IVec S524288 32) j).toNat : ℤ) :=
  Cert.PreFacts.idx_range _ _ _ _ _ _ _ _ _ _ (h c) j

theorem real_arg0 (h : Cert.Pre_KernelIdeal m) (c : Dev Cert.KernelIdeal.nD) (j : S524288x248.Idx) :
    ∃ r : ℝ, ((m ((c.tc : Thread Cert.KernelIdeal.nD Cert.KernelIdeal.τ).loc Cert.KernelIdeal.main_arg0)) : FVec Ideal S524288x248 .f32) j = (r : EReal) :=
  (Cert.PreFacts.all_real _ _ _ _ _ _ _ _ _ _ (h c)).1 j

theorem real_arg2 (h : Cert.Pre_KernelIdeal m) (c : Dev Cert.KernelIdeal.nD) (j : S64x248.Idx) :
    ∃ r : ℝ, ((m ((c.tc : Thread Cert.KernelIdeal.nD Cert.KernelIdeal.τ).loc Cert.KernelIdeal.main_arg2)) : FVec Ideal S64x248 .f32) j = (r : EReal) :=
  (Cert.PreFacts.all_real _ _ _ _ _ _ _ _ _ _ (h c)).2.1 j

theorem real_arg3 (h : Cert.Pre_KernelIdeal m) (c : Dev Cert.KernelIdeal.nD) (j : S64.Idx) :
    ∃ r : ℝ, ((m ((c.tc : Thread Cert.KernelIdeal.nD Cert.KernelIdeal.τ).loc Cert.KernelIdeal.main_arg3)) : FVec Ideal S64 .f32) j = (r : EReal) :=
  (Cert.PreFacts.all_real _ _ _ _ _ _ _ _ _ _ (h c)).2.2.1 j

theorem real_arg4 (h : Cert.Pre_KernelIdeal m) (c : Dev Cert.KernelIdeal.nD) (j : S64x64.Idx) :
    ∃ r : ℝ, ((m ((c.tc : Thread Cert.KernelIdeal.nD Cert.KernelIdeal.τ).loc Cert.KernelIdeal.main_arg4)) : FVec Ideal S64x64 .f32) j = (r : EReal) :=
  (Cert.PreFacts.all_real _ _ _ _ _ _ _ _ _ _ (h c)).2.2.2.1 j

theorem real_arg5 (h : Cert.Pre_KernelIdeal m) (c : Dev Cert.KernelIdeal.nD) (j : S64.Idx) :
    ∃ r : ℝ, ((m ((c.tc : Thread Cert.KernelIdeal.nD Cert.KernelIdeal.τ).loc Cert.KernelIdeal.main_arg5)) : FVec Ideal S64 .f32) j = (r : EReal) :=
  (Cert.PreFacts.all_real _ _ _ _ _ _ _ _ _ _ (h c)).2.2.2.2.1 j

theorem real_arg6 (h : Cert.Pre_KernelIdeal m) (c : Dev Cert.KernelIdeal.nD) (j : S64x64.Idx) :
    ∃ r : ℝ, ((m ((c.tc : Thread Cert.KernelIdeal.nD Cert.KernelIdeal.τ).loc Cert.KernelIdeal.main_arg6)) : FVec Ideal S64x64 .f32) j = (r : EReal) :=
  (Cert.PreFacts.all_real _ _ _ _ _ _ _ _ _ _ (h c)).2.2.2.2.2.1 j

theorem real_arg7 (h : Cert.Pre_KernelIdeal m) (c : Dev Cert.KernelIdeal.nD) (j : S64.Idx) :
    ∃ r : ℝ, ((m ((c.tc : Thread Cert.KernelIdeal.nD Cert.KernelIdeal.τ).loc Cert.KernelIdeal.main_arg7)) : FVec Ideal S64 .f32) j = (r : EReal) :=
  (Cert.PreFacts.all_real _ _ _ _ _ _ _ _ _ _ (h c)).2.2.2.2.2.2.1 j

theorem real_arg8 (h : Cert.Pre_KernelIdeal m) (c : Dev Cert.KernelIdeal.nD) (j : S3x64.Idx) :
    ∃ r : ℝ, ((m ((c.tc : Thread Cert.KernelIdeal.nD Cert.KernelIdeal.τ).loc Cert.KernelIdeal.main_arg8)) : FVec Ideal S3x64 .f32) j = (r : EReal) :=
  (Cert.PreFacts.all_real _ _ _ _ _ _ _ _ _ _ (h c)).2.2.2.2.2.2.2.1 j

theorem real_arg9 (h : Cert.Pre_KernelIdeal m) (c : Dev Cert.KernelIdeal.nD) (j : S3.Idx) :
    ∃ r : ℝ, ((m ((c.tc : Thread Cert.KernelIdeal.nD Cert.KernelIdeal.τ).loc Cert.KernelIdeal.main_arg9)) : FVec Ideal S3 .f32) j = (r : EReal) :=
  (Cert.PreFacts.all_real _ _ _ _ _ _ _ _ _ _ (h c)).2.2.2.2.2.2.2.2 j

end KernelIdeal

namespace ReferenceIdeal

variable (m : (ℓ : Loc Cert.ReferenceIdeal.nD Cert.ReferenceIdeal.τ Cert.ReferenceIdeal.sig) → Buf (Elt Ideal) ℓ)

theorem pre_at (h : Cert.Pre_ReferenceIdeal m) (c : Dev Cert.ReferenceIdeal.nD) :
    Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) = (fun _ => 1#1) := h c

theorem idx_range (h : Cert.Pre_ReferenceIdeal m) (c : Dev Cert.ReferenceIdeal.nD) (j : S524288.Idx) :
    (0 ≤ (((m ((c.tc : Thread Cert.ReferenceIdeal.nD Cert.ReferenceIdeal.τ).loc Cert.ReferenceIdeal.main_arg1)) : IVec S524288 32) j).toInt ∧ (((m ((c.tc : Thread Cert.ReferenceIdeal.nD Cert.ReferenceIdeal.τ).loc Cert.ReferenceIdeal.main_arg1)) : IVec S524288 32) j).toInt < 32)
      ∧ (((m ((c.tc : Thread Cert.ReferenceIdeal.nD Cert.ReferenceIdeal.τ).loc Cert.ReferenceIdeal.main_arg1)) : IVec S524288 32) j).toNat < 32
      ∧ (((m ((c.tc : Thread Cert.ReferenceIdeal.nD Cert.ReferenceIdeal.τ).loc Cert.ReferenceIdeal.main_arg1)) : IVec S524288 32) j).toInt = ((((m ((c.tc : Thread Cert.ReferenceIdeal.nD Cert.ReferenceIdeal.τ).loc Cert.ReferenceIdeal.main_arg1)) : IVec S524288 32) j).toNat : ℤ) :=
  Cert.PreFacts.idx_range _ _ _ _ _ _ _ _ _ _ (h c) j

theorem real_arg0 (h : Cert.Pre_ReferenceIdeal m) (c : Dev Cert.ReferenceIdeal.nD) (j : S524288x248.Idx) :
    ∃ r : ℝ, ((m ((c.tc : Thread Cert.ReferenceIdeal.nD Cert.ReferenceIdeal.τ).loc Cert.ReferenceIdeal.main_arg0)) : FVec Ideal S524288x248 .f32) j = (r : EReal) :=
  (Cert.PreFacts.all_real _ _ _ _ _ _ _ _ _ _ (h c)).1 j

theorem real_arg2 (h : Cert.Pre_ReferenceIdeal m) (c : Dev Cert.ReferenceIdeal.nD) (j : S64x248.Idx) :
    ∃ r : ℝ, ((m ((c.tc : Thread Cert.ReferenceIdeal.nD Cert.ReferenceIdeal.τ).loc Cert.ReferenceIdeal.main_arg2)) : FVec Ideal S64x248 .f32) j = (r : EReal) :=
  (Cert.PreFacts.all_real _ _ _ _ _ _ _ _ _ _ (h c)).2.1 j

theorem real_arg3 (h : Cert.Pre_ReferenceIdeal m) (c : Dev Cert.ReferenceIdeal.nD) (j : S64.Idx) :
    ∃ r : ℝ, ((m ((c.tc : Thread Cert.ReferenceIdeal.nD Cert.ReferenceIdeal.τ).loc Cert.ReferenceIdeal.main_arg3)) : FVec Ideal S64 .f32) j = (r : EReal) :=
  (Cert.PreFacts.all_real _ _ _ _ _ _ _ _ _ _ (h c)).2.2.1 j

theorem real_arg4 (h : Cert.Pre_ReferenceIdeal m) (c : Dev Cert.ReferenceIdeal.nD) (j : S64x64.Idx) :
    ∃ r : ℝ, ((m ((c.tc : Thread Cert.ReferenceIdeal.nD Cert.ReferenceIdeal.τ).loc Cert.ReferenceIdeal.main_arg4)) : FVec Ideal S64x64 .f32) j = (r : EReal) :=
  (Cert.PreFacts.all_real _ _ _ _ _ _ _ _ _ _ (h c)).2.2.2.1 j

theorem real_arg5 (h : Cert.Pre_ReferenceIdeal m) (c : Dev Cert.ReferenceIdeal.nD) (j : S64.Idx) :
    ∃ r : ℝ, ((m ((c.tc : Thread Cert.ReferenceIdeal.nD Cert.ReferenceIdeal.τ).loc Cert.ReferenceIdeal.main_arg5)) : FVec Ideal S64 .f32) j = (r : EReal) :=
  (Cert.PreFacts.all_real _ _ _ _ _ _ _ _ _ _ (h c)).2.2.2.2.1 j

theorem real_arg6 (h : Cert.Pre_ReferenceIdeal m) (c : Dev Cert.ReferenceIdeal.nD) (j : S64x64.Idx) :
    ∃ r : ℝ, ((m ((c.tc : Thread Cert.ReferenceIdeal.nD Cert.ReferenceIdeal.τ).loc Cert.ReferenceIdeal.main_arg6)) : FVec Ideal S64x64 .f32) j = (r : EReal) :=
  (Cert.PreFacts.all_real _ _ _ _ _ _ _ _ _ _ (h c)).2.2.2.2.2.1 j

theorem real_arg7 (h : Cert.Pre_ReferenceIdeal m) (c : Dev Cert.ReferenceIdeal.nD) (j : S64.Idx) :
    ∃ r : ℝ, ((m ((c.tc : Thread Cert.ReferenceIdeal.nD Cert.ReferenceIdeal.τ).loc Cert.ReferenceIdeal.main_arg7)) : FVec Ideal S64 .f32) j = (r : EReal) :=
  (Cert.PreFacts.all_real _ _ _ _ _ _ _ _ _ _ (h c)).2.2.2.2.2.2.1 j

theorem real_arg8 (h : Cert.Pre_ReferenceIdeal m) (c : Dev Cert.ReferenceIdeal.nD) (j : S3x64.Idx) :
    ∃ r : ℝ, ((m ((c.tc : Thread Cert.ReferenceIdeal.nD Cert.ReferenceIdeal.τ).loc Cert.ReferenceIdeal.main_arg8)) : FVec Ideal S3x64 .f32) j = (r : EReal) :=
  (Cert.PreFacts.all_real _ _ _ _ _ _ _ _ _ _ (h c)).2.2.2.2.2.2.2.1 j

theorem real_arg9 (h : Cert.Pre_ReferenceIdeal m) (c : Dev Cert.ReferenceIdeal.nD) (j : S3.Idx) :
    ∃ r : ℝ, ((m ((c.tc : Thread Cert.ReferenceIdeal.nD Cert.ReferenceIdeal.τ).loc Cert.ReferenceIdeal.main_arg9)) : FVec Ideal S3 .f32) j = (r : EReal) :=
  (Cert.PreFacts.all_real _ _ _ _ _ _ _ _ _ _ (h c)).2.2.2.2.2.2.2.2 j

end ReferenceIdeal

namespace Kernel

variable (m : (ℓ : Loc Cert.Kernel.nD Cert.Kernel.τ Cert.Kernel.sig) → Buf (Elt Bits) ℓ)

theorem pre_at (h : Cert.Pre_Kernel m) (c : Dev Cert.Kernel.nD) :
    Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) = (fun _ => 1#1) := h c

theorem idx_range (h : Cert.Pre_Kernel m) (c : Dev Cert.Kernel.nD) (j : S524288.Idx) :
    (0 ≤ (((m ((c.tc : Thread Cert.Kernel.nD Cert.Kernel.τ).loc Cert.Kernel.main_arg1)) : IVec S524288 32) j).toInt ∧ (((m ((c.tc : Thread Cert.Kernel.nD Cert.Kernel.τ).loc Cert.Kernel.main_arg1)) : IVec S524288 32) j).toInt < 32)
      ∧ (((m ((c.tc : Thread Cert.Kernel.nD Cert.Kernel.τ).loc Cert.Kernel.main_arg1)) : IVec S524288 32) j).toNat < 32
      ∧ (((m ((c.tc : Thread Cert.Kernel.nD Cert.Kernel.τ).loc Cert.Kernel.main_arg1)) : IVec S524288 32) j).toInt = ((((m ((c.tc : Thread Cert.Kernel.nD Cert.Kernel.τ).loc Cert.Kernel.main_arg1)) : IVec S524288 32) j).toNat : ℤ) :=
  Cert.PreFacts.idx_range _ _ _ _ _ _ _ _ _ _ (h c) j

end Kernel

end Cert.PreFacts

end
-- ==== Proof.NormAlgebra.lean ====
/- The algebra of one layer of group-wise normalisation over plain functions: mean and variance from sums, and the variance as the mean of centred squares. -/
import proofs.«431227_j85710367359314_3_alg».proof.Proof.Stages
import Idealize.ShloMosaic.PureOps.Ideal
import Mathlib.Tactic.Ring
import Mathlib.Tactic.Linarith
import Mathlib.Tactic.FieldSimp
import Mathlib.Tactic.Positivity
import Mathlib.Tactic.NormNum
import Mathlib.Algebra.BigOperators.Ring.Finset
import Mathlib.Algebra.Order.BigOperators.Ring.Finset

noncomputable section

namespace Cert.NormAlgebra

open Idealize.ShloMosaic
open scoped BigOperators

section Real

variable {ι : Type*} (R : Finset ι) (h : ι → ℝ)

def cnt : ℝ := (R.card : ℝ)

def sm : ℝ := ∑ n ∈ R, h n

def sq : ℝ := ∑ n ∈ R, h n * h n

def mu : ℝ := sm R h / max (cnt R) 1

def ssd : ℝ := ∑ n ∈ R, (h n - mu R h) * (h n - mu R h)

def var : ℝ := ssd R h / max (cnt R - 1) 1

def sd : ℝ := Real.sqrt (var R h)

theorem max_cnt_pos : 0 < max (cnt R) 1 := lt_of_lt_of_le one_pos (le_max_right _ _)

theorem max_cnt_ne_zero : max (cnt R) 1 ≠ 0 := (max_cnt_pos R).ne'

theorem max_pred_pos : 0 < max (cnt R - 1) 1 := lt_of_lt_of_le one_pos (le_max_right _ _)

theorem max_pred_ne_zero : max (cnt R - 1) 1 ≠ 0 := (max_pred_pos R).ne'

theorem sm_eq : sm R h = cnt R * mu R h := by
  unfold mu cnt
  rcases Nat.eq_zero_or_pos R.card with h0 | hpos
  · have hR : R = ∅ := Finset.card_eq_zero.mp h0
    subst hR
    simp [sm]
  · have h1 : (1 : ℝ) ≤ (R.card : ℝ) := by exact_mod_cast hpos
    have hne : (R.card : ℝ) ≠ 0 := by linarith
    rw [max_eq_left h1]
    field_simp

theorem ssd_eq : ssd R h = sq R h - cnt R * mu R h * mu R h := by
  have hs := sm_eq R h
  have e : ∀ n ∈ R, (h n - mu R h) * (h n - mu R h)
      = h n * h n - (2 * mu R h) * h n + mu R h * mu R h := by
    intro n _; ring
  have e2 : ssd R h = sq R h - (2 * mu R h) * sm R h + cnt R * (mu R h * mu R h) := by
    unfold ssd sq sm cnt
    rw [Finset.sum_congr rfl e, Finset.sum_add_distrib, Finset.sum_sub_distrib, ← Finset.mul_sum,
      Finset.sum_const, nsmul_eq_mul]
  rw [e2, hs]; ring

theorem ssd_nonneg : 0 ≤ ssd R h :=
  Finset.sum_nonneg (fun n _ => mul_self_nonneg _)

theorem var_nonneg : 0 ≤ var R h := div_nonneg (ssd_nonneg R h) (max_pred_pos R).le

theorem sd_nonneg : 0 ≤ sd R h := Real.sqrt_nonneg _

theorem var_eq : var R h = (sq R h - cnt R * mu R h * mu R h) / max (cnt R - 1) 1 := by
  unfold var; rw [ssd_eq]

end Real

section Coe

theorem div_coe_coe (a : ℝ) {b : ℝ} (hb : b ≠ 0) :
    Ideal.div (a : EReal) (b : EReal) = ((a / b : ℝ) : EReal) := by
  rw [Ideal.div_coe hb, ← EReal.coe_mul]
  congr 1
  rw [mul_one_div]

theorem max_coe_coe (a b : ℝ) : max (a : EReal) (b : EReal) = ((max a b : ℝ) : EReal) :=
  (EReal.coe_strictMono.monotone.map_max).symm

theorem max_coe_one (a : ℝ) : max (a : EReal) 1 = ((max a 1 : ℝ) : EReal) := by
  rw [← EReal.coe_one, max_coe_coe]

theorem max_coe_zero (a : ℝ) : max (a : EReal) 0 = ((max a 0 : ℝ) : EReal) := by
  rw [← EReal.coe_zero, max_coe_coe]

theorem coe_sub_one (a : ℝ) : (a : EReal) - 1 = ((a - 1 : ℝ) : EReal) := by
  rw [← EReal.coe_one, ← EReal.coe_sub]

theorem sqrt_coe_nonneg {r : ℝ} (hr : 0 ≤ r) : Ideal.sqrt (r : EReal) = ((Real.sqrt r : ℝ) : EReal) := by
  rw [Ideal.sqrt_coe, if_neg (not_lt.mpr hr)]

theorem coe_sum {ι : Type*} (R : Finset ι) (f : ι → ℝ) :
    ((∑ n ∈ R, f n : ℝ) : EReal) = ∑ n ∈ R, (f n : EReal) := by
  classical
  induction R using Finset.induction_on with
  | empty => simp
  | insert a s ha ih => rw [Finset.sum_insert ha, Finset.sum_insert ha, EReal.coe_add, ih]

end Coe

section Table

variable {κ : Type*} [Fintype κ] [DecidableEq κ]

end Table

section Indicator

variable {ι : Type*} [Fintype ι] {κ : Type*} [DecidableEq κ]

end Indicator

section Ext

variable {ι : Type*} (R : Finset ι) (h : ι → ℝ)

theorem cnt_coe_sum : (cnt R : EReal) = ∑ _n ∈ R, (1 : EReal) := by
  have e : cnt R = ∑ _n ∈ R, (1 : ℝ) := by
    unfold cnt; rw [Finset.sum_const, nsmul_eq_mul, mul_one]
  rw [e, coe_sum]
  exact Finset.sum_congr rfl (fun _ _ => EReal.coe_one)

theorem sm_coe : (sm R h : EReal) = ∑ n ∈ R, (h n : EReal) := coe_sum R h

theorem mu_ext : Ideal.div (sm R h : EReal) (max (cnt R : EReal) 1) = (mu R h : EReal) := by
  rw [max_coe_one, div_coe_coe _ (max_cnt_ne_zero R)]; rfl

theorem pred_ext : max ((cnt R : EReal) - 1) 1 = ((max (cnt R - 1) 1 : ℝ) : EReal) := by
  rw [coe_sub_one, max_coe_one]

theorem var_ext₁ :
    Ideal.div ((sq R h : EReal) - (cnt R : EReal) * (mu R h : EReal) * (mu R h : EReal)) (max ((cnt R : EReal) - 1) 1)
      = (var R h : EReal) := by
  rw [pred_ext, ← EReal.coe_mul, ← EReal.coe_mul, ← EReal.coe_sub, div_coe_coe _ (max_pred_ne_zero R), var_eq]

theorem sd_ext₁ :
    Ideal.sqrt (max (Ideal.div ((sq R h : EReal) - (cnt R : EReal) * (mu R h : EReal) * (mu R h : EReal))
        (max ((cnt R : EReal) - 1) 1)) 0) = (sd R h : EReal) := by
  rw [var_ext₁, max_coe_zero, max_eq_left (var_nonneg R h), sqrt_coe_nonneg (var_nonneg R h)]; rfl

theorem ssd_ext :
    ∑ n ∈ R, ((h n : EReal) - (mu R h : EReal)) * ((h n : EReal) - (mu R h : EReal)) = (ssd R h : EReal) := by
  unfold ssd; rw [coe_sum]
  refine Finset.sum_congr rfl (fun n _ => ?_)
  rw [EReal.coe_mul, EReal.coe_sub]

theorem var_ext₂ :
    Ideal.div (∑ n ∈ R, ((h n : EReal) - (mu R h : EReal)) * ((h n : EReal) - (mu R h : EReal)))
        (max ((cnt R : EReal) - 1) 1) = (var R h : EReal) := by
  rw [ssd_ext, pred_ext, div_coe_coe _ (max_pred_ne_zero R)]; rfl

theorem sd_ext₂ :
    Ideal.sqrt (Ideal.div (∑ n ∈ R, ((h n : EReal) - (mu R h : EReal)) * ((h n : EReal) - (mu R h : EReal)))
        (max ((cnt R : EReal) - 1) 1)) = (sd R h : EReal) := by
  rw [var_ext₂, sqrt_coe_nonneg (var_nonneg R h)]; rfl

theorem sd_ext_eq :
    Ideal.sqrt (max (Ideal.div ((sq R h : EReal) - (cnt R : EReal) * (mu R h : EReal) * (mu R h : EReal))
        (max ((cnt R : EReal) - 1) 1)) 0)
      = Ideal.sqrt (Ideal.div (∑ n ∈ R, ((h n : EReal) - (mu R h : EReal)) * ((h n : EReal) - (mu R h : EReal)))
        (max ((cnt R : EReal) - 1) 1)) := by
  rw [sd_ext₁, sd_ext₂]

theorem sd_ext_eq' :
    Ideal.sqrt (max (Ideal.div ((sq R h : EReal)
          - (cnt R : EReal) * Ideal.div (sm R h : EReal) (max (cnt R : EReal) 1)
              * Ideal.div (sm R h : EReal) (max (cnt R : EReal) 1))
        (max ((cnt R : EReal) - 1) 1)) 0)
      = Ideal.sqrt (Ideal.div (∑ n ∈ R, ((h n : EReal) - Ideal.div (sm R h : EReal) (max (cnt R : EReal) 1))
            * ((h n : EReal) - Ideal.div (sm R h : EReal) (max (cnt R : EReal) 1)))
        (max ((cnt R : EReal) - 1) 1)) := by
  rw [mu_ext]; exact sd_ext_eq R h

end Ext

section Eps

def eps : ℝ := 11258999 * (2 : ℝ) ^ (-50 : ℤ)

theorem eps_pos : 0 < eps := by unfold eps; positivity

theorem ofBits_eps : Ideal.ofBits .f32 0x322BCC77#32 = ((eps : ℝ) : EReal) := by
  unfold eps
  simp [Ideal.ofBits, Ideal.ieee, -EReal.coe_mul]

variable {ι : Type*} (R : Finset ι) (h : ι → ℝ)

theorem sd_add_eps_pos : 0 < sd R h + eps := add_pos_of_nonneg_of_pos (sd_nonneg R h) eps_pos

theorem sd_add_eps_ext :
    (sd R h : EReal) + Ideal.ofBits .f32 0x322BCC77#32 = ((sd R h + eps : ℝ) : EReal) := by
  rw [ofBits_eps, ← EReal.coe_add]

theorem sd_add_eps_ne_zero : (sd R h : EReal) + Ideal.ofBits .f32 0x322BCC77#32 ≠ 0 := by
  rw [sd_add_eps_ext]; exact EReal.coe_ne_zero.mpr (sd_add_eps_pos R h).ne'

theorem normalised_ext (x : ℝ) :
    Ideal.div ((x : EReal) - (mu R h : EReal)) ((sd R h : EReal) + Ideal.ofBits .f32 0x322BCC77#32)
      = (((x - mu R h) / (sd R h + eps) : ℝ) : EReal) := by
  rw [sd_add_eps_ext, ← EReal.coe_sub, div_coe_coe _ (sd_add_eps_pos R h).ne']

end Eps

section Net

open Cert.Stages (Rows Grp)

def IsR (x : EReal) : Prop := ∃ r : ℝ, x = (r : EReal)

theorem IsR.coe (r : ℝ) : IsR (r : EReal) := ⟨r, rfl⟩

theorem IsR.eq_coe {x : EReal} (hx : IsR x) : x = ((x.toReal : ℝ) : EReal) := by
  obtain ⟨r, rfl⟩ := hx; rw [EReal.toReal_coe]

theorem IsR.of_ne {x : EReal} (h1 : x ≠ ⊤) (h2 : x ≠ ⊥) : IsR x := ⟨x.toReal, (EReal.coe_toReal h1 h2).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.sum {ι : Type*} (R : Finset ι) (f : ι → EReal) (hf : ∀ n ∈ R, IsR (f n)) : IsR (∑ n ∈ R, f n) := by
  classical
  induction R using Finset.induction_on with
  | empty => exact ⟨0, by simp⟩
  | insert a s ha ih =>
    rw [Finset.sum_insert ha]
    exact (hf a (Finset.mem_insert_self a s)).add (ih (fun n hn => hf n (Finset.mem_insert_of_mem hn)))

theorem slope_real : IsR Stages.slope :=
  ⟨10737418 * (2 : ℝ) ^ (-30 : ℤ), by
    unfold Stages.slope
    simp [Ideal.ofBits, Ideal.ieee, -EReal.coe_mul]⟩

theorem IsR.act {p : EReal} (hp : IsR p) : IsR (Stages.act p) := by
  unfold Stages.act
  split_ifs
  · exact hp
  · exact slope_real.mul hp

theorem lin_real {K D : ℕ} (z : Rows → Fin K → EReal) (W : Fin D → Fin K → EReal) (b : Fin D → EReal)
    (hz : ∀ n k, IsR (z n k)) (hW : ∀ d k, IsR (W d k)) (hb : ∀ d, IsR (b d)) (n : Rows) (d : Fin D) :
    IsR (Stages.lin z W b n d) := by
  unfold Stages.lin
  exact (IsR.sum _ _ (fun k _ => (hz n k).mul (hW d k))).add (hb d)

theorem h1_real (x : Rows → Fin 248 → EReal) (W1 : Fin 64 → Fin 248 → EReal) (b1 : Fin 64 → EReal)
    (hx : ∀ n k, IsR (x n k)) (hW : ∀ d k, IsR (W1 d k)) (hb : ∀ d, IsR (b1 d)) (n : Rows) (d : Fin 64) :
    IsR (Stages.h1 x W1 b1 n d) := by
  unfold Stages.h1
  exact (lin_real x W1 b1 hx hW hb n d).act

variable (gid : Rows → Grp)

def grp (g : Grp) : Finset Rows := Finset.univ.filter (fun n => gid n = g)

section Column

variable {D : ℕ} (h : Rows → Fin D → EReal) (hr : Rows → Fin D → ℝ)

theorem segsum_eq (hh : ∀ n d, h n d = (hr n d : EReal)) (g : Grp) (d : Fin D) :
    Stages.segsum gid h g d = (sm (grp gid g) (fun n => hr n d) : EReal) := by
  unfold Stages.segsum grp
  rw [← Finset.sum_filter, sm_coe]
  exact Finset.sum_congr rfl (fun n _ => hh n d)

theorem segcnt_eq (g : Grp) : Stages.segcnt gid g = (cnt (grp gid g) : EReal) := by
  unfold Stages.segcnt grp
  rw [← Finset.sum_filter, cnt_coe_sum]

theorem mu_eq (hh : ∀ n d, h n d = (hr n d : EReal)) (g : Grp) (d : Fin D) :
    Stages.mu gid h g d = (mu (grp gid g) (fun n => hr n d) : EReal) := by
  unfold Stages.mu
  rw [segsum_eq gid h hr hh, segcnt_eq, mu_ext]

theorem sdK_eq (hh : ∀ n d, h n d = (hr n d : EReal)) (g : Grp) (d : Fin D) :
    Stages.sdK gid h g d = (sd (grp gid g) (fun n => hr n d) : EReal) := by
  have hq : Stages.segsum gid (fun n d => h n d * h n d) g d = (sq (grp gid g) (fun n => hr n d) : EReal) := by
    rw [segsum_eq gid (fun n d => h n d * h n d) (fun n d => hr n d * hr n d)
      (fun n d => show h n d * h n d = ((hr n d * hr n d : ℝ) : EReal) by rw [hh, EReal.coe_mul]) g d]
    rfl
  unfold Stages.sdK
  rw [hq, segcnt_eq, mu_eq gid h hr hh]
  exact sd_ext₁ _ _

theorem sdR_eq (hh : ∀ n d, h n d = (hr n d : EReal)) (g : Grp) (d : Fin D) :
    Stages.sdR gid h g d = (sd (grp gid g) (fun n => hr n d) : EReal) := by
  have e : Stages.segsum gid
        (fun n d => (h n d - Stages.mu gid h (gid n) d) * (h n d - Stages.mu gid h (gid n) d)) g d
      = ∑ n ∈ grp gid g, ((hr n d : EReal) - (mu (grp gid g) (fun n => hr n d) : EReal))
          * ((hr n d : EReal) - (mu (grp gid g) (fun n => hr n d) : EReal)) := by
    unfold Stages.segsum
    rw [← Finset.sum_filter]
    refine Finset.sum_congr rfl (fun n hn => ?_)
    have hg : gid n = g := (Finset.mem_filter.mp hn).2
    beta_reduce
    rw [hg, mu_eq gid h hr hh, hh]
  unfold Stages.sdR
  rw [e, segcnt_eq]
  exact sd_ext₂ _ _

theorem sdK_eq_sdR (hh : ∀ n d, h n d = (hr n d : EReal)) : Stages.sdK gid h = Stages.sdR gid h := by
  funext g d; rw [sdK_eq gid h hr hh, sdR_eq gid h hr hh]

end Column

section Layers

variable {D : ℕ} (h : Rows → Fin D → EReal)

theorem real_parts (hh : ∀ n d, IsR (h n d)) : ∀ n d, h n d = (((h n d).toReal : ℝ) : EReal) :=
  fun n d => (hh n d).eq_coe

theorem sdK_eq_sdR' (hh : ∀ n d, IsR (h n d)) : Stages.sdK gid h = Stages.sdR gid h :=
  sdK_eq_sdR gid h _ (real_parts h hh)

theorem normWith_congr (hh : ∀ n d, IsR (h n d)) :
    Stages.normWith gid (Stages.sdK gid) h = Stages.normWith gid (Stages.sdR gid) h := by
  unfold Stages.normWith
  rw [sdK_eq_sdR' gid h hh]

theorem normWith_real (hh : ∀ n d, IsR (h n d)) (n : Rows) (d : Fin D) :
    IsR (Stages.normWith gid (Stages.sdK gid) h n d) := by
  have e := real_parts h hh
  simp only [Stages.normWith, Stages.eps]
  rw [mu_eq gid h _ e, sdK_eq gid h _ e, e n d, normalised_ext]
  exact IsR.coe _

theorem layer_congr {E : ℕ} (W : Fin E → Fin D → EReal) (b : Fin E → EReal) (hh : ∀ n d, IsR (h n d)) :
    Stages.layer gid (Stages.sdK gid) W b h = Stages.layer gid (Stages.sdR gid) W b h := by
  unfold Stages.layer
  rw [normWith_congr gid h hh]

theorem layer_real {E : ℕ} (W : Fin E → Fin D → EReal) (b : Fin E → EReal) (hh : ∀ n d, IsR (h n d))
    (hW : ∀ e d, IsR (W e d)) (hb : ∀ e, IsR (b e)) (n : Rows) (e : Fin E) :
    IsR (Stages.layer gid (Stages.sdK gid) W b h n e) := by
  unfold Stages.layer
  exact (lin_real _ W b (normWith_real gid h hh) hW hb n e).act

end Layers

theorem out_eq (x : Rows → Fin 248 → EReal) (W1 : Fin 64 → Fin 248 → EReal) (b1 : Fin 64 → EReal)
    (W2 : Fin 64 → Fin 64 → EReal) (b2 : Fin 64 → EReal) (W3 : Fin 64 → Fin 64 → EReal) (b3 : Fin 64 → EReal)
    (W4 : Fin 3 → Fin 64 → EReal) (b4 : Fin 3 → EReal)
    (hx : ∀ n k, IsR (x n k)) (hW1 : ∀ d k, IsR (W1 d k)) (hb1 : ∀ d, IsR (b1 d))
    (hW2 : ∀ d k, IsR (W2 d k)) (hb2 : ∀ d, IsR (b2 d)) (hW3 : ∀ d k, IsR (W3 d k)) (hb3 : ∀ d, IsR (b3 d)) :
    Stages.out gid (Stages.sdK gid) x W1 b1 W2 b2 W3 b3 W4 b4
      = Stages.out gid (Stages.sdR gid) x W1 b1 W2 b2 W3 b3 W4 b4 := by
  have r1 := h1_real x W1 b1 hx hW1 hb1
  have e2 := layer_congr gid _ W2 b2 r1
  have r2 := layer_real gid _ W2 b2 r1 hW2 hb2
  have e3 := layer_congr gid _ W3 b3 r2
  have r3 := layer_real gid _ W3 b3 r2 hW3 hb3
  have e4 := normWith_congr gid _ r3
  unfold Stages.out
  rw [← e2, ← e3, ← e4]

end Net

end Cert.NormAlgebra

end
-- ==== Proof.KI.Host.lean ====
/- The arithmetic between the regions read at an index: the two cores' partial sums added, then mean and deviation per group and feature. -/
import proofs.«431227_j85710367359314_3_alg».proof.Proof.Gen.KernelIdeal.Launch
import proofs.«431227_j85710367359314_3_alg».proof.Proof.Gen.KernelIdeal.Regions
import Idealize.ShloMosaic.Lib.StableHlo.Run
import Idealize.ShloMosaic.Lib.IdealHost
import Idealize.ShloMosaic.Lib.Pipeline.Value
import proofs.«431227_j85710367359314_3_alg».proof.Proof.Stages

set_option maxRecDepth 16384

noncomputable section

namespace Cert.KernelIdeal.HostVal

open Idealize.ShloMosaic Idealize.ShloMosaic.TcCoe Idealize.ShloMosaic.ValueIdx
open Cert.KernelIdeal Cert.KernelIdeal.Gen
open scoped BigOperators

abbrev red (x : FVec Ideal S2x32x64 .f32) : FVec Ideal S32x64 .f32 :=
  Host.reduceAdd (F := Ideal) x (constant (F := Ideal) S_ .f32 0x00000000#32) reducesTo_S2x32x64_S32x64_d0 h_S_

abbrev oneT : FVec Ideal S32x64 .f32 := broadcastInDim S32x64 ![] bcast_S_S32x64 (constant (F := Ideal) S_ .f32 0x3F800000#32)
abbrev zeroT : FVec Ideal S32x64 .f32 := broadcastInDim S32x64 ![] bcast_S_S32x64 (constant (F := Ideal) S_ .f32 0x00000000#32)

abbrev muT (s c : FVec Ideal S2x32x64 .f32) : FVec Ideal S32x64 .f32 :=
  Host.divf (F := Ideal) (red s) (maximumf (F := Ideal) (red c) oneT)

abbrev sdT (s ss c : FVec Ideal S2x32x64 .f32) : FVec Ideal S32x64 .f32 :=
  Host.sqrt (F := Ideal) (maximumf (F := Ideal)
    (Host.divf (F := Ideal) (subf (F := Ideal) (red ss) (mulf (F := Ideal) (mulf (F := Ideal) (red c) (muT s c)) (muT s c)))
      (maximumf (F := Ideal) (subf (F := Ideal) (red c) oneT) oneT)) zeroT)

def sum2 (x : (⟨3, ![2, 32, 64]⟩ : Shape).Idx → EReal) (g : Fin 32) (d : Fin 64) : EReal := x (ix3 0 g d) + x (ix3 1 g d)

def muOf (s c : (⟨3, ![2, 32, 64]⟩ : Shape).Idx → EReal) (g : Fin 32) (d : Fin 64) : EReal := Ideal.div (sum2 s g d) (max (sum2 c g d) 1)

def sdOf (s ss c : (⟨3, ![2, 32, 64]⟩ : Shape).Idx → EReal) (g : Fin 32) (d : Fin 64) : EReal :=
  Ideal.sqrt (max (Ideal.div (sum2 ss g d - sum2 c g d * muOf s c g d * muOf s c g d) (max (sum2 c g d - 1) 1)) 0)

theorem red_apply (x : FVec Ideal S2x32x64 .f32) (g : Fin 32) (d : Fin 64) :
    red x (ix2 g d) = sum2 x g d := by
  have h : S2x32x64.Reduces [0] S32x64 := by decide
  show Host.reduceAdd (F := Ideal) x (constant (F := Ideal) S_ .f32 0x00000000#32) reducesTo_S2x32x64_S32x64_d0 h_S_ (ix2 g d) = _
  rw [hostReduceAdd_apply, Ideal.hostReduceAdd_single _ h, constant_apply, Ideal.ofBits_zero_f32, zero_add]
  have hl : ∀ k : Fin 2, h.lift (ix2 g d) k = ix3 k g d := fun k => funext fun a => Fin.ext (by
    match a with
    | ⟨0, _⟩ => rfl
    | ⟨1, _⟩ => rfl
    | ⟨2, _⟩ => rfl)
  exact (Fin.sum_univ_two (f := fun k : Fin 2 => x (h.lift (ix2 g d) k))).trans (by rw [hl 0, hl 1]; rfl)

theorem oneT_apply (j : S32x64.Idx) : oneT j = 1 := by
  show broadcastInDim S32x64 ![] bcast_S_S32x64 (constant (F := Ideal) S_ .f32 0x3F800000#32) j = _
  rw [broadcastInDim_scalar_apply, constant_apply, Ideal.ofBits_one_f32]
theorem zeroT_apply (j : S32x64.Idx) : zeroT j = 0 := by
  show broadcastInDim S32x64 ![] bcast_S_S32x64 (constant (F := Ideal) S_ .f32 0x00000000#32) j = _
  rw [broadcastInDim_scalar_apply, constant_apply, Ideal.ofBits_zero_f32]

theorem muT_apply (s c : FVec Ideal S2x32x64 .f32) (g : Fin 32) (d : Fin 64) :
    muT s c (ix2 g d) = muOf s c g d := by
  show Host.divf (F := Ideal) (red s) (maximumf (F := Ideal) (red c) oneT) (ix2 g d) = _
  rw [hostDivf_apply, maximumf_apply, red_apply, red_apply, oneT_apply]; rfl

theorem sdT_apply (s ss c : FVec Ideal S2x32x64 .f32) (g : Fin 32) (d : Fin 64) :
    sdT s ss c (ix2 g d) = sdOf s ss c g d := by
  show Host.sqrt (F := Ideal) (maximumf (F := Ideal)
    (Host.divf (F := Ideal) (subf (F := Ideal) (red ss) (mulf (F := Ideal) (mulf (F := Ideal) (red c) (muT s c)) (muT s c)))
      (maximumf (F := Ideal) (subf (F := Ideal) (red c) oneT) oneT)) zeroT) (ix2 g d) = _
  show Ideal.sqrt (maximumf (F := Ideal)
    (Host.divf (F := Ideal) (subf (F := Ideal) (red ss) (mulf (F := Ideal) (mulf (F := Ideal) (red c) (muT s c)) (muT s c)))
      (maximumf (F := Ideal) (subf (F := Ideal) (red c) oneT) oneT)) zeroT (ix2 g d)) = _
  rw [maximumf_apply, hostDivf_apply, subf_apply, mulf_apply, mulf_apply, maximumf_apply, subf_apply, muT_apply, red_apply, red_apply,
    oneT_apply, zeroT_apply]; rfl

open Cert.Stages in
theorem muOf_eq_mu {s c : (⟨3, ![2, 32, 64]⟩ : Shape).Idx → EReal} {g : Fin 32} {d : Fin 64} (gid : Rows → Grp) (h : Rows → Fin 64 → EReal)
    (hs : sum2 s g d = segsum gid h g d) (hc : sum2 c g d = segcnt gid g) : muOf s c g d = mu gid h g d := by
  unfold muOf mu; rw [hs, hc]

open Cert.Stages in
theorem sdOf_eq_sdK {s ss c : (⟨3, ![2, 32, 64]⟩ : Shape).Idx → EReal} {g : Fin 32} {d : Fin 64} (gid : Rows → Grp) (h : Rows → Fin 64 → EReal)
    (hs : sum2 s g d = segsum gid h g d) (hss : sum2 ss g d = segsum gid (fun n d => h n d * h n d) g d) (hc : sum2 c g d = segcnt gid g) :
    sdOf s ss c g d = sdK gid h g d := by
  unfold sdOf sdK; rw [muOf_eq_mu gid h hs hc, hss, hc]

variable (W : Valuation τ sig (Elt Ideal))

theorem host0_ids (n : Fin 524288) : StableHlo.after hostOps0 W (Proc.devRef .tc main_v0) (ix2 n 0) = W main_arg1 (ix1 n) := by
  have e : StableHlo.after hostOps0 W (Proc.devRef .tc main_v0) = shapeCast S524288x1 (W main_arg1) shapeCasts_S524288_S524288x1 := by
    show StableHlo.after hostOps0 W (Proc.devRef .tc main_v0) = _
    after_results
    rfl
  refine (congrFun e (ix2 n 0)).trans (shapeCast_apply _ _ _ _ ?_)
  show (S524288.rowMajor (ix1 n)).val = (S524288x1.rowMajor (ix2 n 0)).val
  rw [Shape.rowMajor_val_one, Shape.rowMajor_val_two]
  show n.val = n.val * 1 + 0
  omega

theorem host0_b (d : Fin 64) : StableHlo.after hostOps0 W (Proc.devRef .tc main_v1) (ix2 0 d) = W main_arg3 (ix1 d) := by
  have e : StableHlo.after hostOps0 W (Proc.devRef .tc main_v1) = shapeCast S1x64 (W main_arg3) shapeCasts_S64_S1x64 := by
    show StableHlo.after hostOps0 W (Proc.devRef .tc main_v1) = _
    after_results
    rfl
  refine (congrFun e (ix2 0 d)).trans (shapeCast_apply _ _ _ _ ?_)
  show (S64.rowMajor (ix1 d)).val = (S1x64.rowMajor (ix2 0 d)).val
  rw [Shape.rowMajor_val_one, Shape.rowMajor_val_two]
  show d.val = 0 * 64 + d.val
  omega

theorem host1_mu_term : StableHlo.after hostOps1 W (Proc.devRef .tc main_v8) = muT (W main_v2_1) (W main_v2_3) := by
  show StableHlo.after hostOps1 W (Proc.devRef .tc main_v8) = _
  after_results

theorem host1_sd_term : StableHlo.after hostOps1 W (Proc.devRef .tc main_v19) = sdT (W main_v2_1) (W main_v2_2) (W main_v2_3) := by
  show StableHlo.after hostOps1 W (Proc.devRef .tc main_v19) = _
  after_results_simp

theorem host1_mu (g : Fin 32) (d : Fin 64) :
    StableHlo.after hostOps1 W (Proc.devRef .tc main_v8) (ix2 g d) = muOf (W main_v2_1) (W main_v2_3) g d :=
  (congrFun (host1_mu_term W) (ix2 g d)).trans (muT_apply _ _ g d)

theorem host1_sd (g : Fin 32) (d : Fin 64) :
    StableHlo.after hostOps1 W (Proc.devRef .tc main_v19) (ix2 g d) = sdOf (W main_v2_1) (W main_v2_2) (W main_v2_3) g d :=
  (congrFun (host1_sd_term W) (ix2 g d)).trans (sdT_apply _ _ _ g d)

theorem host1_b (d : Fin 64) : StableHlo.after hostOps1 W (Proc.devRef .tc main_v20) (ix2 0 d) = W main_arg5 (ix1 d) := by
  have e : StableHlo.after hostOps1 W (Proc.devRef .tc main_v20) = shapeCast S1x64 (W main_arg5) shapeCasts_S64_S1x64 := by
    show StableHlo.after hostOps1 W (Proc.devRef .tc main_v20) = _
    after_results
    rfl
  refine (congrFun e (ix2 0 d)).trans (shapeCast_apply _ _ _ _ ?_)
  show (S64.rowMajor (ix1 d)).val = (S1x64.rowMajor (ix2 0 d)).val
  rw [Shape.rowMajor_val_one, Shape.rowMajor_val_two]
  show d.val = 0 * 64 + d.val
  omega

theorem host2_mu_term : StableHlo.after hostOps2 W (Proc.devRef .tc main_v27) = muT (W main_v21_1) (W main_v21_3) := by
  show StableHlo.after hostOps2 W (Proc.devRef .tc main_v27) = _
  after_results

theorem host2_sd_term : StableHlo.after hostOps2 W (Proc.devRef .tc main_v38) = sdT (W main_v21_1) (W main_v21_2) (W main_v21_3) := by
  show StableHlo.after hostOps2 W (Proc.devRef .tc main_v38) = _
  after_results_simp

theorem host2_mu (g : Fin 32) (d : Fin 64) :
    StableHlo.after hostOps2 W (Proc.devRef .tc main_v27) (ix2 g d) = muOf (W main_v21_1) (W main_v21_3) g d :=
  (congrFun (host2_mu_term W) (ix2 g d)).trans (muT_apply _ _ g d)

theorem host2_sd (g : Fin 32) (d : Fin 64) :
    StableHlo.after hostOps2 W (Proc.devRef .tc main_v38) (ix2 g d) = sdOf (W main_v21_1) (W main_v21_2) (W main_v21_3) g d :=
  (congrFun (host2_sd_term W) (ix2 g d)).trans (sdT_apply _ _ _ g d)

theorem host2_b (d : Fin 64) : StableHlo.after hostOps2 W (Proc.devRef .tc main_v39) (ix2 0 d) = W main_arg7 (ix1 d) := by
  have e : StableHlo.after hostOps2 W (Proc.devRef .tc main_v39) = shapeCast S1x64 (W main_arg7) shapeCasts_S64_S1x64 := by
    show StableHlo.after hostOps2 W (Proc.devRef .tc main_v39) = _
    after_results
    rfl
  refine (congrFun e (ix2 0 d)).trans (shapeCast_apply _ _ _ _ ?_)
  show (S64.rowMajor (ix1 d)).val = (S1x64.rowMajor (ix2 0 d)).val
  rw [Shape.rowMajor_val_one, Shape.rowMajor_val_two]
  show d.val = 0 * 64 + d.val
  omega

theorem host3_mu_term : StableHlo.after hostOps3 W (Proc.devRef .tc main_v46) = muT (W main_v40_1) (W main_v40_3) := by
  show StableHlo.after hostOps3 W (Proc.devRef .tc main_v46) = _
  after_results

theorem host3_sd_term : StableHlo.after hostOps3 W (Proc.devRef .tc main_v57) = sdT (W main_v40_1) (W main_v40_2) (W main_v40_3) := by
  show StableHlo.after hostOps3 W (Proc.devRef .tc main_v57) = _
  after_results_simp

theorem host3_mu (g : Fin 32) (d : Fin 64) :
    StableHlo.after hostOps3 W (Proc.devRef .tc main_v46) (ix2 g d) = muOf (W main_v40_1) (W main_v40_3) g d :=
  (congrFun (host3_mu_term W) (ix2 g d)).trans (muT_apply _ _ g d)

theorem host3_sd (g : Fin 32) (d : Fin 64) :
    StableHlo.after hostOps3 W (Proc.devRef .tc main_v57) (ix2 g d) = sdOf (W main_v40_1) (W main_v40_2) (W main_v40_3) g d :=
  (congrFun (host3_sd_term W) (ix2 g d)).trans (sdT_apply _ _ _ g d)

theorem host3_b (d : Fin 3) : StableHlo.after hostOps3 W (Proc.devRef .tc main_v58) (ix2 0 d) = W main_arg9 (ix1 d) := by
  have e : StableHlo.after hostOps3 W (Proc.devRef .tc main_v58) = shapeCast S1x3 (W main_arg9) shapeCasts_S3_S1x3 := by
    show StableHlo.after hostOps3 W (Proc.devRef .tc main_v58) = _
    after_results
    rfl
  refine (congrFun e (ix2 0 d)).trans (shapeCast_apply _ _ _ _ ?_)
  show (S3.rowMajor (ix1 d)).val = (S1x3.rowMajor (ix2 0 d)).val
  rw [Shape.rowMajor_val_one, Shape.rowMajor_val_two]
  show d.val = 0 * 3 + d.val
  omega

end Cert.KernelIdeal.HostVal
-- ==== Proof.KI.Pay0.lean ====
/- What the first layer's body computes from one tile of rows, entry by entry: the activations and their per-group sums, sums of squares and counts. -/
import proofs.«431227_j85710367359314_3_alg».proof.Proof.Gen.KernelIdeal.Skeleton
import proofs.«431227_j85710367359314_3_alg».proof.Proof.Stages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Pay0

open Cert.KernelIdeal Cert.KernelIdeal.Gen Idealize.ShloMosaic Idealize.ShloMosaic.ValueIdx Idealize.SL.Sem

theorem onehot_word (x : BitVec 32) (g : Fin 32) :
    ((((((IntOp.cmpi .eq x (BitVec.ofNat 32 g.val)).setWidth 32).toInt : ℤ) : ℝ)) : EReal)
      = if x.toNat = g.val then (1 : EReal) else 0 := by
  have hg : g.val % 2 ^ 32 = g.val := Nat.mod_eq_of_lt (by have := g.isLt; omega)
  by_cases h : x.toNat = g.val
  · have hx : x = BitVec.ofNat 32 g.val := BitVec.eq_of_toNat_eq (by rw [BitVec.toNat_ofNat, hg]; exact h)
    have hc : IntOp.cmpi .eq x (BitVec.ofNat 32 g.val) = 1#1 := by
      rw [← hx]
      show BitVec.ofBool (x == x) = 1#1
      rw [beq_self_eq_true]; rfl
    rw [if_pos h, hc]
    have : ((1#1 : BitVec 1).setWidth 32).toInt = 1 := by decide
    rw [this]; simp
  · have hx : ¬ x = BitVec.ofNat 32 g.val := fun e => h (by rw [e, BitVec.toNat_ofNat, hg])
    have hc : IntOp.cmpi .eq x (BitVec.ofNat 32 g.val) = 0#1 := by
      show BitVec.ofBool (x == BitVec.ofNat 32 g.val) = 0#1
      rw [beq_eq_false_iff_ne.mpr hx]; rfl
    rw [if_neg h, hc]
    have : ((0#1 : BitVec 1).setWidth 32).toInt = 0 := by decide
    rw [this]; simp

theorem act_word (p : EReal) :
    Scalar.select (Ideal.cmp .oge p (Ideal.ofBits .f32 0x00000000#32)) p ((Ideal.ofBits .f32 0x3C23D70A#32 : EReal) * p)
      = Cert.Stages.act p := by
  unfold Cert.Stages.act Cert.Stages.slope
  rw [Ideal.ofBits_zero_f32]
  by_cases h : (0 : EReal) ≤ p
  · have hc : Ideal.cmp .oge p 0 = 1#1 := by simp [Ideal.cmp, h]
    rw [hc, select_one, if_pos h]
  · have hc : Ideal.cmp .oge p 0 = 0#1 := by simp [Ideal.cmp, h]
    rw [hc, select_zero, if_neg h]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhsA_0 (i : S8192x64.Idx) (q : dot_S8192x248_S64x248_S8192x64_1_1_0_0_n_n.contr.Idx) :
    (dot_S8192x248_S64x248_S8192x64_1_1_0_0_n_n.lhsIdx i q 0).val = (i 0).val := by
  unfold DotDims.lhsIdx
  rw [dif_neg (show ¬(0 : Fin S8192x248.rank) ∈ dot_S8192x248_S64x248_S8192x64_1_1_0_0_n_n.lhsBatch by decide), dif_pos (show (0 : Fin S8192x248.rank) ∈ dot_S8192x248_S64x248_S8192x64_1_1_0_0_n_n.lhsNonContracting by decide)]
  rfl
theorem lhsA_1 (i : S8192x64.Idx) (q : dot_S8192x248_S64x248_S8192x64_1_1_0_0_n_n.contr.Idx) :
    (dot_S8192x248_S64x248_S8192x64_1_1_0_0_n_n.lhsIdx i q 1).val = (q ⟨0, by decide⟩).val :=
  dot_S8192x248_S64x248_S8192x64_1_1_0_0_n_n.lhsIdx_val_of_single rfl i q
theorem rhsA_0 (i : S8192x64.Idx) (q : dot_S8192x248_S64x248_S8192x64_1_1_0_0_n_n.contr.Idx) :
    (dot_S8192x248_S64x248_S8192x64_1_1_0_0_n_n.rhsIdx i q 0).val = (i 1).val := by
  unfold DotDims.rhsIdx
  rw [dif_neg (show ¬(0 : Fin S64x248.rank) ∈ dot_S8192x248_S64x248_S8192x64_1_1_0_0_n_n.rhsBatch by decide), dif_pos (show (0 : Fin S64x248.rank) ∈ dot_S8192x248_S64x248_S8192x64_1_1_0_0_n_n.rhsNonContracting by decide)]
  rfl
theorem rhsA_1 (i : S8192x64.Idx) (q : dot_S8192x248_S64x248_S8192x64_1_1_0_0_n_n.contr.Idx) :
    (dot_S8192x248_S64x248_S8192x64_1_1_0_0_n_n.rhsIdx i q 1).val = (q ⟨0, by decide⟩).val :=
  dot_S8192x248_S64x248_S8192x64_1_1_0_0_n_n.rhsIdx_val_of_single rfl i q

theorem matA_apply {φ₁ φ₂ : FTy} (x : FVec Ideal S8192x248 φ₁) (w : FVec Ideal S64x248 φ₂) (r : Fin 8192) (d : Fin 64) :
    matmul dot_S8192x248_S64x248_S8192x64_1_1_0_0_n_n none x w (constant (F := Ideal) S8192x64 .f32 0x00000000#32) (ix2 r d)
      = ∑ k : Fin 248, x (ix2 r k) * w (ix2 d k) := by
  simp only [matmul]
  rw [Ideal.matmul_constant_zero_apply, ← Equiv.sum_comp (contrEquiv1 dot_S8192x248_S64x248_S8192x64_1_1_0_0_n_n 248 rfl rfl).symm]
  refine Finset.sum_congr rfl fun k _ => ?_
  have hk := contrEquiv1_symm_val dot_S8192x248_S64x248_S8192x64_1_1_0_0_n_n 248 rfl rfl k
  have el : dot_S8192x248_S64x248_S8192x64_1_1_0_0_n_n.lhsIdx (ix2 r d) ((contrEquiv1 dot_S8192x248_S64x248_S8192x64_1_1_0_0_n_n 248 rfl rfl).symm k) = ix2 r k := funext fun a => Fin.ext (by
    match a with
    | ⟨0, _⟩ => exact lhsA_0 _ _
    | ⟨1, _⟩ => exact (lhsA_1 _ _).trans hk)
  have er : dot_S8192x248_S64x248_S8192x64_1_1_0_0_n_n.rhsIdx (ix2 r d) ((contrEquiv1 dot_S8192x248_S64x248_S8192x64_1_1_0_0_n_n 248 rfl rfl).symm k) = ix2 d k := funext fun a => Fin.ext (by
    match a with
    | ⟨0, _⟩ => exact rhsA_0 _ _
    | ⟨1, _⟩ => exact (rhsA_1 _ _).trans hk)
  rw [el, er]

theorem lhsB_0 (i : S32x64.Idx) (q : dot_S8192x32_S8192x64_S32x64_0_0_1_1_n_n.contr.Idx) :
    (dot_S8192x32_S8192x64_S32x64_0_0_1_1_n_n.lhsIdx i q 0).val = (q ⟨0, by decide⟩).val :=
  dot_S8192x32_S8192x64_S32x64_0_0_1_1_n_n.lhsIdx_val_of_single rfl i q
theorem lhsB_1 (i : S32x64.Idx) (q : dot_S8192x32_S8192x64_S32x64_0_0_1_1_n_n.contr.Idx) :
    (dot_S8192x32_S8192x64_S32x64_0_0_1_1_n_n.lhsIdx i q 1).val = (i 0).val := by
  unfold DotDims.lhsIdx
  rw [dif_neg (show ¬(1 : Fin S8192x32.rank) ∈ dot_S8192x32_S8192x64_S32x64_0_0_1_1_n_n.lhsBatch by decide), dif_pos (show (1 : Fin S8192x32.rank) ∈ dot_S8192x32_S8192x64_S32x64_0_0_1_1_n_n.lhsNonContracting by decide)]
  rfl
theorem rhsB_0 (i : S32x64.Idx) (q : dot_S8192x32_S8192x64_S32x64_0_0_1_1_n_n.contr.Idx) :
    (dot_S8192x32_S8192x64_S32x64_0_0_1_1_n_n.rhsIdx i q 0).val = (q ⟨0, by decide⟩).val :=
  dot_S8192x32_S8192x64_S32x64_0_0_1_1_n_n.rhsIdx_val_of_single rfl i q
theorem rhsB_1 (i : S32x64.Idx) (q : dot_S8192x32_S8192x64_S32x64_0_0_1_1_n_n.contr.Idx) :
    (dot_S8192x32_S8192x64_S32x64_0_0_1_1_n_n.rhsIdx i q 1).val = (i 1).val := by
  unfold DotDims.rhsIdx
  rw [dif_neg (show ¬(1 : Fin S8192x64.rank) ∈ dot_S8192x32_S8192x64_S32x64_0_0_1_1_n_n.rhsBatch by decide), dif_pos (show (1 : Fin S8192x64.rank) ∈ dot_S8192x32_S8192x64_S32x64_0_0_1_1_n_n.rhsNonContracting by decide)]
  rfl

theorem matB_apply (a : FVec Ideal S8192x32 .f32) (b : FVec Ideal S8192x64 .f32) (g : Fin 32) (d : Fin 64) :
    matmul dot_S8192x32_S8192x64_S32x64_0_0_1_1_n_n none a b (constant (F := Ideal) S32x64 .f32 0x00000000#32) (ix2 g d)
      = ∑ r : Fin 8192, a (ix2 r g) * b (ix2 r d) := by
  simp only [matmul]
  rw [Ideal.matmul_constant_zero_apply, ← Equiv.sum_comp (contrEquiv1 dot_S8192x32_S8192x64_S32x64_0_0_1_1_n_n 8192 rfl rfl).symm]
  refine Finset.sum_congr rfl fun k _ => ?_
  have hk := contrEquiv1_symm_val dot_S8192x32_S8192x64_S32x64_0_0_1_1_n_n 8192 rfl rfl k
  have el : dot_S8192x32_S8192x64_S32x64_0_0_1_1_n_n.lhsIdx (ix2 g d) ((contrEquiv1 dot_S8192x32_S8192x64_S32x64_0_0_1_1_n_n 8192 rfl rfl).symm k) = ix2 k g := funext fun a => Fin.ext (by
    match a with
    | ⟨0, _⟩ => exact (lhsB_0 _ _).trans hk
    | ⟨1, _⟩ => exact lhsB_1 _ _)
  have er : dot_S8192x32_S8192x64_S32x64_0_0_1_1_n_n.rhsIdx (ix2 g d) ((contrEquiv1 dot_S8192x32_S8192x64_S32x64_0_0_1_1_n_n 8192 rfl rfl).symm k) = ix2 k d := funext fun a => Fin.ext (by
    match a with
    | ⟨0, _⟩ => exact (rhsB_0 _ _).trans hk
    | ⟨1, _⟩ => exact rhsB_1 _ _)
  rw [el, er]

variable (v0 : Vec Ideal S8192x248 .f32) (v1 : Vec Ideal S64x248 .f32) (v2 : Vec Ideal S1x64 .f32)
  (v16 : Vec Ideal S8192x1 .i32)

theorem pay4_apply (r : Fin 8192) (d : Fin 64) :
    k0_pay4 v0 v1 v2 (ix2 r d)
      = Cert.Stages.act ((∑ k : Fin 248, v0 (ix2 r k) * v1 (ix2 d k)) + v2 (ix2 0 d)) := by
  have hm := matA_apply (truncf .bf16 v0 bitsLt_bf16_f32 : FVec Ideal S8192x248 .bf16)
    (truncf .bf16 v1 bitsLt_bf16_f32 : FVec Ideal S64x248 .bf16) r d
  have hb : broadcastTo S8192x64 (shapeCast S1x64 v2 shapeCasts_S1x64_S1x64) broadcasts_S1x64_S8192x64 (ix2 r d)
      = v2 (ix2 0 d) := by
    rw [broadcastTo_1b_ab_apply, shapeCast_self]
  simp only [truncf_apply] at hm
  rw [← act_word, ← hm, ← hb]
  rfl

theorem pay5_eq : k0_pay5 v0 v1 v2 = k0_pay4 v0 v1 v2 := rfl

theorem pay6_apply (r : Fin 8192) (g : Fin 32) :
    k0_pay6 (F := Ideal) v16 (ix2 r g) = if (v16 (ix2 r 0)).toNat = g.val then (1 : EReal) else 0 := by
  have hi : iota .tc S8192x32 32 [1] iota_S8192x32_d1_w32 (ix2 r g) = BitVec.ofNat 32 g.val :=
    iota_single_apply .tc S8192x32 32 1 iota_S8192x32_d1_w32 (ix2 r g)
  have hb : broadcastTo S8192x32 (shapeCast S8192x1 v16 shapeCasts_S8192x1_S8192x1) broadcasts_S8192x1_S8192x32 (ix2 r g)
      = v16 (ix2 r 0) := by
    rw [broadcastTo_a1_ab_apply, shapeCast_self]
  rw [← onehot_word, ← hi, ← hb]
  rfl

theorem pay7_apply (g : Fin 32) (d : Fin 64) :
    k0_pay7 v0 v1 v2 v16 (ix2 g d)
      = ∑ r : Fin 8192, (if (v16 (ix2 r 0)).toNat = g.val then k0_pay4 v0 v1 v2 (ix2 r d) else 0) := by
  unfold k0_pay7
  rw [matB_apply]
  refine Finset.sum_congr rfl fun r _ => ?_
  rw [pay6_apply, ite_mul, one_mul, zero_mul]

theorem pay8_apply (g : Fin 32) (d : Fin 64) :
    k0_pay8 v0 v1 v2 v16 (ix2 g d)
      = ∑ r : Fin 8192, (if (v16 (ix2 r 0)).toNat = g.val then k0_pay4 v0 v1 v2 (ix2 r d) * k0_pay4 v0 v1 v2 (ix2 r d) else 0) := by
  unfold k0_pay8
  rw [matB_apply]
  refine Finset.sum_congr rfl fun r _ => ?_
  rw [pay6_apply, mulf_apply, ite_mul, one_mul, zero_mul]

theorem pay9_apply (g : Fin 32) (d : Fin 64) :
    k0_pay9 (F := Ideal) v16 (ix2 g d) = ∑ r : Fin 8192, (if (v16 (ix2 r 0)).toNat = g.val then (1 : EReal) else 0) := by
  unfold k0_pay9
  rw [matB_apply]
  refine Finset.sum_congr rfl fun r _ => ?_
  have h1 : (broadcast S8192x64 (Scalar.ofBits (F := Ideal) .f32 0x3F800000#32) : FVec Ideal S8192x64 .f32) (ix2 r d) = 1 := by
    exact Ideal.ofBits_one_f32
  rw [pay6_apply, h1, mul_one]

theorem pay10_eq : k0_pay10 v0 v1 v2 v16 = k0_pay7 v0 v1 v2 v16 := shapeCast_self _ _
theorem pay11_eq : k0_pay11 v0 v1 v2 v16 = k0_pay8 v0 v1 v2 v16 := shapeCast_self _ _
theorem pay12_eq : k0_pay12 (F := Ideal) v16 = k0_pay9 (F := Ideal) v16 := shapeCast_self _ _

theorem pay13_apply (v37 : Vec Ideal S32x64 .f32) (g : Fin 32) (d : Fin 64) :
    k0_pay13 v0 v1 v2 v16 v37 (ix2 g d) = v37 (ix2 g d) + k0_pay7 v0 v1 v2 v16 (ix2 g d) := by
  unfold k0_pay13
  rw [shapeCast_self, addf_apply]
theorem pay14_apply (v42 : Vec Ideal S32x64 .f32) (g : Fin 32) (d : Fin 64) :
    k0_pay14 v0 v1 v2 v16 v42 (ix2 g d) = v42 (ix2 g d) + k0_pay8 v0 v1 v2 v16 (ix2 g d) := by
  unfold k0_pay14
  rw [shapeCast_self, addf_apply]
theorem pay15_apply (v47 : Vec Ideal S32x64 .f32) (g : Fin 32) (d : Fin 64) :
    k0_pay15 v16 v47 (ix2 g d) = v47 (ix2 g d) + k0_pay9 (F := Ideal) v16 (ix2 g d) := by
  unfold k0_pay15
  rw [shapeCast_self, addf_apply]

theorem pay1_apply (v37 : Vec Ideal S32x64 .f32) (g : Fin 32) (d : Fin 64) :
    k0_pay1 v37 (ix3 (0 : Fin 1) g d) = v37 (ix2 g d) := by
  unfold k0_pay1
  exact shapeCast_ab_1ab_apply v37 shapeCasts_S32x64_S1x32x64 0 g d
theorem pay2_apply (v41 : Vec Ideal S32x64 .f32) (g : Fin 32) (d : Fin 64) :
    k0_pay2 v41 (ix3 (0 : Fin 1) g d) = v41 (ix2 g d) := by
  unfold k0_pay2
  exact shapeCast_ab_1ab_apply v41 shapeCasts_S32x64_S1x32x64 0 g d
theorem pay3_apply (v45 : Vec Ideal S32x64 .f32) (g : Fin 32) (d : Fin 64) :
    k0_pay3 v45 (ix3 (0 : Fin 1) g d) = v45 (ix2 g d) := by
  unfold k0_pay3
  exact shapeCast_ab_1ab_apply v45 shapeCasts_S32x64_S1x32x64 0 g d

end Cert.KernelIdeal.Pay0

end
-- ==== Proof.RowSums.lean ====
/- A sum over the 524288 rows is the sum over the 64 tiles of 8192 rows of the sums inside each tile, and the tiles split into the two cores' halves. -/
import Mathlib.Algebra.BigOperators.Fin
import Mathlib.Algebra.BigOperators.Group.Finset.Basic
import Mathlib.Logic.Equiv.Fin.Basic
import Mathlib.Data.EReal.Basic

noncomputable section

namespace Cert.RowSums

open Finset

def rowOf (t : Fin 64) (r : Fin 8192) : Fin 524288 := ⟨t.val * 8192 + r.val, by have := t.isLt; have := r.isLt; omega⟩

def tileOf (c : Fin 2) (s : Fin 32) : Fin 64 := ⟨c.val * 32 + s.val, by have := c.isLt; have := s.isLt; omega⟩

theorem rowOf_div_mod (n : Fin 524288) :
    rowOf ⟨n.val / 8192, by have := n.isLt; omega⟩ ⟨n.val % 8192, Nat.mod_lt _ (by norm_num)⟩ = n :=
  Fin.ext (by show n.val / 8192 * 8192 + n.val % 8192 = n.val; omega)

def rowEquiv : Fin 64 × Fin 8192 ≃ Fin 524288 where
  toFun p := rowOf p.1 p.2
  invFun n := (⟨n.val / 8192, by have := n.isLt; omega⟩, ⟨n.val % 8192, Nat.mod_lt _ (by norm_num)⟩)
  left_inv p := by
    obtain ⟨t, r⟩ := p
    have ht := t.isLt; have hr := r.isLt
    refine Prod.ext (Fin.ext ?_) (Fin.ext ?_)
    · show (t.val * 8192 + r.val) / 8192 = t.val; omega
    · show (t.val * 8192 + r.val) % 8192 = r.val; omega
  right_inv n := rowOf_div_mod n

def tileEquiv : Fin 2 × Fin 32 ≃ Fin 64 where
  toFun p := tileOf p.1 p.2
  invFun t := (⟨t.val / 32, by have := t.isLt; omega⟩, ⟨t.val % 32, Nat.mod_lt _ (by norm_num)⟩)
  left_inv p := by
    obtain ⟨c, s⟩ := p
    have hc := c.isLt; have hs := s.isLt
    refine Prod.ext (Fin.ext ?_) (Fin.ext ?_)
    · show (c.val * 32 + s.val) / 32 = c.val; omega
    · show (c.val * 32 + s.val) % 32 = s.val; omega
  right_inv t := Fin.ext (by show t.val / 32 * 32 + t.val % 32 = t.val; omega)

variable {M : Type*} [AddCommMonoid M]

theorem sum_rows_tiles (f : Fin 524288 → M) : ∑ n, f n = ∑ t : Fin 64, ∑ r : Fin 8192, f (rowOf t r) := by
  rw [← Equiv.sum_comp rowEquiv f, Fintype.sum_prod_type]; rfl

theorem sum_tiles_cores (f : Fin 64 → M) : ∑ t, f t = ∑ c : Fin 2, ∑ s : Fin 32, f (tileOf c s) := by
  rw [← Equiv.sum_comp tileEquiv f, Fintype.sum_prod_type]; rfl

theorem sum_rows_cores (f : Fin 524288 → M) :
    ∑ n, f n = ∑ c : Fin 2, ∑ s : Fin 32, ∑ r : Fin 8192, f (rowOf (tileOf c s) r) := by
  rw [sum_rows_tiles, sum_tiles_cores]

end Cert.RowSums

end
-- ==== Proof.KI.Val0.lean ====
import proofs.«431227_j85710367359314_3_alg».proof.Proof.KI.Reg0
import proofs.«431227_j85710367359314_3_alg».proof.Proof.KI.Pay0
import proofs.«431227_j85710367359314_3_alg».proof.Proof.Stages
import proofs.«431227_j85710367359314_3_alg».proof.Proof.RowSums
import Idealize.ShloMosaic.Lib.Pipeline.Value
import Idealize.ShloMosaic.Lib.ValueIdx

noncomputable section

namespace Cert.KernelIdeal.Val0

open Idealize.ShloMosaic Idealize.ShloMosaic.TcCoe Idealize.ShloMosaic.Tactic Idealize.ShloMosaic.ValueIdx Idealize.SL.Sem
open Cert.KernelIdeal Cert.KernelIdeal.Gen Cert.KernelIdeal.R0
open Cert.RowSums (rowOf tileOf)

theorem hz2 : (![0, 0] : Fin 2 → Nat) = fun _ => 0 := funext fun a => by fin_cases a <;> rfl
theorem hz3 : (![0, 0, 0] : Fin 3 → Nat) = fun _ => 0 := funext fun a => by fin_cases a <;> rfl

section Runs

variable {F : FTy → Type} [FloatOps F] (c : Dev nD) (i : grid0.Coords)
  (arg2 : Memref sig .tc .vmem S8192x248 .f32) (arg3 : Memref sig .tc .vmem S64x248 .f32) (arg4 : Memref sig .tc .vmem S1x64 .f32) (arg5 : Memref sig .tc .vmem S8192x1 .i32) (arg6 : Memref sig .tc .vmem S8192x64 .bf16)
  (arg7 arg8 arg9 : Memref sig .tc .vmem S1x32x64 .f32) (arg10 arg11 arg12 : Memref sig .tc .vmem S32x64 .f32)
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole)
  (x0 : Vec F S8192x248 .f32) (x1 : Vec F S64x248 .f32) (x2 : Vec F S1x64 .f32) (x3 : Vec F S8192x1 .i32) (xs0 xs1 xs2 : Vec F S32x64 .f32)

-- What a first step leaves: the activation tile of its input blocks, and the tile's three statistics.
theorem runA_pay (hc0 : cond0 i) (hc1 : ¬cond1 i) (hc2 : ¬cond2 i) (r)
    (hr : r = runA (F := F) c i arg2 harg2 arg3 harg3 arg4 harg4 arg5 harg5 arg6 harg6 arg7 harg7 arg8 harg8 arg9 harg9 arg10 harg10 arg11 harg11 arg12 harg12 hc0 hc1 hc2 x0 x1 x2 x3) :
    View.canon r.1 = k0_pay5 x0 x1 x2
    ∧ View.canon r.2.1 = k0_pay10 x0 x1 x2 x3
    ∧ View.canon r.2.2.1 = k0_pay11 x0 x1 x2 x3
    ∧ View.canon r.2.2.2.1 = k0_pay12 x3 := by
  subst hr
  unfold runA
  dsimp only
  refine ⟨?_, ?_, ?_, ?_⟩ <;> rw [View.canon_unit_zero hz2] <;>
    simp only [View.readAt_eq_ld, Memref.IsWhole.read_unread, View.ld_unit_zero (S := S8192x248) hz2, View.ld_unit_zero (S := S64x248) hz2, View.ld_unit_zero (S := S1x64) hz2, View.ld_unit_zero (S := S8192x1) hz2]

-- What a middle step leaves: the activation tile, and each running statistic plus the tile's.
theorem runB_pay (hc0 : ¬cond0 i) (hc1 : cond1 i) (hc2 : ¬cond2 i) (r)
    (hr : r = runB (F := F) c i arg2 harg2 arg3 harg3 arg4 harg4 arg5 harg5 arg6 harg6 arg7 harg7 arg8 harg8 arg9 harg9 arg10 harg10 arg11 harg11 arg12 harg12 hc0 hc1 hc2 x0 x1 x2 x3 xs0 xs1 xs2) :
    View.canon r.1 = k0_pay5 x0 x1 x2
    ∧ View.canon r.2.1 = k0_pay13 x0 x1 x2 x3 xs0
    ∧ View.canon r.2.2.1 = k0_pay14 x0 x1 x2 x3 xs1
    ∧ View.canon r.2.2.2.1 = k0_pay15 x3 xs2 := by
  subst hr
  unfold runB
  dsimp only
  refine ⟨?_, ?_, ?_, ?_⟩ <;> rw [View.canon_unit_zero hz2] <;>
    simp only [View.readAt_eq_ld, Memref.IsWhole.read_unread, View.ld_unit_zero (S := S8192x248) hz2, View.ld_unit_zero (S := S64x248) hz2, View.ld_unit_zero (S := S1x64) hz2, View.ld_unit_zero (S := S8192x1) hz2, View.ld_unit_zero (S := S32x64) hz2]

-- The last step leaves what a middle step does, and each updated statistic once more, reshaped.
theorem runC_pay (hc0 : ¬cond0 i) (hc1 : cond1 i) (hc2 : cond2 i) (r)
    (hr : r = runC (F := F) c i arg2 harg2 arg3 harg3 arg4 harg4 arg5 harg5 arg6 harg6 arg7 harg7 arg8 harg8 arg9 harg9 arg10 harg10 arg11 harg11 arg12 harg12 hc0 hc1 hc2 x0 x1 x2 x3 xs0 xs1 xs2) :
    View.canon r.1 = k0_pay5 x0 x1 x2
    ∧ View.canon r.2.1 = k0_pay1 (k0_pay13 x0 x1 x2 x3 xs0)
    ∧ View.canon r.2.2.1 = k0_pay2 (k0_pay14 x0 x1 x2 x3 xs1)
    ∧ View.canon r.2.2.2.1 = k0_pay3 (k0_pay15 x3 xs2)
    ∧ View.canon r.2.2.2.2.1 = k0_pay13 x0 x1 x2 x3 xs0
    ∧ View.canon r.2.2.2.2.2.1 = k0_pay14 x0 x1 x2 x3 xs1
    ∧ View.canon r.2.2.2.2.2.2.1 = k0_pay15 x3 xs2 := by
  subst hr
  unfold runC
  dsimp only
  sl_unfold_run_names
  refine ⟨?_, ?_, ?_, ?_, ?_, ?_, ?_⟩ <;>
    (first
      | rw [View.canon_unit_zero hz3, View.readCov_unit_zero _ hz2]
      | rw [View.canon_unit_zero hz2]) <;>
    simp only [View.readAt_eq_ld, Memref.IsWhole.read_unread, View.ld_unit_zero (S := S8192x248) hz2, View.ld_unit_zero (S := S64x248) hz2, View.ld_unit_zero (S := S1x64) hz2, View.ld_unit_zero (S := S8192x1) hz2, View.ld_unit_zero (S := S32x64) hz2]

end Runs

section Points

variable {F : FTy → Type} [FloatOps F]
  (V : (c : Dev nD) → (b : Ref sig .tc) → Buf (Elt F) ((c : Thread nD τ).loc b)) (c : Dev nD) (t : Fin cfg0.N)

abbrev B0 : Vec F S8192x248 .f32 := iblk V c 0 t
abbrev B1 : Vec F S64x248 .f32 := iblk V c 1 t
abbrev B2 : Vec F S1x64 .f32 := iblk V c 2 t
abbrev B3 : Vec F S8192x1 .i32 := iblk V c 3 t

abbrev prevAt : Outs F := outsAt V c (t.val - 1) (Nat.lt_of_le_of_lt (Nat.sub_le _ _) t.isLt)

theorem out4 : (outsAt V c t.val t.isLt).1 = k0_pay5 (B0 V c t) (B1 V c t) (B2 V c t) := by
  by_cases h0 : t.val % 32 = 0
  · rw [outA_4 V c t h0, View.read_writes_eq_canon _ _ _ (coverA4 V c t h0)]
    exact (runA_pay (hr := rfl) ..).1
  · by_cases h1 : t.val % 32 = 31
    · rw [outC_4 V c t h0 h1, View.read_writes_eq_canon _ _ _ (coverC4 V c t h0 h1 _ _ _)]
      exact (runC_pay (hr := rfl) ..).1
    · rw [outB_4 V c t h0 h1, View.read_writes_eq_canon _ _ _ (coverB4 V c t h0 h1 _ _ _)]
      exact (runB_pay (hr := rfl) ..).1

theorem s0_first (h0 : t.val % 32 = 0) :
    (outsAt V c t.val t.isLt).2.2.2.2.1 = k0_pay10 (B0 V c t) (B1 V c t) (B2 V c t) (B3 V c t) := by
  rw [outA_s0 V c t h0, View.read_writes_eq_canon _ _ _ (scoverA0 V c t h0)]
  exact (runA_pay (hr := rfl) ..).2.1
theorem s1_first (h0 : t.val % 32 = 0) :
    (outsAt V c t.val t.isLt).2.2.2.2.2.1 = k0_pay11 (B0 V c t) (B1 V c t) (B2 V c t) (B3 V c t) := by
  rw [outA_s1 V c t h0, View.read_writes_eq_canon _ _ _ (scoverA1 V c t h0)]
  exact (runA_pay (hr := rfl) ..).2.2.1
theorem s2_first (h0 : t.val % 32 = 0) :
    (outsAt V c t.val t.isLt).2.2.2.2.2.2 = k0_pay12 (B3 V c t) := by
  rw [outA_s2 V c t h0, View.read_writes_eq_canon _ _ _ (scoverA2 V c t h0)]
  exact (runA_pay (hr := rfl) ..).2.2.2

theorem s0_next (h0 : ¬t.val % 32 = 0) :
    (outsAt V c t.val t.isLt).2.2.2.2.1 = k0_pay13 (B0 V c t) (B1 V c t) (B2 V c t) (B3 V c t) (prevAt V c t).2.2.2.2.1 := by
  by_cases h1 : t.val % 32 = 31
  · rw [outC_s0 V c t h0 h1, View.read_writes_eq_canon _ _ _ (scoverC0 V c t h0 h1 _ _ _)]
    exact (runC_pay (hr := rfl) ..).2.2.2.2.1
  · rw [outB_s0 V c t h0 h1, View.read_writes_eq_canon _ _ _ (scoverB0 V c t h0 h1 _ _ _)]
    exact (runB_pay (hr := rfl) ..).2.1
theorem s1_next (h0 : ¬t.val % 32 = 0) :
    (outsAt V c t.val t.isLt).2.2.2.2.2.1 = k0_pay14 (B0 V c t) (B1 V c t) (B2 V c t) (B3 V c t) (prevAt V c t).2.2.2.2.2.1 := by
  by_cases h1 : t.val % 32 = 31
  · rw [outC_s1 V c t h0 h1, View.read_writes_eq_canon _ _ _ (scoverC1 V c t h0 h1 _ _ _)]
    exact (runC_pay (hr := rfl) ..).2.2.2.2.2.1
  · rw [outB_s1 V c t h0 h1, View.read_writes_eq_canon _ _ _ (scoverB1 V c t h0 h1 _ _ _)]
    exact (runB_pay (hr := rfl) ..).2.2.1
theorem s2_next (h0 : ¬t.val % 32 = 0) :
    (outsAt V c t.val t.isLt).2.2.2.2.2.2 = k0_pay15 (B3 V c t) (prevAt V c t).2.2.2.2.2.2 := by
  by_cases h1 : t.val % 32 = 31
  · rw [outC_s2 V c t h0 h1, View.read_writes_eq_canon _ _ _ (scoverC2 V c t h0 h1 _ _ _)]
    exact (runC_pay (hr := rfl) ..).2.2.2.2.2.2
  · rw [outB_s2 V c t h0 h1, View.read_writes_eq_canon _ _ _ (scoverB2 V c t h0 h1 _ _ _)]
    exact (runB_pay (hr := rfl) ..).2.2.2

theorem out5_last (h1 : t.val % 32 = 31) :
    (outsAt V c t.val t.isLt).2.1 = k0_pay1 (outsAt V c t.val t.isLt).2.2.2.2.1 := by
  have h0 : ¬t.val % 32 = 0 := by omega
  rw [s0_next V c t h0, outC_5 V c t h0 h1, View.read_writes_eq_canon _ _ _ (coverC5 V c t h0 h1 _ _ _)]
  exact (runC_pay (hr := rfl) ..).2.1
theorem out6_last (h1 : t.val % 32 = 31) :
    (outsAt V c t.val t.isLt).2.2.1 = k0_pay2 (outsAt V c t.val t.isLt).2.2.2.2.2.1 := by
  have h0 : ¬t.val % 32 = 0 := by omega
  rw [s1_next V c t h0, outC_6 V c t h0 h1, View.read_writes_eq_canon _ _ _ (coverC6 V c t h0 h1 _ _ _)]
  exact (runC_pay (hr := rfl) ..).2.2.1
theorem out7_last (h1 : t.val % 32 = 31) :
    (outsAt V c t.val t.isLt).2.2.2.1 = k0_pay3 (outsAt V c t.val t.isLt).2.2.2.2.2.2 := by
  have h0 : ¬t.val % 32 = 0 := by omega
  rw [s2_next V c t h0, outC_7 V c t h0 h1, View.read_writes_eq_canon _ _ _ (coverC7 V c t h0 h1 _ _ _)]
  exact (runC_pay (hr := rfl) ..).2.2.2.1

end Points

section Arrays

variable (V : (c : Dev nD) → (b : Ref sig .tc) → Buf (Elt Ideal) ((c : Thread nD τ).loc b)) (c : Dev nD)

abbrev aX : Vec Ideal S524288x248 .f32 := V c (Pipeline.arrRef spec0 0)
abbrev aW : Vec Ideal S64x248 .f32 := V c (Pipeline.arrRef spec0 1)
abbrev aB : Vec Ideal S1x64 .f32 := V c (Pipeline.arrRef spec0 2)
abbrev aI : Vec Ideal S524288x1 .i32 := V c (Pipeline.arrRef spec0 3)

-- Row n of the inputs through the first layer, at feature d.
def H (n : Fin 524288) (d : Fin 64) : EReal :=
  Cert.Stages.act ((∑ k : Fin 248, aX V c (ix2 n k) * aW V c (ix2 d k)) + aB V c (ix2 0 d))

-- Grid point t works on tile t, on core t / 32; step s of core κ is point 32 κ + s.
def tl (t : Fin cfg0.N) : Fin 64 := ⟨t.val, Nat.lt_of_lt_of_eq t.isLt N_0⟩
def co (t : Fin cfg0.N) : Fin 2 := ⟨t.val / 32, by have := Nat.lt_of_lt_of_eq t.isLt N_0; omega⟩
def pt (κ : Fin 2) (s : Fin 32) : Fin cfg0.N :=
  ⟨κ.val * 32 + s.val, Nat.lt_of_lt_of_eq (by have := κ.isLt; have := s.isLt; omega) N_0.symm⟩
def last32 : Fin 32 := ⟨31, by decide⟩

theorem tl_pt (κ : Fin 2) (s : Fin 32) : tl (pt κ s) = tileOf κ s := rfl
theorem last_mod (κ : Fin 2) : (pt κ last32).val % 32 = 31 := by
  show (κ.val * 32 + 31) % 32 = 31
  omega

theorem idx_in : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)
theorem idx_out : ∀ t : Fin cfg0.N,
    win0_4.index t (0 : Fin 2) = t.val ∧ win0_4.index t (1 : Fin 2) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0
    ∧ win0_7.index t (0 : Fin 3) = t.val / 32 ∧ win0_7.index t (1 : Fin 3) = 0 ∧ win0_7.index t (2 : Fin 3) = 0 :=
  (by decide +kernel : ∀ t : Fin grid0.N, _)

-- A block's element sits in its array at the block's offset plus the element's index.
theorem emb0 (t : Fin cfg0.N) (r : Fin 8192) (k : Fin 248) :
    ((cfg0.win 0).blk t).view.emb (ix2 r k : S8192x248.Idx) = (ix2 (rowOf (tl t) r) k : S524288x248.Idx) := by
  obtain ⟨e0, e1, -⟩ := idx_in t
  funext a; apply Fin.ext
  match a with
  | ⟨0, _⟩ =>
    show win0_0.index t (0 : Fin 2) * 8192 + 1 * r.val = t.val * 8192 + r.val
    omega
  | ⟨1, _⟩ =>
    show win0_0.index t (1 : Fin 2) * 248 + 1 * k.val = k.val
    omega
theorem emb1 (t : Fin cfg0.N) (d : Fin 64) (k : Fin 248) :
    ((cfg0.win 1).blk t).view.emb (ix2 d k : S64x248.Idx) = (ix2 d k : S64x248.Idx) := by
  obtain ⟨-, -, e0, e1, -⟩ := idx_in t
  funext a; apply Fin.ext
  match a with
  | ⟨0, _⟩ =>
    show win0_1.index t (0 : Fin 2) * 64 + 1 * d.val = d.val
    omega
  | ⟨1, _⟩ =>
    show win0_1.index t (1 : Fin 2) * 248 + 1 * k.val = k.val
    omega
theorem emb2 (t : Fin cfg0.N) (d : Fin 64) :
    ((cfg0.win 2).blk t).view.emb (ix2 (0 : Fin 1) d : S1x64.Idx) = (ix2 (0 : Fin 1) d : S1x64.Idx) := by
  obtain ⟨-, -, -, -, e0, e1, -⟩ := idx_in t
  funext a; apply Fin.ext
  match a with
  | ⟨0, _⟩ =>
    show win0_2.index t (0 : Fin 2) * 1 + 1 * 0 = 0
    omega
  | ⟨1, _⟩ =>
    show win0_2.index t (1 : Fin 2) * 64 + 1 * d.val = d.val
    omega
theorem emb3 (t : Fin cfg0.N) (r : Fin 8192) :
    ((cfg0.win 3).blk t).view.emb (ix2 r (0 : Fin 1) : S8192x1.Idx) = (ix2 (rowOf (tl t) r) (0 : Fin 1) : S524288x1.Idx) := by
  obtain ⟨-, -, -, -, -, -, e0, e1⟩ := idx_in t
  funext a; apply Fin.ext
  match a with
  | ⟨0, _⟩ =>
    show win0_3.index t (0 : Fin 2) * 8192 + 1 * r.val = t.val * 8192 + r.val
    omega
  | ⟨1, _⟩ =>
    show win0_3.index t (1 : Fin 2) * 1 + 1 * 0 = 0
    omega
theorem emb4 (t : Fin cfg0.N) (r : Fin 8192) (d : Fin 64) :
    ((cfg0.win 4).blk t).view.emb (ix2 r d : S8192x64.Idx) = (ix2 (rowOf (tl t) r) d : S524288x64.Idx) := by
  obtain ⟨e0, e1, -⟩ := idx_out t
  funext a; apply Fin.ext
  match a with
  | ⟨0, _⟩ =>
    show win0_4.index t (0 : Fin 2) * 8192 + 1 * r.val = t.val * 8192 + r.val
    omega
  | ⟨1, _⟩ =>
    show win0_4.index t (1 : Fin 2) * 64 + 1 * d.val = d.val
    omega

theorem blk0 (t : Fin cfg0.N) (r : Fin 8192) (k : Fin 248) :
    B0 V c t (ix2 r k) = aX V c (ix2 (rowOf (tl t) r) k) :=
  congrArg (aX V c) (emb0 t r k)
theorem blk1 (t : Fin cfg0.N) (d : Fin 64) (k : Fin 248) :
    B1 V c t (ix2 d k) = aW V c (ix2 d k) :=
  congrArg (aW V c) (emb1 t d k)
theorem blk2 (t : Fin cfg0.N) (d : Fin 64) :
    B2 V c t (ix2 (0 : Fin 1) d) = aB V c (ix2 (0 : Fin 1) d) :=
  congrArg (aB V c) (emb2 t d)
theorem blk3 (t : Fin cfg0.N) (r : Fin 8192) :
    B3 V c t (ix2 r (0 : Fin 1)) = aI V c (ix2 (rowOf (tl t) r) (0 : Fin 1)) :=
  congrArg (aI V c) (emb3 t r)

theorem pay4_blocks (t : Fin cfg0.N) (r : Fin 8192) (d : Fin 64) :
    k0_pay4 (B0 V c t) (B1 V c t) (B2 V c t) (ix2 r d) = H V c (rowOf (tl t) r) d := by
  rw [Pay0.pay4_apply]
  exact congrArg Cert.Stages.act (congrArg₂ (· + ·)
    (Finset.sum_congr rfl fun k _ => by rw [blk0, blk1]) (blk2 V c t d))

-- Tile T's part of a group statistic: the sum of f over the tile's rows whose group is g.
def share (f : Fin 524288 → Fin 64 → EReal) (T : Fin 64) (g : Fin 32) (d : Fin 64) : EReal :=
  ∑ r : Fin 8192, if (aI V c (ix2 (rowOf T r) (0 : Fin 1))).toNat = g.val then f (rowOf T r) d else 0

theorem tile_sum (t : Fin cfg0.N) (g : Fin 32) (d : Fin 64) :
    k0_pay7 (B0 V c t) (B1 V c t) (B2 V c t) (B3 V c t) (ix2 g d) = share V c (H V c) (tl t) g d := by
  rw [Pay0.pay7_apply]
  unfold share
  exact Finset.sum_congr rfl fun r _ => if_congr (by rw [blk3]) (pay4_blocks V c t r d) rfl
theorem tile_sumsq (t : Fin cfg0.N) (g : Fin 32) (d : Fin 64) :
    k0_pay8 (B0 V c t) (B1 V c t) (B2 V c t) (B3 V c t) (ix2 g d)
      = share V c (fun n d => H V c n d * H V c n d) (tl t) g d := by
  rw [Pay0.pay8_apply]
  unfold share
  exact Finset.sum_congr rfl fun r _ => if_congr (by rw [blk3]) (by rw [pay4_blocks]) rfl
theorem tile_cnt (t : Fin cfg0.N) (g : Fin 32) (d : Fin 64) :
    k0_pay9 (F := Ideal) (B3 V c t) (ix2 g d) = share V c (fun _ _ => 1) (tl t) g d := by
  rw [Pay0.pay9_apply]
  unfold share
  exact Finset.sum_congr rfl fun r _ => if_congr (by rw [blk3]) rfl rfl

theorem S_congr (S : (n : ℕ) → n < cfg0.N → EReal) {n n' : ℕ} (e : n = n') (h : n < cfg0.N) (h' : n' < cfg0.N) :
    S n h = S n' h' := by subst e; rfl

-- A quantity set to p at a core's first step and increased by p at each later step is, after step s, the sum of p over steps 0 … s.
theorem fold_steps (S : (n : ℕ) → n < cfg0.N → EReal) (p : Fin cfg0.N → EReal)
    (hA : ∀ t : Fin cfg0.N, t.val % 32 = 0 → S t.val t.isLt = p t)
    (hB : ∀ t : Fin cfg0.N, ¬t.val % 32 = 0 →
      S t.val t.isLt = S (t.val - 1) (Nat.lt_of_le_of_lt (Nat.sub_le _ _) t.isLt) + p t)
    (κ : Fin 2) : ∀ (s : ℕ) (hs : s < 32),
      S (κ.val * 32 + s) (pt κ ⟨s, hs⟩).isLt = ∑ j : Fin (s + 1), p (pt κ ⟨j.val, by have := j.isLt; omega⟩)
  | 0, hs => by
    rw [Fin.sum_univ_one]
    exact hA (pt κ ⟨0, hs⟩) (by show (κ.val * 32 + 0) % 32 = 0; omega)
  | s + 1, hs => by
    have ih := fold_steps S p hA hB κ s (by omega)
    have hb := hB (pt κ ⟨s + 1, hs⟩) (by show ¬(κ.val * 32 + (s + 1)) % 32 = 0; omega)
    have hc : S ((pt κ ⟨s + 1, hs⟩).val - 1) (Nat.lt_of_le_of_lt (Nat.sub_le _ _) (pt κ ⟨s + 1, hs⟩).isLt)
        = S (κ.val * 32 + s) (pt κ ⟨s, by omega⟩).isLt :=
      S_congr S (by show κ.val * 32 + (s + 1) - 1 = κ.val * 32 + s; omega) _ _
    rw [Fin.sum_univ_castSucc]
    exact hb.trans (by rw [hc, ih]; rfl)

-- What a statistics array ends holding for the per-row values f: at (κ, g, d), the shares of core κ's 32 tiles.
def Gs (f : Fin 524288 → Fin 64 → EReal) : Vec Ideal S2x32x64 .f32 :=
  fun i => ∑ s : Fin 32, share V c f (tileOf (i 0) s) (i 1) (i 2)

-- A running statistic that starts at the tile's share of f and gains the tile's share at each later step holds, at a core's last step, the core's 32 shares.
theorem run_at (π : Outs Ideal → Vec Ideal S32x64 .f32) (q : Fin cfg0.N → Vec Ideal S32x64 .f32)
    (f : Fin 524288 → Fin 64 → EReal)
    (hA : ∀ t : Fin cfg0.N, t.val % 32 = 0 → π (outsAt V c t.val t.isLt) = q t)
    (hB : ∀ (t : Fin cfg0.N) (g : Fin 32) (d : Fin 64), ¬t.val % 32 = 0 →
      π (outsAt V c t.val t.isLt) (ix2 g d) = π (prevAt V c t) (ix2 g d) + q t (ix2 g d))
    (hq : ∀ (t : Fin cfg0.N) (g : Fin 32) (d : Fin 64), q t (ix2 g d) = share V c f (tl t) g d)
    (t : Fin cfg0.N) (h31 : t.val % 32 = 31) (g : Fin 32) (d : Fin 64) :
    π (outsAt V c t.val t.isLt) (ix2 g d) = ∑ s : Fin 32, share V c f (tileOf (co t) s) g d := by
  have e : t.val = (co t).val * 32 + 31 := by
    show t.val = t.val / 32 * 32 + 31
    omega
  have h := fold_steps (fun n hn => π (outsAt V c n hn) (ix2 g d)) (fun t => q t (ix2 g d))
    (fun t h0 => congrFun (hA t h0) _) (fun t h0 => hB t g d h0) (co t) 31 (by decide)
  rw [S_congr (fun n hn => π (outsAt V c n hn) (ix2 g d)) e t.isLt (pt (co t) last32).isLt]
  exact h.trans (Finset.sum_congr rfl fun s _ => hq _ g d)

theorem run_sum_at (t : Fin cfg0.N) (h31 : t.val % 32 = 31) (g : Fin 32) (d : Fin 64) :
    (outsAt V c t.val t.isLt).2.2.2.2.1 (ix2 g d) = ∑ s : Fin 32, share V c (H V c) (tileOf (co t) s) g d :=
  run_at V c (fun o => o.2.2.2.2.1) (fun t => k0_pay7 (B0 V c t) (B1 V c t) (B2 V c t) (B3 V c t)) (H V c)
    (fun t h0 => (s0_first V c t h0).trans (Pay0.pay10_eq ..))
    (fun t g d h0 => (congrFun (s0_next V c t h0) _).trans (Pay0.pay13_apply ..)) (tile_sum V c) t h31 g d
theorem run_sumsq_at (t : Fin cfg0.N) (h31 : t.val % 32 = 31) (g : Fin 32) (d : Fin 64) :
    (outsAt V c t.val t.isLt).2.2.2.2.2.1 (ix2 g d)
      = ∑ s : Fin 32, share V c (fun n d => H V c n d * H V c n d) (tileOf (co t) s) g d :=
  run_at V c (fun o => o.2.2.2.2.2.1) (fun t => k0_pay8 (B0 V c t) (B1 V c t) (B2 V c t) (B3 V c t)) _
    (fun t h0 => (s1_first V c t h0).trans (Pay0.pay11_eq ..))
    (fun t g d h0 => (congrFun (s1_next V c t h0) _).trans (Pay0.pay14_apply ..)) (tile_sumsq V c) t h31 g d
theorem run_cnt_at (t : Fin cfg0.N) (h31 : t.val % 32 = 31) (g : Fin 32) (d : Fin 64) :
    (outsAt V c t.val t.isLt).2.2.2.2.2.2 (ix2 g d) = ∑ s : Fin 32, share V c (fun _ _ => 1) (tileOf (co t) s) g d :=
  run_at V c (fun o => o.2.2.2.2.2.2) (fun t => k0_pay9 (F := Ideal) (B3 V c t)) _
    (fun t h0 => (s2_first V c t h0).trans (Pay0.pay12_eq ..))
    (fun t g d h0 => (congrFun (s2_next V c t h0) _).trans (Pay0.pay15_apply ..)) (tile_cnt V c) t h31 g d

-- Every row's first-layer activations.
def G4 : Vec Ideal S524288x64 .bf16 := fun i => H V c (i 0) (i 1)

theorem flushed4_eq (t : Fin cfg0.N) :
    (dat V c).flushed 4 t = ((cfg0.win 4).blk t).view.read (Elt Ideal) (G4 V c) := by
  show (cfg0.win 4).cut (grid0.coords t) ((dat V c).after 4 t) = _
  rw [after_4, out4 V c t]
  refine funext fun (j : S8192x64.Idx) => ?_
  obtain ⟨r, d, rfl⟩ : ∃ (r : Fin 8192) (d : Fin 64), j = ix2 r d := ⟨j 0, j 1, eq_ix2 j⟩
  exact (congrFun (Pay0.pay5_eq ..) _).trans ((pay4_blocks V c t r d).trans (congrArg (G4 V c) (emb4 t r d)).symm)

theorem arr4 : (dat V c).arrAt 4 cfg0.N = G4 V c :=
  (dat V c).arrAt_eq_of_cover 4 (G4 V c) (fun t _ => flushed4_eq V c t) fun (i : S524288x64.Idx) => by
    have hi0 : (i 0).val < 524288 := (i 0).isLt
    have hi1 : (i 1).val < 64 := (i 1).isLt
    obtain ⟨t, ht⟩ : ∃ t : Fin cfg0.N, t.val = (i 0).val / 8192 :=
      ⟨⟨(i 0).val / 8192, Nat.lt_of_lt_of_eq (by omega) N_0.symm⟩, rfl⟩
    obtain ⟨e0, e1, -⟩ := idx_out t
    refine ⟨t, flush0_4 t, ?_⟩
    show i ∈ ((View.whole main_v2_0).slice (win0_4.rect t)).set
    rw [View.set_slice_whole, Rect.mem_set_unit]
    intro a
    match a with
    | ⟨0, _⟩ =>
      show win0_4.index t (0 : Fin 2) * 8192 ≤ (i 0).val ∧ (i 0).val < win0_4.index t (0 : Fin 2) * 8192 + 8192
      omega
    | ⟨1, _⟩ =>
      show win0_4.index t (1 : Fin 2) * 64 ≤ (i 1).val ∧ (i 1).val < win0_4.index t (1 : Fin 2) * 64 + 64
      omega

theorem arr_h (n : Fin 524288) (d : Fin 64) :
    (dat V c).arrAt 4 cfg0.N (ix2 n d : S524288x64.Idx) = H V c n d :=
  congrFun (arr4 V c) _

-- An index (κ, g, d) of a statistics array lies in the block whose offsets are (κ, 0, 0): the block of core κ's last step.
theorem cover_stat (ix : Fin 3 → ℕ) (i : S2x32x64.Idx) (f0 : ix 0 = (pt (i 0) last32).val / 32) (f1 : ix 1 = 0)
    (f2 : ix 2 = 0) (a : Fin 3) :
    ix a * S1x32x64.size a ≤ (i a).val ∧ (i a).val < ix a * S1x32x64.size a + S1x32x64.size a := by
  have hi0 : (i 0).val < 2 := (i 0).isLt
  have hi1 : (i 1).val < 32 := (i 1).isLt
  have hi2 : (i 2).val < 64 := (i 2).isLt
  have hv : (pt (i 0) last32).val = (i 0).val * 32 + 31 := rfl
  match a with
  | ⟨0, _⟩ =>
    show ix 0 * 1 ≤ (i 0).val ∧ (i 0).val < ix 0 * 1 + 1
    omega
  | ⟨1, _⟩ =>
    show ix 1 * 32 ≤ (i 1).val ∧ (i 1).val < ix 1 * 32 + 32
    omega
  | ⟨2, _⟩ =>
    show ix 2 * 64 ≤ (i 2).val ∧ (i 2).val < ix 2 * 64 + 64
    omega

theorem emb5 (t : Fin cfg0.N) (g : Fin 32) (d : Fin 64) :
    ((cfg0.win 5).blk t).view.emb (ix3 (0 : Fin 1) g d : S1x32x64.Idx) = (ix3 (co t) g d : S2x32x64.Idx) := by
  obtain ⟨-, -, f0, f1, f2, -⟩ := idx_out t
  funext a; apply Fin.ext
  match a with
  | ⟨0, _⟩ =>
    show win0_5.index t (0 : Fin 3) * 1 + 1 * 0 = t.val / 32
    omega
  | ⟨1, _⟩ =>
    show win0_5.index t (1 : Fin 3) * 32 + 1 * g.val = g.val
    omega
  | ⟨2, _⟩ =>
    show win0_5.index t (2 : Fin 3) * 64 + 1 * d.val = d.val
    omega

theorem flushed5_eq (t : Fin cfg0.N) (hf : (cfg0.win 5).flush t = true) :
    (dat V c).flushed 5 t = ((cfg0.win 5).blk t).view.read (Elt Ideal) (Gs V c (H V c)) := by
  have h31 : t.val % 32 = 31 := (flush0_5 t).mp hf
  show (cfg0.win 5).cut (grid0.coords t) ((dat V c).after 5 t) = _
  rw [after_5, out5_last V c t h31]
  refine funext fun (j : S1x32x64.Idx) => ?_
  obtain ⟨u, g, d, rfl⟩ : ∃ (u : Fin 1) (g : Fin 32) (d : Fin 64), j = ix3 u g d := ⟨j 0, j 1, j 2, eq_ix3 j⟩
  obtain rfl : u = 0 := Subsingleton.elim _ _
  exact (Pay0.pay1_apply _ g d).trans ((run_sum_at V c t h31 g d).trans (congrArg (Gs V c (H V c)) (emb5 t g d)).symm)

theorem arr5 : (dat V c).arrAt 5 cfg0.N = Gs V c (H V c) :=
  (dat V c).arrAt_eq_of_cover 5 (Gs V c (H V c)) (flushed5_eq V c) fun (i : S2x32x64.Idx) => by
    obtain ⟨-, -, f0, f1, f2, -⟩ := idx_out (pt (i 0) last32)
    refine ⟨pt (i 0) last32, (flush0_5 _).mpr (last_mod _), ?_⟩
    show i ∈ ((View.whole main_v2_1).slice (win0_5.rect (pt (i 0) last32))).set
    rw [View.set_slice_whole, Rect.mem_set_unit]
    exact cover_stat (win0_5.index _) i f0 f1 f2

theorem arr_sum (core : Fin 2) (g : Fin 32) (d : Fin 64) :
    (dat V c).arrAt 5 cfg0.N (ix3 core g d : S2x32x64.Idx)
      = ∑ s : Fin 32, ∑ r : Fin 8192, (if (aI V c (ix2 (rowOf (tileOf core s) r) 0)).toNat = g.val then H V c (rowOf (tileOf core s) r) d else 0) :=
  congrFun (arr5 V c) _

theorem emb6 (t : Fin cfg0.N) (g : Fin 32) (d : Fin 64) :
    ((cfg0.win 6).blk t).view.emb (ix3 (0 : Fin 1) g d : S1x32x64.Idx) = (ix3 (co t) g d : S2x32x64.Idx) := by
  obtain ⟨-, -, -, -, -, f0, f1, f2, -⟩ := idx_out t
  funext a; apply Fin.ext
  match a with
  | ⟨0, _⟩ =>
    show win0_6.index t (0 : Fin 3) * 1 + 1 * 0 = t.val / 32
    omega
  | ⟨1, _⟩ =>
    show win0_6.index t (1 : Fin 3) * 32 + 1 * g.val = g.val
    omega
  | ⟨2, _⟩ =>
    show win0_6.index t (2 : Fin 3) * 64 + 1 * d.val = d.val
    omega

theorem flushed6_eq (t : Fin cfg0.N) (hf : (cfg0.win 6).flush t = true) :
    (dat V c).flushed 6 t = ((cfg0.win 6).blk t).view.read (Elt Ideal) (Gs V c (fun n d => H V c n d * H V c n d)) := by
  have h31 : t.val % 32 = 31 := (flush0_6 t).mp hf
  show (cfg0.win 6).cut (grid0.coords t) ((dat V c).after 6 t) = _
  rw [after_6, out6_last V c t h31]
  refine funext fun (j : S1x32x64.Idx) => ?_
  obtain ⟨u, g, d, rfl⟩ : ∃ (u : Fin 1) (g : Fin 32) (d : Fin 64), j = ix3 u g d := ⟨j 0, j 1, j 2, eq_ix3 j⟩
  obtain rfl : u = 0 := Subsingleton.elim _ _
  exact (Pay0.pay2_apply _ g d).trans ((run_sumsq_at V c t h31 g d).trans (congrArg (Gs V c (fun n d => H V c n d * H V c n d)) (emb6 t g d)).symm)

theorem arr6 : (dat V c).arrAt 6 cfg0.N = Gs V c (fun n d => H V c n d * H V c n d) :=
  (dat V c).arrAt_eq_of_cover 6 (Gs V c (fun n d => H V c n d * H V c n d)) (flushed6_eq V c) fun (i : S2x32x64.Idx) => by
    obtain ⟨-, -, -, -, -, f0, f1, f2, -⟩ := idx_out (pt (i 0) last32)
    refine ⟨pt (i 0) last32, (flush0_6 _).mpr (last_mod _), ?_⟩
    show i ∈ ((View.whole main_v2_2).slice (win0_6.rect (pt (i 0) last32))).set
    rw [View.set_slice_whole, Rect.mem_set_unit]
    exact cover_stat (win0_6.index _) i f0 f1 f2

theorem arr_sumsq (core : Fin 2) (g : Fin 32) (d : Fin 64) :
    (dat V c).arrAt 6 cfg0.N (ix3 core g d : S2x32x64.Idx)
      = ∑ s : Fin 32, ∑ r : Fin 8192, (if (aI V c (ix2 (rowOf (tileOf core s) r) 0)).toNat = g.val then H V c (rowOf (tileOf core s) r) d * H V c (rowOf (tileOf core s) r) d else 0) :=
  congrFun (arr6 V c) _

theorem emb7 (t : Fin cfg0.N) (g : Fin 32) (d : Fin 64) :
    ((cfg0.win 7).blk t).view.emb (ix3 (0 : Fin 1) g d : S1x32x64.Idx) = (ix3 (co t) g d : S2x32x64.Idx) := by
  obtain ⟨-, -, -, -, -, -, -, -, f0, f1, f2⟩ := idx_out t
  funext a; apply Fin.ext
  match a with
  | ⟨0, _⟩ =>
    show win0_7.index t (0 : Fin 3) * 1 + 1 * 0 = t.val / 32
    omega
  | ⟨1, _⟩ =>
    show win0_7.index t (1 : Fin 3) * 32 + 1 * g.val = g.val
    omega
  | ⟨2, _⟩ =>
    show win0_7.index t (2 : Fin 3) * 64 + 1 * d.val = d.val
    omega

theorem flushed7_eq (t : Fin cfg0.N) (hf : (cfg0.win 7).flush t = true) :
    (dat V c).flushed 7 t = ((cfg0.win 7).blk t).view.read (Elt Ideal) (Gs V c (fun _ _ => 1)) := by
  have h31 : t.val % 32 = 31 := (flush0_7 t).mp hf
  show (cfg0.win 7).cut (grid0.coords t) ((dat V c).after 7 t) = _
  rw [after_7, out7_last V c t h31]
  refine funext fun (j : S1x32x64.Idx) => ?_
  obtain ⟨u, g, d, rfl⟩ : ∃ (u : Fin 1) (g : Fin 32) (d : Fin 64), j = ix3 u g d := ⟨j 0, j 1, j 2, eq_ix3 j⟩
  obtain rfl : u = 0 := Subsingleton.elim _ _
  exact (Pay0.pay3_apply _ g d).trans ((run_cnt_at V c t h31 g d).trans (congrArg (Gs V c (fun _ _ => 1)) (emb7 t g d)).symm)

theorem arr7 : (dat V c).arrAt 7 cfg0.N = Gs V c (fun _ _ => 1) :=
  (dat V c).arrAt_eq_of_cover 7 (Gs V c (fun _ _ => 1)) (flushed7_eq V c) fun (i : S2x32x64.Idx) => by
    obtain ⟨-, -, -, -, -, -, -, -, f0, f1, f2⟩ := idx_out (pt (i 0) last32)
    refine ⟨pt (i 0) last32, (flush0_7 _).mpr (last_mod _), ?_⟩
    show i ∈ ((View.whole main_v2_3).slice (win0_7.rect (pt (i 0) last32))).set
    rw [View.set_slice_whole, Rect.mem_set_unit]
    exact cover_stat (win0_7.index _) i f0 f1 f2

theorem arr_cnt (core : Fin 2) (g : Fin 32) (d : Fin 64) :
    (dat V c).arrAt 7 cfg0.N (ix3 core g d : S2x32x64.Idx)
      = ∑ s : Fin 32, ∑ r : Fin 8192, (if (aI V c (ix2 (rowOf (tileOf core s) r) 0)).toNat = g.val then (1 : EReal) else 0) :=
  congrFun (arr7 V c) _

end Arrays

end Cert.KernelIdeal.Val0

end
-- ==== Proof.KI.PayLib.lean ====
/- What the three normalising bodies share, entry by entry: the one-hot rows of a tile's group numbers and the products with them as finite sums. -/
import proofs.«431227_j85710367359314_3_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.PayLib

open Idealize.ShloMosaic Idealize.ShloMosaic.ValueIdx Idealize.SL.Sem
open Cert.KernelIdeal Cert.KernelIdeal.Gen
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_word (x : BitVec 32) (g : Fin 32) :
    (FloatOps.sitofp (F := Ideal) .f32 ((IntOp.cmpi .eq x (BitVec.ofNat 32 g.val)).setWidth 32) : EReal)
      = if x.toNat = g.val then 1 else 0 := by
  have hg : (BitVec.ofNat 32 g.val).toNat = g.val := by
    rw [BitVec.toNat_ofNat]; exact Nat.mod_eq_of_lt (by have := g.isLt; omega)
  show ((((BitVec.ofBool (x == BitVec.ofNat 32 g.val)).setWidth 32).toInt : ℝ) : EReal) = _
  by_cases h : x.toNat = g.val
  · have hb : (x == BitVec.ofNat 32 g.val) = true := by
      rw [beq_iff_eq]; exact BitVec.eq_of_toNat_eq (h.trans hg.symm)
    have h1 : ((BitVec.ofBool true).setWidth 32).toInt = 1 := by decide
    rw [hb, if_pos h, h1]; simp
  · have hb : (x == BitVec.ofNat 32 g.val) = false := by
      rw [beq_eq_false_iff_ne]; intro hx; exact h (by rw [hx]; exact hg)
    have h0 : ((BitVec.ofBool false).setWidth 32).toInt = 0 := by decide
    rw [hb, if_neg h, h0]; simp

theorem sum_onehot (n : ℕ) (hn : n < 32) (t : Fin 32 → EReal) :
    ∑ g : Fin 32, (if n = g.val then (1 : EReal) else 0) * t g = t ⟨n, hn⟩ := by
  rw [Finset.sum_eq_single (⟨n, hn⟩ : Fin 32)]
  · rw [if_pos rfl, one_mul]
  · intro g _ hg; rw [if_neg (fun h => hg (Fin.ext h.symm)), zero_mul]
  · intro h; exact absurd (Finset.mem_univ _) h

theorem sub_self_of_real {x : EReal} (h : ∃ r : ℝ, x = (r : EReal)) : x - x = 0 := by
  obtain ⟨r, rfl⟩ := h
  rw [← EReal.coe_sub, sub_self, EReal.coe_zero]

theorem select_oge_zero (p c : EReal) :
    Scalar.select (FloatOps.cmpf (F := Ideal) (φ := .f32) .oge p (Ideal.ofBits .f32 0x00000000#32)) p (c * p) = if 0 ≤ p then p else c * p := by
  rw [Ideal.ofBits_zero_f32]
  show Scalar.select (BitVec.ofBool (decide ((0 : EReal) ≤ p))) p (c * p) = _
  by_cases h : (0 : EReal) ≤ p
  · rw [decide_eq_true h, if_pos h]; exact select_one _ _
  · rw [decide_eq_false h, if_neg h]; exact select_zero _ _

theorem lhs_dotB_0 (i : S8192x64.Idx) (q : dot_S8192x32_S32x64_S8192x64_1_0_0_1_n_n.contr.Idx) :
    (dot_S8192x32_S32x64_S8192x64_1_0_0_1_n_n.lhsIdx i q 0).val = (i 0).val := by
  unfold DotDims.lhsIdx
  rw [dif_neg (show ¬(0 : Fin S8192x32.rank) ∈ dot_S8192x32_S32x64_S8192x64_1_0_0_1_n_n.lhsBatch by decide), dif_pos (show (0 : Fin S8192x32.rank) ∈ dot_S8192x32_S32x64_S8192x64_1_0_0_1_n_n.lhsNonContracting by decide)]
  rfl
theorem lhs_dotB_1 (i : S8192x64.Idx) (q : dot_S8192x32_S32x64_S8192x64_1_0_0_1_n_n.contr.Idx) :
    (dot_S8192x32_S32x64_S8192x64_1_0_0_1_n_n.lhsIdx i q 1).val = (q ⟨0, by decide⟩).val :=
  dot_S8192x32_S32x64_S8192x64_1_0_0_1_n_n.lhsIdx_val_of_single rfl i q
theorem rhs_dotB_0 (i : S8192x64.Idx) (q : dot_S8192x32_S32x64_S8192x64_1_0_0_1_n_n.contr.Idx) :
    (dot_S8192x32_S32x64_S8192x64_1_0_0_1_n_n.rhsIdx i q 0).val = (q ⟨0, by decide⟩).val :=
  dot_S8192x32_S32x64_S8192x64_1_0_0_1_n_n.rhsIdx_val_of_single rfl i q
theorem rhs_dotB_1 (i : S8192x64.Idx) (q : dot_S8192x32_S32x64_S8192x64_1_0_0_1_n_n.contr.Idx) :
    (dot_S8192x32_S32x64_S8192x64_1_0_0_1_n_n.rhsIdx i q 1).val = (i 1).val := by
  unfold DotDims.rhsIdx
  rw [dif_neg (show ¬(1 : Fin S32x64.rank) ∈ dot_S8192x32_S32x64_S8192x64_1_0_0_1_n_n.rhsBatch by decide), dif_pos (show (1 : Fin S32x64.rank) ∈ dot_S8192x32_S32x64_S8192x64_1_0_0_1_n_n.rhsNonContracting by decide)]
  rfl

theorem matmul_rows_table_apply {φ₁ φ₂ : FTy} (x : FVec Ideal S8192x32 φ₁) (w : FVec Ideal S32x64 φ₂) (r : Fin 8192) (k : Fin 64) :
    matmul dot_S8192x32_S32x64_S8192x64_1_0_0_1_n_n none x w (constant (F := Ideal) S8192x64 .f32 0x00000000#32) (ix2 r k)
      = ∑ g : Fin 32, x (ix2 r g) * w (ix2 g k) := by
  simp only [matmul]
  rw [Ideal.matmul_constant_zero_apply, ← Equiv.sum_comp (contrEquiv1 dot_S8192x32_S32x64_S8192x64_1_0_0_1_n_n 32 rfl rfl).symm]
  refine Finset.sum_congr rfl fun g _ => ?_
  have hk := contrEquiv1_symm_val dot_S8192x32_S32x64_S8192x64_1_0_0_1_n_n 32 rfl rfl g
  have el : dot_S8192x32_S32x64_S8192x64_1_0_0_1_n_n.lhsIdx (ix2 r k) ((contrEquiv1 dot_S8192x32_S32x64_S8192x64_1_0_0_1_n_n 32 rfl rfl).symm g) = ix2 r g := funext fun a => Fin.ext (by
    match a with
    | ⟨0, _⟩ => exact lhs_dotB_0 _ _
    | ⟨1, _⟩ => exact (lhs_dotB_1 _ _).trans hk)
  have er : dot_S8192x32_S32x64_S8192x64_1_0_0_1_n_n.rhsIdx (ix2 r k) ((contrEquiv1 dot_S8192x32_S32x64_S8192x64_1_0_0_1_n_n 32 rfl rfl).symm g) = ix2 g k := funext fun a => Fin.ext (by
    match a with
    | ⟨0, _⟩ => exact (rhs_dotB_0 _ _).trans hk
    | ⟨1, _⟩ => exact rhs_dotB_1 _ _)
  rw [el, er]

theorem lhs_dotA_0 (i : S8192x64.Idx) (q : dot_S8192x64_S64x64_S8192x64_1_1_0_0_n_n.contr.Idx) :
    (dot_S8192x64_S64x64_S8192x64_1_1_0_0_n_n.lhsIdx i q 0).val = (i 0).val := by
  unfold DotDims.lhsIdx
  rw [dif_neg (show ¬(0 : Fin S8192x64.rank) ∈ dot_S8192x64_S64x64_S8192x64_1_1_0_0_n_n.lhsBatch by decide), dif_pos (show (0 : Fin S8192x64.rank) ∈ dot_S8192x64_S64x64_S8192x64_1_1_0_0_n_n.lhsNonContracting by decide)]
  rfl
theorem lhs_dotA_1 (i : S8192x64.Idx) (q : dot_S8192x64_S64x64_S8192x64_1_1_0_0_n_n.contr.Idx) :
    (dot_S8192x64_S64x64_S8192x64_1_1_0_0_n_n.lhsIdx i q 1).val = (q ⟨0, by decide⟩).val :=
  dot_S8192x64_S64x64_S8192x64_1_1_0_0_n_n.lhsIdx_val_of_single rfl i q
theorem rhs_dotA_0 (i : S8192x64.Idx) (q : dot_S8192x64_S64x64_S8192x64_1_1_0_0_n_n.contr.Idx) :
    (dot_S8192x64_S64x64_S8192x64_1_1_0_0_n_n.rhsIdx i q 0).val = (i 1).val := by
  unfold DotDims.rhsIdx
  rw [dif_neg (show ¬(0 : Fin S64x64.rank) ∈ dot_S8192x64_S64x64_S8192x64_1_1_0_0_n_n.rhsBatch by decide), dif_pos (show (0 : Fin S64x64.rank) ∈ dot_S8192x64_S64x64_S8192x64_1_1_0_0_n_n.rhsNonContracting by decide)]
  rfl
theorem rhs_dotA_1 (i : S8192x64.Idx) (q : dot_S8192x64_S64x64_S8192x64_1_1_0_0_n_n.contr.Idx) :
    (dot_S8192x64_S64x64_S8192x64_1_1_0_0_n_n.rhsIdx i q 1).val = (q ⟨0, by decide⟩).val :=
  dot_S8192x64_S64x64_S8192x64_1_1_0_0_n_n.rhsIdx_val_of_single rfl i q

theorem matmul_rows_weights_apply {φ₁ φ₂ : FTy} (x : FVec Ideal S8192x64 φ₁) (w : FVec Ideal S64x64 φ₂) (r : Fin 8192) (d : Fin 64) :
    matmul dot_S8192x64_S64x64_S8192x64_1_1_0_0_n_n none x w (constant (F := Ideal) S8192x64 .f32 0x00000000#32) (ix2 r d)
      = ∑ k : Fin 64, x (ix2 r k) * w (ix2 d k) := by
  simp only [matmul]
  rw [Ideal.matmul_constant_zero_apply, ← Equiv.sum_comp (contrEquiv1 dot_S8192x64_S64x64_S8192x64_1_1_0_0_n_n 64 rfl rfl).symm]
  refine Finset.sum_congr rfl fun k _ => ?_
  have hk := contrEquiv1_symm_val dot_S8192x64_S64x64_S8192x64_1_1_0_0_n_n 64 rfl rfl k
  have el : dot_S8192x64_S64x64_S8192x64_1_1_0_0_n_n.lhsIdx (ix2 r d) ((contrEquiv1 dot_S8192x64_S64x64_S8192x64_1_1_0_0_n_n 64 rfl rfl).symm k) = ix2 r k := funext fun a => Fin.ext (by
    match a with
    | ⟨0, _⟩ => exact lhs_dotA_0 _ _
    | ⟨1, _⟩ => exact (lhs_dotA_1 _ _).trans hk)
  have er : dot_S8192x64_S64x64_S8192x64_1_1_0_0_n_n.rhsIdx (ix2 r d) ((contrEquiv1 dot_S8192x64_S64x64_S8192x64_1_1_0_0_n_n 64 rfl rfl).symm k) = ix2 d k := funext fun a => Fin.ext (by
    match a with
    | ⟨0, _⟩ => exact rhs_dotA_0 _ _
    | ⟨1, _⟩ => exact (rhs_dotA_1 _ _).trans hk)
  rw [el, er]

theorem lhs_dotC_0 (i : S32x64.Idx) (q : dot_S8192x32_S8192x64_S32x64_0_0_1_1_n_n.contr.Idx) :
    (dot_S8192x32_S8192x64_S32x64_0_0_1_1_n_n.lhsIdx i q 0).val = (q ⟨0, by decide⟩).val :=
  dot_S8192x32_S8192x64_S32x64_0_0_1_1_n_n.lhsIdx_val_of_single rfl i q
theorem lhs_dotC_1 (i : S32x64.Idx) (q : dot_S8192x32_S8192x64_S32x64_0_0_1_1_n_n.contr.Idx) :
    (dot_S8192x32_S8192x64_S32x64_0_0_1_1_n_n.lhsIdx i q 1).val = (i 0).val := by
  unfold DotDims.lhsIdx
  rw [dif_neg (show ¬(1 : Fin S8192x32.rank) ∈ dot_S8192x32_S8192x64_S32x64_0_0_1_1_n_n.lhsBatch by decide), dif_pos (show (1 : Fin S8192x32.rank) ∈ dot_S8192x32_S8192x64_S32x64_0_0_1_1_n_n.lhsNonContracting by decide)]
  rfl
theorem rhs_dotC_0 (i : S32x64.Idx) (q : dot_S8192x32_S8192x64_S32x64_0_0_1_1_n_n.contr.Idx) :
    (dot_S8192x32_S8192x64_S32x64_0_0_1_1_n_n.rhsIdx i q 0).val = (q ⟨0, by decide⟩).val :=
  dot_S8192x32_S8192x64_S32x64_0_0_1_1_n_n.rhsIdx_val_of_single rfl i q
theorem rhs_dotC_1 (i : S32x64.Idx) (q : dot_S8192x32_S8192x64_S32x64_0_0_1_1_n_n.contr.Idx) :
    (dot_S8192x32_S8192x64_S32x64_0_0_1_1_n_n.rhsIdx i q 1).val = (i 1).val := by
  unfold DotDims.rhsIdx
  rw [dif_neg (show ¬(1 : Fin S8192x64.rank) ∈ dot_S8192x32_S8192x64_S32x64_0_0_1_1_n_n.rhsBatch by decide), dif_pos (show (1 : Fin S8192x64.rank) ∈ dot_S8192x32_S8192x64_S32x64_0_0_1_1_n_n.rhsNonContracting by decide)]
  rfl

theorem matmul_tile_apply {φ₁ φ₂ : FTy} (x : FVec Ideal S8192x32 φ₁) (y : FVec Ideal S8192x64 φ₂) (g : Fin 32) (d : Fin 64) :
    matmul dot_S8192x32_S8192x64_S32x64_0_0_1_1_n_n none x y (constant (F := Ideal) S32x64 .f32 0x00000000#32) (ix2 g d)
      = ∑ n : Fin 8192, x (ix2 n g) * y (ix2 n d) := by
  simp only [matmul]
  rw [Ideal.matmul_constant_zero_apply, ← Equiv.sum_comp (contrEquiv1 dot_S8192x32_S8192x64_S32x64_0_0_1_1_n_n 8192 rfl rfl).symm]
  refine Finset.sum_congr rfl fun n _ => ?_
  have hk := contrEquiv1_symm_val dot_S8192x32_S8192x64_S32x64_0_0_1_1_n_n 8192 rfl rfl n
  have el : dot_S8192x32_S8192x64_S32x64_0_0_1_1_n_n.lhsIdx (ix2 g d) ((contrEquiv1 dot_S8192x32_S8192x64_S32x64_0_0_1_1_n_n 8192 rfl rfl).symm n) = ix2 n g := funext fun a => Fin.ext (by
    match a with
    | ⟨0, _⟩ => exact (lhs_dotC_0 _ _).trans hk
    | ⟨1, _⟩ => exact lhs_dotC_1 _ _)
  have er : dot_S8192x32_S8192x64_S32x64_0_0_1_1_n_n.rhsIdx (ix2 g d) ((contrEquiv1 dot_S8192x32_S8192x64_S32x64_0_0_1_1_n_n 8192 rfl rfl).symm n) = ix2 n d := funext fun a => Fin.ext (by
    match a with
    | ⟨0, _⟩ => exact (rhs_dotC_0 _ _).trans hk
    | ⟨1, _⟩ => exact rhs_dotC_1 _ _)
  rw [el, er]

abbrev onehotRows (v0 : IVec S8192x1 32) (h1 : S8192x1.ShapeCasts S8192x1) (h2 : S8192x1.Broadcasts S8192x32)
    (h3 : S8192x32.Iotas .tc 32 [1]) (h4 : 1 < 32) : FVec Ideal S8192x32 .f32 :=
  sitofp .f32 (extui 32 (cmpi .eq (broadcastTo S8192x32 (shapeCast S8192x1 v0 h1) h2) (iota .tc S8192x32 32 [1] h3)) h4)

theorem onehotRows_apply (v0 : IVec S8192x1 32) (h1 : S8192x1.ShapeCasts S8192x1) (h2 : S8192x1.Broadcasts S8192x32)
    (h3 : S8192x32.Iotas .tc 32 [1]) (h4 : 1 < 32) (r : Fin 8192) (g : Fin 32) :
    onehotRows v0 h1 h2 h3 h4 (ix2 r g) = if (v0 (ix2 r 0)).toNat = g.val then 1 else 0 := by
  show FloatOps.sitofp (F := Ideal) .f32 ((IntOp.cmpi .eq (broadcastTo S8192x32 (shapeCast S8192x1 v0 h1) h2 (ix2 r g)) (iota .tc S8192x32 32 [1] h3 (ix2 r g))).setWidth 32) = _
  rw [iota_single_apply, shapeCast_self, broadcastTo_a1_ab_apply]
  exact onehot_word _ g

theorem fetch_apply (oh : FVec Ideal S8192x32 .f32) (n : ℕ) (hn : n < 32) (r : Fin 8192)
    (hoh : ∀ g : Fin 32, oh (ix2 r g) = if n = g.val then 1 else 0) (t : FVec Ideal S32x64 .bf16)
    (h : FTy.bits .bf16 < FTy.bits .f32) (k : Fin 64) :
    matmul dot_S8192x32_S32x64_S8192x64_1_0_0_1_n_n none (truncf .bf16 oh h) t
        (constant (F := Ideal) S8192x64 .f32 0x00000000#32) (ix2 r k)
      = t (ix2 (⟨n, hn⟩ : Fin 32) k) := by
  rw [matmul_rows_table_apply]
  have hterm : ∀ g : Fin 32, (truncf .bf16 oh h : FVec Ideal S8192x32 .bf16) (ix2 r g) * t (ix2 g k)
      = (if n = g.val then (1 : EReal) else 0) * t (ix2 g k) := fun g => by
    rw [truncf_apply, hoh g]
  rw [Finset.sum_congr rfl fun g _ => hterm g]
  exact sum_onehot n hn fun g => t (ix2 g k)

end Cert.KernelIdeal.PayLib

end
-- ==== Proof.KI.Pay1.lean ====
/- What a hidden layer's body computes from one tile, entry by entry: rows centred and scaled by their group's statistics, the affine map, the rectifier, and the per-group sums. -/
import proofs.«431227_j85710367359314_3_alg».proof.Proof.Gen.KernelIdeal.Skeleton
import proofs.«431227_j85710367359314_3_alg».proof.Proof.Stages
import proofs.«431227_j85710367359314_3_alg».proof.Proof.KI.PayLib
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay1

open Idealize.ShloMosaic Idealize.ShloMosaic.ValueIdx Idealize.SL.Sem
open Cert.KernelIdeal Cert.KernelIdeal.Gen Cert.KernelIdeal.PayLib
open scoped BigOperators

theorem pay15_apply_nat (v0 : IVec S8192x1 32) (r : Fin 8192) (g : Fin 32) :
    k1_pay15 (F := Ideal) v0 (ix2 r g) = if (v0 (ix2 r 0)).toNat = g.val then 1 else 0 := by
  unfold k1_pay15
  exact onehotRows_apply v0 _ _ _ _ r g

theorem pay15_apply (v0 : IVec S8192x1 32) (hid : ∀ r : Fin 8192, (v0 (ix2 r 0)).toNat < 32) (r : Fin 8192) (g : Fin 32) :
    k1_pay15 (F := Ideal) v0 (ix2 r g) = if (⟨(v0 (ix2 r 0)).toNat, hid r⟩ : Fin 32) = g then 1 else 0 := by
  rw [pay15_apply_nat]
  exact if_congr (Fin.ext_iff (a := (⟨(v0 (ix2 r 0)).toNat, hid r⟩ : Fin 32)) (b := g)).symm rfl rfl

theorem pay17_apply (v34 : FVec Ideal S1x64 .f32) (r : Fin 8192) (d : Fin 64) :
    k1_pay17 v34 (ix2 r d) = v34 (ix2 0 d) := by
  unfold k1_pay17
  rw [broadcastTo_1b_ab_apply, shapeCast_self]

theorem pay1_apply (v38 v39 : FVec Ideal S8192x64 .f32) (r : Fin 8192) (d : Fin 64) :
    k1_pay1 v38 v39 (ix2 r d) = Cert.Stages.act (v38 (ix2 r d) + v39 (ix2 r d)) := by
  unfold k1_pay1 Cert.Stages.act Cert.Stages.slope
  rw [select_apply, cmpf_apply, mulf_apply, broadcast_apply, broadcast_apply, addf_apply]
  exact select_oge_zero _ _

theorem pay3_apply (v0 : IVec S8192x1 32) (v38 v39 : FVec Ideal S8192x64 .f32) (g : Fin 32) (d : Fin 64) :
    k1_pay3 (k1_pay15 (F := Ideal) v0) v38 v39 (ix2 g d)
      = ∑ n : Fin 8192, if (v0 (ix2 n 0)).toNat = g.val then Cert.Stages.act (v38 (ix2 n d) + v39 (ix2 n d)) else 0 := by
  unfold k1_pay3
  rw [matmul_tile_apply]
  refine Finset.sum_congr rfl fun n _ => ?_
  rw [pay15_apply_nat, pay1_apply]
  split_ifs
  · exact one_mul _
  · exact zero_mul _

theorem pay4_apply (v0 : IVec S8192x1 32) (v38 v39 : FVec Ideal S8192x64 .f32) (g : Fin 32) (d : Fin 64) :
    k1_pay4 (k1_pay15 (F := Ideal) v0) v38 v39 (ix2 g d)
      = ∑ n : Fin 8192, if (v0 (ix2 n 0)).toNat = g.val
          then Cert.Stages.act (v38 (ix2 n d) + v39 (ix2 n d)) * Cert.Stages.act (v38 (ix2 n d) + v39 (ix2 n d)) else 0 := by
  unfold k1_pay4
  rw [matmul_tile_apply]
  refine Finset.sum_congr rfl fun n _ => ?_
  rw [pay15_apply_nat, mulf_apply, pay1_apply]
  split_ifs
  · exact one_mul _
  · exact zero_mul _

theorem pay5_apply (v0 : IVec S8192x1 32) (g : Fin 32) (d : Fin 64) :
    k1_pay5 (k1_pay15 (F := Ideal) v0) (ix2 g d) = ∑ n : Fin 8192, if (v0 (ix2 n 0)).toNat = g.val then (1 : EReal) else 0 := by
  unfold k1_pay5
  rw [matmul_tile_apply]
  refine Finset.sum_congr rfl fun n _ => ?_
  rw [pay15_apply_nat, broadcast_apply]
  show (if (v0 (ix2 n 0)).toNat = g.val then (1 : EReal) else 0) * Ideal.ofBits .f32 0x3F800000#32 = _
  rw [Ideal.ofBits_one_f32, mul_one]

theorem pay6_eq (v6 : FVec Ideal S8192x32 .f32) (v38 v39 : FVec Ideal S8192x64 .f32) : k1_pay6 v6 v38 v39 = k1_pay3 v6 v38 v39 := by
  unfold k1_pay6; exact shapeCast_self _ _
theorem pay7_eq (v6 : FVec Ideal S8192x32 .f32) (v38 v39 : FVec Ideal S8192x64 .f32) : k1_pay7 v6 v38 v39 = k1_pay4 v6 v38 v39 := by
  unfold k1_pay7; exact shapeCast_self _ _
theorem pay8_eq (v6 : FVec Ideal S8192x32 .f32) : k1_pay8 v6 = k1_pay5 v6 := by
  unfold k1_pay8; exact shapeCast_self _ _

theorem pay9_apply (v6 : FVec Ideal S8192x32 .f32) (v38 v39 : FVec Ideal S8192x64 .f32) (v62 : FVec Ideal S32x64 .f32) (j : S32x64.Idx) :
    k1_pay9 v6 v38 v39 v62 j = v62 j + k1_pay3 v6 v38 v39 j := by
  unfold k1_pay9; rw [shapeCast_self, addf_apply]
theorem pay10_apply (v6 : FVec Ideal S8192x32 .f32) (v38 v39 : FVec Ideal S8192x64 .f32) (v67 : FVec Ideal S32x64 .f32) (j : S32x64.Idx) :
    k1_pay10 v6 v38 v39 v67 j = v67 j + k1_pay4 v6 v38 v39 j := by
  unfold k1_pay10; rw [shapeCast_self, addf_apply]
theorem pay11_apply (v6 : FVec Ideal S8192x32 .f32) (v72 : FVec Ideal S32x64 .f32) (j : S32x64.Idx) :
    k1_pay11 v6 v72 j = v72 j + k1_pay5 v6 j := by
  unfold k1_pay11; rw [shapeCast_self, addf_apply]

theorem pay12_apply (v62 : FVec Ideal S32x64 .f32) (u : Fin 1) (g : Fin 32) (d : Fin 64) : k1_pay12 v62 (ix3 u g d) = v62 (ix2 g d) := by
  unfold k1_pay12; exact shapeCast_ab_1ab_apply _ _ u g d
theorem pay13_apply (v66 : FVec Ideal S32x64 .f32) (u : Fin 1) (g : Fin 32) (d : Fin 64) : k1_pay13 v66 (ix3 u g d) = v66 (ix2 g d) := by
  unfold k1_pay13; exact shapeCast_ab_1ab_apply _ _ u g d
theorem pay14_apply (v70 : FVec Ideal S32x64 .f32) (u : Fin 1) (g : Fin 32) (d : Fin 64) : k1_pay14 v70 (ix3 u g d) = v70 (ix2 g d) := by
  unfold k1_pay14; exact shapeCast_ab_1ab_apply _ _ u g d

theorem pay16_apply (v0 : IVec S8192x1 32) (v8 v17 : FVec Ideal S32x64 .f32) (v26 : FVec Ideal S8192x64 .bf16) (v33 : FVec Ideal S64x64 .f32)
    (hμ : ∀ j, ∃ x : ℝ, v8 j = (x : EReal)) (hσ : ∀ j, ∃ x : ℝ, v17 j = (x : EReal))
    (hid : ∀ r : Fin 8192, (v0 (ix2 r 0)).toNat < 32) (r : Fin 8192) (d : Fin 64) :
    k1_pay16 (F := Ideal) v0 v8 v17 v26 v33 (ix2 r d)
      = ∑ k : Fin 64, Ideal.div (v26 (ix2 r k) - v8 (ix2 (⟨(v0 (ix2 r 0)).toNat, hid r⟩ : Fin 32) k))
          (v17 (ix2 (⟨(v0 (ix2 r 0)).toNat, hid r⟩ : Fin 32) k) + Cert.Stages.eps) * v33 (ix2 d k) := by
  unfold k1_pay16 Cert.Stages.eps
  rw [matmul_rows_weights_apply]
  refine Finset.sum_congr rfl fun k _ => ?_
  have hf := fun t h k => fetch_apply (k1_pay15 (F := Ideal) v0) _ (hid r) r (fun g => pay15_apply_nat v0 r g) t h k
  rw [truncf_apply, truncf_apply, divf_apply, subf_apply, addf_apply, addf_apply, addf_apply, extf_apply, broadcast_apply,
    hf, hf, hf, hf]
  rw [truncf_apply, truncf_apply, truncf_apply, truncf_apply, subf_apply, subf_apply, shapeCast_self, shapeCast_self, shapeCast_self]
  rw [sub_self_of_real (hμ _), sub_self_of_real (hσ _), add_zero, add_zero]
  rfl

theorem out_apply (v0 : IVec S8192x1 32) (v8 v17 : FVec Ideal S32x64 .f32) (v26 : FVec Ideal S8192x64 .bf16) (v33 : FVec Ideal S64x64 .f32)
    (v34 : FVec Ideal S1x64 .f32)
    (hμ : ∀ j, ∃ x : ℝ, v8 j = (x : EReal)) (hσ : ∀ j, ∃ x : ℝ, v17 j = (x : EReal))
    (hid : ∀ r : Fin 8192, (v0 (ix2 r 0)).toNat < 32) (r : Fin 8192) (d : Fin 64) :
    k1_pay1 (k1_pay16 (F := Ideal) v0 v8 v17 v26 v33) (k1_pay17 v34) (ix2 r d)
      = Cert.Stages.act ((∑ k : Fin 64, Ideal.div (v26 (ix2 r k) - v8 (ix2 (⟨(v0 (ix2 r 0)).toNat, hid r⟩ : Fin 32) k))
          (v17 (ix2 (⟨(v0 (ix2 r 0)).toNat, hid r⟩ : Fin 32) k) + Cert.Stages.eps) * v33 (ix2 d k)) + v34 (ix2 0 d)) := by
  rw [pay1_apply, pay16_apply v0 v8 v17 v26 v33 hμ hσ hid, pay17_apply]

end Cert.KernelIdeal.Pay1

end
-- ==== Proof.KI.Val1.lean ====
import proofs.«431227_j85710367359314_3_alg».proof.Proof.KI.Reg1
import proofs.«431227_j85710367359314_3_alg».proof.Proof.KI.Pay1
import proofs.«431227_j85710367359314_3_alg».proof.Proof.Stages
import proofs.«431227_j85710367359314_3_alg».proof.Proof.RowSums
import Idealize.ShloMosaic.Lib.Pipeline.Value

noncomputable section

namespace Cert.KernelIdeal.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R1
open Cert.RowSums (rowOf tileOf)
open Idealize.ShloMosaic.ValueIdx (ix1 ix2 ix3)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

section Canon

variable {c : Dev nD} {i : grid1.Coords} {arg2 : Memref sig .tc .vmem S8192x64 .bf16} {harg2 : arg2.IsWhole} {arg3 : Memref sig .tc .vmem S32x64 .f32} {harg3 : arg3.IsWhole} {arg4 : Memref sig .tc .vmem S32x64 .f32} {harg4 : arg4.IsWhole} {arg5 : Memref sig .tc .vmem S64x64 .f32} {harg5 : arg5.IsWhole} {arg6 : Memref sig .tc .vmem S1x64 .f32} {harg6 : arg6.IsWhole} {arg7 : Memref sig .tc .vmem S8192x1 .i32} {harg7 : arg7.IsWhole} {arg8 : Memref sig .tc .vmem S8192x64 .bf16} {harg8 : arg8.IsWhole} {arg9 : Memref sig .tc .vmem S1x32x64 .f32} {harg9 : arg9.IsWhole} {arg10 : Memref sig .tc .vmem S1x32x64 .f32} {harg10 : arg10.IsWhole} {arg11 : Memref sig .tc .vmem S1x32x64 .f32} {harg11 : arg11.IsWhole} {arg12 : Memref sig .tc .vmem S32x64 .f32} {harg12 : arg12.IsWhole} {arg13 : Memref sig .tc .vmem S32x64 .f32} {harg13 : arg13.IsWhole} {arg14 : Memref sig .tc .vmem S32x64 .f32} {harg14 : arg14.IsWhole}
  {x0 : Vec F S8192x64 .bf16} {x1 : Vec F S32x64 .f32} {x2 : Vec F S32x64 .f32} {x3 : Vec F S64x64 .f32} {x4 : Vec F S1x64 .f32} {x5 : Vec F S8192x1 .i32}
  {xs0 xs1 xs2 : Vec F S32x64 .f32}

-- A first step stores the layer's output on the tile and sets the three running sums to the tile's shares.
theorem canonA {hc0 : cond0 i} {hc1 : ¬cond1 i} {hc2 : ¬cond2 i} (r) (hr : r = runA c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5) :
    View.canon r.1 = k1_pay2 (k1_pay16 x5 x1 x2 x0 x3) (k1_pay17 x4)
    ∧ View.canon r.2.1 = k1_pay6 (k1_pay15 x5) (k1_pay16 x5 x1 x2 x0 x3) (k1_pay17 x4)
    ∧ View.canon r.2.2.1 = k1_pay7 (k1_pay15 x5) (k1_pay16 x5 x1 x2 x0 x3) (k1_pay17 x4)
    ∧ View.canon r.2.2.2.1 = k1_pay8 (k1_pay15 x5) := by
  subst hr
  refine ⟨?_, ?_, ?_, ?_⟩ <;>
  · unfold runA
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- A middle step stores the layer's output and adds the tile's shares to the running sums.
theorem canonB {hc0 : ¬cond0 i} {hc1 : cond1 i} {hc2 : ¬cond2 i} (r) (hr : r = runB c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.1 = k1_pay2 (k1_pay16 x5 x1 x2 x0 x3) (k1_pay17 x4)
    ∧ View.canon r.2.1 = k1_pay9 (k1_pay15 x5) (k1_pay16 x5 x1 x2 x0 x3) (k1_pay17 x4) xs0
    ∧ View.canon r.2.2.1 = k1_pay10 (k1_pay15 x5) (k1_pay16 x5 x1 x2 x0 x3) (k1_pay17 x4) xs1
    ∧ View.canon r.2.2.2.1 = k1_pay11 (k1_pay15 x5) xs2 := by
  subst hr
  refine ⟨?_, ?_, ?_, ?_⟩ <;>
  · unfold runB
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- A last step does the same,
theorem canonC {hc0 : ¬cond0 i} {hc1 : cond1 i} {hc2 : cond2 i} (r) (hr : r = runC c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.1 = k1_pay2 (k1_pay16 x5 x1 x2 x0 x3) (k1_pay17 x4)
    ∧ View.canon r.2.2.2.2.1 = k1_pay9 (k1_pay15 x5) (k1_pay16 x5 x1 x2 x0 x3) (k1_pay17 x4) xs0
    ∧ View.canon r.2.2.2.2.2.1 = k1_pay10 (k1_pay15 x5) (k1_pay16 x5 x1 x2 x0 x3) (k1_pay17 x4) xs1
    ∧ View.canon r.2.2.2.2.2.2.1 = k1_pay11 (k1_pay15 x5) xs2 := by
  subst hr
  refine ⟨?_, ?_, ?_, ?_⟩ <;>
  · unfold runC
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- and copies the finished running sums into the three partial-sum blocks.
theorem canonC_out {hc0 : ¬cond0 i} {hc1 : cond1 i} {hc2 : cond2 i} (r) (hr : r = runC c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.2.1 = k1_pay12 (k1_pay9 (k1_pay15 x5) (k1_pay16 x5 x1 x2 x0 x3) (k1_pay17 x4) xs0)
    ∧ View.canon r.2.2.1 = k1_pay13 (k1_pay10 (k1_pay15 x5) (k1_pay16 x5 x1 x2 x0 x3) (k1_pay17 x4) xs1)
    ∧ View.canon r.2.2.2.1 = k1_pay14 (k1_pay11 (k1_pay15 x5) xs2) := by
  subst hr
  refine ⟨?_, ?_, ?_⟩ <;>
  · unfold runC
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

end Canon

abbrev A0 (c : Dev nD) : Vec F S524288x64 .bf16 := V c (Pipeline.arrRef spec1 0)
abbrev A1 (c : Dev nD) : Vec F S32x64 .f32 := V c (Pipeline.arrRef spec1 1)
abbrev A2 (c : Dev nD) : Vec F S32x64 .f32 := V c (Pipeline.arrRef spec1 2)
abbrev A3 (c : Dev nD) : Vec F S64x64 .f32 := V c (Pipeline.arrRef spec1 3)
abbrev A4 (c : Dev nD) : Vec F S1x64 .f32 := V c (Pipeline.arrRef spec1 4)
abbrev A5 (c : Dev nD) : Vec F S524288x1 .i32 := V c (Pipeline.arrRef spec1 5)

def pt (t : Fin cfg1.N) : Fin 64 := ⟨t.val, by have h := t.isLt; have e : cfg1.N = 64 := hN; omega⟩
def tp (t : Fin 64) : Fin cfg1.N := ⟨t.val, by rw [hN]; exact t.isLt⟩

def hTile (c : Dev nD) (t : Fin 64) : Vec F S8192x64 .bf16 := fun x => A0 V c (ix2 (rowOf t (x 0)) (x 1))
def idTile (c : Dev nD) (t : Fin 64) : Vec F S8192x1 .i32 := fun x => A5 V c (ix2 (rowOf t (x 0)) (x 1))

def tileIx (n : Fin 524288) : Fin 64 := ⟨n.val / 8192, by have := n.isLt; omega⟩
def rowIn (n : Fin 524288) : Fin 8192 := ⟨n.val % 8192, Nat.mod_lt _ (by norm_num)⟩

abbrev hot (c : Dev nD) (t : Fin 64) : FVec F S8192x32 .f32 := k1_pay15 (idTile V c t)
abbrev lin (c : Dev nD) (t : Fin 64) : FVec F S8192x64 .f32 := k1_pay16 (idTile V c t) (A1 V c) (A2 V c) (hTile V c t) (A3 V c)
abbrev bias (c : Dev nD) : FVec F S8192x64 .f32 := k1_pay17 (A4 V c)
def yTile (c : Dev nD) (t : Fin 64) : FVec F S8192x64 .bf16 := k1_pay2 (lin V c t) (bias V c)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)
theorem idx_facts_sums : ∀ t : Fin cfg1.N,
    win1_7.index t (0 : Fin 3) = t.val / 32 ∧ win1_7.index t (1 : Fin 3) = 0 ∧ win1_7.index t (2 : Fin 3) = 0
    ∧ win1_8.index t (0 : Fin 3) = t.val / 32 ∧ win1_8.index t (1 : Fin 3) = 0 ∧ win1_8.index t (2 : Fin 3) = 0
    ∧ win1_9.index t (0 : Fin 3) = t.val / 32 ∧ win1_9.index t (1 : Fin 3) = 0 ∧ win1_9.index t (2 : Fin 3) = 0 :=
  (by decide +kernel : ∀ t : Fin grid1.N, _)

theorem blkAt0_eq (c : Dev nD) (t : Fin cfg1.N) : (iblk V c 0 t : Vec F S8192x64 .bf16) = hTile V c (pt t) := by
  obtain ⟨e0, e1, -⟩ := idx_facts t
  funext x
  unfold iblk
  rw [View.read_apply]
  show (V c (Pipeline.arrRef spec1 0) : Vec F S524288x64 .bf16) _ = (V c (Pipeline.arrRef spec1 0) : Vec F S524288x64 .bf16) _
  refine congrArg (V c (Pipeline.arrRef spec1 0) : Vec F S524288x64 .bf16) ?_
  funext a; apply Fin.ext
  match a with
  | ⟨0, _⟩ => show win1_0.index t (0 : Fin 2) * 8192 + 1 * (x 0).val = t.val * 8192 + (x 0).val; rw [e0]; omega
  | ⟨1, _⟩ => show win1_0.index t (1 : Fin 2) * 64 + 1 * (x 1).val = (x 1).val; rw [e1]; omega

theorem blkAt5_eq (c : Dev nD) (t : Fin cfg1.N) : (iblk V c 5 t : Vec F S8192x1 .i32) = idTile V c (pt t) := by
  obtain ⟨-, -, -, -, -, -, -, -, -, -, e0, e1, -⟩ := idx_facts t
  funext x
  unfold iblk
  rw [View.read_apply]
  show (V c (Pipeline.arrRef spec1 5) : Vec F S524288x1 .i32) _ = (V c (Pipeline.arrRef spec1 5) : Vec F S524288x1 .i32) _
  refine congrArg (V c (Pipeline.arrRef spec1 5) : Vec F S524288x1 .i32) ?_
  funext a; apply Fin.ext
  match a with
  | ⟨0, _⟩ => show win1_5.index t (0 : Fin 2) * 8192 + 1 * (x 0).val = t.val * 8192 + (x 0).val; rw [e0]; omega
  | ⟨1, _⟩ => show win1_5.index t (1 : Fin 2) * 1 + 1 * (x 1).val = (x 1).val; rw [e1]; omega

theorem blkAt1_eq (c : Dev nD) (t : Fin cfg1.N) : (iblk V c 1 t : Vec F S32x64 .f32) = A1 V c := by
  obtain ⟨-, -, e0, e1, -⟩ := idx_facts t
  funext x
  unfold iblk
  rw [View.read_apply]
  exact congrArg (V c (Pipeline.arrRef spec1 1) : Vec F S32x64 .f32)
    (Shape.idx_ext₂ (win1_1.rect_emb_val_of_index_zero t (0 : Fin 2) e0 x) (win1_1.rect_emb_val_of_index_zero t (1 : Fin 2) e1 x))
theorem blkAt2_eq (c : Dev nD) (t : Fin cfg1.N) : (iblk V c 2 t : Vec F S32x64 .f32) = A2 V c := by
  obtain ⟨-, -, -, -, e0, e1, -⟩ := idx_facts t
  funext x
  unfold iblk
  rw [View.read_apply]
  exact congrArg (V c (Pipeline.arrRef spec1 2) : Vec F S32x64 .f32)
    (Shape.idx_ext₂ (win1_2.rect_emb_val_of_index_zero t (0 : Fin 2) e0 x) (win1_2.rect_emb_val_of_index_zero t (1 : Fin 2) e1 x))
theorem blkAt3_eq (c : Dev nD) (t : Fin cfg1.N) : (iblk V c 3 t : Vec F S64x64 .f32) = A3 V c := by
  obtain ⟨-, -, -, -, -, -, e0, e1, -⟩ := idx_facts t
  funext x
  unfold iblk
  rw [View.read_apply]
  exact congrArg (V c (Pipeline.arrRef spec1 3) : Vec F S64x64 .f32)
    (Shape.idx_ext₂ (win1_3.rect_emb_val_of_index_zero t (0 : Fin 2) e0 x) (win1_3.rect_emb_val_of_index_zero t (1 : Fin 2) e1 x))
theorem blkAt4_eq (c : Dev nD) (t : Fin cfg1.N) : (iblk V c 4 t : Vec F S1x64 .f32) = A4 V c := by
  obtain ⟨-, -, -, -, -, -, -, -, e0, e1, -⟩ := idx_facts t
  funext x
  unfold iblk
  rw [View.read_apply]
  exact congrArg (V c (Pipeline.arrRef spec1 4) : Vec F S1x64 .f32)
    (Shape.idx_ext₂ (win1_4.rect_emb_val_of_index_zero t (0 : Fin 2) e0 x) (win1_4.rect_emb_val_of_index_zero t (1 : Fin 2) e1 x))

abbrev prev (c : Dev nD) (t : Fin cfg1.N) := outsAt V c (t.val - 1) (Nat.lt_of_le_of_lt (Nat.sub_le _ _) t.isLt)

-- The payloads of a point's blocks are the payloads of the point's tiles.
theorem hot_eq (c : Dev nD) (t : Fin cfg1.N) : k1_pay15 (iblk V c 5 t) = hot V c (pt t) := by rw [blkAt5_eq V c t]
theorem lin_eq (c : Dev nD) (t : Fin cfg1.N) :
    k1_pay16 (iblk V c 5 t) (iblk V c 1 t) (iblk V c 2 t) (iblk V c 0 t) (iblk V c 3 t) = lin V c (pt t) := by
  rw [blkAt0_eq V c t, blkAt1_eq V c t, blkAt2_eq V c t, blkAt3_eq V c t, blkAt5_eq V c t]
theorem bias_eq (c : Dev nD) (t : Fin cfg1.N) : k1_pay17 (iblk V c 4 t) = bias V c := by rw [blkAt4_eq V c t]

-- After a first step: the layer's output on the point's tile; the running sums are the tile's group sums, sums of squares and counts.
theorem outs_first (c : Dev nD) (t : Fin cfg1.N) (h0 : t.val % 32 = 0) :
    (outsAt V c t.val t.isLt).1 = yTile V c (pt t)
    ∧ (outsAt V c t.val t.isLt).2.2.2.2.1 = k1_pay6 (hot V c (pt t)) (lin V c (pt t)) (bias V c)
    ∧ (outsAt V c t.val t.isLt).2.2.2.2.2.1 = k1_pay7 (hot V c (pt t)) (lin V c (pt t)) (bias V c)
    ∧ (outsAt V c t.val t.isLt).2.2.2.2.2.2 = k1_pay8 (hot V c (pt t)) := by
  rewrite [outsAt_A V c t h0]; unfold outA; dsimp only
  have q := canonA _ (rfl : rA V c t h0 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

-- After a later step: the layer's output again; each running sum is what the step before left plus the tile's share.
abbrev Later (c : Dev nD) (t : Fin cfg1.N) : Prop :=
    (outsAt V c t.val t.isLt).1 = yTile V c (pt t)
    ∧ (outsAt V c t.val t.isLt).2.2.2.2.1 = k1_pay9 (hot V c (pt t)) (lin V c (pt t)) (bias V c) (prev V c t).2.2.2.2.1
    ∧ (outsAt V c t.val t.isLt).2.2.2.2.2.1 = k1_pay10 (hot V c (pt t)) (lin V c (pt t)) (bias V c) (prev V c t).2.2.2.2.2.1
    ∧ (outsAt V c t.val t.isLt).2.2.2.2.2.2 = k1_pay11 (hot V c (pt t)) (prev V c t).2.2.2.2.2.2

theorem outs_mid (c : Dev nD) (t : Fin cfg1.N) (h0 : ¬t.val % 32 = 0) (h31 : ¬t.val % 32 = 31) : Later V c t := by
  unfold Later
  rewrite [outsAt_B V c t h0 h31]; unfold outB; dsimp only
  have q := canonB _ (rfl : rB V c t h0 h31 (prev V c t).2.2.2.2.1 (prev V c t).2.2.2.2.2.1 (prev V c t).2.2.2.2.2.2 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

theorem outs_end (c : Dev nD) (t : Fin cfg1.N) (h31 : t.val % 32 = 31) : Later V c t := by
  unfold Later
  rewrite [outsAt_C V c t h31]; unfold outC; dsimp only
  have q := canonC _ (rfl : rC V c t h31 (prev V c t).2.2.2.2.1 (prev V c t).2.2.2.2.2.1 (prev V c t).2.2.2.2.2.2 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

theorem outs_later (c : Dev nD) (t : Fin cfg1.N) (h0 : ¬t.val % 32 = 0) : Later V c t :=
  if h31 : t.val % 32 = 31 then outs_end V c t h31 else outs_mid V c t h0 h31

-- After a core's last step the three partial-sum blocks are the copies of the finished running sums.
theorem outs_last (c : Dev nD) (t : Fin cfg1.N) (h31 : t.val % 32 = 31) :
    (outsAt V c t.val t.isLt).2.1 = k1_pay12 (outsAt V c t.val t.isLt).2.2.2.2.1
    ∧ (outsAt V c t.val t.isLt).2.2.1 = k1_pay13 (outsAt V c t.val t.isLt).2.2.2.2.2.1
    ∧ (outsAt V c t.val t.isLt).2.2.2.1 = k1_pay14 (outsAt V c t.val t.isLt).2.2.2.2.2.2 := by
  obtain ⟨-, e0, e1, e2⟩ := outs_end V c t h31
  rw [e0, e1, e2]
  rewrite [outsAt_C V c t h31]; unfold outC; dsimp only
  have q := canonC_out _ (rfl : rC V c t h31 (prev V c t).2.2.2.2.1 (prev V c t).2.2.2.2.2.1 (prev V c t).2.2.2.2.2.2 = _)
  refine ⟨?_, ?_, ?_⟩ <;> rw [View.read_writes_junk_eq_canon]
  · rw [q.1, hot_eq V c t, lin_eq V c t, bias_eq V c t]
  · rw [q.2.1, hot_eq V c t, lin_eq V c t, bias_eq V c t]
  · rw [q.2.2, hot_eq V c t]

theorem outs_h (c : Dev nD) (t : Fin cfg1.N) : (outsAt V c t.val t.isLt).1 = yTile V c (pt t) :=
  if h0 : t.val % 32 = 0 then (outs_first V c t h0).1 else (outs_later V c t h0).1

def G6 (c : Dev nD) : Vec F S524288x64 .bf16 := fun i => yTile V c (tileIx (i 0)) (ix2 (rowIn (i 0)) (i 1))

theorem flush_h : ∀ t : Fin cfg1.N, (cfg1.win 6).flush t = true := (by decide +kernel : ∀ t : Fin grid1.N, _)

theorem flushed6_eq (c : Dev nD) (t : Fin cfg1.N) :
    (dat V c).flushed 6 t = ((cfg1.win 6).blk t).view.read (Elt F) (G6 V c) := by
  obtain ⟨-, -, -, -, -, -, -, -, -, -, -, -, e0, e1⟩ := idx_facts t
  show (cfg1.win 6).cut (grid1.coords t) ((dat V c).after 6 t) = _
  rw [after_6, outs_h]
  funext j
  rw [View.read_apply]
  have h0 : (((cfg1.win 6).blk t).view.emb j (0 : Fin 2)).val = t.val * 8192 + (j 0).val := by
    show win1_6.index t (0 : Fin 2) * 8192 + 1 * (j 0).val = _; rw [e0]; omega
  have h1 : (((cfg1.win 6).blk t).view.emb j (1 : Fin 2)).val = (j 1).val := by
    show win1_6.index t (1 : Fin 2) * 64 + 1 * (j 1).val = _; rw [e1]; omega
  have hj0 : (j 0).val < 8192 := (j 0).isLt
  have ht : t.val < 64 := (pt t).isLt
  have eT : tileIx (((cfg1.win 6).blk t).view.emb j (0 : Fin 2)) = pt t := Fin.ext (by
    show (((cfg1.win 6).blk t).view.emb j (0 : Fin 2)).val / 8192 = t.val; rw [h0]; omega)
  have eR : (ix2 (rowIn (((cfg1.win 6).blk t).view.emb j (0 : Fin 2))) (((cfg1.win 6).blk t).view.emb j (1 : Fin 2)) : S8192x64.Idx) = j := by
    funext a; apply Fin.ext
    match a with
    | ⟨0, _⟩ => show (((cfg1.win 6).blk t).view.emb j (0 : Fin 2)).val % 8192 = (j 0).val; rw [h0]; omega
    | ⟨1, _⟩ => exact h1
  show _ = yTile V c (tileIx _) (ix2 (rowIn _) _)
  rw [eT, eR]

theorem covered6 (i : S524288x64.Idx) : ∃ t : Fin cfg1.N, (cfg1.win 6).flush t = true ∧ i ∈ ((cfg1.win 6).blk t).view.set := by
  refine ⟨tp (tileIx (i 0)), flush_h _, ?_⟩
  obtain ⟨-, -, -, -, -, -, -, -, -, -, -, -, e0, e1⟩ := idx_facts (tp (tileIx (i 0)))
  show i ∈ ((View.whole (Pipeline.arrRef spec1 6)).slice (win1_6.rect (tp (tileIx (i 0))))).set
  rw [View.set_slice_whole, Rect.mem_set_unit]
  have hi0 : (i 0).val < 524288 := (i 0).isLt
  have hi1 : (i 1).val < 64 := (i 1).isLt
  intro a
  match a with
  | ⟨0, _⟩ =>
    show win1_6.index (tp (tileIx (i 0))) (0 : Fin 2) * 8192 ≤ (i 0).val ∧ (i 0).val < win1_6.index (tp (tileIx (i 0))) (0 : Fin 2) * 8192 + 8192
    rw [e0]; show (i 0).val / 8192 * 8192 ≤ (i 0).val ∧ (i 0).val < (i 0).val / 8192 * 8192 + 8192; omega
  | ⟨1, _⟩ =>
    show win1_6.index (tp (tileIx (i 0))) (1 : Fin 2) * 64 ≤ (i 1).val ∧ (i 1).val < win1_6.index (tp (tileIx (i 0))) (1 : Fin 2) * 64 + 64
    rw [e1]; omega

theorem arr_h_block (c : Dev nD) : (dat V c).arrAt 6 cfg1.N = G6 V c :=
  (dat V c).arrAt_eq_of_cover 6 (G6 V c) (fun t _ => flushed6_eq V c t) covered6

section AtIdeal

variable (V : (c : Dev nD) → (b : Ref sig .tc) → Buf (Elt Ideal) ((c : Thread nD τ).loc b))

theorem row_of_tile (n : Fin 524288) : rowOf (tileIx n) (rowIn n) = n := Cert.RowSums.rowOf_div_mod n

theorem pos_lt (core : Fin 2) (k : ℕ) (hk : k < 32) : core.val * 32 + k < cfg1.N := by
  rw [hN]; have := core.isLt; omega

def H (c : Dev nD) (hid : ∀ j, BitVec.toNat (A5 V c j) < 32) (n : Fin 524288) (d : Fin 64) : EReal :=
  Cert.Stages.act ((∑ k : Fin 64, Ideal.div (A0 V c (ix2 n k) - A1 V c (ix2 (⟨BitVec.toNat (A5 V c (ix2 n 0)), hid _⟩ : Fin 32) k))
      (A2 V c (ix2 (⟨BitVec.toNat (A5 V c (ix2 n 0)), hid _⟩ : Fin 32) k) + Cert.Stages.eps) * A3 V c (ix2 d k)) + A4 V c (ix2 0 d))

theorem y_apply (c : Dev nD) (hid : ∀ j, BitVec.toNat (A5 V c j) < 32)
    (hμ : ∀ j, ∃ r : ℝ, A1 V c j = (r : EReal)) (hσ : ∀ j, ∃ r : ℝ, A2 V c j = (r : EReal))
    (t : Fin 64) (r : Fin 8192) (d : Fin 64) :
    k1_pay1 (lin V c t) (bias V c) (ix2 r d) = H V c hid (rowOf t r) d :=
  Cert.KernelIdeal.Pay1.out_apply (idTile V c t) (A1 V c) (A2 V c) (hTile V c t) (A3 V c) (A4 V c) hμ hσ (fun r => hid _) r d

theorem arr_h (c : Dev nD) (hid : ∀ j, BitVec.toNat (A5 V c j) < 32)
    (hμ : ∀ j, ∃ r : ℝ, A1 V c j = (r : EReal)) (hσ : ∀ j, ∃ r : ℝ, A2 V c j = (r : EReal))
    (n : Fin 524288) (d : Fin 64) : (dat V c).arrAt 6 cfg1.N (ix2 n d) = H V c hid n d := by
  rw [arr_h_block]
  show k1_pay1 (lin V c (tileIx n)) (bias V c) (ix2 (rowIn n) d) = _
  rw [y_apply V c hid hμ hσ, row_of_tile]

-- A quantity set to its tile's share at a core's first step and raised by its tile's share at each later step ends, after the core's 32 steps, at the sum of the shares.
theorem acc_core (core : Fin 2) (x : (n : ℕ) → n < cfg1.N → EReal) (p : Fin 64 → EReal)
    (h0 : ∀ t : Fin cfg1.N, t.val % 32 = 0 → x t.val t.isLt = p (pt t))
    (hs : ∀ t : Fin cfg1.N, ¬t.val % 32 = 0 → x t.val t.isLt = x (t.val - 1) (Nat.lt_of_le_of_lt (Nat.sub_le _ _) t.isLt) + p (pt t)) :
    x (core.val * 32 + 31) (pos_lt core 31 (by norm_num)) = ∑ s : Fin 32, p (tileOf core s) := by
  have hx : ∀ {n m : ℕ} (e : n = m) (hn : n < cfg1.N) (hm : m < cfg1.N), x n hn = x m hm := fun e _ _ => by subst e; rfl
  have key : ∀ (k : ℕ) (hk : k < 32), x (core.val * 32 + k) (pos_lt core k hk)
      = ∑ s ∈ Finset.range (k + 1), if h : s < 32 then p (tileOf core ⟨s, h⟩) else 0 := by
    intro k
    induction k with
    | zero =>
      intro hk
      rw [Finset.sum_range_one, dif_pos hk]
      exact (h0 ⟨core.val * 32 + 0, pos_lt core 0 hk⟩ (by show (core.val * 32 + 0) % 32 = 0; omega)).trans (congrArg p (Fin.ext rfl))
    | succ k ih =>
      intro hk
      rw [Finset.sum_range_succ, ← ih (by omega), dif_pos hk]
      refine (hs ⟨core.val * 32 + (k + 1), pos_lt core (k + 1) hk⟩ (by show ¬(core.val * 32 + (k + 1)) % 32 = 0; omega)).trans ?_
      rw [hx (show core.val * 32 + (k + 1) - 1 = core.val * 32 + k from by omega) _ (pos_lt core k (by omega)),
        show pt ⟨core.val * 32 + (k + 1), pos_lt core (k + 1) hk⟩ = tileOf core ⟨k + 1, hk⟩ from Fin.ext rfl]
  rw [key 31 (by norm_num), Finset.sum_range]
  refine Finset.sum_congr rfl fun s _ => ?_
  rw [dif_pos s.isLt]

-- At a core's last point the entry of `s` that a block index of the core's block names is the point's own entry at the index's row and column.
theorem core_entry (s : (n : ℕ) → n < cfg1.N → Vec Ideal S32x64 .f32) (t : Fin cfg1.N) (h31 : t.val % 32 = 31)
    (i : S2x32x64.Idx) (j : S1x32x64.Idx) (h0 : (i 0).val = t.val / 32) (h1 : (i 1).val = (j 1).val) (h2 : (i 2).val = (j 2).val) :
    s ((i 0).val * 32 + 31) (pos_lt (i 0) 31 (by norm_num)) (ix2 (i 1) (i 2)) = s t.val t.isLt (ix2 (j 1) (j 2)) := by
  have hs : ∀ {n m : ℕ} (e : n = m) (hn : n < cfg1.N) (hm : m < cfg1.N), s n hn = s m hm := fun e _ _ => by subst e; rfl
  rw [hs (show (i 0).val * 32 + 31 = t.val from by rw [h0]; omega) _ t.isLt,
    show (ix2 (i 1) (i 2) : S32x64.Idx) = ix2 (j 1) (j 2) from by
      funext a; apply Fin.ext
      match a with
      | ⟨0, _⟩ => exact h1
      | ⟨1, _⟩ => exact h2]
  rfl

def G7 (c : Dev nD) : Vec Ideal S2x32x64 .f32 := fun i =>
  (outsAt V c ((i 0).val * 32 + 31) (pos_lt (i 0) 31 (by norm_num))).2.2.2.2.1 (ix2 (i 1) (i 2))

theorem flushed7_eq (c : Dev nD) (t : Fin cfg1.N) (hf : (cfg1.win 7).flush t = true) :
    (dat V c).flushed 7 t = ((cfg1.win 7).blk t).view.read (Elt Ideal) (G7 V c) := by
  have h31 : t.val % 32 = 31 := by
    by_contra h
    rw [noFlush7 t fun hc => h ((hcond2 t).mp hc)] at hf
    exact absurd hf (by decide)
  obtain ⟨e0, e1, e2, -⟩ := idx_facts_sums t
  show (cfg1.win 7).cut (grid1.coords t) ((dat V c).after 7 t) = _
  rw [after_7, (outs_last V c t h31).1]
  funext j
  rw [View.read_apply]
  have hj0 : (j 0).val < 1 := (j 0).isLt
  refine ((congrArg (k1_pay12 _) (Idealize.ShloMosaic.ValueIdx.eq_ix3 (j : S1x32x64.Idx))).trans (Cert.KernelIdeal.Pay1.pay12_apply _ (j 0) (j 1) (j 2))).trans
    (core_entry (fun n hn => (outsAt V c n hn).2.2.2.2.1) t h31 (((cfg1.win 7).blk t).view.emb j) j ?_ ?_ ?_).symm
  · show win1_7.index t (0 : Fin 3) * 1 + 1 * (j 0).val = _; rw [e0]; omega
  · show win1_7.index t (1 : Fin 3) * 32 + 1 * (j 1).val = _; rw [e1]; omega
  · show win1_7.index t (2 : Fin 3) * 64 + 1 * (j 2).val = _; rw [e2]; omega

theorem covered7 (i : S2x32x64.Idx) : ∃ t : Fin cfg1.N, (cfg1.win 7).flush t = true ∧ i ∈ ((cfg1.win 7).blk t).view.set := by
  have hi0 : (i 0).val < 2 := (i 0).isLt
  have hi1 : (i 1).val < 32 := (i 1).isLt
  have hi2 : (i 2).val < 64 := (i 2).isLt
  obtain ⟨t, ht⟩ : ∃ t : Fin cfg1.N, t.val = (i 0).val * 32 + 31 := ⟨⟨_, pos_lt (i 0) 31 (by norm_num)⟩, rfl⟩
  obtain ⟨e0, e1, e2, -⟩ := idx_facts_sums t
  refine ⟨t, flush7 t ((hcond2 t).mpr (by omega)), ?_⟩
  show i ∈ ((View.whole (Pipeline.arrRef spec1 7)).slice (win1_7.rect t)).set
  rw [View.set_slice_whole, Rect.mem_set_unit]
  intro a
  match a with
  | ⟨0, _⟩ => show win1_7.index t (0 : Fin 3) * 1 ≤ (i 0).val ∧ (i 0).val < win1_7.index t (0 : Fin 3) * 1 + 1; rw [e0]; omega
  | ⟨1, _⟩ => show win1_7.index t (1 : Fin 3) * 32 ≤ (i 1).val ∧ (i 1).val < win1_7.index t (1 : Fin 3) * 32 + 32; rw [e1]; omega
  | ⟨2, _⟩ => show win1_7.index t (2 : Fin 3) * 64 ≤ (i 2).val ∧ (i 2).val < win1_7.index t (2 : Fin 3) * 64 + 64; rw [e2]; omega

theorem arr7_block (c : Dev nD) : (dat V c).arrAt 7 cfg1.N = G7 V c :=
  (dat V c).arrAt_eq_of_cover 7 (G7 V c) (fun t hf => flushed7_eq V c t hf) covered7

def G8 (c : Dev nD) : Vec Ideal S2x32x64 .f32 := fun i =>
  (outsAt V c ((i 0).val * 32 + 31) (pos_lt (i 0) 31 (by norm_num))).2.2.2.2.2.1 (ix2 (i 1) (i 2))

theorem flushed8_eq (c : Dev nD) (t : Fin cfg1.N) (hf : (cfg1.win 8).flush t = true) :
    (dat V c).flushed 8 t = ((cfg1.win 8).blk t).view.read (Elt Ideal) (G8 V c) := by
  have h31 : t.val % 32 = 31 := by
    by_contra h
    rw [noFlush8 t fun hc => h ((hcond2 t).mp hc)] at hf
    exact absurd hf (by decide)
  obtain ⟨-, -, -, e0, e1, e2, -⟩ := idx_facts_sums t
  show (cfg1.win 8).cut (grid1.coords t) ((dat V c).after 8 t) = _
  rw [after_8, (outs_last V c t h31).2.1]
  funext j
  rw [View.read_apply]
  have hj0 : (j 0).val < 1 := (j 0).isLt
  refine ((congrArg (k1_pay13 _) (Idealize.ShloMosaic.ValueIdx.eq_ix3 (j : S1x32x64.Idx))).trans (Cert.KernelIdeal.Pay1.pay13_apply _ (j 0) (j 1) (j 2))).trans
    (core_entry (fun n hn => (outsAt V c n hn).2.2.2.2.2.1) t h31 (((cfg1.win 8).blk t).view.emb j) j ?_ ?_ ?_).symm
  · show win1_8.index t (0 : Fin 3) * 1 + 1 * (j 0).val = _; rw [e0]; omega
  · show win1_8.index t (1 : Fin 3) * 32 + 1 * (j 1).val = _; rw [e1]; omega
  · show win1_8.index t (2 : Fin 3) * 64 + 1 * (j 2).val = _; rw [e2]; omega

theorem covered8 (i : S2x32x64.Idx) : ∃ t : Fin cfg1.N, (cfg1.win 8).flush t = true ∧ i ∈ ((cfg1.win 8).blk t).view.set := by
  have hi0 : (i 0).val < 2 := (i 0).isLt
  have hi1 : (i 1).val < 32 := (i 1).isLt
  have hi2 : (i 2).val < 64 := (i 2).isLt
  obtain ⟨t, ht⟩ : ∃ t : Fin cfg1.N, t.val = (i 0).val * 32 + 31 := ⟨⟨_, pos_lt (i 0) 31 (by norm_num)⟩, rfl⟩
  obtain ⟨-, -, -, e0, e1, e2, -⟩ := idx_facts_sums t
  refine ⟨t, flush8 t ((hcond2 t).mpr (by omega)), ?_⟩
  show i ∈ ((View.whole (Pipeline.arrRef spec1 8)).slice (win1_8.rect t)).set
  rw [View.set_slice_whole, Rect.mem_set_unit]
  intro a
  match a with
  | ⟨0, _⟩ => show win1_8.index t (0 : Fin 3) * 1 ≤ (i 0).val ∧ (i 0).val < win1_8.index t (0 : Fin 3) * 1 + 1; rw [e0]; omega
  | ⟨1, _⟩ => show win1_8.index t (1 : Fin 3) * 32 ≤ (i 1).val ∧ (i 1).val < win1_8.index t (1 : Fin 3) * 32 + 32; rw [e1]; omega
  | ⟨2, _⟩ => show win1_8.index t (2 : Fin 3) * 64 ≤ (i 2).val ∧ (i 2).val < win1_8.index t (2 : Fin 3) * 64 + 64; rw [e2]; omega

theorem arr8_block (c : Dev nD) : (dat V c).arrAt 8 cfg1.N = G8 V c :=
  (dat V c).arrAt_eq_of_cover 8 (G8 V c) (fun t hf => flushed8_eq V c t hf) covered8

def G9 (c : Dev nD) : Vec Ideal S2x32x64 .f32 := fun i =>
  (outsAt V c ((i 0).val * 32 + 31) (pos_lt (i 0) 31 (by norm_num))).2.2.2.2.2.2 (ix2 (i 1) (i 2))

theorem flushed9_eq (c : Dev nD) (t : Fin cfg1.N) (hf : (cfg1.win 9).flush t = true) :
    (dat V c).flushed 9 t = ((cfg1.win 9).blk t).view.read (Elt Ideal) (G9 V c) := by
  have h31 : t.val % 32 = 31 := by
    by_contra h
    rw [noFlush9 t fun hc => h ((hcond2 t).mp hc)] at hf
    exact absurd hf (by decide)
  obtain ⟨-, -, -, -, -, -, e0, e1, e2⟩ := idx_facts_sums t
  show (cfg1.win 9).cut (grid1.coords t) ((dat V c).after 9 t) = _
  rw [after_9, (outs_last V c t h31).2.2]
  funext j
  rw [View.read_apply]
  have hj0 : (j 0).val < 1 := (j 0).isLt
  refine ((congrArg (k1_pay14 _) (Idealize.ShloMosaic.ValueIdx.eq_ix3 (j : S1x32x64.Idx))).trans (Cert.KernelIdeal.Pay1.pay14_apply _ (j 0) (j 1) (j 2))).trans
    (core_entry (fun n hn => (outsAt V c n hn).2.2.2.2.2.2) t h31 (((cfg1.win 9).blk t).view.emb j) j ?_ ?_ ?_).symm
  · show win1_9.index t (0 : Fin 3) * 1 + 1 * (j 0).val = _; rw [e0]; omega
  · show win1_9.index t (1 : Fin 3) * 32 + 1 * (j 1).val = _; rw [e1]; omega
  · show win1_9.index t (2 : Fin 3) * 64 + 1 * (j 2).val = _; rw [e2]; omega

theorem covered9 (i : S2x32x64.Idx) : ∃ t : Fin cfg1.N, (cfg1.win 9).flush t = true ∧ i ∈ ((cfg1.win 9).blk t).view.set := by
  have hi0 : (i 0).val < 2 := (i 0).isLt
  have hi1 : (i 1).val < 32 := (i 1).isLt
  have hi2 : (i 2).val < 64 := (i 2).isLt
  obtain ⟨t, ht⟩ : ∃ t : Fin cfg1.N, t.val = (i 0).val * 32 + 31 := ⟨⟨_, pos_lt (i 0) 31 (by norm_num)⟩, rfl⟩
  obtain ⟨-, -, -, -, -, -, e0, e1, e2⟩ := idx_facts_sums t
  refine ⟨t, flush9 t ((hcond2 t).mpr (by omega)), ?_⟩
  show i ∈ ((View.whole (Pipeline.arrRef spec1 9)).slice (win1_9.rect t)).set
  rw [View.set_slice_whole, Rect.mem_set_unit]
  intro a
  match a with
  | ⟨0, _⟩ => show win1_9.index t (0 : Fin 3) * 1 ≤ (i 0).val ∧ (i 0).val < win1_9.index t (0 : Fin 3) * 1 + 1; rw [e0]; omega
  | ⟨1, _⟩ => show win1_9.index t (1 : Fin 3) * 32 ≤ (i 1).val ∧ (i 1).val < win1_9.index t (1 : Fin 3) * 32 + 32; rw [e1]; omega
  | ⟨2, _⟩ => show win1_9.index t (2 : Fin 3) * 64 ≤ (i 2).val ∧ (i 2).val < win1_9.index t (2 : Fin 3) * 64 + 64; rw [e2]; omega

theorem arr9_block (c : Dev nD) : (dat V c).arrAt 9 cfg1.N = G9 V c :=
  (dat V c).arrAt_eq_of_cover 9 (G9 V c) (fun t hf => flushed9_eq V c t hf) covered9

theorem arr_sum (c : Dev nD) (hid : ∀ j, BitVec.toNat (A5 V c j) < 32)
    (hμ : ∀ j, ∃ r : ℝ, A1 V c j = (r : EReal)) (hσ : ∀ j, ∃ r : ℝ, A2 V c j = (r : EReal))
    (core : Fin 2) (g : Fin 32) (d : Fin 64) :
    (dat V c).arrAt 7 cfg1.N (ix3 core g d)
      = ∑ s : Fin 32, ∑ r : Fin 8192, (if BitVec.toNat (A5 V c (ix2 (rowOf (tileOf core s) r) 0)) = g.val
          then H V c hid (rowOf (tileOf core s) r) d else 0) := by
  rw [arr7_block]
  show (outsAt V c (core.val * 32 + 31) (pos_lt core 31 (by norm_num))).2.2.2.2.1 (ix2 g d) = _
  refine (acc_core core (fun n hn => (outsAt V c n hn).2.2.2.2.1 (ix2 g d)) (fun t => k1_pay3 (hot V c t) (lin V c t) (bias V c) (ix2 g d))
    (fun t h => (congrFun (outs_first V c t h).2.1 _).trans (congrFun (Cert.KernelIdeal.Pay1.pay6_eq _ _ _) _))
    (fun t h => (congrFun (outs_later V c t h).2.1 _).trans (Cert.KernelIdeal.Pay1.pay9_apply _ _ _ _ _))).trans ?_
  refine Finset.sum_congr rfl fun s _ => ?_
  rw [Cert.KernelIdeal.Pay1.pay3_apply]
  refine Finset.sum_congr rfl fun r _ => ?_
  rw [← Cert.KernelIdeal.Pay1.pay1_apply (lin V c (tileOf core s)) (bias V c) r d, y_apply V c hid hμ hσ]
  rfl

theorem arr_sumsq (c : Dev nD) (hid : ∀ j, BitVec.toNat (A5 V c j) < 32)
    (hμ : ∀ j, ∃ r : ℝ, A1 V c j = (r : EReal)) (hσ : ∀ j, ∃ r : ℝ, A2 V c j = (r : EReal))
    (core : Fin 2) (g : Fin 32) (d : Fin 64) :
    (dat V c).arrAt 8 cfg1.N (ix3 core g d)
      = ∑ s : Fin 32, ∑ r : Fin 8192, (if BitVec.toNat (A5 V c (ix2 (rowOf (tileOf core s) r) 0)) = g.val
          then H V c hid (rowOf (tileOf core s) r) d * H V c hid (rowOf (tileOf core s) r) d else 0) := by
  rw [arr8_block]
  show (outsAt V c (core.val * 32 + 31) (pos_lt core 31 (by norm_num))).2.2.2.2.2.1 (ix2 g d) = _
  refine (acc_core core (fun n hn => (outsAt V c n hn).2.2.2.2.2.1 (ix2 g d)) (fun t => k1_pay4 (hot V c t) (lin V c t) (bias V c) (ix2 g d))
    (fun t h => (congrFun (outs_first V c t h).2.2.1 _).trans (congrFun (Cert.KernelIdeal.Pay1.pay7_eq _ _ _) _))
    (fun t h => (congrFun (outs_later V c t h).2.2.1 _).trans (Cert.KernelIdeal.Pay1.pay10_apply _ _ _ _ _))).trans ?_
  refine Finset.sum_congr rfl fun s _ => ?_
  rw [Cert.KernelIdeal.Pay1.pay4_apply]
  refine Finset.sum_congr rfl fun r _ => ?_
  rw [← Cert.KernelIdeal.Pay1.pay1_apply (lin V c (tileOf core s)) (bias V c) r d, y_apply V c hid hμ hσ]
  rfl

theorem arr_cnt (c : Dev nD) (core : Fin 2) (g : Fin 32) (d : Fin 64) :
    (dat V c).arrAt 9 cfg1.N (ix3 core g d)
      = ∑ s : Fin 32, ∑ r : Fin 8192, (if BitVec.toNat (A5 V c (ix2 (rowOf (tileOf core s) r) 0)) = g.val
          then (1 : EReal) else 0) := by
  rw [arr9_block]
  show (outsAt V c (core.val * 32 + 31) (pos_lt core 31 (by norm_num))).2.2.2.2.2.2 (ix2 g d) = _
  refine (acc_core core (fun n hn => (outsAt V c n hn).2.2.2.2.2.2 (ix2 g d)) (fun t => k1_pay5 (hot V c t) (ix2 g d))
    (fun t h => (congrFun (outs_first V c t h).2.2.2 _).trans (congrFun (Cert.KernelIdeal.Pay1.pay8_eq _) _))
    (fun t h => (congrFun (outs_later V c t h).2.2.2 _).trans (Cert.KernelIdeal.Pay1.pay11_apply _ _ _))).trans ?_
  refine Finset.sum_congr rfl fun s _ => ?_
  rw [Cert.KernelIdeal.Pay1.pay5_apply]
  rfl

end AtIdeal

end Cert.KernelIdeal.Val1

end
-- ==== Proof.KI.Pay2.lean ====
/- What a hidden layer's body computes from one tile, entry by entry: rows centred and scaled by their group's statistics, the affine map, the rectifier, and the per-group sums. -/
import proofs.«431227_j85710367359314_3_alg».proof.Proof.Gen.KernelIdeal.Skeleton
import proofs.«431227_j85710367359314_3_alg».proof.Proof.Stages
import proofs.«431227_j85710367359314_3_alg».proof.Proof.KI.PayLib
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay2

open Idealize.ShloMosaic Idealize.ShloMosaic.ValueIdx Idealize.SL.Sem
open Cert.KernelIdeal Cert.KernelIdeal.Gen Cert.KernelIdeal.PayLib
open scoped BigOperators

theorem pay15_apply_nat (v0 : IVec S8192x1 32) (r : Fin 8192) (g : Fin 32) :
    k2_pay15 (F := Ideal) v0 (ix2 r g) = if (v0 (ix2 r 0)).toNat = g.val then 1 else 0 := by
  unfold k2_pay15
  exact onehotRows_apply v0 _ _ _ _ r g

theorem pay15_apply (v0 : IVec S8192x1 32) (hid : ∀ r : Fin 8192, (v0 (ix2 r 0)).toNat < 32) (r : Fin 8192) (g : Fin 32) :
    k2_pay15 (F := Ideal) v0 (ix2 r g) = if (⟨(v0 (ix2 r 0)).toNat, hid r⟩ : Fin 32) = g then 1 else 0 := by
  rw [pay15_apply_nat]
  exact if_congr (Fin.ext_iff (a := (⟨(v0 (ix2 r 0)).toNat, hid r⟩ : Fin 32)) (b := g)).symm rfl rfl

theorem pay17_apply (v34 : FVec Ideal S1x64 .f32) (r : Fin 8192) (d : Fin 64) :
    k2_pay17 v34 (ix2 r d) = v34 (ix2 0 d) := by
  unfold k2_pay17
  rw [broadcastTo_1b_ab_apply, shapeCast_self]

theorem pay1_apply (v38 v39 : FVec Ideal S8192x64 .f32) (r : Fin 8192) (d : Fin 64) :
    k2_pay1 v38 v39 (ix2 r d) = Cert.Stages.act (v38 (ix2 r d) + v39 (ix2 r d)) := by
  unfold k2_pay1 Cert.Stages.act Cert.Stages.slope
  rw [select_apply, cmpf_apply, mulf_apply, broadcast_apply, broadcast_apply, addf_apply]
  exact select_oge_zero _ _

theorem pay3_apply (v0 : IVec S8192x1 32) (v38 v39 : FVec Ideal S8192x64 .f32) (g : Fin 32) (d : Fin 64) :
    k2_pay3 (k2_pay15 (F := Ideal) v0) v38 v39 (ix2 g d)
      = ∑ n : Fin 8192, if (v0 (ix2 n 0)).toNat = g.val then Cert.Stages.act (v38 (ix2 n d) + v39 (ix2 n d)) else 0 := by
  unfold k2_pay3
  rw [matmul_tile_apply]
  refine Finset.sum_congr rfl fun n _ => ?_
  rw [pay15_apply_nat, pay1_apply]
  split_ifs
  · exact one_mul _
  · exact zero_mul _

theorem pay4_apply (v0 : IVec S8192x1 32) (v38 v39 : FVec Ideal S8192x64 .f32) (g : Fin 32) (d : Fin 64) :
    k2_pay4 (k2_pay15 (F := Ideal) v0) v38 v39 (ix2 g d)
      = ∑ n : Fin 8192, if (v0 (ix2 n 0)).toNat = g.val
          then Cert.Stages.act (v38 (ix2 n d) + v39 (ix2 n d)) * Cert.Stages.act (v38 (ix2 n d) + v39 (ix2 n d)) else 0 := by
  unfold k2_pay4
  rw [matmul_tile_apply]
  refine Finset.sum_congr rfl fun n _ => ?_
  rw [pay15_apply_nat, mulf_apply, pay1_apply]
  split_ifs
  · exact one_mul _
  · exact zero_mul _

theorem pay5_apply (v0 : IVec S8192x1 32) (g : Fin 32) (d : Fin 64) :
    k2_pay5 (k2_pay15 (F := Ideal) v0) (ix2 g d) = ∑ n : Fin 8192, if (v0 (ix2 n 0)).toNat = g.val then (1 : EReal) else 0 := by
  unfold k2_pay5
  rw [matmul_tile_apply]
  refine Finset.sum_congr rfl fun n _ => ?_
  rw [pay15_apply_nat, broadcast_apply]
  show (if (v0 (ix2 n 0)).toNat = g.val then (1 : EReal) else 0) * Ideal.ofBits .f32 0x3F800000#32 = _
  rw [Ideal.ofBits_one_f32, mul_one]

theorem pay6_eq (v6 : FVec Ideal S8192x32 .f32) (v38 v39 : FVec Ideal S8192x64 .f32) : k2_pay6 v6 v38 v39 = k2_pay3 v6 v38 v39 := by
  unfold k2_pay6; exact shapeCast_self _ _
theorem pay7_eq (v6 : FVec Ideal S8192x32 .f32) (v38 v39 : FVec Ideal S8192x64 .f32) : k2_pay7 v6 v38 v39 = k2_pay4 v6 v38 v39 := by
  unfold k2_pay7; exact shapeCast_self _ _
theorem pay8_eq (v6 : FVec Ideal S8192x32 .f32) : k2_pay8 v6 = k2_pay5 v6 := by
  unfold k2_pay8; exact shapeCast_self _ _

theorem pay9_apply (v6 : FVec Ideal S8192x32 .f32) (v38 v39 : FVec Ideal S8192x64 .f32) (v62 : FVec Ideal S32x64 .f32) (j : S32x64.Idx) :
    k2_pay9 v6 v38 v39 v62 j = v62 j + k2_pay3 v6 v38 v39 j := by
  unfold k2_pay9; rw [shapeCast_self, addf_apply]
theorem pay10_apply (v6 : FVec Ideal S8192x32 .f32) (v38 v39 : FVec Ideal S8192x64 .f32) (v67 : FVec Ideal S32x64 .f32) (j : S32x64.Idx) :
    k2_pay10 v6 v38 v39 v67 j = v67 j + k2_pay4 v6 v38 v39 j := by
  unfold k2_pay10; rw [shapeCast_self, addf_apply]
theorem pay11_apply (v6 : FVec Ideal S8192x32 .f32) (v72 : FVec Ideal S32x64 .f32) (j : S32x64.Idx) :
    k2_pay11 v6 v72 j = v72 j + k2_pay5 v6 j := by
  unfold k2_pay11; rw [shapeCast_self, addf_apply]

theorem pay12_apply (v62 : FVec Ideal S32x64 .f32) (u : Fin 1) (g : Fin 32) (d : Fin 64) : k2_pay12 v62 (ix3 u g d) = v62 (ix2 g d) := by
  unfold k2_pay12; exact shapeCast_ab_1ab_apply _ _ u g d
theorem pay13_apply (v66 : FVec Ideal S32x64 .f32) (u : Fin 1) (g : Fin 32) (d : Fin 64) : k2_pay13 v66 (ix3 u g d) = v66 (ix2 g d) := by
  unfold k2_pay13; exact shapeCast_ab_1ab_apply _ _ u g d
theorem pay14_apply (v70 : FVec Ideal S32x64 .f32) (u : Fin 1) (g : Fin 32) (d : Fin 64) : k2_pay14 v70 (ix3 u g d) = v70 (ix2 g d) := by
  unfold k2_pay14; exact shapeCast_ab_1ab_apply _ _ u g d

theorem pay16_apply (v0 : IVec S8192x1 32) (v8 v17 : FVec Ideal S32x64 .f32) (v26 : FVec Ideal S8192x64 .bf16) (v33 : FVec Ideal S64x64 .f32)
    (hμ : ∀ j, ∃ x : ℝ, v8 j = (x : EReal)) (hσ : ∀ j, ∃ x : ℝ, v17 j = (x : EReal))
    (hid : ∀ r : Fin 8192, (v0 (ix2 r 0)).toNat < 32) (r : Fin 8192) (d : Fin 64) :
    k2_pay16 (F := Ideal) v0 v8 v17 v26 v33 (ix2 r d)
      = ∑ k : Fin 64, Ideal.div (v26 (ix2 r k) - v8 (ix2 (⟨(v0 (ix2 r 0)).toNat, hid r⟩ : Fin 32) k))
          (v17 (ix2 (⟨(v0 (ix2 r 0)).toNat, hid r⟩ : Fin 32) k) + Cert.Stages.eps) * v33 (ix2 d k) := by
  unfold k2_pay16 Cert.Stages.eps
  rw [matmul_rows_weights_apply]
  refine Finset.sum_congr rfl fun k _ => ?_
  have hf := fun t h k => fetch_apply (k2_pay15 (F := Ideal) v0) _ (hid r) r (fun g => pay15_apply_nat v0 r g) t h k
  rw [truncf_apply, truncf_apply, divf_apply, subf_apply, addf_apply, addf_apply, addf_apply, extf_apply, broadcast_apply,
    hf, hf, hf, hf]
  rw [truncf_apply, truncf_apply, truncf_apply, truncf_apply, subf_apply, subf_apply, shapeCast_self, shapeCast_self, shapeCast_self]
  rw [sub_self_of_real (hμ _), sub_self_of_real (hσ _), add_zero, add_zero]
  rfl

theorem out_apply (v0 : IVec S8192x1 32) (v8 v17 : FVec Ideal S32x64 .f32) (v26 : FVec Ideal S8192x64 .bf16) (v33 : FVec Ideal S64x64 .f32)
    (v34 : FVec Ideal S1x64 .f32)
    (hμ : ∀ j, ∃ x : ℝ, v8 j = (x : EReal)) (hσ : ∀ j, ∃ x : ℝ, v17 j = (x : EReal))
    (hid : ∀ r : Fin 8192, (v0 (ix2 r 0)).toNat < 32) (r : Fin 8192) (d : Fin 64) :
    k2_pay1 (k2_pay16 (F := Ideal) v0 v8 v17 v26 v33) (k2_pay17 v34) (ix2 r d)
      = Cert.Stages.act ((∑ k : Fin 64, Ideal.div (v26 (ix2 r k) - v8 (ix2 (⟨(v0 (ix2 r 0)).toNat, hid r⟩ : Fin 32) k))
          (v17 (ix2 (⟨(v0 (ix2 r 0)).toNat, hid r⟩ : Fin 32) k) + Cert.Stages.eps) * v33 (ix2 d k)) + v34 (ix2 0 d)) := by
  rw [pay1_apply, pay16_apply v0 v8 v17 v26 v33 hμ hσ hid, pay17_apply]

end Cert.KernelIdeal.Pay2

end
-- ==== Proof.KI.Val2.lean ====
import proofs.«431227_j85710367359314_3_alg».proof.Proof.KI.Reg2
import proofs.«431227_j85710367359314_3_alg».proof.Proof.KI.Pay2
import proofs.«431227_j85710367359314_3_alg».proof.Proof.Stages
import proofs.«431227_j85710367359314_3_alg».proof.Proof.RowSums
import Idealize.ShloMosaic.Lib.Pipeline.Value

noncomputable section

namespace Cert.KernelIdeal.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R2
open Cert.RowSums (rowOf tileOf)
open Idealize.ShloMosaic.ValueIdx (ix1 ix2 ix3)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

section Canon

variable {c : Dev nD} {i : grid2.Coords} {arg2 : Memref sig .tc .vmem S8192x64 .bf16} {harg2 : arg2.IsWhole} {arg3 : Memref sig .tc .vmem S32x64 .f32} {harg3 : arg3.IsWhole} {arg4 : Memref sig .tc .vmem S32x64 .f32} {harg4 : arg4.IsWhole} {arg5 : Memref sig .tc .vmem S64x64 .f32} {harg5 : arg5.IsWhole} {arg6 : Memref sig .tc .vmem S1x64 .f32} {harg6 : arg6.IsWhole} {arg7 : Memref sig .tc .vmem S8192x1 .i32} {harg7 : arg7.IsWhole} {arg8 : Memref sig .tc .vmem S8192x64 .bf16} {harg8 : arg8.IsWhole} {arg9 : Memref sig .tc .vmem S1x32x64 .f32} {harg9 : arg9.IsWhole} {arg10 : Memref sig .tc .vmem S1x32x64 .f32} {harg10 : arg10.IsWhole} {arg11 : Memref sig .tc .vmem S1x32x64 .f32} {harg11 : arg11.IsWhole} {arg12 : Memref sig .tc .vmem S32x64 .f32} {harg12 : arg12.IsWhole} {arg13 : Memref sig .tc .vmem S32x64 .f32} {harg13 : arg13.IsWhole} {arg14 : Memref sig .tc .vmem S32x64 .f32} {harg14 : arg14.IsWhole}
  {x0 : Vec F S8192x64 .bf16} {x1 : Vec F S32x64 .f32} {x2 : Vec F S32x64 .f32} {x3 : Vec F S64x64 .f32} {x4 : Vec F S1x64 .f32} {x5 : Vec F S8192x1 .i32}
  {xs0 xs1 xs2 : Vec F S32x64 .f32}

-- A first step stores the layer's output on the tile and sets the three running sums to the tile's shares.
theorem canonA {hc0 : cond0 i} {hc1 : ¬cond1 i} {hc2 : ¬cond2 i} (r) (hr : r = runA c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5) :
    View.canon r.1 = k2_pay2 (k2_pay16 x5 x1 x2 x0 x3) (k2_pay17 x4)
    ∧ View.canon r.2.1 = k2_pay6 (k2_pay15 x5) (k2_pay16 x5 x1 x2 x0 x3) (k2_pay17 x4)
    ∧ View.canon r.2.2.1 = k2_pay7 (k2_pay15 x5) (k2_pay16 x5 x1 x2 x0 x3) (k2_pay17 x4)
    ∧ View.canon r.2.2.2.1 = k2_pay8 (k2_pay15 x5) := by
  subst hr
  refine ⟨?_, ?_, ?_, ?_⟩ <;>
  · unfold runA
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- A middle step stores the layer's output and adds the tile's shares to the running sums.
theorem canonB {hc0 : ¬cond0 i} {hc1 : cond1 i} {hc2 : ¬cond2 i} (r) (hr : r = runB c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.1 = k2_pay2 (k2_pay16 x5 x1 x2 x0 x3) (k2_pay17 x4)
    ∧ View.canon r.2.1 = k2_pay9 (k2_pay15 x5) (k2_pay16 x5 x1 x2 x0 x3) (k2_pay17 x4) xs0
    ∧ View.canon r.2.2.1 = k2_pay10 (k2_pay15 x5) (k2_pay16 x5 x1 x2 x0 x3) (k2_pay17 x4) xs1
    ∧ View.canon r.2.2.2.1 = k2_pay11 (k2_pay15 x5) xs2 := by
  subst hr
  refine ⟨?_, ?_, ?_, ?_⟩ <;>
  · unfold runB
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- A last step does the same,
theorem canonC {hc0 : ¬cond0 i} {hc1 : cond1 i} {hc2 : cond2 i} (r) (hr : r = runC c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.1 = k2_pay2 (k2_pay16 x5 x1 x2 x0 x3) (k2_pay17 x4)
    ∧ View.canon r.2.2.2.2.1 = k2_pay9 (k2_pay15 x5) (k2_pay16 x5 x1 x2 x0 x3) (k2_pay17 x4) xs0
    ∧ View.canon r.2.2.2.2.2.1 = k2_pay10 (k2_pay15 x5) (k2_pay16 x5 x1 x2 x0 x3) (k2_pay17 x4) xs1
    ∧ View.canon r.2.2.2.2.2.2.1 = k2_pay11 (k2_pay15 x5) xs2 := by
  subst hr
  refine ⟨?_, ?_, ?_, ?_⟩ <;>
  · unfold runC
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

-- and copies the finished running sums into the three partial-sum blocks.
theorem canonC_out {hc0 : ¬cond0 i} {hc1 : cond1 i} {hc2 : cond2 i} (r) (hr : r = runC c i arg2 harg2 arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 xs0 xs1 xs2) :
    View.canon r.2.1 = k2_pay12 (k2_pay9 (k2_pay15 x5) (k2_pay16 x5 x1 x2 x0 x3) (k2_pay17 x4) xs0)
    ∧ View.canon r.2.2.1 = k2_pay13 (k2_pay10 (k2_pay15 x5) (k2_pay16 x5 x1 x2 x0 x3) (k2_pay17 x4) xs1)
    ∧ View.canon r.2.2.2.1 = k2_pay14 (k2_pay11 (k2_pay15 x5) xs2) := by
  subst hr
  refine ⟨?_, ?_, ?_⟩ <;>
  · unfold runC
    dsimp only
    sl_unfold_words
    first | rw [View.canon_unit_zero hz2] | rw [View.canon_unit_zero hz3]
    simp only [View.readAt_eq_ld, harg2.read_unread, harg3.read_unread, harg4.read_unread, harg5.read_unread, harg6.read_unread, harg7.read_unread,
      harg12.read_unread, harg13.read_unread, harg14.read_unread,
      View.ld_unit_zero (S := S8192x64) hz2, View.ld_unit_zero (S := S32x64) hz2, View.ld_unit_zero (S := S64x64) hz2,
      View.ld_unit_zero (S := S1x64) hz2, View.ld_unit_zero (S := S8192x1) hz2, View.ld_unit_zero (S := S1x32x64) hz3,
      View.readCov_unit_zero (S := S32x64) _ hz2, View.readCov_unit_zero (S := S8192x64) _ hz2]

end Canon

abbrev A0 (c : Dev nD) : Vec F S524288x64 .bf16 := V c (Pipeline.arrRef spec2 0)
abbrev A1 (c : Dev nD) : Vec F S32x64 .f32 := V c (Pipeline.arrRef spec2 1)
abbrev A2 (c : Dev nD) : Vec F S32x64 .f32 := V c (Pipeline.arrRef spec2 2)
abbrev A3 (c : Dev nD) : Vec F S64x64 .f32 := V c (Pipeline.arrRef spec2 3)
abbrev A4 (c : Dev nD) : Vec F S1x64 .f32 := V c (Pipeline.arrRef spec2 4)
abbrev A5 (c : Dev nD) : Vec F S524288x1 .i32 := V c (Pipeline.arrRef spec2 5)

def pt (t : Fin cfg2.N) : Fin 64 := ⟨t.val, by have h := t.isLt; have e : cfg2.N = 64 := hN; omega⟩
def tp (t : Fin 64) : Fin cfg2.N := ⟨t.val, by rw [hN]; exact t.isLt⟩

def hTile (c : Dev nD) (t : Fin 64) : Vec F S8192x64 .bf16 := fun x => A0 V c (ix2 (rowOf t (x 0)) (x 1))
def idTile (c : Dev nD) (t : Fin 64) : Vec F S8192x1 .i32 := fun x => A5 V c (ix2 (rowOf t (x 0)) (x 1))

def tileIx (n : Fin 524288) : Fin 64 := ⟨n.val / 8192, by have := n.isLt; omega⟩
def rowIn (n : Fin 524288) : Fin 8192 := ⟨n.val % 8192, Nat.mod_lt _ (by norm_num)⟩

abbrev hot (c : Dev nD) (t : Fin 64) : FVec F S8192x32 .f32 := k2_pay15 (idTile V c t)
abbrev lin (c : Dev nD) (t : Fin 64) : FVec F S8192x64 .f32 := k2_pay16 (idTile V c t) (A1 V c) (A2 V c) (hTile V c t) (A3 V c)
abbrev bias (c : Dev nD) : FVec F S8192x64 .f32 := k2_pay17 (A4 V c)
def yTile (c : Dev nD) (t : Fin 64) : FVec F S8192x64 .bf16 := k2_pay2 (lin V c t) (bias V c)

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)
theorem idx_facts_sums : ∀ t : Fin cfg2.N,
    win2_7.index t (0 : Fin 3) = t.val / 32 ∧ win2_7.index t (1 : Fin 3) = 0 ∧ win2_7.index t (2 : Fin 3) = 0
    ∧ win2_8.index t (0 : Fin 3) = t.val / 32 ∧ win2_8.index t (1 : Fin 3) = 0 ∧ win2_8.index t (2 : Fin 3) = 0
    ∧ win2_9.index t (0 : Fin 3) = t.val / 32 ∧ win2_9.index t (1 : Fin 3) = 0 ∧ win2_9.index t (2 : Fin 3) = 0 :=
  (by decide +kernel : ∀ t : Fin grid2.N, _)

theorem blkAt0_eq (c : Dev nD) (t : Fin cfg2.N) : (iblk V c 0 t : Vec F S8192x64 .bf16) = hTile V c (pt t) := by
  obtain ⟨e0, e1, -⟩ := idx_facts t
  funext x
  unfold iblk
  rw [View.read_apply]
  show (V c (Pipeline.arrRef spec2 0) : Vec F S524288x64 .bf16) _ = (V c (Pipeline.arrRef spec2 0) : Vec F S524288x64 .bf16) _
  refine congrArg (V c (Pipeline.arrRef spec2 0) : Vec F S524288x64 .bf16) ?_
  funext a; apply Fin.ext
  match a with
  | ⟨0, _⟩ => show win2_0.index t (0 : Fin 2) * 8192 + 1 * (x 0).val = t.val * 8192 + (x 0).val; rw [e0]; omega
  | ⟨1, _⟩ => show win2_0.index t (1 : Fin 2) * 64 + 1 * (x 1).val = (x 1).val; rw [e1]; omega

theorem blkAt5_eq (c : Dev nD) (t : Fin cfg2.N) : (iblk V c 5 t : Vec F S8192x1 .i32) = idTile V c (pt t) := by
  obtain ⟨-, -, -, -, -, -, -, -, -, -, e0, e1, -⟩ := idx_facts t
  funext x
  unfold iblk
  rw [View.read_apply]
  show (V c (Pipeline.arrRef spec2 5) : Vec F S524288x1 .i32) _ = (V c (Pipeline.arrRef spec2 5) : Vec F S524288x1 .i32) _
  refine congrArg (V c (Pipeline.arrRef spec2 5) : Vec F S524288x1 .i32) ?_
  funext a; apply Fin.ext
  match a with
  | ⟨0, _⟩ => show win2_5.index t (0 : Fin 2) * 8192 + 1 * (x 0).val = t.val * 8192 + (x 0).val; rw [e0]; omega
  | ⟨1, _⟩ => show win2_5.index t (1 : Fin 2) * 1 + 1 * (x 1).val = (x 1).val; rw [e1]; omega

theorem blkAt1_eq (c : Dev nD) (t : Fin cfg2.N) : (iblk V c 1 t : Vec F S32x64 .f32) = A1 V c := by
  obtain ⟨-, -, e0, e1, -⟩ := idx_facts t
  funext x
  unfold iblk
  rw [View.read_apply]
  exact congrArg (V c (Pipeline.arrRef spec2 1) : Vec F S32x64 .f32)
    (Shape.idx_ext₂ (win2_1.rect_emb_val_of_index_zero t (0 : Fin 2) e0 x) (win2_1.rect_emb_val_of_index_zero t (1 : Fin 2) e1 x))
theorem blkAt2_eq (c : Dev nD) (t : Fin cfg2.N) : (iblk V c 2 t : Vec F S32x64 .f32) = A2 V c := by
  obtain ⟨-, -, -, -, e0, e1, -⟩ := idx_facts t
  funext x
  unfold iblk
  rw [View.read_apply]
  exact congrArg (V c (Pipeline.arrRef spec2 2) : Vec F S32x64 .f32)
    (Shape.idx_ext₂ (win2_2.rect_emb_val_of_index_zero t (0 : Fin 2) e0 x) (win2_2.rect_emb_val_of_index_zero t (1 : Fin 2) e1 x))
theorem blkAt3_eq (c : Dev nD) (t : Fin cfg2.N) : (iblk V c 3 t : Vec F S64x64 .f32) = A3 V c := by
  obtain ⟨-, -, -, -, -, -, e0, e1, -⟩ := idx_facts t
  funext x
  unfold iblk
  rw [View.read_apply]
  exact congrArg (V c (Pipeline.arrRef spec2 3) : Vec F S64x64 .f32)
    (Shape.idx_ext₂ (win2_3.rect_emb_val_of_index_zero t (0 : Fin 2) e0 x) (win2_3.rect_emb_val_of_index_zero t (1 : Fin 2) e1 x))
theorem blkAt4_eq (c : Dev nD) (t : Fin cfg2.N) : (iblk V c 4 t : Vec F S1x64 .f32) = A4 V c := by
  obtain ⟨-, -, -, -, -, -, -, -, e0, e1, -⟩ := idx_facts t
  funext x
  unfold iblk
  rw [View.read_apply]
  exact congrArg (V c (Pipeline.arrRef spec2 4) : Vec F S1x64 .f32)
    (Shape.idx_ext₂ (win2_4.rect_emb_val_of_index_zero t (0 : Fin 2) e0 x) (win2_4.rect_emb_val_of_index_zero t (1 : Fin 2) e1 x))

abbrev prev (c : Dev nD) (t : Fin cfg2.N) := outsAt V c (t.val - 1) (Nat.lt_of_le_of_lt (Nat.sub_le _ _) t.isLt)

-- The payloads of a point's blocks are the payloads of the point's tiles.
theorem hot_eq (c : Dev nD) (t : Fin cfg2.N) : k2_pay15 (iblk V c 5 t) = hot V c (pt t) := by rw [blkAt5_eq V c t]
theorem lin_eq (c : Dev nD) (t : Fin cfg2.N) :
    k2_pay16 (iblk V c 5 t) (iblk V c 1 t) (iblk V c 2 t) (iblk V c 0 t) (iblk V c 3 t) = lin V c (pt t) := by
  rw [blkAt0_eq V c t, blkAt1_eq V c t, blkAt2_eq V c t, blkAt3_eq V c t, blkAt5_eq V c t]
theorem bias_eq (c : Dev nD) (t : Fin cfg2.N) : k2_pay17 (iblk V c 4 t) = bias V c := by rw [blkAt4_eq V c t]

-- After a first step: the layer's output on the point's tile; the running sums are the tile's group sums, sums of squares and counts.
theorem outs_first (c : Dev nD) (t : Fin cfg2.N) (h0 : t.val % 32 = 0) :
    (outsAt V c t.val t.isLt).1 = yTile V c (pt t)
    ∧ (outsAt V c t.val t.isLt).2.2.2.2.1 = k2_pay6 (hot V c (pt t)) (lin V c (pt t)) (bias V c)
    ∧ (outsAt V c t.val t.isLt).2.2.2.2.2.1 = k2_pay7 (hot V c (pt t)) (lin V c (pt t)) (bias V c)
    ∧ (outsAt V c t.val t.isLt).2.2.2.2.2.2 = k2_pay8 (hot V c (pt t)) := by
  rewrite [outsAt_A V c t h0]; unfold outA; dsimp only
  have q := canonA _ (rfl : rA V c t h0 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

-- After a later step: the layer's output again; each running sum is what the step before left plus the tile's share.
abbrev Later (c : Dev nD) (t : Fin cfg2.N) : Prop :=
    (outsAt V c t.val t.isLt).1 = yTile V c (pt t)
    ∧ (outsAt V c t.val t.isLt).2.2.2.2.1 = k2_pay9 (hot V c (pt t)) (lin V c (pt t)) (bias V c) (prev V c t).2.2.2.2.1
    ∧ (outsAt V c t.val t.isLt).2.2.2.2.2.1 = k2_pay10 (hot V c (pt t)) (lin V c (pt t)) (bias V c) (prev V c t).2.2.2.2.2.1
    ∧ (outsAt V c t.val t.isLt).2.2.2.2.2.2 = k2_pay11 (hot V c (pt t)) (prev V c t).2.2.2.2.2.2

theorem outs_mid (c : Dev nD) (t : Fin cfg2.N) (h0 : ¬t.val % 32 = 0) (h31 : ¬t.val % 32 = 31) : Later V c t := by
  unfold Later
  rewrite [outsAt_B V c t h0 h31]; unfold outB; dsimp only
  have q := canonB _ (rfl : rB V c t h0 h31 (prev V c t).2.2.2.2.1 (prev V c t).2.2.2.2.2.1 (prev V c t).2.2.2.2.2.2 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

theorem outs_end (c : Dev nD) (t : Fin cfg2.N) (h31 : t.val % 32 = 31) : Later V c t := by
  unfold Later
  rewrite [outsAt_C V c t h31]; unfold outC; dsimp only
  have q := canonC _ (rfl : rC V c t h31 (prev V c t).2.2.2.2.1 (prev V c t).2.2.2.2.2.1 (prev V c t).2.2.2.2.2.2 = _)
  refine ⟨?_, ?_, ?_, ?_⟩ <;> rw [View.read_writes_junk_eq_canon]
  · rw [q.1, lin_eq V c t, bias_eq V c t]; rfl
  · rw [q.2.1, hot_eq V c t, lin_eq V c t, bias_eq V c t]
  · rw [q.2.2.1, hot_eq V c t, lin_eq V c t, bias_eq V c t]
  · rw [q.2.2.2, hot_eq V c t]

theorem outs_later (c : Dev nD) (t : Fin cfg2.N) (h0 : ¬t.val % 32 = 0) : Later V c t :=
  if h31 : t.val % 32 = 31 then outs_end V c t h31 else outs_mid V c t h0 h31

-- After a core's last step the three partial-sum blocks are the copies of the finished running sums.
theorem outs_last (c : Dev nD) (t : Fin cfg2.N) (h31 : t.val % 32 = 31) :
    (outsAt V c t.val t.isLt).2.1 = k2_pay12 (outsAt V c t.val t.isLt).2.2.2.2.1
    ∧ (outsAt V c t.val t.isLt).2.2.1 = k2_pay13 (outsAt V c t.val t.isLt).2.2.2.2.2.1
    ∧ (outsAt V c t.val t.isLt).2.2.2.1 = k2_pay14 (outsAt V c t.val t.isLt).2.2.2.2.2.2 := by
  obtain ⟨-, e0, e1, e2⟩ := outs_end V c t h31
  rw [e0, e1, e2]
  rewrite [outsAt_C V c t h31]; unfold outC; dsimp only
  have q := canonC_out _ (rfl : rC V c t h31 (prev V c t).2.2.2.2.1 (prev V c t).2.2.2.2.2.1 (prev V c t).2.2.2.2.2.2 = _)
  refine ⟨?_, ?_, ?_⟩ <;> rw [View.read_writes_junk_eq_canon]
  · rw [q.1, hot_eq V c t, lin_eq V c t, bias_eq V c t]
  · rw [q.2.1, hot_eq V c t, lin_eq V c t, bias_eq V c t]
  · rw [q.2.2, hot_eq V c t]

theorem outs_h (c : Dev nD) (t : Fin cfg2.N) : (outsAt V c t.val t.isLt).1 = yTile V c (pt t) :=
  if h0 : t.val % 32 = 0 then (outs_first V c t h0).1 else (outs_later V c t h0).1

def G6 (c : Dev nD) : Vec F S524288x64 .bf16 := fun i => yTile V c (tileIx (i 0)) (ix2 (rowIn (i 0)) (i 1))

theorem flush_h : ∀ t : Fin cfg2.N, (cfg2.win 6).flush t = true := (by decide +kernel : ∀ t : Fin grid2.N, _)

theorem flushed6_eq (c : Dev nD) (t : Fin cfg2.N) :
    (dat V c).flushed 6 t = ((cfg2.win 6).blk t).view.read (Elt F) (G6 V c) := by
  obtain ⟨-, -, -, -, -, -, -, -, -, -, -, -, e0, e1⟩ := idx_facts t
  show (cfg2.win 6).cut (grid2.coords t) ((dat V c).after 6 t) = _
  rw [after_6, outs_h]
  funext j
  rw [View.read_apply]
  have h0 : (((cfg2.win 6).blk t).view.emb j (0 : Fin 2)).val = t.val * 8192 + (j 0).val := by
    show win2_6.index t (0 : Fin 2) * 8192 + 1 * (j 0).val = _; rw [e0]; omega
  have h1 : (((cfg2.win 6).blk t).view.emb j (1 : Fin 2)).val = (j 1).val := by
    show win2_6.index t (1 : Fin 2) * 64 + 1 * (j 1).val = _; rw [e1]; omega
  have hj0 : (j 0).val < 8192 := (j 0).isLt
  have ht : t.val < 64 := (pt t).isLt
  have eT : tileIx (((cfg2.win 6).blk t).view.emb j (0 : Fin 2)) = pt t := Fin.ext (by
    show (((cfg2.win 6).blk t).view.emb j (0 : Fin 2)).val / 8192 = t.val; rw [h0]; omega)
  have eR : (ix2 (rowIn (((cfg2.win 6).blk t).view.emb j (0 : Fin 2))) (((cfg2.win 6).blk t).view.emb j (1 : Fin 2)) : S8192x64.Idx) = j := by
    funext a; apply Fin.ext
    match a with
    | ⟨0, _⟩ => show (((cfg2.win 6).blk t).view.emb j (0 : Fin 2)).val % 8192 = (j 0).val; rw [h0]; omega
    | ⟨1, _⟩ => exact h1
  show _ = yTile V c (tileIx _) (ix2 (rowIn _) _)
  rw [eT, eR]

theorem covered6 (i : S524288x64.Idx) : ∃ t : Fin cfg2.N, (cfg2.win 6).flush t = true ∧ i ∈ ((cfg2.win 6).blk t).view.set := by
  refine ⟨tp (tileIx (i 0)), flush_h _, ?_⟩
  obtain ⟨-, -, -, -, -, -, -, -, -, -, -, -, e0, e1⟩ := idx_facts (tp (tileIx (i 0)))
  show i ∈ ((View.whole (Pipeline.arrRef spec2 6)).slice (win2_6.rect (tp (tileIx (i 0))))).set
  rw [View.set_slice_whole, Rect.mem_set_unit]
  have hi0 : (i 0).val < 524288 := (i 0).isLt
  have hi1 : (i 1).val < 64 := (i 1).isLt
  intro a
  match a with
  | ⟨0, _⟩ =>
    show win2_6.index (tp (tileIx (i 0))) (0 : Fin 2) * 8192 ≤ (i 0).val ∧ (i 0).val < win2_6.index (tp (tileIx (i 0))) (0 : Fin 2) * 8192 + 8192
    rw [e0]; show (i 0).val / 8192 * 8192 ≤ (i 0).val ∧ (i 0).val < (i 0).val / 8192 * 8192 + 8192; omega
  | ⟨1, _⟩ =>
    show win2_6.index (tp (tileIx (i 0))) (1 : Fin 2) * 64 ≤ (i 1).val ∧ (i 1).val < win2_6.index (tp (tileIx (i 0))) (1 : Fin 2) * 64 + 64
    rw [e1]; omega

theorem arr_h_block (c : Dev nD) : (dat V c).arrAt 6 cfg2.N = G6 V c :=
  (dat V c).arrAt_eq_of_cover 6 (G6 V c) (fun t _ => flushed6_eq V c t) covered6

section AtIdeal

variable (V : (c : Dev nD) → (b : Ref sig .tc) → Buf (Elt Ideal) ((c : Thread nD τ).loc b))

theorem row_of_tile (n : Fin 524288) : rowOf (tileIx n) (rowIn n) = n := Cert.RowSums.rowOf_div_mod n

theorem pos_lt (core : Fin 2) (k : ℕ) (hk : k < 32) : core.val * 32 + k < cfg2.N := by
  rw [hN]; have := core.isLt; omega

def H (c : Dev nD) (hid : ∀ j, BitVec.toNat (A5 V c j) < 32) (n : Fin 524288) (d : Fin 64) : EReal :=
  Cert.Stages.act ((∑ k : Fin 64, Ideal.div (A0 V c (ix2 n k) - A1 V c (ix2 (⟨BitVec.toNat (A5 V c (ix2 n 0)), hid _⟩ : Fin 32) k))
      (A2 V c (ix2 (⟨BitVec.toNat (A5 V c (ix2 n 0)), hid _⟩ : Fin 32) k) + Cert.Stages.eps) * A3 V c (ix2 d k)) + A4 V c (ix2 0 d))

theorem y_apply (c : Dev nD) (hid : ∀ j, BitVec.toNat (A5 V c j) < 32)
    (hμ : ∀ j, ∃ r : ℝ, A1 V c j = (r : EReal)) (hσ : ∀ j, ∃ r : ℝ, A2 V c j = (r : EReal))
    (t : Fin 64) (r : Fin 8192) (d : Fin 64) :
    k2_pay1 (lin V c t) (bias V c) (ix2 r d) = H V c hid (rowOf t r) d :=
  Cert.KernelIdeal.Pay2.out_apply (idTile V c t) (A1 V c) (A2 V c) (hTile V c t) (A3 V c) (A4 V c) hμ hσ (fun r => hid _) r d

theorem arr_h (c : Dev nD) (hid : ∀ j, BitVec.toNat (A5 V c j) < 32)
    (hμ : ∀ j, ∃ r : ℝ, A1 V c j = (r : EReal)) (hσ : ∀ j, ∃ r : ℝ, A2 V c j = (r : EReal))
    (n : Fin 524288) (d : Fin 64) : (dat V c).arrAt 6 cfg2.N (ix2 n d) = H V c hid n d := by
  rw [arr_h_block]
  show k2_pay1 (lin V c (tileIx n)) (bias V c) (ix2 (rowIn n) d) = _
  rw [y_apply V c hid hμ hσ, row_of_tile]

-- A quantity set to its tile's share at a core's first step and raised by its tile's share at each later step ends, after the core's 32 steps, at the sum of the shares.
theorem acc_core (core : Fin 2) (x : (n : ℕ) → n < cfg2.N → EReal) (p : Fin 64 → EReal)
    (h0 : ∀ t : Fin cfg2.N, t.val % 32 = 0 → x t.val t.isLt = p (pt t))
    (hs : ∀ t : Fin cfg2.N, ¬t.val % 32 = 0 → x t.val t.isLt = x (t.val - 1) (Nat.lt_of_le_of_lt (Nat.sub_le _ _) t.isLt) + p (pt t)) :
    x (core.val * 32 + 31) (pos_lt core 31 (by norm_num)) = ∑ s : Fin 32, p (tileOf core s) := by
  have hx : ∀ {n m : ℕ} (e : n = m) (hn : n < cfg2.N) (hm : m < cfg2.N), x n hn = x m hm := fun e _ _ => by subst e; rfl
  have key : ∀ (k : ℕ) (hk : k < 32), x (core.val * 32 + k) (pos_lt core k hk)
      = ∑ s ∈ Finset.range (k + 1), if h : s < 32 then p (tileOf core ⟨s, h⟩) else 0 := by
    intro k
    induction k with
    | zero =>
      intro hk
      rw [Finset.sum_range_one, dif_pos hk]
      exact (h0 ⟨core.val * 32 + 0, pos_lt core 0 hk⟩ (by show (core.val * 32 + 0) % 32 = 0; omega)).trans (congrArg p (Fin.ext rfl))
    | succ k ih =>
      intro hk
      rw [Finset.sum_range_succ, ← ih (by omega), dif_pos hk]
      refine (hs ⟨core.val * 32 + (k + 1), pos_lt core (k + 1) hk⟩ (by show ¬(core.val * 32 + (k + 1)) % 32 = 0; omega)).trans ?_
      rw [hx (show core.val * 32 + (k + 1) - 1 = core.val * 32 + k from by omega) _ (pos_lt core k (by omega)),
        show pt ⟨core.val * 32 + (k + 1), pos_lt core (k + 1) hk⟩ = tileOf core ⟨k + 1, hk⟩ from Fin.ext rfl]
  rw [key 31 (by norm_num), Finset.sum_range]
  refine Finset.sum_congr rfl fun s _ => ?_
  rw [dif_pos s.isLt]

-- At a core's last point the entry of `s` that a block index of the core's block names is the point's own entry at the index's row and column.
theorem core_entry (s : (n : ℕ) → n < cfg2.N → Vec Ideal S32x64 .f32) (t : Fin cfg2.N) (h31 : t.val % 32 = 31)
    (i : S2x32x64.Idx) (j : S1x32x64.Idx) (h0 : (i 0).val = t.val / 32) (h1 : (i 1).val = (j 1).val) (h2 : (i 2).val = (j 2).val) :
    s ((i 0).val * 32 + 31) (pos_lt (i 0) 31 (by norm_num)) (ix2 (i 1) (i 2)) = s t.val t.isLt (ix2 (j 1) (j 2)) := by
  have hs : ∀ {n m : ℕ} (e : n = m) (hn : n < cfg2.N) (hm : m < cfg2.N), s n hn = s m hm := fun e _ _ => by subst e; rfl
  rw [hs (show (i 0).val * 32 + 31 = t.val from by rw [h0]; omega) _ t.isLt,
    show (ix2 (i 1) (i 2) : S32x64.Idx) = ix2 (j 1) (j 2) from by
      funext a; apply Fin.ext
      match a with
      | ⟨0, _⟩ => exact h1
      | ⟨1, _⟩ => exact h2]
  rfl

def G7 (c : Dev nD) : Vec Ideal S2x32x64 .f32 := fun i =>
  (outsAt V c ((i 0).val * 32 + 31) (pos_lt (i 0) 31 (by norm_num))).2.2.2.2.1 (ix2 (i 1) (i 2))

theorem flushed7_eq (c : Dev nD) (t : Fin cfg2.N) (hf : (cfg2.win 7).flush t = true) :
    (dat V c).flushed 7 t = ((cfg2.win 7).blk t).view.read (Elt Ideal) (G7 V c) := by
  have h31 : t.val % 32 = 31 := by
    by_contra h
    rw [noFlush7 t fun hc => h ((hcond2 t).mp hc)] at hf
    exact absurd hf (by decide)
  obtain ⟨e0, e1, e2, -⟩ := idx_facts_sums t
  show (cfg2.win 7).cut (grid2.coords t) ((dat V c).after 7 t) = _
  rw [after_7, (outs_last V c t h31).1]
  funext j
  rw [View.read_apply]
  have hj0 : (j 0).val < 1 := (j 0).isLt
  refine ((congrArg (k2_pay12 _) (Idealize.ShloMosaic.ValueIdx.eq_ix3 (j : S1x32x64.Idx))).trans (Cert.KernelIdeal.Pay2.pay12_apply _ (j 0) (j 1) (j 2))).trans
    (core_entry (fun n hn => (outsAt V c n hn).2.2.2.2.1) t h31 (((cfg2.win 7).blk t).view.emb j) j ?_ ?_ ?_).symm
  · show win2_7.index t (0 : Fin 3) * 1 + 1 * (j 0).val = _; rw [e0]; omega
  · show win2_7.index t (1 : Fin 3) * 32 + 1 * (j 1).val = _; rw [e1]; omega
  · show win2_7.index t (2 : Fin 3) * 64 + 1 * (j 2).val = _; rw [e2]; omega

theorem covered7 (i : S2x32x64.Idx) : ∃ t : Fin cfg2.N, (cfg2.win 7).flush t = true ∧ i ∈ ((cfg2.win 7).blk t).view.set := by
  have hi0 : (i 0).val < 2 := (i 0).isLt
  have hi1 : (i 1).val < 32 := (i 1).isLt
  have hi2 : (i 2).val < 64 := (i 2).isLt
  obtain ⟨t, ht⟩ : ∃ t : Fin cfg2.N, t.val = (i 0).val * 32 + 31 := ⟨⟨_, pos_lt (i 0) 31 (by norm_num)⟩, rfl⟩
  obtain ⟨e0, e1, e2, -⟩ := idx_facts_sums t
  refine ⟨t, flush7 t ((hcond2 t).mpr (by omega)), ?_⟩
  show i ∈ ((View.whole (Pipeline.arrRef spec2 7)).slice (win2_7.rect t)).set
  rw [View.set_slice_whole, Rect.mem_set_unit]
  intro a
  match a with
  | ⟨0, _⟩ => show win2_7.index t (0 : Fin 3) * 1 ≤ (i 0).val ∧ (i 0).val < win2_7.index t (0 : Fin 3) * 1 + 1; rw [e0]; omega
  | ⟨1, _⟩ => show win2_7.index t (1 : Fin 3) * 32 ≤ (i 1).val ∧ (i 1).val < win2_7.index t (1 : Fin 3) * 32 + 32; rw [e1]; omega
  | ⟨2, _⟩ => show win2_7.index t (2 : Fin 3) * 64 ≤ (i 2).val ∧ (i 2).val < win2_7.index t (2 : Fin 3) * 64 + 64; rw [e2]; omega

theorem arr7_block (c : Dev nD) : (dat V c).arrAt 7 cfg2.N = G7 V c :=
  (dat V c).arrAt_eq_of_cover 7 (G7 V c) (fun t hf => flushed7_eq V c t hf) covered7

def G8 (c : Dev nD) : Vec Ideal S2x32x64 .f32 := fun i =>
  (outsAt V c ((i 0).val * 32 + 31) (pos_lt (i 0) 31 (by norm_num))).2.2.2.2.2.1 (ix2 (i 1) (i 2))

theorem flushed8_eq (c : Dev nD) (t : Fin cfg2.N) (hf : (cfg2.win 8).flush t = true) :
    (dat V c).flushed 8 t = ((cfg2.win 8).blk t).view.read (Elt Ideal) (G8 V c) := by
  have h31 : t.val % 32 = 31 := by
    by_contra h
    rw [noFlush8 t fun hc => h ((hcond2 t).mp hc)] at hf
    exact absurd hf (by decide)
  obtain ⟨-, -, -, e0, e1, e2, -⟩ := idx_facts_sums t
  show (cfg2.win 8).cut (grid2.coords t) ((dat V c).after 8 t) = _
  rw [after_8, (outs_last V c t h31).2.1]
  funext j
  rw [View.read_apply]
  have hj0 : (j 0).val < 1 := (j 0).isLt
  refine ((congrArg (k2_pay13 _) (Idealize.ShloMosaic.ValueIdx.eq_ix3 (j : S1x32x64.Idx))).trans (Cert.KernelIdeal.Pay2.pay13_apply _ (j 0) (j 1) (j 2))).trans
    (core_entry (fun n hn => (outsAt V c n hn).2.2.2.2.2.1) t h31 (((cfg2.win 8).blk t).view.emb j) j ?_ ?_ ?_).symm
  · show win2_8.index t (0 : Fin 3) * 1 + 1 * (j 0).val = _; rw [e0]; omega
  · show win2_8.index t (1 : Fin 3) * 32 + 1 * (j 1).val = _; rw [e1]; omega
  · show win2_8.index t (2 : Fin 3) * 64 + 1 * (j 2).val = _; rw [e2]; omega

theorem covered8 (i : S2x32x64.Idx) : ∃ t : Fin cfg2.N, (cfg2.win 8).flush t = true ∧ i ∈ ((cfg2.win 8).blk t).view.set := by
  have hi0 : (i 0).val < 2 := (i 0).isLt
  have hi1 : (i 1).val < 32 := (i 1).isLt
  have hi2 : (i 2).val < 64 := (i 2).isLt
  obtain ⟨t, ht⟩ : ∃ t : Fin cfg2.N, t.val = (i 0).val * 32 + 31 := ⟨⟨_, pos_lt (i 0) 31 (by norm_num)⟩, rfl⟩
  obtain ⟨-, -, -, e0, e1, e2, -⟩ := idx_facts_sums t
  refine ⟨t, flush8 t ((hcond2 t).mpr (by omega)), ?_⟩
  show i ∈ ((View.whole (Pipeline.arrRef spec2 8)).slice (win2_8.rect t)).set
  rw [View.set_slice_whole, Rect.mem_set_unit]
  intro a
  match a with
  | ⟨0, _⟩ => show win2_8.index t (0 : Fin 3) * 1 ≤ (i 0).val ∧ (i 0).val < win2_8.index t (0 : Fin 3) * 1 + 1; rw [e0]; omega
  | ⟨1, _⟩ => show win2_8.index t (1 : Fin 3) * 32 ≤ (i 1).val ∧ (i 1).val < win2_8.index t (1 : Fin 3) * 32 + 32; rw [e1]; omega
  | ⟨2, _⟩ => show win2_8.index t (2 : Fin 3) * 64 ≤ (i 2).val ∧ (i 2).val < win2_8.index t (2 : Fin 3) * 64 + 64; rw [e2]; omega

theorem arr8_block (c : Dev nD) : (dat V c).arrAt 8 cfg2.N = G8 V c :=
  (dat V c).arrAt_eq_of_cover 8 (G8 V c) (fun t hf => flushed8_eq V c t hf) covered8

def G9 (c : Dev nD) : Vec Ideal S2x32x64 .f32 := fun i =>
  (outsAt V c ((i 0).val * 32 + 31) (pos_lt (i 0) 31 (by norm_num))).2.2.2.2.2.2 (ix2 (i 1) (i 2))

theorem flushed9_eq (c : Dev nD) (t : Fin cfg2.N) (hf : (cfg2.win 9).flush t = true) :
    (dat V c).flushed 9 t = ((cfg2.win 9).blk t).view.read (Elt Ideal) (G9 V c) := by
  have h31 : t.val % 32 = 31 := by
    by_contra h
    rw [noFlush9 t fun hc => h ((hcond2 t).mp hc)] at hf
    exact absurd hf (by decide)
  obtain ⟨-, -, -, -, -, -, e0, e1, e2⟩ := idx_facts_sums t
  show (cfg2.win 9).cut (grid2.coords t) ((dat V c).after 9 t) = _
  rw [after_9, (outs_last V c t h31).2.2]
  funext j
  rw [View.read_apply]
  have hj0 : (j 0).val < 1 := (j 0).isLt
  refine ((congrArg (k2_pay14 _) (Idealize.ShloMosaic.ValueIdx.eq_ix3 (j : S1x32x64.Idx))).trans (Cert.KernelIdeal.Pay2.pay14_apply _ (j 0) (j 1) (j 2))).trans
    (core_entry (fun n hn => (outsAt V c n hn).2.2.2.2.2.2) t h31 (((cfg2.win 9).blk t).view.emb j) j ?_ ?_ ?_).symm
  · show win2_9.index t (0 : Fin 3) * 1 + 1 * (j 0).val = _; rw [e0]; omega
  · show win2_9.index t (1 : Fin 3) * 32 + 1 * (j 1).val = _; rw [e1]; omega
  · show win2_9.index t (2 : Fin 3) * 64 + 1 * (j 2).val = _; rw [e2]; omega

theorem covered9 (i : S2x32x64.Idx) : ∃ t : Fin cfg2.N, (cfg2.win 9).flush t = true ∧ i ∈ ((cfg2.win 9).blk t).view.set := by
  have hi0 : (i 0).val < 2 := (i 0).isLt
  have hi1 : (i 1).val < 32 := (i 1).isLt
  have hi2 : (i 2).val < 64 := (i 2).isLt
  obtain ⟨t, ht⟩ : ∃ t : Fin cfg2.N, t.val = (i 0).val * 32 + 31 := ⟨⟨_, pos_lt (i 0) 31 (by norm_num)⟩, rfl⟩
  obtain ⟨-, -, -, -, -, -, e0, e1, e2⟩ := idx_facts_sums t
  refine ⟨t, flush9 t ((hcond2 t).mpr (by omega)), ?_⟩
  show i ∈ ((View.whole (Pipeline.arrRef spec2 9)).slice (win2_9.rect t)).set
  rw [View.set_slice_whole, Rect.mem_set_unit]
  intro a
  match a with
  | ⟨0, _⟩ => show win2_9.index t (0 : Fin 3) * 1 ≤ (i 0).val ∧ (i 0).val < win2_9.index t (0 : Fin 3) * 1 + 1; rw [e0]; omega
  | ⟨1, _⟩ => show win2_9.index t (1 : Fin 3) * 32 ≤ (i 1).val ∧ (i 1).val < win2_9.index t (1 : Fin 3) * 32 + 32; rw [e1]; omega
  | ⟨2, _⟩ => show win2_9.index t (2 : Fin 3) * 64 ≤ (i 2).val ∧ (i 2).val < win2_9.index t (2 : Fin 3) * 64 + 64; rw [e2]; omega

theorem arr9_block (c : Dev nD) : (dat V c).arrAt 9 cfg2.N = G9 V c :=
  (dat V c).arrAt_eq_of_cover 9 (G9 V c) (fun t hf => flushed9_eq V c t hf) covered9

theorem arr_sum (c : Dev nD) (hid : ∀ j, BitVec.toNat (A5 V c j) < 32)
    (hμ : ∀ j, ∃ r : ℝ, A1 V c j = (r : EReal)) (hσ : ∀ j, ∃ r : ℝ, A2 V c j = (r : EReal))
    (core : Fin 2) (g : Fin 32) (d : Fin 64) :
    (dat V c).arrAt 7 cfg2.N (ix3 core g d)
      = ∑ s : Fin 32, ∑ r : Fin 8192, (if BitVec.toNat (A5 V c (ix2 (rowOf (tileOf core s) r) 0)) = g.val
          then H V c hid (rowOf (tileOf core s) r) d else 0) := by
  rw [arr7_block]
  show (outsAt V c (core.val * 32 + 31) (pos_lt core 31 (by norm_num))).2.2.2.2.1 (ix2 g d) = _
  refine (acc_core core (fun n hn => (outsAt V c n hn).2.2.2.2.1 (ix2 g d)) (fun t => k2_pay3 (hot V c t) (lin V c t) (bias V c) (ix2 g d))
    (fun t h => (congrFun (outs_first V c t h).2.1 _).trans (congrFun (Cert.KernelIdeal.Pay2.pay6_eq _ _ _) _))
    (fun t h => (congrFun (outs_later V c t h).2.1 _).trans (Cert.KernelIdeal.Pay2.pay9_apply _ _ _ _ _))).trans ?_
  refine Finset.sum_congr rfl fun s _ => ?_
  rw [Cert.KernelIdeal.Pay2.pay3_apply]
  refine Finset.sum_congr rfl fun r _ => ?_
  rw [← Cert.KernelIdeal.Pay2.pay1_apply (lin V c (tileOf core s)) (bias V c) r d, y_apply V c hid hμ hσ]
  rfl

theorem arr_sumsq (c : Dev nD) (hid : ∀ j, BitVec.toNat (A5 V c j) < 32)
    (hμ : ∀ j, ∃ r : ℝ, A1 V c j = (r : EReal)) (hσ : ∀ j, ∃ r : ℝ, A2 V c j = (r : EReal))
    (core : Fin 2) (g : Fin 32) (d : Fin 64) :
    (dat V c).arrAt 8 cfg2.N (ix3 core g d)
      = ∑ s : Fin 32, ∑ r : Fin 8192, (if BitVec.toNat (A5 V c (ix2 (rowOf (tileOf core s) r) 0)) = g.val
          then H V c hid (rowOf (tileOf core s) r) d * H V c hid (rowOf (tileOf core s) r) d else 0) := by
  rw [arr8_block]
  show (outsAt V c (core.val * 32 + 31) (pos_lt core 31 (by norm_num))).2.2.2.2.2.1 (ix2 g d) = _
  refine (acc_core core (fun n hn => (outsAt V c n hn).2.2.2.2.2.1 (ix2 g d)) (fun t => k2_pay4 (hot V c t) (lin V c t) (bias V c) (ix2 g d))
    (fun t h => (congrFun (outs_first V c t h).2.2.1 _).trans (congrFun (Cert.KernelIdeal.Pay2.pay7_eq _ _ _) _))
    (fun t h => (congrFun (outs_later V c t h).2.2.1 _).trans (Cert.KernelIdeal.Pay2.pay10_apply _ _ _ _ _))).trans ?_
  refine Finset.sum_congr rfl fun s _ => ?_
  rw [Cert.KernelIdeal.Pay2.pay4_apply]
  refine Finset.sum_congr rfl fun r _ => ?_
  rw [← Cert.KernelIdeal.Pay2.pay1_apply (lin V c (tileOf core s)) (bias V c) r d, y_apply V c hid hμ hσ]
  rfl

theorem arr_cnt (c : Dev nD) (core : Fin 2) (g : Fin 32) (d : Fin 64) :
    (dat V c).arrAt 9 cfg2.N (ix3 core g d)
      = ∑ s : Fin 32, ∑ r : Fin 8192, (if BitVec.toNat (A5 V c (ix2 (rowOf (tileOf core s) r) 0)) = g.val
          then (1 : EReal) else 0) := by
  rw [arr9_block]
  show (outsAt V c (core.val * 32 + 31) (pos_lt core 31 (by norm_num))).2.2.2.2.2.2 (ix2 g d) = _
  refine (acc_core core (fun n hn => (outsAt V c n hn).2.2.2.2.2.2 (ix2 g d)) (fun t => k2_pay5 (hot V c t) (ix2 g d))
    (fun t h => (congrFun (outs_first V c t h).2.2.2 _).trans (congrFun (Cert.KernelIdeal.Pay2.pay8_eq _) _))
    (fun t h => (congrFun (outs_later V c t h).2.2.2 _).trans (Cert.KernelIdeal.Pay2.pay11_apply _ _ _))).trans ?_
  refine Finset.sum_congr rfl fun s _ => ?_
  rw [Cert.KernelIdeal.Pay2.pay5_apply]
  rfl

end AtIdeal

end Cert.KernelIdeal.Val2

end
-- ==== Proof.KI.Pay3.lean ====
/- What the last layer's body computes from one tile, entry by entry: rows centred and scaled by their group's statistics, then the affine map onto three outputs. -/
import proofs.«431227_j85710367359314_3_alg».proof.Proof.Gen.KernelIdeal.Skeleton
import proofs.«431227_j85710367359314_3_alg».proof.Proof.Stages
import proofs.«431227_j85710367359314_3_alg».proof.Proof.KI.PayLib
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay3

open Idealize.ShloMosaic Idealize.ShloMosaic.ValueIdx Idealize.SL.Sem
open Cert.KernelIdeal Cert.KernelIdeal.Gen Cert.KernelIdeal.PayLib
open scoped BigOperators

theorem lhs_dotD_0 (i : S8192x3.Idx) (q : dot_S8192x64_S3x64_S8192x3_1_1_0_0_n_n.contr.Idx) :
    (dot_S8192x64_S3x64_S8192x3_1_1_0_0_n_n.lhsIdx i q 0).val = (i 0).val := by
  unfold DotDims.lhsIdx
  rw [dif_neg (show ¬(0 : Fin S8192x64.rank) ∈ dot_S8192x64_S3x64_S8192x3_1_1_0_0_n_n.lhsBatch by decide), dif_pos (show (0 : Fin S8192x64.rank) ∈ dot_S8192x64_S3x64_S8192x3_1_1_0_0_n_n.lhsNonContracting by decide)]
  rfl
theorem lhs_dotD_1 (i : S8192x3.Idx) (q : dot_S8192x64_S3x64_S8192x3_1_1_0_0_n_n.contr.Idx) :
    (dot_S8192x64_S3x64_S8192x3_1_1_0_0_n_n.lhsIdx i q 1).val = (q ⟨0, by decide⟩).val :=
  dot_S8192x64_S3x64_S8192x3_1_1_0_0_n_n.lhsIdx_val_of_single rfl i q
theorem rhs_dotD_0 (i : S8192x3.Idx) (q : dot_S8192x64_S3x64_S8192x3_1_1_0_0_n_n.contr.Idx) :
    (dot_S8192x64_S3x64_S8192x3_1_1_0_0_n_n.rhsIdx i q 0).val = (i 1).val := by
  unfold DotDims.rhsIdx
  rw [dif_neg (show ¬(0 : Fin S3x64.rank) ∈ dot_S8192x64_S3x64_S8192x3_1_1_0_0_n_n.rhsBatch by decide), dif_pos (show (0 : Fin S3x64.rank) ∈ dot_S8192x64_S3x64_S8192x3_1_1_0_0_n_n.rhsNonContracting by decide)]
  rfl
theorem rhs_dotD_1 (i : S8192x3.Idx) (q : dot_S8192x64_S3x64_S8192x3_1_1_0_0_n_n.contr.Idx) :
    (dot_S8192x64_S3x64_S8192x3_1_1_0_0_n_n.rhsIdx i q 1).val = (q ⟨0, by decide⟩).val :=
  dot_S8192x64_S3x64_S8192x3_1_1_0_0_n_n.rhsIdx_val_of_single rfl i q

theorem matmul_rows_weights_apply {φ₁ φ₂ : FTy} (x : FVec Ideal S8192x64 φ₁) (w : FVec Ideal S3x64 φ₂) (r : Fin 8192) (d : Fin 3) :
    matmul dot_S8192x64_S3x64_S8192x3_1_1_0_0_n_n none x w (constant (F := Ideal) S8192x3 .f32 0x00000000#32) (ix2 r d)
      = ∑ k : Fin 64, x (ix2 r k) * w (ix2 d k) := by
  simp only [matmul]
  rw [Ideal.matmul_constant_zero_apply, ← Equiv.sum_comp (contrEquiv1 dot_S8192x64_S3x64_S8192x3_1_1_0_0_n_n 64 rfl rfl).symm]
  refine Finset.sum_congr rfl fun k _ => ?_
  have hk := contrEquiv1_symm_val dot_S8192x64_S3x64_S8192x3_1_1_0_0_n_n 64 rfl rfl k
  have el : dot_S8192x64_S3x64_S8192x3_1_1_0_0_n_n.lhsIdx (ix2 r d) ((contrEquiv1 dot_S8192x64_S3x64_S8192x3_1_1_0_0_n_n 64 rfl rfl).symm k) = ix2 r k := funext fun a => Fin.ext (by
    match a with
    | ⟨0, _⟩ => exact lhs_dotD_0 _ _
    | ⟨1, _⟩ => exact (lhs_dotD_1 _ _).trans hk)
  have er : dot_S8192x64_S3x64_S8192x3_1_1_0_0_n_n.rhsIdx (ix2 r d) ((contrEquiv1 dot_S8192x64_S3x64_S8192x3_1_1_0_0_n_n 64 rfl rfl).symm k) = ix2 d k := funext fun a => Fin.ext (by
    match a with
    | ⟨0, _⟩ => exact rhs_dotD_0 _ _
    | ⟨1, _⟩ => exact (rhs_dotD_1 _ _).trans hk)
  rw [el, er]

theorem pay1_apply (v0 : IVec S8192x1 32) (v8 v17 : FVec Ideal S32x64 .f32) (v26 : FVec Ideal S8192x64 .bf16)
    (v33 : FVec Ideal S3x64 .f32) (v34 : FVec Ideal S1x3 .f32)
    (hμ : ∀ j, ∃ x : ℝ, v8 j = (x : EReal)) (hσ : ∀ j, ∃ x : ℝ, v17 j = (x : EReal))
    (hid : ∀ r : Fin 8192, (v0 (ix2 r 0)).toNat < 32) (r : Fin 8192) (d : Fin 3) :
    k3_pay1 (F := Ideal) v0 v8 v17 v26 v33 v34 (ix2 r d)
      = (∑ k : Fin 64, Ideal.div (v26 (ix2 r k) - v8 (ix2 (⟨(v0 (ix2 r 0)).toNat, hid r⟩ : Fin 32) k))
            (v17 (ix2 (⟨(v0 (ix2 r 0)).toNat, hid r⟩ : Fin 32) k) + Cert.Stages.eps) * v33 (ix2 d k))
        + v34 (ix2 0 d) := by
  unfold k3_pay1 Cert.Stages.eps
  rw [addf_apply, broadcastTo_1b_ab_apply, shapeCast_self v34, matmul_rows_weights_apply]
  refine congrArg (· + v34 (ix2 0 d)) (Finset.sum_congr rfl fun k _ => ?_)
  have hf := fun t h k => fetch_apply
    (onehotRows v0 shapeCasts_S8192x1_S8192x1 broadcasts_S8192x1_S8192x32 iota_S8192x32_d1_w32 natLt_1_32) _ (hid r) r
    (fun g => onehotRows_apply v0 _ _ _ _ r g) t h k
  rw [truncf_apply, truncf_apply, divf_apply, subf_apply, addf_apply, addf_apply, addf_apply, extf_apply, broadcast_apply,
    hf, hf, hf, hf]
  rw [truncf_apply, truncf_apply, truncf_apply, truncf_apply, subf_apply, subf_apply, shapeCast_self, shapeCast_self, shapeCast_self]
  rw [sub_self_of_real (hμ _), sub_self_of_real (hσ _), add_zero, add_zero]
  rfl

end Cert.KernelIdeal.Pay3

end
-- ==== Proof.KI.Val3.lean ====
/- What the last region leaves in its array: the network's output row by row. -/
import proofs.«431227_j85710367359314_3_alg».proof.Proof.KI.Reg3
import proofs.«431227_j85710367359314_3_alg».proof.Proof.KI.Pay3
import proofs.«431227_j85710367359314_3_alg».proof.Proof.Stages
import proofs.«431227_j85710367359314_3_alg».proof.Proof.RowSums
import Idealize.ShloMosaic.Lib.Pipeline.Value

set_option maxRecDepth 16384

noncomputable section

namespace Cert.KernelIdeal.Val3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R3
open Cert.RowSums (rowOf tileOf)
open Idealize.ShloMosaic.ValueIdx (ix1 ix2 ix3)

variable {F : FTy → Type} [FloatOps F]

variable (V : (c : Dev nD) → (b : Ref sig .tc) → Buf (Elt F) ((c : Thread nD τ).loc b))

theorem hz : (![0, 0] : Fin 2 → Nat) = fun _ => 0 := funext fun a => by fin_cases a <;> rfl

theorem out_eq (c : Dev nD) (i : grid3.Coords) (arg1 : Memref sig .tc .vmem S8192x64 .bf16) (harg1 : arg1.IsWhole) (arg2 : Memref sig .tc .vmem S32x64 .f32) (harg2 : arg2.IsWhole) (arg3 : Memref sig .tc .vmem S32x64 .f32) (harg3 : arg3.IsWhole) (arg4 : Memref sig .tc .vmem S3x64 .f32) (harg4 : arg4.IsWhole) (arg5 : Memref sig .tc .vmem S1x3 .f32) (harg5 : arg5.IsWhole) (arg6 : Memref sig .tc .vmem S8192x1 .i32) (harg6 : arg6.IsWhole) (arg7 : Memref sig .tc .vmem S8192x3 .f32) (harg7 : arg7.IsWhole)
    (x0 : Vec F S8192x64 .bf16) (x1 : Vec F S32x64 .f32) (x2 : Vec F S32x64 .f32) (x3 : Vec F S3x64 .f32) (x4 : Vec F S1x3 .f32) (x5 : Vec F S8192x1 .i32) :
    R3.out c i arg1 harg1 arg2 harg2 arg3 harg3 arg4 harg4 arg5 harg5 arg6 harg6 arg7 harg7 x0 x1 x2 x3 x4 x5 = k3_pay1 x5 x1 x2 x0 x3 x4 := by
  unfold R3.out
  rw [View.read_writes_eq_canon _ _ _ (R3.cover c i arg1 harg1 arg2 harg2 arg3 harg3 arg4 harg4 arg5 harg5 arg6 harg6 arg7 harg7 x0 x1 x2 x3 x4 x5)]
  unfold R3.run
  dsimp only
  sl_unfold_words
  rw [View.canon_unit_zero hz]
  simp only [View.readAt_eq_ld, harg1.read_unread, harg2.read_unread, harg3.read_unread, harg4.read_unread, harg5.read_unread, harg6.read_unread,
    View.ld_unit_zero (S := S8192x64) hz, View.ld_unit_zero (S := S32x64) hz, View.ld_unit_zero (S := S3x64) hz,
    View.ld_unit_zero (S := S1x3) hz, View.ld_unit_zero (S := S8192x1) hz]

abbrev A0 (c : Dev nD) : Vec F S524288x64 .bf16 := V c (Pipeline.arrRef spec3 0)
abbrev A1 (c : Dev nD) : Vec F S32x64 .f32 := V c (Pipeline.arrRef spec3 1)
abbrev A2 (c : Dev nD) : Vec F S32x64 .f32 := V c (Pipeline.arrRef spec3 2)
abbrev A3 (c : Dev nD) : Vec F S3x64 .f32 := V c (Pipeline.arrRef spec3 3)
abbrev A4 (c : Dev nD) : Vec F S1x3 .f32 := V c (Pipeline.arrRef spec3 4)
abbrev A5 (c : Dev nD) : Vec F S524288x1 .i32 := V c (Pipeline.arrRef spec3 5)

def pt (t : Fin cfg3.N) : Fin 64 := ⟨t.val, by have h : t.val < grid3.N := t.isLt; rwa [N_3] at h⟩
def tp (t : Fin 64) : Fin cfg3.N := ⟨t.val, by show t.val < grid3.N; rw [N_3]; exact t.isLt⟩

def hTile (c : Dev nD) (t : Fin 64) : Vec F S8192x64 .bf16 := fun x => A0 V c (ix2 (rowOf t (x 0)) (x 1))
def idTile (c : Dev nD) (t : Fin 64) : Vec F S8192x1 .i32 := fun x => A5 V c (ix2 (rowOf t (x 0)) (x 1))

def tileIx (n : Fin 524288) : Fin 64 := ⟨n.val / 8192, by have := n.isLt; omega⟩
def rowIn (n : Fin 524288) : Fin 8192 := ⟨n.val % 8192, Nat.mod_lt _ (by norm_num)⟩

def G (c : Dev nD) : Vec F S524288x3 .f32 := fun i =>
  k3_pay1 (idTile V c (tileIx (i 0))) (A1 V c) (A2 V c) (hTile V c (tileIx (i 0))) (A3 V c) (A4 V c) (ix2 (rowIn (i 0)) (i 1))

theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem iblk0_eq (c : Dev nD) (t : Fin cfg3.N) : (iblk V c 0 t : Vec F S8192x64 .bf16) = hTile V c (pt t) := by
  obtain ⟨e0, e1, -⟩ := idx_facts t
  funext x
  unfold iblk
  rw [View.read_apply]
  show (V c (Pipeline.arrRef spec3 0) : Vec F S524288x64 .bf16) _ = (V c (Pipeline.arrRef spec3 0) : Vec F S524288x64 .bf16) _
  refine congrArg (V c (Pipeline.arrRef spec3 0) : Vec F S524288x64 .bf16) ?_
  funext a; apply Fin.ext
  match a with
  | ⟨0, _⟩ => show win3_0.index t (0 : Fin 2) * 8192 + 1 * (x 0).val = t.val * 8192 + (x 0).val; rw [e0]; omega
  | ⟨1, _⟩ => show win3_0.index t (1 : Fin 2) * 64 + 1 * (x 1).val = (x 1).val; rw [e1]; omega

theorem iblk5_eq (c : Dev nD) (t : Fin cfg3.N) : (iblk V c 5 t : Vec F S8192x1 .i32) = idTile V c (pt t) := by
  obtain ⟨-, -, -, -, -, -, -, -, -, -, e0, e1, -⟩ := idx_facts t
  funext x
  unfold iblk
  rw [View.read_apply]
  show (V c (Pipeline.arrRef spec3 5) : Vec F S524288x1 .i32) _ = (V c (Pipeline.arrRef spec3 5) : Vec F S524288x1 .i32) _
  refine congrArg (V c (Pipeline.arrRef spec3 5) : Vec F S524288x1 .i32) ?_
  funext a; apply Fin.ext
  match a with
  | ⟨0, _⟩ => show win3_5.index t (0 : Fin 2) * 8192 + 1 * (x 0).val = t.val * 8192 + (x 0).val; rw [e0]; omega
  | ⟨1, _⟩ => show win3_5.index t (1 : Fin 2) * 1 + 1 * (x 1).val = (x 1).val; rw [e1]; omega

theorem iblk1_eq (c : Dev nD) (t : Fin cfg3.N) : (iblk V c 1 t : Vec F S32x64 .f32) = A1 V c := by
  obtain ⟨-, -, e0, e1, -⟩ := idx_facts t
  funext x
  unfold iblk
  rw [View.read_apply]
  show (V c (Pipeline.arrRef spec3 1) : Vec F S32x64 .f32) _ = (V c (Pipeline.arrRef spec3 1) : Vec F S32x64 .f32) _
  refine congrArg (V c (Pipeline.arrRef spec3 1) : Vec F S32x64 .f32) ?_
  funext a; apply Fin.ext
  match a with
  | ⟨0, _⟩ => show win3_1.index t (0 : Fin 2) * 32 + 1 * (x 0).val = (x 0).val; rw [e0]; omega
  | ⟨1, _⟩ => show win3_1.index t (1 : Fin 2) * 64 + 1 * (x 1).val = (x 1).val; rw [e1]; omega
theorem iblk2_eq (c : Dev nD) (t : Fin cfg3.N) : (iblk V c 2 t : Vec F S32x64 .f32) = A2 V c := by
  obtain ⟨-, -, -, -, e0, e1, -⟩ := idx_facts t
  funext x
  unfold iblk
  rw [View.read_apply]
  show (V c (Pipeline.arrRef spec3 2) : Vec F S32x64 .f32) _ = (V c (Pipeline.arrRef spec3 2) : Vec F S32x64 .f32) _
  refine congrArg (V c (Pipeline.arrRef spec3 2) : Vec F S32x64 .f32) ?_
  funext a; apply Fin.ext
  match a with
  | ⟨0, _⟩ => show win3_2.index t (0 : Fin 2) * 32 + 1 * (x 0).val = (x 0).val; rw [e0]; omega
  | ⟨1, _⟩ => show win3_2.index t (1 : Fin 2) * 64 + 1 * (x 1).val = (x 1).val; rw [e1]; omega
theorem iblk3_eq (c : Dev nD) (t : Fin cfg3.N) : (iblk V c 3 t : Vec F S3x64 .f32) = A3 V c := by
  obtain ⟨-, -, -, -, -, -, e0, e1, -⟩ := idx_facts t
  funext x
  unfold iblk
  rw [View.read_apply]
  show (V c (Pipeline.arrRef spec3 3) : Vec F S3x64 .f32) _ = (V c (Pipeline.arrRef spec3 3) : Vec F S3x64 .f32) _
  refine congrArg (V c (Pipeline.arrRef spec3 3) : Vec F S3x64 .f32) ?_
  funext a; apply Fin.ext
  match a with
  | ⟨0, _⟩ => show win3_3.index t (0 : Fin 2) * 3 + 1 * (x 0).val = (x 0).val; rw [e0]; omega
  | ⟨1, _⟩ => show win3_3.index t (1 : Fin 2) * 64 + 1 * (x 1).val = (x 1).val; rw [e1]; omega
theorem iblk4_eq (c : Dev nD) (t : Fin cfg3.N) : (iblk V c 4 t : Vec F S1x3 .f32) = A4 V c := by
  obtain ⟨-, -, -, -, -, -, -, -, e0, e1, -⟩ := idx_facts t
  funext x
  unfold iblk
  rw [View.read_apply]
  show (V c (Pipeline.arrRef spec3 4) : Vec F S1x3 .f32) _ = (V c (Pipeline.arrRef spec3 4) : Vec F S1x3 .f32) _
  refine congrArg (V c (Pipeline.arrRef spec3 4) : Vec F S1x3 .f32) ?_
  funext a; apply Fin.ext
  match a with
  | ⟨0, _⟩ => show win3_4.index t (0 : Fin 2) * 1 + 1 * (x 0).val = (x 0).val; rw [e0]; omega
  | ⟨1, _⟩ => show win3_4.index t (1 : Fin 2) * 3 + 1 * (x 1).val = (x 1).val; rw [e1]; omega

theorem flushed_eq (c : Dev nD) (t : Fin cfg3.N) :
    (dat V c).flushed 6 t = ((cfg3.win 6).blk t).view.read (Elt F) (G V c) := by
  obtain ⟨-, -, -, -, -, -, -, -, -, -, -, -, e0, e1⟩ := idx_facts t
  show (cfg3.win 6).cut (grid3.coords t) ((dat V c).after 6 t) = _
  rw [after_6, out_eq, iblk0_eq V c t, iblk1_eq V c t, iblk2_eq V c t, iblk3_eq V c t, iblk4_eq V c t, iblk5_eq V c t]
  funext j
  rw [View.read_apply]
  have h0 : (((cfg3.win 6).blk t).view.emb j (0 : Fin 2)).val = t.val * 8192 + (j 0).val := by
    show win3_6.index t (0 : Fin 2) * 8192 + 1 * (j 0).val = _; rw [e0]; omega
  have h1 : (((cfg3.win 6).blk t).view.emb j (1 : Fin 2)).val = (j 1).val := by
    show win3_6.index t (1 : Fin 2) * 3 + 1 * (j 1).val = _; rw [e1]; omega
  have hj0 : (j 0).val < 8192 := (j 0).isLt
  have ht : t.val < 64 := (pt t).isLt
  have eT : tileIx (((cfg3.win 6).blk t).view.emb j (0 : Fin 2)) = pt t := Fin.ext (by
    show (((cfg3.win 6).blk t).view.emb j (0 : Fin 2)).val / 8192 = t.val; rw [h0]; omega)
  have eR : (ix2 (rowIn (((cfg3.win 6).blk t).view.emb j (0 : Fin 2))) (((cfg3.win 6).blk t).view.emb j (1 : Fin 2)) : S8192x3.Idx) = j := by
    funext a; apply Fin.ext
    match a with
    | ⟨0, _⟩ => show (((cfg3.win 6).blk t).view.emb j (0 : Fin 2)).val % 8192 = (j 0).val; rw [h0]; omega
    | ⟨1, _⟩ => exact h1
  show _ = k3_pay1 (idTile V c (tileIx _)) (A1 V c) (A2 V c) (hTile V c (tileIx _)) (A3 V c) (A4 V c) (ix2 (rowIn _) _)
  rw [eT, eR]

theorem mem_blk (t : Fin cfg3.N) (i : S524288x3.Idx) :
    i ∈ ((cfg3.win 6).blk t).view.set ↔ ∀ a : Fin 2, win3_6.index t a * S8192x3.size a ≤ (i a).val ∧ (i a).val < win3_6.index t a * S8192x3.size a + S8192x3.size a := by
  show i ∈ ((View.whole main_v59).slice (win3_6.rect t)).set ↔ _
  rw [View.set_slice_whole, Rect.mem_set_unit]
  exact Iff.rfl

theorem covered (i : S524288x3.Idx) : ∃ t : Fin cfg3.N, (cfg3.win 6).flush t = true ∧ i ∈ ((cfg3.win 6).blk t).view.set := by
  refine ⟨tp (tileIx (i 0)), flush3_6 _, ?_⟩
  obtain ⟨-, -, -, -, -, -, -, -, -, -, -, -, e0, e1⟩ := idx_facts (tp (tileIx (i 0)))
  rw [mem_blk]
  have hi0 : (i 0).val < 524288 := (i 0).isLt
  have hi1 : (i 1).val < 3 := (i 1).isLt
  intro a
  match a with
  | ⟨0, _⟩ =>
    show win3_6.index (tp (tileIx (i 0))) (0 : Fin 2) * 8192 ≤ (i 0).val ∧ (i 0).val < win3_6.index (tp (tileIx (i 0))) (0 : Fin 2) * 8192 + 8192
    rw [e0]; show (i 0).val / 8192 * 8192 ≤ (i 0).val ∧ (i 0).val < (i 0).val / 8192 * 8192 + 8192; omega
  | ⟨1, _⟩ =>
    show win3_6.index (tp (tileIx (i 0))) (1 : Fin 2) * 3 ≤ (i 1).val ∧ (i 1).val < win3_6.index (tp (tileIx (i 0))) (1 : Fin 2) * 3 + 3
    rw [e1]; omega

theorem arr_block (c : Dev nD) : (dat V c).arrAt 6 cfg3.N = G V c :=
  (dat V c).arrAt_eq_of_cover 6 (G V c) (fun t _ => flushed_eq V c t) covered

theorem in_windows : ∀ w : Fin cfg3.W, w.val < 6 → (cfg3.win w).isOut = false := by decide

section AtIdeal

variable (V : (c : Dev nD) → (b : Ref sig .tc) → Buf (Elt Ideal) ((c : Thread nD τ).loc b))

theorem row_of_tile (n : Fin 524288) : rowOf (tileIx n) (rowIn n) = n := Cert.RowSums.rowOf_div_mod n

theorem arr_out (c : Dev nD)
    (hid : ∀ j, BitVec.toNat (A5 V c j) < 32)
    (hμ : ∀ j, ∃ r : ℝ, A1 V c j = (r : EReal)) (hσ : ∀ j, ∃ r : ℝ, A2 V c j = (r : EReal))
    (n : Fin 524288) (d : Fin 3) :
    (dat V c).arrAt 6 cfg3.N (ix2 n d)
      = (∑ k : Fin 64, Ideal.div (A0 V c (ix2 n k) - A1 V c (ix2 (⟨BitVec.toNat (A5 V c (ix2 n 0)), hid _⟩ : Fin 32) k))
            (A2 V c (ix2 (⟨BitVec.toNat (A5 V c (ix2 n 0)), hid _⟩ : Fin 32) k) + Cert.Stages.eps) * A3 V c (ix2 d k))
        + A4 V c (ix2 0 d) := by
  have hid' : ∀ r : Fin 8192, BitVec.toNat (idTile V c (tileIx n) (ix2 r 0)) < 32 := fun r => hid _
  have eH : ∀ k : Fin 64, hTile V c (tileIx n) (ix2 (rowIn n) k) = A0 V c (ix2 n k) := fun k => by
    show A0 V c (ix2 (rowOf (tileIx n) (rowIn n)) k) = _
    rw [row_of_tile]
  have eI : idTile V c (tileIx n) (ix2 (rowIn n) 0) = A5 V c (ix2 n 0) := by
    show A5 V c (ix2 (rowOf (tileIx n) (rowIn n)) 0) = _
    rw [row_of_tile]
  have eγ : (⟨BitVec.toNat (idTile V c (tileIx n) (ix2 (rowIn n) 0)), hid' (rowIn n)⟩ : Fin 32)
      = ⟨BitVec.toNat (A5 V c (ix2 n 0)), hid _⟩ := Fin.ext (congrArg BitVec.toNat eI)
  rw [arr_block]
  show k3_pay1 (idTile V c (tileIx n)) (A1 V c) (A2 V c) (hTile V c (tileIx n)) (A3 V c) (A4 V c) (ix2 (rowIn n) d) = _
  rw [Cert.KernelIdeal.Pay3.pay1_apply (idTile V c (tileIx n)) (A1 V c) (A2 V c) (hTile V c (tileIx n)) (A3 V c) (A4 V c) hμ hσ hid' (rowIn n) d]
  simp only [eH, eγ]

end AtIdeal

end Cert.KernelIdeal.Val3

end
-- ==== Proof.Glue.lean ====
/- The per-core partial sums of a layer, added over the two cores, are the group sums, counts and sums of squares the specification is stated with. -/
import proofs.«431227_j85710367359314_3_alg».proof.Proof.Stages
import proofs.«431227_j85710367359314_3_alg».proof.Proof.RowSums
import proofs.«431227_j85710367359314_3_alg».proof.Proof.NormAlgebra

noncomputable section

namespace Cert.Glue

open Cert.Stages Cert.RowSums Cert.NormAlgebra
open Idealize.ShloMosaic Idealize.ShloMosaic.ValueIdx

variable (ids : (⟨1, ![524288]⟩ : Shape).Idx → BitVec 32) (hlt : ∀ j, (ids j).toNat < 32)

theorem gid_eq_iff (n : Rows) (g : Grp) : gidOf ids hlt n = g ↔ (ids (ix1 n)).toNat = g.val := by
  unfold gidOf
  constructor
  · intro e; exact congrArg Fin.val e
  · intro e; exact Fin.ext e

theorem ite_gid {α : Type*} (n : Rows) (g : Grp) (a b : α) :
    (if gidOf ids hlt n = g then a else b) = if (ids (ix1 n)).toNat = g.val then a else b :=
  if_congr (gid_eq_iff ids hlt n g) rfl rfl

theorem shares_eq (f : Rows → EReal) (g : Grp) :
    (∑ s : Fin 32, ∑ r : Fin 8192, if (ids (ix1 (rowOf (tileOf 0 s) r))).toNat = g.val then f (rowOf (tileOf 0 s) r) else 0) + (∑ s : Fin 32, ∑ r : Fin 8192, if (ids (ix1 (rowOf (tileOf 1 s) r))).toNat = g.val then f (rowOf (tileOf 1 s) r) else 0)
      = ∑ n : Rows, if gidOf ids hlt n = g then f n else 0 := by
  have e : (∑ n : Rows, if gidOf ids hlt n = g then f n else 0)
      = ∑ n : Fin 524288, if (ids (ix1 n)).toNat = g.val then f n else 0 :=
    Finset.sum_congr rfl (fun n _ => ite_gid ids hlt n g _ _)
  rw [e, sum_rows_cores (fun n : Fin 524288 => if (ids (ix1 n)).toNat = g.val then f n else 0), Fin.sum_univ_two]

variable {D : ℕ} (h : Rows → Fin D → EReal)

theorem shares_segsum (g : Grp) (d : Fin D) :
    (∑ s : Fin 32, ∑ r : Fin 8192, if (ids (ix1 (rowOf (tileOf 0 s) r))).toNat = g.val then h (rowOf (tileOf 0 s) r) d else 0) + (∑ s : Fin 32, ∑ r : Fin 8192, if (ids (ix1 (rowOf (tileOf 1 s) r))).toNat = g.val then h (rowOf (tileOf 1 s) r) d else 0)
      = segsum (gidOf ids hlt) h g d :=
  shares_eq ids hlt (fun n => h n d) g

theorem shares_segsum_sq (g : Grp) (d : Fin D) :
    (∑ s : Fin 32, ∑ r : Fin 8192, if (ids (ix1 (rowOf (tileOf 0 s) r))).toNat = g.val then h (rowOf (tileOf 0 s) r) d * h (rowOf (tileOf 0 s) r) d else 0) + (∑ s : Fin 32, ∑ r : Fin 8192, if (ids (ix1 (rowOf (tileOf 1 s) r))).toNat = g.val then h (rowOf (tileOf 1 s) r) d * h (rowOf (tileOf 1 s) r) d else 0)
      = segsum (gidOf ids hlt) (fun n d => h n d * h n d) g d :=
  shares_eq ids hlt (fun n => h n d * h n d) g

theorem shares_segcnt (g : Grp) :
    (∑ s : Fin 32, ∑ r : Fin 8192, if (ids (ix1 (rowOf (tileOf 0 s) r))).toNat = g.val then (1 : EReal) else 0) + (∑ s : Fin 32, ∑ r : Fin 8192, if (ids (ix1 (rowOf (tileOf 1 s) r))).toNat = g.val then (1 : EReal) else 0)
      = segcnt (gidOf ids hlt) g :=
  shares_eq ids hlt (fun _ => (1 : EReal)) g

end Cert.Glue

end
-- ==== Proof.KernelNet.lean ====
/- The kernel's whole computation as a chain of equations between plain functions, layer after layer, ending at the specification's network. -/
import proofs.«431227_j85710367359314_3_alg».proof.Proof.Stages
import proofs.«431227_j85710367359314_3_alg».proof.Proof.RowSums
import proofs.«431227_j85710367359314_3_alg».proof.Proof.NormAlgebra
import proofs.«431227_j85710367359314_3_alg».proof.Proof.Glue

noncomputable section

namespace Cert.KernelNet

open Cert.Stages Cert.RowSums Cert.NormAlgebra Cert.Glue
open Idealize.ShloMosaic Idealize.ShloMosaic.ValueIdx

variable (ids : (⟨1, ![524288]⟩ : Shape).Idx → BitVec 32) (hlt : ∀ j, (ids j).toNat < 32)

section Real

variable (gid : Rows → Grp) {D : ℕ} (A : Rows → Fin D → EReal)

theorem mu_real (hA : ∀ n d, IsR (A n d)) (g : Grp) (d : Fin D) : IsR (Stages.mu gid A g d) := by
  rw [mu_eq gid A _ (real_parts A hA)]; exact IsR.coe _

theorem sdK_real (hA : ∀ n d, IsR (A n d)) (g : Grp) (d : Fin D) : IsR (Stages.sdK gid A g d) := by
  rw [sdK_eq gid A _ (real_parts A hA)]; exact IsR.coe _

theorem sdK_nonneg (hA : ∀ n d, IsR (A n d)) (g : Grp) (d : Fin D) : 0 ≤ Stages.sdK gid A g d := by
  rw [sdK_eq gid A _ (real_parts A hA)]; exact EReal.coe_nonneg.mpr (sd_nonneg _ _)

theorem sdK_add_eps_ne_zero (hA : ∀ n d, IsR (A n d)) (g : Grp) (d : Fin D) :
    Stages.sdK gid A g d + Stages.eps ≠ 0 := by
  rw [sdK_eq gid A _ (real_parts A hA)]; exact sd_add_eps_ne_zero _ _

end Real

section Layer

variable {D : ℕ} (A : Rows → Fin D → EReal) (P Q C : Fin 2 → Fin 32 → Fin D → EReal) (M Dv : Fin 32 → Fin D → EReal)

theorem total_sum (hP : ∀ c g d, P c g d = ∑ s : Fin 32, ∑ r : Fin 8192, if (ids (ix1 (rowOf (tileOf c s) r))).toNat = g.val then A (rowOf (tileOf c s) r) d else 0) (g : Grp) (d : Fin D) :
    P 0 g d + P 1 g d = segsum (gidOf ids hlt) A g d := by
  rw [hP 0 g d, hP 1 g d]; exact shares_segsum ids hlt A g d

theorem total_sq (hQ : ∀ c g d, Q c g d = ∑ s : Fin 32, ∑ r : Fin 8192, if (ids (ix1 (rowOf (tileOf c s) r))).toNat = g.val then A (rowOf (tileOf c s) r) d * A (rowOf (tileOf c s) r) d else 0) (g : Grp) (d : Fin D) :
    Q 0 g d + Q 1 g d = segsum (gidOf ids hlt) (fun n d => A n d * A n d) g d := by
  rw [hQ 0 g d, hQ 1 g d]; exact shares_segsum_sq ids hlt A g d

theorem total_cnt (hC : ∀ c g d, C c g d = ∑ s : Fin 32, ∑ r : Fin 8192, if (ids (ix1 (rowOf (tileOf c s) r))).toNat = g.val then (1 : EReal) else 0) (g : Grp) (d : Fin D) :
    C 0 g d + C 1 g d = segcnt (gidOf ids hlt) g := by
  rw [hC 0 g d, hC 1 g d]; exact shares_segcnt ids hlt g

theorem mean_of_totals (gid : Rows → Grp) {SP SC : Fin 32 → Fin D → EReal}
    (hSP : ∀ g d, SP g d = segsum gid A g d) (hSC : ∀ g d, SC g d = segcnt gid g)
    (hM : ∀ g d, M g d = Ideal.div (SP g d) (max (SC g d) 1)) : M = Stages.mu gid A := by
  funext g d; rw [hM, hSP, hSC]; rfl

theorem dev_of_totals (gid : Rows → Grp) {SQ SC : Fin 32 → Fin D → EReal}
    (hSQ : ∀ g d, SQ g d = segsum gid (fun n d => A n d * A n d) g d) (hSC : ∀ g d, SC g d = segcnt gid g)
    (hM : M = Stages.mu gid A)
    (hD : ∀ g d, Dv g d = Ideal.sqrt (max (Ideal.div (SQ g d - SC g d * M g d * M g d) (max (SC g d - 1) 1)) 0)) :
    Dv = Stages.sdK gid A := by
  funext g d; rw [hD, hSQ, hSC, hM]; rfl

structure Stats : Prop where
  hP : ∀ c g d, P c g d = ∑ s : Fin 32, ∑ r : Fin 8192, if (ids (ix1 (rowOf (tileOf c s) r))).toNat = g.val then A (rowOf (tileOf c s) r) d else 0
  hQ : ∀ c g d, Q c g d = ∑ s : Fin 32, ∑ r : Fin 8192, if (ids (ix1 (rowOf (tileOf c s) r))).toNat = g.val then A (rowOf (tileOf c s) r) d * A (rowOf (tileOf c s) r) d else 0
  hC : ∀ c g d, C c g d = ∑ s : Fin 32, ∑ r : Fin 8192, if (ids (ix1 (rowOf (tileOf c s) r))).toNat = g.val then (1 : EReal) else 0
  hM : ∀ g d, M g d = Ideal.div (P 0 g d + P 1 g d) (max (C 0 g d + C 1 g d) 1)
  hD : ∀ g d, Dv g d = Ideal.sqrt (max (Ideal.div ((Q 0 g d + Q 1 g d) - (C 0 g d + C 1 g d) * M g d * M g d)
        (max ((C 0 g d + C 1 g d) - 1) 1)) 0)

variable {ids A P Q C M Dv}

theorem Stats.M_eq (st : Stats ids A P Q C M Dv) : M = Stages.mu (gidOf ids hlt) A :=
  mean_of_totals A M (gidOf ids hlt)
    (SP := fun g d => P 0 g d + P 1 g d) (SC := fun g d => C 0 g d + C 1 g d)
    (total_sum ids hlt A P st.hP) (total_cnt ids hlt C st.hC) st.hM

theorem Stats.D_eq (st : Stats ids A P Q C M Dv) : Dv = Stages.sdK (gidOf ids hlt) A :=
  dev_of_totals A M Dv (gidOf ids hlt)
    (SQ := fun g d => Q 0 g d + Q 1 g d) (SC := fun g d => C 0 g d + C 1 g d)
    (total_sq ids hlt A Q st.hQ) (total_cnt ids hlt C st.hC) (st.M_eq hlt) st.hD

include hlt in
theorem Stats.M_real (st : Stats ids A P Q C M Dv) (hA : ∀ n d, IsR (A n d)) (g : Grp) (d : Fin D) : IsR (M g d) := by
  rw [st.M_eq hlt]; exact mu_real _ A hA g d

include hlt in
theorem Stats.D_real (st : Stats ids A P Q C M Dv) (hA : ∀ n d, IsR (A n d)) (g : Grp) (d : Fin D) : IsR (Dv g d) := by
  rw [st.D_eq hlt]; exact sdK_real _ A hA g d

include hlt in
theorem Stats.D_nonneg (st : Stats ids A P Q C M Dv) (hA : ∀ n d, IsR (A n d)) (g : Grp) (d : Fin D) : 0 ≤ Dv g d := by
  rw [st.D_eq hlt]; exact sdK_nonneg _ A hA g d

include hlt in
theorem Stats.D_add_eps_ne_zero (st : Stats ids A P Q C M Dv) (hA : ∀ n d, IsR (A n d)) (g : Grp) (d : Fin D) :
    Dv g d + Stages.eps ≠ 0 := by
  rw [st.D_eq hlt]; exact sdK_add_eps_ne_zero _ A hA g d

variable (ids A P Q C M Dv)

end Layer

section Next

variable (gid : Rows → Grp) {D E : ℕ} (A : Rows → Fin D → EReal) (M Dv : Fin 32 → Fin D → EReal)
  (W : Fin E → Fin D → EReal) (b : Fin E → EReal)

theorem next_eq (A' : Rows → Fin E → EReal) (hM : M = Stages.mu gid A) (hD : Dv = Stages.sdK gid A)
    (hA' : ∀ n e, A' n e
      = act ((∑ k : Fin D, Ideal.div (A n k - M (gid n) k) (Dv (gid n) k + Stages.eps) * W e k) + b e)) :
    A' = Stages.layer gid (Stages.sdK gid) W b A := by
  funext n e; rw [hA' n e, hM, hD]; rfl

theorem last_eq (O : Rows → Fin E → EReal) (hM : M = Stages.mu gid A) (hD : Dv = Stages.sdK gid A)
    (hO : ∀ n e, O n e
      = (∑ k : Fin D, Ideal.div (A n k - M (gid n) k) (Dv (gid n) k + Stages.eps) * W e k) + b e) :
    O = Stages.lin (Stages.normWith gid (Stages.sdK gid) A) W b := by
  funext n e; rw [hO n e, hM, hD]; rfl

end Next

section Whole

variable (x : Rows → Fin 248 → EReal) (W1 : Fin 64 → Fin 248 → EReal) (b1 : Fin 64 → EReal)
  (W2 : Fin 64 → Fin 64 → EReal) (b2 : Fin 64 → EReal) (W3 : Fin 64 → Fin 64 → EReal) (b3 : Fin 64 → EReal)
  (W4 : Fin 3 → Fin 64 → EReal) (b4 : Fin 3 → EReal)
  (A1 A2 A3 : Rows → Fin 64 → EReal)
  (P1 Q1 C1 P2 Q2 C2 P3 Q3 C3 : Fin 2 → Fin 32 → Fin 64 → EReal)
  (M1 D1 M2 D2 M3 D3 : Fin 32 → Fin 64 → EReal) (Out : Rows → Fin 3 → EReal)

theorem A1_eq (hA1 : ∀ n d, A1 n d = act ((∑ k : Fin 248, x n k * W1 d k) + b1 d)) : A1 = Stages.h1 x W1 b1 := by
  funext n d; rw [hA1 n d]; rfl

theorem A1_real (hx : ∀ n k, IsR (x n k)) (hW1 : ∀ d k, IsR (W1 d k)) (hb1 : ∀ d, IsR (b1 d))
    (hA1 : ∀ n d, A1 n d = act ((∑ k : Fin 248, x n k * W1 d k) + b1 d)) (n : Rows) (d : Fin 64) : IsR (A1 n d) := by
  rw [A1_eq x W1 b1 A1 hA1]; exact h1_real x W1 b1 hx hW1 hb1 n d

theorem A2_eq (hA1 : ∀ n d, A1 n d = act ((∑ k : Fin 248, x n k * W1 d k) + b1 d))
    (st1 : Stats ids A1 P1 Q1 C1 M1 D1)
    (hA2 : ∀ n d, A2 n d = act ((∑ k : Fin 64, Ideal.div (A1 n k - M1 (gidOf ids hlt n) k)
        (D1 (gidOf ids hlt n) k + Stages.eps) * W2 d k) + b2 d)) :
    A2 = Stages.layer (gidOf ids hlt) (Stages.sdK (gidOf ids hlt)) W2 b2 (Stages.h1 x W1 b1) := by
  rw [← A1_eq x W1 b1 A1 hA1]
  exact next_eq (gidOf ids hlt) A1 M1 D1 W2 b2 A2 (st1.M_eq hlt) (st1.D_eq hlt) hA2

theorem A2_real (hx : ∀ n k, IsR (x n k)) (hW1 : ∀ d k, IsR (W1 d k)) (hb1 : ∀ d, IsR (b1 d))
    (hW2 : ∀ d k, IsR (W2 d k)) (hb2 : ∀ d, IsR (b2 d))
    (hA1 : ∀ n d, A1 n d = act ((∑ k : Fin 248, x n k * W1 d k) + b1 d))
    (st1 : Stats ids A1 P1 Q1 C1 M1 D1)
    (hA2 : ∀ n d, A2 n d = act ((∑ k : Fin 64, Ideal.div (A1 n k - M1 (gidOf ids hlt n) k)
        (D1 (gidOf ids hlt n) k + Stages.eps) * W2 d k) + b2 d)) (n : Rows) (d : Fin 64) : IsR (A2 n d) := by
  rw [A2_eq ids hlt x W1 b1 W2 b2 A1 A2 P1 Q1 C1 M1 D1 hA1 st1 hA2]
  exact layer_real (gidOf ids hlt) _ W2 b2 (h1_real x W1 b1 hx hW1 hb1) hW2 hb2 n d

theorem A3_eq (hA1 : ∀ n d, A1 n d = act ((∑ k : Fin 248, x n k * W1 d k) + b1 d))
    (st1 : Stats ids A1 P1 Q1 C1 M1 D1)
    (hA2 : ∀ n d, A2 n d = act ((∑ k : Fin 64, Ideal.div (A1 n k - M1 (gidOf ids hlt n) k)
        (D1 (gidOf ids hlt n) k + Stages.eps) * W2 d k) + b2 d))
    (st2 : Stats ids A2 P2 Q2 C2 M2 D2)
    (hA3 : ∀ n d, A3 n d = act ((∑ k : Fin 64, Ideal.div (A2 n k - M2 (gidOf ids hlt n) k)
        (D2 (gidOf ids hlt n) k + Stages.eps) * W3 d k) + b3 d)) :
    A3 = Stages.layer (gidOf ids hlt) (Stages.sdK (gidOf ids hlt)) W3 b3
      (Stages.layer (gidOf ids hlt) (Stages.sdK (gidOf ids hlt)) W2 b2 (Stages.h1 x W1 b1)) := by
  rw [← A2_eq ids hlt x W1 b1 W2 b2 A1 A2 P1 Q1 C1 M1 D1 hA1 st1 hA2]
  exact next_eq (gidOf ids hlt) A2 M2 D2 W3 b3 A3 (st2.M_eq hlt) (st2.D_eq hlt) hA3

theorem A3_real (hx : ∀ n k, IsR (x n k)) (hW1 : ∀ d k, IsR (W1 d k)) (hb1 : ∀ d, IsR (b1 d))
    (hW2 : ∀ d k, IsR (W2 d k)) (hb2 : ∀ d, IsR (b2 d)) (hW3 : ∀ d k, IsR (W3 d k)) (hb3 : ∀ d, IsR (b3 d))
    (hA1 : ∀ n d, A1 n d = act ((∑ k : Fin 248, x n k * W1 d k) + b1 d))
    (st1 : Stats ids A1 P1 Q1 C1 M1 D1)
    (hA2 : ∀ n d, A2 n d = act ((∑ k : Fin 64, Ideal.div (A1 n k - M1 (gidOf ids hlt n) k)
        (D1 (gidOf ids hlt n) k + Stages.eps) * W2 d k) + b2 d))
    (st2 : Stats ids A2 P2 Q2 C2 M2 D2)
    (hA3 : ∀ n d, A3 n d = act ((∑ k : Fin 64, Ideal.div (A2 n k - M2 (gidOf ids hlt n) k)
        (D2 (gidOf ids hlt n) k + Stages.eps) * W3 d k) + b3 d)) (n : Rows) (d : Fin 64) : IsR (A3 n d) := by
  rw [A3_eq ids hlt x W1 b1 W2 b2 W3 b3 A1 A2 A3 P1 Q1 C1 P2 Q2 C2 M1 D1 M2 D2 hA1 st1 hA2 st2 hA3]
  exact layer_real (gidOf ids hlt) _ W3 b3
    (layer_real (gidOf ids hlt) _ W2 b2 (h1_real x W1 b1 hx hW1 hb1) hW2 hb2) hW3 hb3 n d

theorem out_eq_spec (hA1 : ∀ n d, A1 n d = act ((∑ k : Fin 248, x n k * W1 d k) + b1 d))
    (st1 : Stats ids A1 P1 Q1 C1 M1 D1)
    (hA2 : ∀ n d, A2 n d = act ((∑ k : Fin 64, Ideal.div (A1 n k - M1 (gidOf ids hlt n) k)
        (D1 (gidOf ids hlt n) k + Stages.eps) * W2 d k) + b2 d))
    (st2 : Stats ids A2 P2 Q2 C2 M2 D2)
    (hA3 : ∀ n d, A3 n d = act ((∑ k : Fin 64, Ideal.div (A2 n k - M2 (gidOf ids hlt n) k)
        (D2 (gidOf ids hlt n) k + Stages.eps) * W3 d k) + b3 d))
    (st3 : Stats ids A3 P3 Q3 C3 M3 D3)
    (hOut : ∀ n d, Out n d = (∑ k : Fin 64, Ideal.div (A3 n k - M3 (gidOf ids hlt n) k)
        (D3 (gidOf ids hlt n) k + Stages.eps) * W4 d k) + b4 d) (n : Rows) (d : Fin 3) :
    Out n d = Stages.out (gidOf ids hlt) (Stages.sdK (gidOf ids hlt)) x W1 b1 W2 b2 W3 b3 W4 b4 n d := by
  have e3 := A3_eq ids hlt x W1 b1 W2 b2 W3 b3 A1 A2 A3 P1 Q1 C1 P2 Q2 C2 M1 D1 M2 D2 hA1 st1 hA2 st2 hA3
  have eO := last_eq (gidOf ids hlt) A3 M3 D3 W4 b4 Out (st3.M_eq hlt) (st3.D_eq hlt) hOut
  rw [eO, e3]; rfl

end Whole

end Cert.KernelNet

end
-- ==== Proof.KI.Chain.lean ====
/- The arrays' contents followed through the whole program, stretch by stretch: the final array is the specification's network. -/
import proofs.«431227_j85710367359314_3_alg».proof.Proof.KI.Main
import proofs.«431227_j85710367359314_3_alg».proof.Proof.KI.Host
import proofs.«431227_j85710367359314_3_alg».proof.Proof.KI.Val0
import proofs.«431227_j85710367359314_3_alg».proof.Proof.KI.Val1
import proofs.«431227_j85710367359314_3_alg».proof.Proof.KI.Val2
import proofs.«431227_j85710367359314_3_alg».proof.Proof.KI.Val3
import proofs.«431227_j85710367359314_3_alg».proof.Proof.KernelNet
import proofs.«431227_j85710367359314_3_alg».proof.Proof.PreFacts

noncomputable section

namespace Cert.KernelIdeal.Chain

open Idealize.ShloMosaic Idealize.ShloMosaic.TcCoe Idealize.ShloMosaic.ValueIdx
open Cert.KernelIdeal Cert.KernelIdeal.Gen Cert.KernelIdeal.Run Cert.KernelIdeal.HostVal
open Cert.RowSums (rowOf tileOf)
open Cert.Stages (Rows Grp gidOf mat vec)
open Cert.NormAlgebra (IsR)
open Cert.Pre_finite_inputs (S524288x248 S524288 S64x248 S64 S64x64 S3x64 S3)

section Body

variable [hPre : Cert.Pre_finite_inputs.Facts]
variable (m : (ℓ : Loc nD τ sig) → Buf (Elt Ideal) ℓ) (ρ : Dev nD → PrngReg) (c : Dev nD)

abbrev rd {s : Shape} (x : s.Idx → EReal) (i : s.Idx) : EReal := x i

abbrev idsA : (⟨1, ![524288]⟩ : Shape).Idx → BitVec 32 := (m ((c.tc : Thread nD τ).loc main_arg1) : IVec S524288 32)

abbrev xA : Rows → Fin 248 → EReal := mat (m ((c.tc : Thread nD τ).loc main_arg0) : FVec Ideal S524288x248 .f32)
abbrev w1A : Fin 64 → Fin 248 → EReal := mat (m ((c.tc : Thread nD τ).loc main_arg2) : FVec Ideal S64x248 .f32)
abbrev b1A : Fin 64 → EReal := vec (m ((c.tc : Thread nD τ).loc main_arg3) : FVec Ideal S64 .f32)
abbrev w2A : Fin 64 → Fin 64 → EReal := mat (m ((c.tc : Thread nD τ).loc main_arg4) : FVec Ideal S64x64 .f32)
abbrev b2A : Fin 64 → EReal := vec (m ((c.tc : Thread nD τ).loc main_arg5) : FVec Ideal S64 .f32)
abbrev w3A : Fin 64 → Fin 64 → EReal := mat (m ((c.tc : Thread nD τ).loc main_arg6) : FVec Ideal S64x64 .f32)
abbrev b3A : Fin 64 → EReal := vec (m ((c.tc : Thread nD τ).loc main_arg7) : FVec Ideal S64 .f32)
abbrev w4A : Fin 3 → Fin 64 → EReal := mat (m ((c.tc : Thread nD τ).loc main_arg8) : FVec Ideal S3x64 .f32)
abbrev b4A : Fin 3 → EReal := vec (m ((c.tc : Thread nD τ).loc main_arg9) : FVec Ideal S3 .f32)

theorem ids_lt (hpre : Cert.Pre_KernelIdeal m) (j : S524288.Idx) :
    ((m ((c.tc : Thread nD τ).loc main_arg1) : IVec S524288 32) j).toNat < 32 :=
  (Cert.PreFacts.KernelIdeal.idx_range m hpre c j).2.1

theorem x_real (hpre : Cert.Pre_KernelIdeal m) (n : Rows) (k : Fin 248) : IsR (xA m c n k) :=
  Cert.PreFacts.KernelIdeal.real_arg0 m hpre c (ix2 n k)
theorem w1_real (hpre : Cert.Pre_KernelIdeal m) (d : Fin 64) (k : Fin 248) : IsR (w1A m c d k) :=
  Cert.PreFacts.KernelIdeal.real_arg2 m hpre c (ix2 d k)
theorem b1_real (hpre : Cert.Pre_KernelIdeal m) (d : Fin 64) : IsR (b1A m c d) :=
  Cert.PreFacts.KernelIdeal.real_arg3 m hpre c (ix1 d)
theorem w2_real (hpre : Cert.Pre_KernelIdeal m) (d : Fin 64) (k : Fin 64) : IsR (w2A m c d k) :=
  Cert.PreFacts.KernelIdeal.real_arg4 m hpre c (ix2 d k)
theorem b2_real (hpre : Cert.Pre_KernelIdeal m) (d : Fin 64) : IsR (b2A m c d) :=
  Cert.PreFacts.KernelIdeal.real_arg5 m hpre c (ix1 d)
theorem w3_real (hpre : Cert.Pre_KernelIdeal m) (d : Fin 64) (k : Fin 64) : IsR (w3A m c d k) :=
  Cert.PreFacts.KernelIdeal.real_arg6 m hpre c (ix2 d k)
theorem b3_real (hpre : Cert.Pre_KernelIdeal m) (d : Fin 64) : IsR (b3A m c d) :=
  Cert.PreFacts.KernelIdeal.real_arg7 m hpre c (ix1 d)

theorem idx_col (j : (⟨2, ![524288, 1]⟩ : Shape).Idx) : ∃ n : Fin 524288, j = ix2 n (0 : Fin 1) := by
  refine ⟨j 0, ?_⟩
  funext a
  match a with
  | ⟨0, _⟩ => rfl
  | ⟨1, _⟩ => exact Subsingleton.elim (α := Fin 1) _ _

theorem b1_arg0 : W1 m ρ c (Proc.devRef .tc main_arg0) = m ((c.tc : Thread nD τ).loc main_arg0) :=
  W1_of m ρ c main_arg0 (by decide)
theorem b1_arg2 : W1 m ρ c (Proc.devRef .tc main_arg2) = m ((c.tc : Thread nD τ).loc main_arg2) :=
  W1_of m ρ c main_arg2 (by decide)
theorem b1_bias (d : Fin 64) : rd (W1 m ρ c (Proc.devRef .tc main_v1)) (ix2 0 d) = b1A m c d :=
  host0_b (W0 m ρ c) d
theorem b1_ids (n : Fin 524288) : W1 m ρ c (Proc.devRef .tc main_v0) (ix2 n 0) = idsA m c (ix1 n) :=
  host0_ids (W0 m ρ c) n

def H0 : Rows → Fin 64 → EReal := Val0.H (V1 m ρ) c

theorem H0_eq (n : Rows) (d : Fin 64) :
    H0 m ρ c n d = Cert.Stages.act ((∑ k : Fin 248, xA m c n k * w1A m c d k) + b1A m c d) := by
  show Cert.Stages.act ((∑ k : Fin 248, rd (W1 m ρ c (Proc.devRef .tc main_arg0)) (ix2 n k)
        * rd (W1 m ρ c (Proc.devRef .tc main_arg2)) (ix2 d k))
      + rd (W1 m ρ c (Proc.devRef .tc main_v1)) (ix2 0 d)) = _
  rw [b1_arg0, b1_arg2, b1_bias]
  first | done | rfl

theorem H0_real (hpre : Cert.Pre_KernelIdeal m) (n : Rows) (d : Fin 64) : IsR (H0 m ρ c n d) :=
  Cert.KernelNet.A1_real (xA m c) (w1A m c) (b1A m c) (H0 m ρ c) (x_real m c hpre) (w1_real m c hpre) (b1_real m c hpre)
    (H0_eq m ρ c) n d

theorem b2_h (n : Rows) (d : Fin 64) : rd (W2 m ρ c (Proc.devRef .tc main_v2_0)) (ix2 n d) = H0 m ρ c n d :=
  (congrFun (W2_arr m ρ c 4) (ix2 n d)).trans (Val0.arr_h (V1 m ρ) c n d)

def P1 (core : Fin 2) (g : Fin 32) (d : Fin 64) : EReal := W2 m ρ c (Proc.devRef .tc main_v2_1) (ix3 core g d)
def Q1 (core : Fin 2) (g : Fin 32) (d : Fin 64) : EReal := W2 m ρ c (Proc.devRef .tc main_v2_2) (ix3 core g d)
def C1 (core : Fin 2) (g : Fin 32) (d : Fin 64) : EReal := W2 m ρ c (Proc.devRef .tc main_v2_3) (ix3 core g d)

theorem P1_eq (core : Fin 2) (g : Fin 32) (d : Fin 64) :
    P1 m ρ c core g d = ∑ s : Fin 32, ∑ r : Fin 8192,
      if (idsA m c (ix1 (rowOf (tileOf core s) r))).toNat = g.val then H0 m ρ c (rowOf (tileOf core s) r) d else 0 := by
  simp only [← b1_ids m ρ c]
  exact (congrFun (W2_arr m ρ c 5) (ix3 core g d)).trans (Val0.arr_sum (V1 m ρ) c core g d)

theorem Q1_eq (core : Fin 2) (g : Fin 32) (d : Fin 64) :
    Q1 m ρ c core g d = ∑ s : Fin 32, ∑ r : Fin 8192,
      if (idsA m c (ix1 (rowOf (tileOf core s) r))).toNat = g.val
        then H0 m ρ c (rowOf (tileOf core s) r) d * H0 m ρ c (rowOf (tileOf core s) r) d else 0 := by
  simp only [← b1_ids m ρ c]
  exact (congrFun (W2_arr m ρ c 6) (ix3 core g d)).trans (Val0.arr_sumsq (V1 m ρ) c core g d)

theorem C1_eq (core : Fin 2) (g : Fin 32) (d : Fin 64) :
    C1 m ρ c core g d = ∑ s : Fin 32, ∑ r : Fin 8192,
      if (idsA m c (ix1 (rowOf (tileOf core s) r))).toNat = g.val then (1 : EReal) else 0 := by
  simp only [← b1_ids m ρ c]
  exact (congrFun (W2_arr m ρ c 7) (ix3 core g d)).trans (Val0.arr_cnt (V1 m ρ) c core g d)

def M1 (g : Fin 32) (d : Fin 64) : EReal := W3 m ρ c (Proc.devRef .tc main_v8) (ix2 g d)
def D1 (g : Fin 32) (d : Fin 64) : EReal := W3 m ρ c (Proc.devRef .tc main_v19) (ix2 g d)

theorem M1_eq (g : Fin 32) (d : Fin 64) :
    M1 m ρ c g d = Ideal.div (P1 m ρ c 0 g d + P1 m ρ c 1 g d) (max (C1 m ρ c 0 g d + C1 m ρ c 1 g d) 1) :=
  host1_mu (W2 m ρ c) g d

theorem D1_eq (g : Fin 32) (d : Fin 64) :
    D1 m ρ c g d = Ideal.sqrt (max (Ideal.div ((Q1 m ρ c 0 g d + Q1 m ρ c 1 g d)
        - (C1 m ρ c 0 g d + C1 m ρ c 1 g d) * M1 m ρ c g d * M1 m ρ c g d)
      (max ((C1 m ρ c 0 g d + C1 m ρ c 1 g d) - 1) 1)) 0) := by
  have e := host1_sd (W2 m ρ c) g d
  unfold sdOf at e
  rwa [← host1_mu (W2 m ρ c) g d] at e

theorem st1 : Cert.KernelNet.Stats (idsA m c) (H0 m ρ c) (P1 m ρ c) (Q1 m ρ c) (C1 m ρ c) (M1 m ρ c) (D1 m ρ c) :=
  ⟨P1_eq m ρ c, Q1_eq m ρ c, C1_eq m ρ c, M1_eq m ρ c, D1_eq m ρ c⟩

theorem M1_real (hpre : Cert.Pre_KernelIdeal m) (g : Fin 32) (d : Fin 64) : IsR (M1 m ρ c g d) :=
  (st1 m ρ c).M_real (ids_lt m c hpre) (H0_real m ρ c hpre) g d
theorem D1_real (hpre : Cert.Pre_KernelIdeal m) (g : Fin 32) (d : Fin 64) : IsR (D1 m ρ c g d) :=
  (st1 m ρ c).D_real (ids_lt m c hpre) (H0_real m ρ c hpre) g d

theorem e3_ids (n : Fin 524288) : W3 m ρ c (Proc.devRef .tc main_v0) (ix2 n 0) = idsA m c (ix1 n) := by
  have e : W3 m ρ c (Proc.devRef .tc main_v0) = W1 m ρ c (Proc.devRef .tc main_v0) :=
    (W3_of m ρ c main_v0 (by decide)).trans (W2_in m ρ c 3 rfl)
  rw [e]; exact b1_ids m ρ c n

theorem hid1 (hpre : Cert.Pre_KernelIdeal m) (j : (⟨2, ![524288, 1]⟩ : Shape).Idx) :
    BitVec.toNat (W3 m ρ c (Proc.devRef .tc main_v0) j) < 32 := by
  obtain ⟨n, rfl⟩ := idx_col j
  rw [e3_ids]; exact ids_lt m c hpre _
theorem hμ1 (hpre : Cert.Pre_KernelIdeal m) (j : (⟨2, ![32, 64]⟩ : Shape).Idx) :
    ∃ r : ℝ, W3 m ρ c (Proc.devRef .tc main_v8) j = (r : EReal) := by
  rw [eq_ix2 j]; exact M1_real m ρ c hpre (j 0) (j 1)
theorem hσ1 (hpre : Cert.Pre_KernelIdeal m) (j : (⟨2, ![32, 64]⟩ : Shape).Idx) :
    ∃ r : ℝ, W3 m ρ c (Proc.devRef .tc main_v19) j = (r : EReal) := by
  rw [eq_ix2 j]; exact D1_real m ρ c hpre (j 0) (j 1)

def H1 (hpre : Cert.Pre_KernelIdeal m) : Rows → Fin 64 → EReal := Val1.H (V3 m ρ) c (hid1 m ρ c hpre)

theorem H1_eq (hpre : Cert.Pre_KernelIdeal m) (n : Rows) (d : Fin 64) :
    H1 m ρ c hpre n d = Cert.Stages.act ((∑ k : Fin 64,
        Ideal.div (H0 m ρ c n k - M1 m ρ c (gidOf (idsA m c) (ids_lt m c hpre) n) k)
          (D1 m ρ c (gidOf (idsA m c) (ids_lt m c hpre) n) k + Cert.Stages.eps) * w2A m c d k) + b2A m c d) := by
  have eγ : (⟨BitVec.toNat (W3 m ρ c (Proc.devRef .tc main_v0) (ix2 n 0)), hid1 m ρ c hpre _⟩ : Fin 32)
      = gidOf (idsA m c) (ids_lt m c hpre) n :=
    Fin.ext (by
      show BitVec.toNat (W3 m ρ c (Proc.devRef .tc main_v0) (ix2 n 0)) = BitVec.toNat (idsA m c (ix1 n))
      rw [e3_ids])
  have eA : W3 m ρ c (Proc.devRef .tc main_v2_0) = W2 m ρ c (Proc.devRef .tc main_v2_0) :=
    W3_of m ρ c main_v2_0 (by decide)
  have eW : W3 m ρ c (Proc.devRef .tc main_arg4) = m ((c.tc : Thread nD τ).loc main_arg4) :=
    (W3_of m ρ c main_arg4 (by decide)).trans ((W2_of_ne m ρ c main_arg4 (by decide)).trans (W1_of m ρ c main_arg4 (by decide)))
  have eB0 : W2 m ρ c (Proc.devRef .tc main_arg5) = m ((c.tc : Thread nD τ).loc main_arg5) :=
    (W2_of_ne m ρ c main_arg5 (by decide)).trans (W1_of m ρ c main_arg5 (by decide))
  have eB : rd (W3 m ρ c (Proc.devRef .tc main_v20)) (ix2 0 d) = b2A m c d :=
    (host1_b (W2 m ρ c) d).trans (congrFun eB0 (ix1 d))
  show Cert.Stages.act ((∑ k : Fin 64,
        Ideal.div (rd (W3 m ρ c (Proc.devRef .tc main_v2_0)) (ix2 n k)
            - rd (W3 m ρ c (Proc.devRef .tc main_v8))
                (ix2 (⟨BitVec.toNat (W3 m ρ c (Proc.devRef .tc main_v0) (ix2 n 0)), hid1 m ρ c hpre _⟩ : Fin 32) k))
          (rd (W3 m ρ c (Proc.devRef .tc main_v19))
                (ix2 (⟨BitVec.toNat (W3 m ρ c (Proc.devRef .tc main_v0) (ix2 n 0)), hid1 m ρ c hpre _⟩ : Fin 32) k)
            + Cert.Stages.eps)
          * rd (W3 m ρ c (Proc.devRef .tc main_arg4)) (ix2 d k))
      + rd (W3 m ρ c (Proc.devRef .tc main_v20)) (ix2 0 d)) = _
  rw [eγ, eA, eW, eB]
  refine congrArg Cert.Stages.act (congrArg (fun t => t + b2A m c d) (Finset.sum_congr rfl (fun k _ => ?_)))
  rw [b2_h]
  first | done | rfl

theorem H1_real (hpre : Cert.Pre_KernelIdeal m) (n : Rows) (d : Fin 64) : IsR (H1 m ρ c hpre n d) :=
  Cert.KernelNet.A2_real (idsA m c) (ids_lt m c hpre) (xA m c) (w1A m c) (b1A m c) (w2A m c) (b2A m c)
    (H0 m ρ c) (H1 m ρ c hpre) (P1 m ρ c) (Q1 m ρ c) (C1 m ρ c) (M1 m ρ c) (D1 m ρ c)
    (x_real m c hpre) (w1_real m c hpre) (b1_real m c hpre) (w2_real m c hpre) (b2_real m c hpre)
    (H0_eq m ρ c) (st1 m ρ c) (H1_eq m ρ c hpre) n d

theorem b4_h (hpre : Cert.Pre_KernelIdeal m) (n : Rows) (d : Fin 64) :
    rd (W4 m ρ c (Proc.devRef .tc main_v21_0)) (ix2 n d) = H1 m ρ c hpre n d :=
  (congrFun (W4_arr m ρ c 6) (ix2 n d)).trans
    (Val1.arr_h (V3 m ρ) c (hid1 m ρ c hpre) (hμ1 m ρ c hpre) (hσ1 m ρ c hpre) n d)

def P2 (core : Fin 2) (g : Fin 32) (d : Fin 64) : EReal := W4 m ρ c (Proc.devRef .tc main_v21_1) (ix3 core g d)
def Q2 (core : Fin 2) (g : Fin 32) (d : Fin 64) : EReal := W4 m ρ c (Proc.devRef .tc main_v21_2) (ix3 core g d)
def C2 (core : Fin 2) (g : Fin 32) (d : Fin 64) : EReal := W4 m ρ c (Proc.devRef .tc main_v21_3) (ix3 core g d)

theorem P2_eq (hpre : Cert.Pre_KernelIdeal m) (core : Fin 2) (g : Fin 32) (d : Fin 64) :
    P2 m ρ c core g d = ∑ s : Fin 32, ∑ r : Fin 8192,
      if (idsA m c (ix1 (rowOf (tileOf core s) r))).toNat = g.val then H1 m ρ c hpre (rowOf (tileOf core s) r) d else 0 := by
  simp only [← e3_ids m ρ c]
  exact (congrFun (W4_arr m ρ c 7) (ix3 core g d)).trans
      (Val1.arr_sum (V3 m ρ) c (hid1 m ρ c hpre) (hμ1 m ρ c hpre) (hσ1 m ρ c hpre) core g d)

theorem Q2_eq (hpre : Cert.Pre_KernelIdeal m) (core : Fin 2) (g : Fin 32) (d : Fin 64) :
    Q2 m ρ c core g d = ∑ s : Fin 32, ∑ r : Fin 8192,
      if (idsA m c (ix1 (rowOf (tileOf core s) r))).toNat = g.val
        then H1 m ρ c hpre (rowOf (tileOf core s) r) d * H1 m ρ c hpre (rowOf (tileOf core s) r) d else 0 := by
  simp only [← e3_ids m ρ c]
  exact (congrFun (W4_arr m ρ c 8) (ix3 core g d)).trans
      (Val1.arr_sumsq (V3 m ρ) c (hid1 m ρ c hpre) (hμ1 m ρ c hpre) (hσ1 m ρ c hpre) core g d)

theorem C2_eq (hpre : Cert.Pre_KernelIdeal m) (core : Fin 2) (g : Fin 32) (d : Fin 64) :
    C2 m ρ c core g d = ∑ s : Fin 32, ∑ r : Fin 8192,
      if (idsA m c (ix1 (rowOf (tileOf core s) r))).toNat = g.val then (1 : EReal) else 0 := by
  simp only [← e3_ids m ρ c]
  exact (congrFun (W4_arr m ρ c 9) (ix3 core g d)).trans
      (Val1.arr_cnt (V3 m ρ) c core g d)

def M2 (g : Fin 32) (d : Fin 64) : EReal := W5 m ρ c (Proc.devRef .tc main_v27) (ix2 g d)
def D2 (g : Fin 32) (d : Fin 64) : EReal := W5 m ρ c (Proc.devRef .tc main_v38) (ix2 g d)

theorem M2_eq (g : Fin 32) (d : Fin 64) :
    M2 m ρ c g d = Ideal.div (P2 m ρ c 0 g d + P2 m ρ c 1 g d) (max (C2 m ρ c 0 g d + C2 m ρ c 1 g d) 1) :=
  host2_mu (W4 m ρ c) g d

theorem D2_eq (g : Fin 32) (d : Fin 64) :
    D2 m ρ c g d = Ideal.sqrt (max (Ideal.div ((Q2 m ρ c 0 g d + Q2 m ρ c 1 g d)
        - (C2 m ρ c 0 g d + C2 m ρ c 1 g d) * M2 m ρ c g d * M2 m ρ c g d)
      (max ((C2 m ρ c 0 g d + C2 m ρ c 1 g d) - 1) 1)) 0) := by
  have e := host2_sd (W4 m ρ c) g d
  unfold sdOf at e
  rwa [← host2_mu (W4 m ρ c) g d] at e

theorem st2 (hpre : Cert.Pre_KernelIdeal m) :
    Cert.KernelNet.Stats (idsA m c) (H1 m ρ c hpre) (P2 m ρ c) (Q2 m ρ c) (C2 m ρ c) (M2 m ρ c) (D2 m ρ c) :=
  ⟨P2_eq m ρ c hpre, Q2_eq m ρ c hpre, C2_eq m ρ c hpre, M2_eq m ρ c, D2_eq m ρ c⟩

theorem M2_real (hpre : Cert.Pre_KernelIdeal m) (g : Fin 32) (d : Fin 64) : IsR (M2 m ρ c g d) :=
  (st2 m ρ c hpre).M_real (ids_lt m c hpre) (H1_real m ρ c hpre) g d
theorem D2_real (hpre : Cert.Pre_KernelIdeal m) (g : Fin 32) (d : Fin 64) : IsR (D2 m ρ c g d) :=
  (st2 m ρ c hpre).D_real (ids_lt m c hpre) (H1_real m ρ c hpre) g d

theorem e5_ids (n : Fin 524288) : W5 m ρ c (Proc.devRef .tc main_v0) (ix2 n 0) = idsA m c (ix1 n) := by
  have e : W5 m ρ c (Proc.devRef .tc main_v0) = W3 m ρ c (Proc.devRef .tc main_v0) :=
    (W5_of m ρ c main_v0 (by decide)).trans (W4_in m ρ c 5 rfl)
  rw [e]; exact e3_ids m ρ c n

theorem hid2 (hpre : Cert.Pre_KernelIdeal m) (j : (⟨2, ![524288, 1]⟩ : Shape).Idx) :
    BitVec.toNat (W5 m ρ c (Proc.devRef .tc main_v0) j) < 32 := by
  obtain ⟨n, rfl⟩ := idx_col j
  rw [e5_ids]; exact ids_lt m c hpre _
theorem hμ2 (hpre : Cert.Pre_KernelIdeal m) (j : (⟨2, ![32, 64]⟩ : Shape).Idx) :
    ∃ r : ℝ, W5 m ρ c (Proc.devRef .tc main_v27) j = (r : EReal) := by
  rw [eq_ix2 j]; exact M2_real m ρ c hpre (j 0) (j 1)
theorem hσ2 (hpre : Cert.Pre_KernelIdeal m) (j : (⟨2, ![32, 64]⟩ : Shape).Idx) :
    ∃ r : ℝ, W5 m ρ c (Proc.devRef .tc main_v38) j = (r : EReal) := by
  rw [eq_ix2 j]; exact D2_real m ρ c hpre (j 0) (j 1)

def H2 (hpre : Cert.Pre_KernelIdeal m) : Rows → Fin 64 → EReal := Val2.H (V5 m ρ) c (hid2 m ρ c hpre)

theorem H2_eq (hpre : Cert.Pre_KernelIdeal m) (n : Rows) (d : Fin 64) :
    H2 m ρ c hpre n d = Cert.Stages.act ((∑ k : Fin 64,
        Ideal.div (H1 m ρ c hpre n k - M2 m ρ c (gidOf (idsA m c) (ids_lt m c hpre) n) k)
          (D2 m ρ c (gidOf (idsA m c) (ids_lt m c hpre) n) k + Cert.Stages.eps) * w3A m c d k) + b3A m c d) := by
  have eγ : (⟨BitVec.toNat (W5 m ρ c (Proc.devRef .tc main_v0) (ix2 n 0)), hid2 m ρ c hpre _⟩ : Fin 32)
      = gidOf (idsA m c) (ids_lt m c hpre) n :=
    Fin.ext (by
      show BitVec.toNat (W5 m ρ c (Proc.devRef .tc main_v0) (ix2 n 0)) = BitVec.toNat (idsA m c (ix1 n))
      rw [e5_ids])
  have eA : W5 m ρ c (Proc.devRef .tc main_v21_0) = W4 m ρ c (Proc.devRef .tc main_v21_0) :=
    W5_of m ρ c main_v21_0 (by decide)
  have eW : W5 m ρ c (Proc.devRef .tc main_arg6) = m ((c.tc : Thread nD τ).loc main_arg6) :=
    (W5_of m ρ c main_arg6 (by decide)).trans ((W4_of_ne m ρ c main_arg6 (by decide)).trans
      ((W3_of m ρ c main_arg6 (by decide)).trans ((W2_of_ne m ρ c main_arg6 (by decide)).trans (W1_of m ρ c main_arg6 (by decide)))))
  have eB0 : W4 m ρ c (Proc.devRef .tc main_arg7) = m ((c.tc : Thread nD τ).loc main_arg7) :=
    (W4_of_ne m ρ c main_arg7 (by decide)).trans ((W3_of m ρ c main_arg7 (by decide)).trans
      ((W2_of_ne m ρ c main_arg7 (by decide)).trans (W1_of m ρ c main_arg7 (by decide))))
  have eB : rd (W5 m ρ c (Proc.devRef .tc main_v39)) (ix2 0 d) = b3A m c d :=
    (host2_b (W4 m ρ c) d).trans (congrFun eB0 (ix1 d))
  show Cert.Stages.act ((∑ k : Fin 64,
        Ideal.div (rd (W5 m ρ c (Proc.devRef .tc main_v21_0)) (ix2 n k)
            - rd (W5 m ρ c (Proc.devRef .tc main_v27))
                (ix2 (⟨BitVec.toNat (W5 m ρ c (Proc.devRef .tc main_v0) (ix2 n 0)), hid2 m ρ c hpre _⟩ : Fin 32) k))
          (rd (W5 m ρ c (Proc.devRef .tc main_v38))
                (ix2 (⟨BitVec.toNat (W5 m ρ c (Proc.devRef .tc main_v0) (ix2 n 0)), hid2 m ρ c hpre _⟩ : Fin 32) k)
            + Cert.Stages.eps)
          * rd (W5 m ρ c (Proc.devRef .tc main_arg6)) (ix2 d k))
      + rd (W5 m ρ c (Proc.devRef .tc main_v39)) (ix2 0 d)) = _
  rw [eγ, eA, eW, eB]
  refine congrArg Cert.Stages.act (congrArg (fun t => t + b3A m c d) (Finset.sum_congr rfl (fun k _ => ?_)))
  rw [b4_h m ρ c hpre]
  first | done | rfl

theorem H2_real (hpre : Cert.Pre_KernelIdeal m) (n : Rows) (d : Fin 64) : IsR (H2 m ρ c hpre n d) :=
  Cert.KernelNet.A3_real (idsA m c) (ids_lt m c hpre) (xA m c) (w1A m c) (b1A m c) (w2A m c) (b2A m c) (w3A m c) (b3A m c)
    (H0 m ρ c) (H1 m ρ c hpre) (H2 m ρ c hpre) (P1 m ρ c) (Q1 m ρ c) (C1 m ρ c) (P2 m ρ c) (Q2 m ρ c) (C2 m ρ c)
    (M1 m ρ c) (D1 m ρ c) (M2 m ρ c) (D2 m ρ c)
    (x_real m c hpre) (w1_real m c hpre) (b1_real m c hpre) (w2_real m c hpre) (b2_real m c hpre)
    (w3_real m c hpre) (b3_real m c hpre)
    (H0_eq m ρ c) (st1 m ρ c) (H1_eq m ρ c hpre) (st2 m ρ c hpre) (H2_eq m ρ c hpre) n d

theorem b6_h (hpre : Cert.Pre_KernelIdeal m) (n : Rows) (d : Fin 64) :
    rd (W6 m ρ c (Proc.devRef .tc main_v40_0)) (ix2 n d) = H2 m ρ c hpre n d :=
  (congrFun (W6_arr m ρ c 6) (ix2 n d)).trans
    (Val2.arr_h (V5 m ρ) c (hid2 m ρ c hpre) (hμ2 m ρ c hpre) (hσ2 m ρ c hpre) n d)

def P3 (core : Fin 2) (g : Fin 32) (d : Fin 64) : EReal := W6 m ρ c (Proc.devRef .tc main_v40_1) (ix3 core g d)
def Q3 (core : Fin 2) (g : Fin 32) (d : Fin 64) : EReal := W6 m ρ c (Proc.devRef .tc main_v40_2) (ix3 core g d)
def C3 (core : Fin 2) (g : Fin 32) (d : Fin 64) : EReal := W6 m ρ c (Proc.devRef .tc main_v40_3) (ix3 core g d)

theorem P3_eq (hpre : Cert.Pre_KernelIdeal m) (core : Fin 2) (g : Fin 32) (d : Fin 64) :
    P3 m ρ c core g d = ∑ s : Fin 32, ∑ r : Fin 8192,
      if (idsA m c (ix1 (rowOf (tileOf core s) r))).toNat = g.val then H2 m ρ c hpre (rowOf (tileOf core s) r) d else 0 := by
  simp only [← e5_ids m ρ c]
  exact (congrFun (W6_arr m ρ c 7) (ix3 core g d)).trans
      (Val2.arr_sum (V5 m ρ) c (hid2 m ρ c hpre) (hμ2 m ρ c hpre) (hσ2 m ρ c hpre) core g d)

theorem Q3_eq (hpre : Cert.Pre_KernelIdeal m) (core : Fin 2) (g : Fin 32) (d : Fin 64) :
    Q3 m ρ c core g d = ∑ s : Fin 32, ∑ r : Fin 8192,
      if (idsA m c (ix1 (rowOf (tileOf core s) r))).toNat = g.val
        then H2 m ρ c hpre (rowOf (tileOf core s) r) d * H2 m ρ c hpre (rowOf (tileOf core s) r) d else 0 := by
  simp only [← e5_ids m ρ c]
  exact (congrFun (W6_arr m ρ c 8) (ix3 core g d)).trans
      (Val2.arr_sumsq (V5 m ρ) c (hid2 m ρ c hpre) (hμ2 m ρ c hpre) (hσ2 m ρ c hpre) core g d)

theorem C3_eq (hpre : Cert.Pre_KernelIdeal m) (core : Fin 2) (g : Fin 32) (d : Fin 64) :
    C3 m ρ c core g d = ∑ s : Fin 32, ∑ r : Fin 8192,
      if (idsA m c (ix1 (rowOf (tileOf core s) r))).toNat = g.val then (1 : EReal) else 0 := by
  simp only [← e5_ids m ρ c]
  exact (congrFun (W6_arr m ρ c 9) (ix3 core g d)).trans
      (Val2.arr_cnt (V5 m ρ) c core g d)

def M3 (g : Fin 32) (d : Fin 64) : EReal := W7 m ρ c (Proc.devRef .tc main_v46) (ix2 g d)
def D3 (g : Fin 32) (d : Fin 64) : EReal := W7 m ρ c (Proc.devRef .tc main_v57) (ix2 g d)

theorem M3_eq (g : Fin 32) (d : Fin 64) :
    M3 m ρ c g d = Ideal.div (P3 m ρ c 0 g d + P3 m ρ c 1 g d) (max (C3 m ρ c 0 g d + C3 m ρ c 1 g d) 1) :=
  host3_mu (W6 m ρ c) g d

theorem D3_eq (g : Fin 32) (d : Fin 64) :
    D3 m ρ c g d = Ideal.sqrt (max (Ideal.div ((Q3 m ρ c 0 g d + Q3 m ρ c 1 g d)
        - (C3 m ρ c 0 g d + C3 m ρ c 1 g d) * M3 m ρ c g d * M3 m ρ c g d)
      (max ((C3 m ρ c 0 g d + C3 m ρ c 1 g d) - 1) 1)) 0) := by
  have e := host3_sd (W6 m ρ c) g d
  unfold sdOf at e
  rwa [← host3_mu (W6 m ρ c) g d] at e

theorem st3 (hpre : Cert.Pre_KernelIdeal m) :
    Cert.KernelNet.Stats (idsA m c) (H2 m ρ c hpre) (P3 m ρ c) (Q3 m ρ c) (C3 m ρ c) (M3 m ρ c) (D3 m ρ c) :=
  ⟨P3_eq m ρ c hpre, Q3_eq m ρ c hpre, C3_eq m ρ c hpre, M3_eq m ρ c, D3_eq m ρ c⟩

theorem M3_real (hpre : Cert.Pre_KernelIdeal m) (g : Fin 32) (d : Fin 64) : IsR (M3 m ρ c g d) :=
  (st3 m ρ c hpre).M_real (ids_lt m c hpre) (H2_real m ρ c hpre) g d
theorem D3_real (hpre : Cert.Pre_KernelIdeal m) (g : Fin 32) (d : Fin 64) : IsR (D3 m ρ c g d) :=
  (st3 m ρ c hpre).D_real (ids_lt m c hpre) (H2_real m ρ c hpre) g d

theorem e7_ids (n : Fin 524288) : W7 m ρ c (Proc.devRef .tc main_v0) (ix2 n 0) = idsA m c (ix1 n) := by
  have e : W7 m ρ c (Proc.devRef .tc main_v0) = W5 m ρ c (Proc.devRef .tc main_v0) :=
    (W7_of m ρ c main_v0 (by decide)).trans (W6_in m ρ c 5 rfl)
  rw [e]; exact e5_ids m ρ c n

theorem hid3 (hpre : Cert.Pre_KernelIdeal m) (j : (⟨2, ![524288, 1]⟩ : Shape).Idx) :
    BitVec.toNat (W7 m ρ c (Proc.devRef .tc main_v0) j) < 32 := by
  obtain ⟨n, rfl⟩ := idx_col j
  rw [e7_ids]; exact ids_lt m c hpre _
theorem hμ3 (hpre : Cert.Pre_KernelIdeal m) (j : (⟨2, ![32, 64]⟩ : Shape).Idx) :
    ∃ r : ℝ, W7 m ρ c (Proc.devRef .tc main_v46) j = (r : EReal) := by
  rw [eq_ix2 j]; exact M3_real m ρ c hpre (j 0) (j 1)
theorem hσ3 (hpre : Cert.Pre_KernelIdeal m) (j : (⟨2, ![32, 64]⟩ : Shape).Idx) :
    ∃ r : ℝ, W7 m ρ c (Proc.devRef .tc main_v57) j = (r : EReal) := by
  rw [eq_ix2 j]; exact D3_real m ρ c hpre (j 0) (j 1)

theorem out_eq (hpre : Cert.Pre_KernelIdeal m) (n : Rows) (d : Fin 3) :
    rd (W8 m ρ c (Proc.devRef .tc main_v59)) (ix2 n d) = (∑ k : Fin 64,
        Ideal.div (H2 m ρ c hpre n k - M3 m ρ c (gidOf (idsA m c) (ids_lt m c hpre) n) k)
          (D3 m ρ c (gidOf (idsA m c) (ids_lt m c hpre) n) k + Cert.Stages.eps) * w4A m c d k) + b4A m c d := by
  have eγ : (⟨BitVec.toNat (W7 m ρ c (Proc.devRef .tc main_v0) (ix2 n 0)), hid3 m ρ c hpre _⟩ : Fin 32)
      = gidOf (idsA m c) (ids_lt m c hpre) n :=
    Fin.ext (by
      show BitVec.toNat (W7 m ρ c (Proc.devRef .tc main_v0) (ix2 n 0)) = BitVec.toNat (idsA m c (ix1 n))
      rw [e7_ids])
  have eA : W7 m ρ c (Proc.devRef .tc main_v40_0) = W6 m ρ c (Proc.devRef .tc main_v40_0) :=
    W7_of m ρ c main_v40_0 (by decide)
  have eW : W7 m ρ c (Proc.devRef .tc main_arg8) = m ((c.tc : Thread nD τ).loc main_arg8) :=
    (W7_of m ρ c main_arg8 (by decide)).trans ((W6_of_ne m ρ c main_arg8 (by decide)).trans
      ((W5_of m ρ c main_arg8 (by decide)).trans ((W4_of_ne m ρ c main_arg8 (by decide)).trans
        ((W3_of m ρ c main_arg8 (by decide)).trans ((W2_of_ne m ρ c main_arg8 (by decide)).trans (W1_of m ρ c main_arg8 (by decide)))))))
  have eB0 : W6 m ρ c (Proc.devRef .tc main_arg9) = m ((c.tc : Thread nD τ).loc main_arg9) :=
    (W6_of_ne m ρ c main_arg9 (by decide)).trans ((W5_of m ρ c main_arg9 (by decide)).trans
      ((W4_of_ne m ρ c main_arg9 (by decide)).trans ((W3_of m ρ c main_arg9 (by decide)).trans
        ((W2_of_ne m ρ c main_arg9 (by decide)).trans (W1_of m ρ c main_arg9 (by decide))))))
  have eB : rd (W7 m ρ c (Proc.devRef .tc main_v58)) (ix2 0 d) = b4A m c d :=
    (host3_b (W6 m ρ c) d).trans (congrFun eB0 (ix1 d))
  have e8 : rd (W8 m ρ c (Proc.devRef .tc main_v59)) (ix2 n d) = (∑ k : Fin 64,
        Ideal.div (rd (W7 m ρ c (Proc.devRef .tc main_v40_0)) (ix2 n k)
            - rd (W7 m ρ c (Proc.devRef .tc main_v46))
                (ix2 (⟨BitVec.toNat (W7 m ρ c (Proc.devRef .tc main_v0) (ix2 n 0)), hid3 m ρ c hpre _⟩ : Fin 32) k))
          (rd (W7 m ρ c (Proc.devRef .tc main_v57))
                (ix2 (⟨BitVec.toNat (W7 m ρ c (Proc.devRef .tc main_v0) (ix2 n 0)), hid3 m ρ c hpre _⟩ : Fin 32) k)
            + Cert.Stages.eps)
          * rd (W7 m ρ c (Proc.devRef .tc main_arg8)) (ix2 d k))
      + rd (W7 m ρ c (Proc.devRef .tc main_v58)) (ix2 0 d) :=
    (congrFun (W8_out m ρ c) (ix2 n d)).trans
      (Val3.arr_out (V7 m ρ) c (hid3 m ρ c hpre) (hμ3 m ρ c hpre) (hσ3 m ρ c hpre) n d)
  rw [e8, eγ, eA, eW, eB]
  refine congrArg (fun t => t + b4A m c d) (Finset.sum_congr rfl (fun k _ => ?_))
  rw [b6_h m ρ c hpre]
  first | done | rfl

theorem kernel_value_at (hpre : Cert.Pre_KernelIdeal m) (n : Fin 524288) (d : Fin 3) :
    Run.W8 m ρ c (Proc.devRef .tc main_v59) (ix2 n d)
      = Cert.Stages.out (gidOf (idsA m c) (ids_lt m c hpre)) (Cert.Stages.sdK (gidOf (idsA m c) (ids_lt m c hpre)))
          (xA m c) (w1A m c) (b1A m c) (w2A m c) (b2A m c) (w3A m c) (b3A m c) (w4A m c) (b4A m c) n d :=
  Cert.KernelNet.out_eq_spec (idsA m c) (ids_lt m c hpre) (xA m c) (w1A m c) (b1A m c) (w2A m c) (b2A m c) (w3A m c) (b3A m c)
    (w4A m c) (b4A m c) (H0 m ρ c) (H1 m ρ c hpre) (H2 m ρ c hpre)
    (P1 m ρ c) (Q1 m ρ c) (C1 m ρ c) (P2 m ρ c) (Q2 m ρ c) (C2 m ρ c) (P3 m ρ c) (Q3 m ρ c) (C3 m ρ c)
    (M1 m ρ c) (D1 m ρ c) (M2 m ρ c) (D2 m ρ c) (M3 m ρ c) (D3 m ρ c)
    (fun n d => rd (W8 m ρ c (Proc.devRef .tc main_v59)) (ix2 n d))
    (H0_eq m ρ c) (st1 m ρ c) (H1_eq m ρ c hpre) (st2 m ρ c hpre) (H2_eq m ρ c hpre) (st3 m ρ c hpre)
    (out_eq m ρ c hpre) n d

end Body

theorem kernel_value [hPre : Cert.Pre_finite_inputs.Facts] (m : (ℓ : Loc nD τ sig) → Buf (Elt Ideal) ℓ) (ρ : Dev nD → PrngReg)
    (hpre : Cert.Pre_KernelIdeal m) (c : Dev nD) (n : Fin 524288) (d : Fin 3) :
    Run.W8 m ρ c (Proc.devRef .tc main_v59) (ix2 n d)
      = Cert.Stages.out (gidOf (idsA m c) (ids_lt m c hpre)) (Cert.Stages.sdK (gidOf (idsA m c) (ids_lt m c hpre)))
          (xA m c) (w1A m c) (b1A m c) (w2A m c) (b2A m c) (w3A m c) (b3A m c) (w4A m c) (b4A m c) n d :=
  kernel_value_at m ρ c hpre n d

end Cert.KernelIdeal.Chain

end
-- ==== Proof.ClaimsAlg.lean ====
/- Both programs end with their result array at the same function of their arguments, so their results agree entry by entry. -/
import proofs.«431227_j85710367359314_3_alg».proof.Defs
import proofs.«431227_j85710367359314_3_alg».proof.Proof.RefRun
import proofs.«431227_j85710367359314_3_alg».proof.Proof.RefValue
import proofs.«431227_j85710367359314_3_alg».proof.Proof.PreFacts
import proofs.«431227_j85710367359314_3_alg».proof.Proof.NormAlgebra
import proofs.«431227_j85710367359314_3_alg».proof.Proof.KI.Main
import proofs.«431227_j85710367359314_3_alg».proof.Proof.KI.Chain
import proofs.«431227_j85710367359314_3_alg».proof.Proof.Gen.KernelIdeal
import proofs.«431227_j85710367359314_3_alg».proof.Proof.Gen.ReferenceIdeal
import proofs.«431227_j85710367359314_3_alg».proof.Proof.Gen.Pre_finite_inputs

noncomputable section

namespace Cert.Proof.ClaimsAlg

open Idealize.ShloMosaic Idealize.ShloMosaic.TcCoe Idealize.SL.Sem Idealize.ShloMosaic.ValueIdx

theorem result_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.RefRead.val_main_v160 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.KernelIdeal.Run.W8 m ρ c (Proc.devRef .tc Cert.KernelIdeal.main_v59) := by
  funext j
  obtain ⟨n, d, rfl⟩ : ∃ n d, j = ix2 n d := ⟨j 0, j 1, eq_ix2 j⟩
  rw [Cert.RefValue.ref_value _ _ _ _ _ _ _ _ _ _ (Cert.KernelIdeal.Chain.ids_lt m c hpre) n d, Cert.KernelIdeal.Chain.kernel_value m ρ hpre c n d]
  exact (congrFun (congrFun (Cert.NormAlgebra.out_eq _ _ _ _ _ _ _ _ _ _
    (fun n k => Cert.PreFacts.KernelIdeal.real_arg0 m hpre c (ix2 n k))
    (fun d k => Cert.PreFacts.KernelIdeal.real_arg2 m hpre c (ix2 d k)) (fun d => Cert.PreFacts.KernelIdeal.real_arg3 m hpre c (ix1 d))
    (fun d k => Cert.PreFacts.KernelIdeal.real_arg4 m hpre c (ix2 d k)) (fun d => Cert.PreFacts.KernelIdeal.real_arg5 m hpre c (ix1 d))
    (fun d k => Cert.PreFacts.KernelIdeal.real_arg6 m hpre c (ix2 d k)) (fun d => Cert.PreFacts.KernelIdeal.real_arg7 m hpre c (ix1 d))) n) d).symm

theorem algebraic : Cert.algebraic_KernelIdeal_ReferenceIdeal := by
  intro m ρ m' ρ' hpre hagree
  refine ⟨fun c => Cert.KernelIdeal.Run.W8 m ρ c (Proc.devRef .tc Cert.KernelIdeal.main_v59), ?_, ?_⟩
  · exact (θ_run Cert.KernelIdeal.defs _ _).mono (fun _ h c =>
      ⟨h c _ (Cert.KernelIdeal.Run.mem_uc Cert.KernelIdeal.main_v59 (by decide)),
        (h c _ (Cert.KernelIdeal.Run.mem_uc Cert.KernelIdeal.main_arg0 (by decide))).trans (Cert.KernelIdeal.Run.W8_main_arg0 m ρ c),
        (h c _ (Cert.KernelIdeal.Run.mem_uc Cert.KernelIdeal.main_arg1 (by decide))).trans (Cert.KernelIdeal.Run.W8_main_arg1 m ρ c),
        (h c _ (Cert.KernelIdeal.Run.mem_uc Cert.KernelIdeal.main_arg2 (by decide))).trans (Cert.KernelIdeal.Run.W8_main_arg2 m ρ c),
        (h c _ (Cert.KernelIdeal.Run.mem_uc Cert.KernelIdeal.main_arg3 (by decide))).trans (Cert.KernelIdeal.Run.W8_main_arg3 m ρ c),
        (h c _ (Cert.KernelIdeal.Run.mem_uc Cert.KernelIdeal.main_arg4 (by decide))).trans (Cert.KernelIdeal.Run.W8_main_arg4 m ρ c),
        (h c _ (Cert.KernelIdeal.Run.mem_uc Cert.KernelIdeal.main_arg5 (by decide))).trans (Cert.KernelIdeal.Run.W8_main_arg5 m ρ c),
        (h c _ (Cert.KernelIdeal.Run.mem_uc Cert.KernelIdeal.main_arg6 (by decide))).trans (Cert.KernelIdeal.Run.W8_main_arg6 m ρ c),
        (h c _ (Cert.KernelIdeal.Run.mem_uc Cert.KernelIdeal.main_arg7 (by decide))).trans (Cert.KernelIdeal.Run.W8_main_arg7 m ρ c),
        (h c _ (Cert.KernelIdeal.Run.mem_uc Cert.KernelIdeal.main_arg8 (by decide))).trans (Cert.KernelIdeal.Run.W8_main_arg8 m ρ c),
        (h c _ (Cert.KernelIdeal.Run.mem_uc Cert.KernelIdeal.main_arg9 (by decide))).trans (Cert.KernelIdeal.Run.W8_main_arg9 m ρ c)⟩)
      (Cert.KernelIdeal.Run.run_all (F := Ideal) m ρ)
  · refine (θ_run Cert.ReferenceIdeal.defs _ _).mono (fun _ h c => ⟨(h c).1.trans ?_, (h c).2⟩) (Cert.ReferenceIdeal.RefValue.run (F := Ideal) m' ρ')
    obtain ⟨e0, e1, e2, e3, e4, e5, e6, e7, e8, e9⟩ := hagree c
    rw [e0, e1, e2, e3, e4, e5, e6, e7, e8, e9]
    exact result_eq m ρ hpre c

end Cert.Proof.ClaimsAlg

end
-- ==== Proof.lean ====
/- The claim assembled from the three frames, the six format-change equations and the equality of the two programs' results. -/
import proofs.«431227_j85710367359314_3_alg».proof.Defs
import proofs.«431227_j85710367359314_3_alg».proof.Proof.Gen.Kernel
import proofs.«431227_j85710367359314_3_alg».proof.Proof.Gen.KernelIdeal
import proofs.«431227_j85710367359314_3_alg».proof.Proof.Gen.ReferenceIdeal
import proofs.«431227_j85710367359314_3_alg».proof.Proof.Gen.Pre_finite_inputs
import proofs.«431227_j85710367359314_3_alg».proof.Proof.K.Main
import proofs.«431227_j85710367359314_3_alg».proof.Proof.KI.Main
import proofs.«431227_j85710367359314_3_alg».proof.Proof.ClaimsRef
import proofs.«431227_j85710367359314_3_alg».proof.Proof.ClaimsAlg

noncomputable section

namespace Cert.Proof

open Idealize.ShloMosaic Idealize.SL.Sem

theorem frame_p : Cert.frame_Kernel := fun m ρ _ => Cert.Kernel.Run.frame m ρ

theorem frame_pi : Cert.frame_KernelIdeal := fun m ρ _ => Cert.KernelIdeal.Run.frame m ρ

theorem claim : Cert.Claim :=
  ⟨Cert.Kernel.Gen.facts, Cert.KernelIdeal.Gen.facts, Cert.ReferenceIdeal.Gen.facts, Cert.Pre_finite_inputs.Gen.facts,
    frame_p, frame_pi, ClaimsRef.frame_ri, ClaimsRef.preserves, ClaimsAlg.algebraic⟩

end Cert.Proof

end
